-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v3_0)) (v3 : (c : Dev Cert.KernelIdeal.nD) → Buf (Elt Ideal) ((c.tc : Thread Cert.KernelIdeal.nD Cert.KernelIdeal.τ).loc Cert.KernelIdeal.main_v5_0)) (v4 : (c : Dev Cert.KernelIdeal.nD) → Buf (Elt Ideal) ((c.tc : Thread Cert.KernelIdeal.nD Cert.KernelIdeal.τ).loc Cert.KernelIdeal.main_v7)) (v5 : (c : Dev Cert.KernelIdeal.nD) → Buf (Elt Ideal) ((c.tc : Thread Cert.KernelIdeal.nD Cert.KernelIdeal.τ).loc Cert.KernelIdeal.main_v1_0)) (v6 : (c : Dev Cert.KernelIdeal.nD) → Buf (Elt Ideal) ((c.tc : Thread Cert.KernelIdeal.nD Cert.KernelIdeal.τ).loc Cert.KernelIdeal.main_v3_1)) (v7 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_v5_0) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_v1_0) = v5 c
          ∧ r.2.mem ((c.tc : Thread Cert.KernelIdeal.nD Cert.KernelIdeal.τ).loc Cert.KernelIdeal.main_v3_1) = v6 c
          ∧ r.2.mem ((c.tc : Thread Cert.KernelIdeal.nD Cert.KernelIdeal.τ).loc Cert.KernelIdeal.main_v5_1) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_v1) = v5 c
          ∧ r.2.mem ((c.tc : Thread Cert.ReferenceIdeal.nD Cert.ReferenceIdeal.τ).loc Cert.ReferenceIdeal.main_v4) = v6 c
          ∧ r.2.mem ((c.tc : Thread Cert.ReferenceIdeal.nD Cert.ReferenceIdeal.τ).loc Cert.ReferenceIdeal.main_v7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x256 : Shape := ⟨2, ![128, 256]⟩
abbrev S256x384 : Shape := ⟨2, ![256, 384]⟩
abbrev S384x512 : Shape := ⟨2, ![384, 512]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x256 : S_.BroadcastsInDim S128x256 (![] : Fin 0 → Fin S128x256.rank)
  reducesTo_S128x256_S_d0_1 : S128x256.ReducesTo [0, 1] S_
  bcast_S_S256x384 : S_.BroadcastsInDim S256x384 (![] : Fin 0 → Fin S256x384.rank)
  reducesTo_S256x384_S_d0_1 : S256x384.ReducesTo [0, 1] S_
  bcast_S_S384x512 : S_.BroadcastsInDim S384x512 (![] : Fin 0 → Fin S384x512.rank)
  reducesTo_S384x512_S_d0_1 : S384x512.ReducesTo [0, 1] S_

variable [Facts]

def fn_part1 {F : FTy → Type} [FloatOps F] (main_arg4 : FVec F S384x512 .f32) (main_v13 : IVec S_ 1) (main_v16 : IVec S256x384 1) : IVec S_ 1 :=
  let main_c_5 : IVec S_ 1 := constantI S_ 1 1#1
  let main_v17 : IVec S_ 1 := (fun x v => Host.reduce IntOp.andi x v reducesTo_S256x384_S_d0_1 h_S_) main_v16 main_c_5
  let main_v18 : IVec S_ 1 := andi main_v13 main_v17
  let main_v19 : FVec F S384x512 .f32 := Host.absf main_arg4
  let main_cst_6 : FVec F S_ .f32 := constant S_ .f32 0x7F800000#32
  let main_v20 : FVec F S384x512 .f32 := broadcastInDim S384x512 ![] bcast_S_S384x512 main_cst_6
  let main_v21 : IVec S384x512 1 := cmpf .olt main_v19 main_v20
  let main_c_7 : IVec S_ 1 := constantI S_ 1 1#1
  let main_v22 : IVec S_ 1 := (fun x v => Host.reduce IntOp.andi x v reducesTo_S384x512_S_d0_1 h_S_) main_v21 main_c_7
  let main_v23 : IVec S_ 1 := andi main_v18 main_v22
  main_v23

def fn {F : FTy → Type} [FloatOps F] (main_arg0 : FVec F S4096x128 .f32) (main_arg1 : FVec F S4096x4096 .f32) (main_arg2 : FVec F S128x256 .f32) (main_arg3 : FVec F S256x384 .f32) (main_arg4 : FVec F S384x512 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x384 .f32 := Host.absf main_arg3
  let main_cst_4 : FVec F S_ .f32 := constant S_ .f32 0x7F800000#32
  let main_v15 : FVec F S256x384 .f32 := broadcastInDim S256x384 ![] bcast_S_S256x384 main_cst_4
  let main_v16 : IVec S256x384 1 := cmpf .olt main_v14 main_v15
  fn_part1 (F := F) main_arg4 main_v13 main_v16
-- ==== Kernel.lean ====
abbrev S4096x128 : Shape := ⟨2, ![4096, 128]⟩
abbrev S4096x4096 : Shape := ⟨2, ![4096, 4096]⟩
abbrev S128x256 : Shape := ⟨2, ![128, 256]⟩
abbrev S256x384 : Shape := ⟨2, ![256, 384]⟩
abbrev S384x512 : Shape := ⟨2, ![384, 512]⟩
abbrev S4096x256 : Shape := ⟨2, ![4096, 256]⟩
abbrev S512x128 : Shape := ⟨2, ![512, 128]⟩
abbrev S512x256 : Shape := ⟨2, ![512, 256]⟩
abbrev S512x4096 : Shape := ⟨2, ![512, 4096]⟩
abbrev S4096x640 : Shape := ⟨2, ![4096, 640]⟩
abbrev S512x640 : Shape := ⟨2, ![512, 640]⟩
abbrev S512x384 : Shape := ⟨2, ![512, 384]⟩
abbrev S4096x384 : Shape := ⟨2, ![4096, 384]⟩
abbrev S4096x896 : Shape := ⟨2, ![4096, 896]⟩
abbrev S512x896 : Shape := ⟨2, ![512, 896]⟩
abbrev S512x512 : Shape := ⟨2, ![512, 512]⟩
abbrev S4096x512 : Shape := ⟨2, ![4096, 512]⟩
abbrev S1024x512 : Shape := ⟨2, ![1024, 512]⟩
abbrev S512x1024 : Shape := ⟨2, ![512, 1024]⟩

abbrev nBuf : Space → Nat
  | .hbm => 17
  | .vmem => 47
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x256, .f32⟩
  | .hbm, ⟨3, _⟩ => ⟨S256x384, .f32⟩
  | .hbm, ⟨4, _⟩ => ⟨S384x512, .f32⟩
  | .hbm, ⟨5, _⟩ => ⟨S4096x256, .bf16⟩
  | .hbm, ⟨6, _⟩ => ⟨S4096x256, .f32⟩
  | .hbm, ⟨7, _⟩ => ⟨S4096x4096, .bf16⟩
  | .hbm, ⟨8, _⟩ => ⟨S4096x640, .bf16⟩
  | .hbm, ⟨9, _⟩ => ⟨S4096x256, .f32⟩
  | .hbm, ⟨10, _⟩ => ⟨S4096x384, .f32⟩
  | .hbm, ⟨11, _⟩ => ⟨S4096x896, .bf16⟩
  | .hbm, ⟨12, _⟩ => ⟨S4096x384, .f32⟩
  | .hbm, ⟨13, _⟩ => ⟨S4096x512, .f32⟩
  | .hbm, ⟨14, _⟩ => ⟨S4096x512, .bf16⟩
  | .hbm, ⟨15, _⟩ => ⟨S4096x512, .f32⟩
  | .hbm, ⟨16, _⟩ => ⟨S4096x4096, .f32⟩
  | .local _ .vmem, ⟨0, _⟩ => ⟨S512x128, .f32⟩
  | .local _ .vmem, ⟨1, _⟩ => ⟨S512x128, .f32⟩
  | .local _ .vmem, ⟨2, _⟩ => ⟨S128x256, .f32⟩
  | .local _ .vmem, ⟨3, _⟩ => ⟨S512x256, .bf16⟩
  | .local _ .vmem, ⟨4, _⟩ => ⟨S512x256, .bf16⟩
  | .local _ .vmem, ⟨5, _⟩ => ⟨S512x4096, .f32⟩
  | .local _ .vmem, ⟨6, _⟩ => ⟨S512x4096, .f32⟩
  | .local _ .vmem, ⟨7, _⟩ => ⟨S4096x256, .bf16⟩
  | .local _ .vmem, ⟨8, _⟩ => ⟨S512x256, .f32⟩
  | .local _ .vmem, ⟨9, _⟩ => ⟨S512x256, .f32⟩
  | .local _ .vmem, ⟨10, _⟩ => ⟨S512x4096, .bf16⟩
  | .local _ .vmem, ⟨11, _⟩ => ⟨S512x4096, .bf16⟩
  | .local _ .vmem, ⟨12, _⟩ => ⟨S512x256, .f32⟩
  | .local _ .vmem, ⟨13, _⟩ => ⟨S512x256, .f32⟩
  | .local _ .vmem, ⟨14, _⟩ => ⟨S256x384, .f32⟩
  | .local _ .vmem, ⟨15, _⟩ => ⟨S512x640, .bf16⟩
  | .local _ .vmem, ⟨16, _⟩ => ⟨S512x640, .bf16⟩
  | .local _ .vmem, ⟨17, _⟩ => ⟨S512x4096, .bf16⟩
  | .local _ .vmem, ⟨18, _⟩ => ⟨S512x4096, .bf16⟩
  | .local _ .vmem, ⟨19, _⟩ => ⟨S4096x640, .bf16⟩
  | .local _ .vmem, ⟨20, _⟩ => ⟨S512x256, .f32⟩
  | .local _ .vmem, ⟨21, _⟩ => ⟨S512x256, .f32⟩
  | .local _ .vmem, ⟨22, _⟩ => ⟨S512x384, .f32⟩
  | .local _ .vmem, ⟨23, _⟩ => ⟨S512x384, .f32⟩
  | .local _ .vmem, ⟨24, _⟩ => ⟨S512x384, .f32⟩
  | .local _ .vmem, ⟨25, _⟩ => ⟨S512x384, .f32⟩
  | .local _ .vmem, ⟨26, _⟩ => ⟨S384x512, .f32⟩
  | .local _ .vmem, ⟨27, _⟩ => ⟨S512x896, .bf16⟩
  | .local _ .vmem, ⟨28, _⟩ => ⟨S512x896, .bf16⟩
  | .local _ .vmem, ⟨29, _⟩ => ⟨S512x4096, .bf16⟩
  | .local _ .vmem, ⟨30, _⟩ => ⟨S512x4096, .bf16⟩
  | .local _ .vmem, ⟨31, _⟩ => ⟨S4096x896, .bf16⟩
  | .local _ .vmem, ⟨32, _⟩ => ⟨S512x384, .f32⟩
  | .local _ .vmem, ⟨33, _⟩ => ⟨S512x384, .f32⟩
  | .local _ .vmem, ⟨34, _⟩ => ⟨S512x512, .f32⟩
  | .local _ .vmem, ⟨35, _⟩ => ⟨S512x512, .f32⟩
  | .local _ .vmem, ⟨36, _⟩ => ⟨S512x4096, .bf16⟩
  | .local _ .vmem, ⟨37, _⟩ => ⟨S512x4096, .bf16⟩
  | .local _ .vmem, ⟨38, _⟩ => ⟨S4096x512, .bf16⟩
  | .local _ .vmem, ⟨39, _⟩ => ⟨S512x512, .f32⟩
  | .local _ .vmem, ⟨40, _⟩ => ⟨S512x512, .f32⟩
  | .local _ .vmem, ⟨41, _⟩ => ⟨S512x512, .bf16⟩
  | .local _ .vmem, ⟨42, _⟩ => ⟨S512x512, .bf16⟩
  | .local _ .vmem, ⟨43, _⟩ => ⟨S1024x512, .bf16⟩
  | .local _ .vmem, ⟨44, _⟩ => ⟨S1024x512, .bf16⟩
  | .local _ .vmem, ⟨45, _⟩ => ⟨S512x1024, .f32⟩
  | .local _ .vmem, ⟨46, _⟩ => ⟨S512x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem2_1 : DmaSem sig := 46

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x640 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x640 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x384 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x384 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S384x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x896 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4096x896 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x384 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4096x512 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![8, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S512x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

class Facts₀ : Prop where
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S512x4096_S512x4096_0_0 : ∀ a, (![0, 0] : Fin 2 → Nat) a + S512x4096.size a ≤ S512x4096.size a
  h_S512x4096 : 0 < S512x4096.numel
  packedbf16_S512x4096_S512x4096_0_0 : (Rect.unit (s := S512x4096) ![0, 0] S512x4096.size inb_S512x4096_S512x4096_0_0).PackedRows (EltTy.packing .bf16)
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S512x256_S512x256 : S512x256.ShapeCasts S512x256
  inb_S512x640_S512x256_0_0 : ∀ a, (![0, 0] : Fin 2 → Nat) a + S512x256.size a ≤ S512x640.size a
  packedbf16_S512x640_S512x256_0_0 : (Rect.unit (s := S512x640) ![0, 0] S512x256.size inb_S512x640_S512x256_0_0).PackedRows (EltTy.packing .bf16)
  inb_S256x384_S256x384_0_0 : ∀ a, (![0, 0] : Fin 2 → Nat) a + S256x384.size a ≤ S256x384.size a
  h_S256x384 : 0 < S256x384.numel
  inb_S512x640_S512x384_0_256 : ∀ a, (![0, 256] : Fin 2 → Nat) a + S512x384.size a ≤ S512x640.size a
  h_S512x384 : 0 < S512x384.numel
  packedbf16_S512x640_S512x384_0_256 : (Rect.unit (s := S512x640) ![0, 256] S512x384.size inb_S512x640_S512x384_0_256).PackedRows (EltTy.packing .bf16)
  shapeCasts_S512x4096_S512x4096 : S512x4096.ShapeCasts S512x4096
  inb_S4096x640_S4096x640_0_0 : ∀ a, (![0, 0] : Fin 2 → Nat) a + S4096x640.size a ≤ S4096x640.size a
  h_S4096x640 : 0 < S4096x640.numel
  shapeCasts_S4096x640_S4096x640 : S4096x640.ShapeCasts S4096x640
  slices_S512x640_o0_0_S512x256 : S512x640.Slices ![0, 0] S512x256
  slices_S512x640_o0_256_S512x384 : S512x640.Slices ![0, 256] S512x384
  inb_S512x384_S512x384_0_0 : ∀ a, (![0, 0] : Fin 2 → Nat) a + S512x384.size a ≤ S512x384.size a
  shapeCasts_S512x384_S512x384 : S512x384.ShapeCasts S512x384
  inb_S512x896_S512x384_0_0 : ∀ a, (![0, 0] : Fin 2 → Nat) a + S512x384.size a ≤ S512x896.size a
  packedbf16_S512x896_S512x384_0_0 : (Rect.unit (s := S512x896) ![0, 0] S512x384.size inb_S512x896_S512x384_0_0).PackedRows (EltTy.packing .bf16)
  inb_S384x512_S384x512_0_0 : ∀ a, (![0, 0] : Fin 2 → Nat) a + S384x512.size a ≤ S384x512.size a
  h_S384x512 : 0 < S384x512.numel
  inb_S512x896_S512x512_0_384 : ∀ a, (![0, 384] : Fin 2 → Nat) a + S512x512.size a ≤ S512x896.size a
  h_S512x512 : 0 < S512x512.numel
  packedbf16_S512x896_S512x512_0_384 : (Rect.unit (s := S512x896) ![0, 384] S512x512.size inb_S512x896_S512x512_0_384).PackedRows (EltTy.packing .bf16)
  inb_S4096x896_S4096x896_0_0 : ∀ a, (![0, 0] : Fin 2 → Nat) a + S4096x896.size a ≤ S4096x896.size a
  h_S4096x896 : 0 < S4096x896.numel
  shapeCasts_S4096x896_S4096x896 : S4096x896.ShapeCasts S4096x896
  slices_S512x896_o0_0_S512x384 : S512x896.Slices ![0, 0] S512x384
  slices_S512x896_o0_384_S512x512 : S512x896.Slices ![0, 384] S512x512
  inb_S512x512_S512x512_0_0 : ∀ a, (![0, 0] : Fin 2 → Nat) a + S512x512.size a ≤ S512x512.size a
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  dot_S512x128_S128x256_S512x256_1_0_0_1_n_n_wf : DotDims.WF S512x128 S128x256 S512x256 [1] [0] [0] [1] [] []
  dot_S512x4096_S4096x256_S512x256_1_0_0_1_n_n_wf : DotDims.WF S512x4096 S4096x256 S512x256 [1] [0] [0] [1] [] []
  dot_S512x256_S256x384_S512x384_1_0_0_1_n_n_wf : DotDims.WF S512x256 S256x384 S512x384 [1] [0] [0] [1] [] []
  dot_S512x4096_S4096x640_S512x640_1_0_0_1_n_n_wf : DotDims.WF S512x4096 S4096x640 S512x640 [1] [0] [0] [1] [] []
  dot_S512x384_S384x512_S512x512_1_0_0_1_n_n_wf : DotDims.WF S512x384 S384x512 S512x512 [1] [0] [0] [1] [] []
  dot_S512x4096_S4096x896_S512x896_1_0_0_1_n_n_wf : DotDims.WF S512x4096 S4096x896 S512x896 [1] [0] [0] [1] [] []
  dot_S512x4096_S4096x512_S512x512_1_0_0_1_n_n_wf : DotDims.WF S512x4096 S4096x512 S512x512 [1] [0] [0] [1] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .bf16 = 32 ∨ (Rect.block (s := S4096x256) S512x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S4096x256.size a
  hwx1_2 : ∀ i : grid1.Coords, EltTy.bits .f32 = 32 ∨ (Rect.block (s := S4096x256) S512x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S4096x4096.size a
  hwx1_3 : ∀ i : grid1.Coords, EltTy.bits .bf16 = 32 ∨ (Rect.block (s := S4096x4096) S512x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x384.size a ≤ S256x384.size a
  hwx2_1 : ∀ i : grid2.Coords, EltTy.bits .f32 = 32 ∨ (Rect.block (s := S256x384) S256x384.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x640.size a ≤ S4096x640.size a
  hwx2_2 : ∀ i : grid2.Coords, EltTy.bits .bf16 = 32 ∨ (Rect.block (s := S4096x640) S512x640.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .bf16 = 32 ∨ (Rect.block (s := S4096x4096) S512x4096.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x640.size a ≤ S4096x640.size a
  hwx3_1 : ∀ i : grid3.Coords, EltTy.bits .bf16 = 32 ∨ (Rect.block (s := S4096x640) S4096x640.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S4096x256.size a
  hwx3_2 : ∀ i : grid3.Coords, EltTy.bits .f32 = 32 ∨ (Rect.block (s := S4096x256) S512x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x384.size a ≤ S4096x384.size a
  hwx3_3 : ∀ i : grid3.Coords, EltTy.bits .f32 = 32 ∨ (Rect.block (s := S4096x384) S512x384.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x384.size a ≤ S4096x384.size a
  hwx4_0 : ∀ i : grid4.Coords, EltTy.bits .f32 = 32 ∨ (Rect.block (s := S4096x384) S512x384.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S384x512.size a ≤ S384x512.size a
  hwx4_1 : ∀ i : grid4.Coords, EltTy.bits .f32 = 32 ∨ (Rect.block (s := S384x512) S384x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x896.size a ≤ S4096x896.size a
  hwx4_2 : ∀ i : grid4.Coords, EltTy.bits .bf16 = 32 ∨ (Rect.block (s := S4096x896) S512x896.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x4096.size a ≤ S4096x4096.size a
  hwx5_0 : ∀ i : grid5.Coords, EltTy.bits .bf16 = 32 ∨ (Rect.block (s := S4096x4096) S512x4096.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4096x896.size a ≤ S4096x896.size a
  hwx5_1 : ∀ i : grid5.Coords, EltTy.bits .bf16 = 32 ∨ (Rect.block (s := S4096x896) S4096x896.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x384.size a ≤ S4096x384.size a
  hwx5_2 : ∀ i : grid5.Coords, EltTy.bits .f32 = 32 ∨ (Rect.block (s := S4096x384) S512x384.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x512.size a ≤ S4096x512.size a
  hwx5_3 : ∀ i : grid5.Coords, EltTy.bits .f32 = 32 ∨ (Rect.block (s := S4096x512) S512x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x4096.size a ≤ S4096x4096.size a
  hwx6_0 : ∀ i : grid6.Coords, EltTy.bits .bf16 = 32 ∨ (Rect.block (s := S4096x4096) S512x4096.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S4096x512.size a ≤ S4096x512.size a
  hwx6_1 : ∀ i : grid6.Coords, EltTy.bits .bf16 = 32 ∨ (Rect.block (s := S4096x512) S4096x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x512.size a ≤ S4096x512.size a
  hwx6_2 : ∀ i : grid6.Coords, EltTy.bits .f32 = 32 ∨ (Rect.block (s := S4096x512) S512x512.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x512.size a ≤ S4096x512.size a
  hwx7_0 : ∀ i : grid7.Coords, EltTy.bits .bf16 = 32 ∨ (Rect.block (s := S4096x512) S512x512.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x512.size a ≤ S4096x512.size a
  hwx7_1 : ∀ i : grid7.Coords, EltTy.bits .bf16 = 32 ∨ (Rect.block (s := S4096x512) S1024x512.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x1024.size a ≤ S4096x4096.size a
  hwx7_2 : ∀ i : grid7.Coords, EltTy.bits .f32 = 32 ∨ (Rect.block (s := S4096x4096) S512x1024.size (cc7_transform_2 i) (hinb7_2 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x384_S512x384_1_0_0_1_n_n : DotDims S512x256 S256x384 S512x384 where
  lhsContracting := [1]
  rhsContracting := [0]
  lhsNonContracting := [0]
  rhsNonContracting := [1]
  lhsBatch := []
  rhsBatch := []
  wf := dot_S512x256_S256x384_S512x384_1_0_0_1_n_n_wf
def dot_S512x4096_S4096x640_S512x640_1_0_0_1_n_n : DotDims S512x4096 S4096x640 S512x640 where
  lhsContracting := [1]
  rhsContracting := [0]
  lhsNonContracting := [0]
  rhsNonContracting := [1]
  lhsBatch := []
  rhsBatch := []
  wf := dot_S512x4096_S4096x640_S512x640_1_0_0_1_n_n_wf
def dot_S512x384_S384x512_S512x512_1_0_0_1_n_n : DotDims S512x384 S384x512 S512x512 where
  lhsContracting := [1]
  rhsContracting := [0]
  lhsNonContracting := [0]
  rhsNonContracting := [1]
  lhsBatch := []
  rhsBatch := []
  wf := dot_S512x384_S384x512_S512x512_1_0_0_1_n_n_wf
def dot_S512x4096_S4096x896_S512x896_1_0_0_1_n_n : DotDims S512x4096 S4096x896 S512x896 where
  lhsContracting := [1]
  rhsContracting := [0]
  lhsNonContracting := [0]
  rhsNonContracting := [1]
  lhsBatch := []
  rhsBatch := []
  wf := dot_S512x4096_S4096x896_S512x896_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S512x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1_0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x384.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S512x640.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1_1) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S4096x640.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3_0) S512x256.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3_1) S512x384.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v3_1) S512x384.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S384x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S512x896.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v1_1) S512x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S4096x896.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v5_0) S512x384.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v5_1) S512x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v1_1) S512x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v6) S4096x512.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v7) S512x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v6) S512x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v6) S1024x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v8) S512x1024.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x256 : Shape := ⟨2, ![128, 256]⟩
abbrev S256x384 : Shape := ⟨2, ![256, 384]⟩
abbrev S384x512 : Shape := ⟨2, ![384, 512]⟩
abbrev S4096x256 : Shape := ⟨2, ![4096, 256]⟩
abbrev S256x128 : Shape := ⟨2, ![256, 128]⟩
abbrev S256x256 : Shape := ⟨2, ![256, 256]⟩
abbrev S256x512 : Shape := ⟨2, ![256, 512]⟩
abbrev S512x256 : Shape := ⟨2, ![512, 256]⟩
abbrev S4096x384 : Shape := ⟨2, ![4096, 384]⟩
abbrev S512x128 : Shape := ⟨2, ![512, 128]⟩
abbrev S4096x512 : Shape := ⟨2, ![4096, 512]⟩
abbrev S512x512 : Shape := ⟨2, ![512, 512]⟩
abbrev S512x4096 : Shape := ⟨2, ![512, 4096]⟩

abbrev nBuf : Space → Nat
  | .hbm => 16
  | .vmem => 64
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x256, .f32⟩
  | .hbm, ⟨3, _⟩ => ⟨S256x384, .f32⟩
  | .hbm, ⟨4, _⟩ => ⟨S384x512, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x384, .f32⟩
  | .hbm, ⟨9, _⟩ => ⟨S4096x384, .f32⟩
  | .hbm, ⟨10, _⟩ => ⟨S4096x384, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S512x4096, .f32⟩
  | .hbm, ⟨15, _⟩ => ⟨S4096x4096, .f32⟩
  | .local _ .vmem, ⟨0, _⟩ => ⟨S256x128, .f32⟩
  | .local _ .vmem, ⟨1, _⟩ => ⟨S256x128, .f32⟩
  | .local _ .vmem, ⟨2, _⟩ => ⟨S128x256, .f32⟩
  | .local _ .vmem, ⟨3, _⟩ => ⟨S256x256, .f32⟩
  | .local _ .vmem, ⟨4, _⟩ => ⟨S256x256, .f32⟩
  | .local _ .vmem, ⟨5, _⟩ => ⟨S256x512, .f32⟩
  | .local _ .vmem, ⟨6, _⟩ => ⟨S256x512, .f32⟩
  | .local _ .vmem, ⟨7, _⟩ => ⟨S512x256, .f32⟩
  | .local _ .vmem, ⟨8, _⟩ => ⟨S512x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x512, .f32⟩
  | .local _ .vmem, ⟨13, _⟩ => ⟨S256x512, .f32⟩
  | .local _ .vmem, ⟨14, _⟩ => ⟨S512x256, .f32⟩
  | .local _ .vmem, ⟨15, _⟩ => ⟨S512x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x512, .f32⟩
  | .local _ .vmem, ⟨26, _⟩ => ⟨S256x512, .f32⟩
  | .local _ .vmem, ⟨27, _⟩ => ⟨S512x128, .f32⟩
  | .local _ .vmem, ⟨28, _⟩ => ⟨S512x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x512, .f32⟩
  | .local _ .vmem, ⟨33, _⟩ => ⟨S256x512, .f32⟩
  | .local _ .vmem, ⟨34, _⟩ => ⟨S512x128, .f32⟩
  | .local _ .vmem, ⟨35, _⟩ => ⟨S512x128, .f32⟩
  | .local _ .vmem, ⟨36, _⟩ => ⟨S256x128, .f32⟩
  | .local _ .vmem, ⟨37, _⟩ => ⟨S256x128, .f32⟩
  | .local _ .vmem, ⟨38, _⟩ => ⟨S256x128, .f32⟩
  | .local _ .vmem, ⟨39, _⟩ => ⟨S256x384, .f32⟩
  | .local _ .vmem, ⟨40, _⟩ => ⟨S256x384, .f32⟩
  | .local _ .vmem, ⟨41, _⟩ => ⟨S384x512, .f32⟩
  | .local _ .vmem, ⟨42, _⟩ => ⟨S256x512, .f32⟩
  | .local _ .vmem, ⟨43, _⟩ => ⟨S256x512, .f32⟩
  | .local _ .vmem, ⟨44, _⟩ => ⟨S256x512, .f32⟩
  | .local _ .vmem, ⟨45, _⟩ => ⟨S256x512, .f32⟩
  | .local _ .vmem, ⟨46, _⟩ => ⟨S512x512, .f32⟩
  | .local _ .vmem, ⟨47, _⟩ => ⟨S512x512, .f32⟩
  | .local _ .vmem, ⟨48, _⟩ => ⟨S256x512, .f32⟩
  | .local _ .vmem, ⟨49, _⟩ => ⟨S256x512, .f32⟩
  | .local _ .vmem, ⟨50, _⟩ => ⟨S256x512, .f32⟩
  | .local _ .vmem, ⟨51, _⟩ => ⟨S256x512, .f32⟩
  | .local _ .vmem, ⟨52, _⟩ => ⟨S256x512, .f32⟩
  | .local _ .vmem, ⟨53, _⟩ => ⟨S512x512, .f32⟩
  | .local _ .vmem, ⟨54, _⟩ => ⟨S512x512, .f32⟩
  | .local _ .vmem, ⟨55, _⟩ => ⟨S256x512, .f32⟩
  | .local _ .vmem, ⟨56, _⟩ => ⟨S256x512, .f32⟩
  | .local _ .vmem, ⟨57, _⟩ => ⟨S256x512, .f32⟩
  | .local _ .vmem, ⟨58, _⟩ => ⟨S256x512, .f32⟩
  | .local _ .vmem, ⟨59, _⟩ => ⟨S256x512, .f32⟩
  | .local _ .vmem, ⟨60, _⟩ => ⟨S512x512, .f32⟩
  | .local _ .vmem, ⟨61, _⟩ => ⟨S512x512, .f32⟩
  | .local _ .vmem, ⟨62, _⟩ => ⟨S256x512, .f32⟩
  | .local _ .vmem, ⟨63, _⟩ => ⟨S256x512, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc7_scratch0 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc8_scratch0 : Ref sig .tc := ⟨.vmem, 57, rfl⟩
abbrev cc9_stg0_0 : Ref sig .tc := ⟨.vmem, 58, rfl⟩
abbrev cc9_stg0_1 : Ref sig .tc := ⟨.vmem, 59, rfl⟩
abbrev cc9_stg1_0 : Ref sig .tc := ⟨.vmem, 60, rfl⟩
abbrev cc9_stg1_1 : Ref sig .tc := ⟨.vmem, 61, rfl⟩
abbrev cc9_stg2_0 : Ref sig .tc := ⟨.vmem, 62, rfl⟩
abbrev cc9_stg2_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39
abbrev cc7_sem0_0 : DmaSem sig := 40
abbrev cc7_sem0_1 : DmaSem sig := 41
abbrev cc7_sem1_0 : DmaSem sig := 42
abbrev cc7_sem1_1 : DmaSem sig := 43
abbrev cc7_sem2_0 : DmaSem sig := 44
abbrev cc7_sem2_1 : DmaSem sig := 45
abbrev cc8_sem0_0 : DmaSem sig := 46
abbrev cc8_sem0_1 : DmaSem sig := 47
abbrev cc8_sem1_0 : DmaSem sig := 48
abbrev cc8_sem1_1 : DmaSem sig := 49
abbrev cc8_sem2_0 : DmaSem sig := 50
abbrev cc8_sem2_1 : DmaSem sig := 51
abbrev cc9_sem0_0 : DmaSem sig := 52
abbrev cc9_sem0_1 : DmaSem sig := 53
abbrev cc9_sem1_0 : DmaSem sig := 54
abbrev cc9_sem1_1 : DmaSem sig := 55
abbrev cc9_sem2_0 : DmaSem sig := 56
abbrev cc9_sem2_1 : DmaSem sig := 57

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![16, 1, 8], ![false, false, false]⟩

def k1_cond2 (i : grid1.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 1, 8], ![false, false, false]⟩

def k2_cond2 (i : grid2.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![16, 3], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S256x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨3, ![16, 3, 8], ![false, false, false]⟩

def k4_cond2 (i : grid4.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S256x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S256x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![16, 3, 8], ![false, false, false]⟩

def k5_cond2 (i : grid5.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S256x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S512x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S256x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨2, ![16, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S256x384 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S384x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S256x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨3, ![16, 1, 8], ![false, false, false]⟩

def k7_cond2 (i : grid7.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S256x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S256x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![16, 1, 8], ![false, false, false]⟩

def k8_cond2 (i : grid8.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S256x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S512x512 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S256x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨2, ![16, 8], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S256x512 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S512x512 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S256x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

class Facts₀ : Prop where
  inb_S256x128_S256x128_0_0 : ∀ a, (![0, 0] : Fin 2 → Nat) a + S256x128.size a ≤ S256x128.size a
  h_S256x128 : 0 < S256x128.numel
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S256x128_S256x128 : S256x128.ShapeCasts S256x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S384x512_S384x512_0_0 : ∀ a, (![0, 0] : Fin 2 → Nat) a + S384x512.size a ≤ S384x512.size a
  h_S384x512 : 0 < S384x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S4096x512_S512x4096_1_0 : S4096x512.Transposes [1, 0] S512x4096
  dot_S256x128_S128x256_S256x256_1_0_0_1_n_n_wf : DotDims.WF S256x128 S128x256 S256x256 [1] [0] [0] [1] [] []
  dot_S256x512_S512x256_S256x256_1_0_0_1_n_n_wf : DotDims.WF S256x512 S512x256 S256x256 [1] [0] [0] [1] [] []
  dot_S256x256_S256x128_S256x128_1_0_0_1_n_n_wf : DotDims.WF S256x256 S256x128 S256x128 [1] [0] [0] [1] [] []
  dot_S256x512_S512x128_S256x128_1_0_0_1_n_n_wf : DotDims.WF S256x512 S512x128 S256x128 [1] [0] [0] [1] [] []
  dot_S256x384_S384x512_S256x512_1_0_0_1_n_n_wf : DotDims.WF S256x384 S384x512 S256x512 [1] [0] [0] [1] [] []
  dot_S256x512_S512x512_S256x512_1_0_0_1_n_n_wf : DotDims.WF S256x512 S512x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S4096x128.size a
  hwx0_0 : ∀ i : grid0.Coords, EltTy.bits .f32 = 32 ∨ (Rect.block (s := S4096x128) S256x128.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x4096.size a
  hwx1_0 : ∀ i : grid1.Coords, EltTy.bits .f32 = 32 ∨ (Rect.block (s := S4096x4096) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .f32 = 32 ∨ (Rect.block (s := S4096x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S4096x256.size a
  hwx1_2 : ∀ i : grid1.Coords, EltTy.bits .f32 = 32 ∨ (Rect.block (s := S4096x256) S256x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S4096x4096.size a
  hwx2_0 : ∀ i : grid2.Coords, EltTy.bits .f32 = 32 ∨ (Rect.block (s := S4096x4096) S256x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S4096x256.size a
  hwx2_1 : ∀ i : grid2.Coords, EltTy.bits .f32 = 32 ∨ (Rect.block (s := S4096x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S4096x256.size a
  hwx2_2 : ∀ i : grid2.Coords, EltTy.bits .f32 = 32 ∨ (Rect.block (s := S4096x256) S256x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S4096x256.size a
  hwx3_0 : ∀ i : grid3.Coords, EltTy.bits .f32 = 32 ∨ (Rect.block (s := S4096x256) S256x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x384.size a
  hwx3_1 : ∀ i : grid3.Coords, EltTy.bits .f32 = 32 ∨ (Rect.block (s := S256x384) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S4096x384.size a
  hwx3_2 : ∀ i : grid3.Coords, EltTy.bits .f32 = 32 ∨ (Rect.block (s := S4096x384) S256x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x512.size a ≤ S4096x4096.size a
  hwx4_0 : ∀ i : grid4.Coords, EltTy.bits .f32 = 32 ∨ (Rect.block (s := S4096x4096) S256x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S4096x384.size a
  hwx4_1 : ∀ i : grid4.Coords, EltTy.bits .f32 = 32 ∨ (Rect.block (s := S4096x384) S512x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S4096x384.size a
  hwx4_2 : ∀ i : grid4.Coords, EltTy.bits .f32 = 32 ∨ (Rect.block (s := S4096x384) S256x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x512.size a ≤ S4096x4096.size a
  hwx5_0 : ∀ i : grid5.Coords, EltTy.bits .f32 = 32 ∨ (Rect.block (s := S4096x4096) S256x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x128.size a ≤ S4096x384.size a
  hwx5_1 : ∀ i : grid5.Coords, EltTy.bits .f32 = 32 ∨ (Rect.block (s := S4096x384) S512x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x128.size a ≤ S4096x384.size a
  hwx5_2 : ∀ i : grid5.Coords, EltTy.bits .f32 = 32 ∨ (Rect.block (s := S4096x384) S256x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x384.size a ≤ S4096x384.size a
  hwx6_0 : ∀ i : grid6.Coords, EltTy.bits .f32 = 32 ∨ (Rect.block (s := S4096x384) S256x384.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S384x512.size a ≤ S384x512.size a
  hwx6_1 : ∀ i : grid6.Coords, EltTy.bits .f32 = 32 ∨ (Rect.block (s := S384x512) S384x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x512.size a ≤ S4096x512.size a
  hwx6_2 : ∀ i : grid6.Coords, EltTy.bits .f32 = 32 ∨ (Rect.block (s := S4096x512) S256x512.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S256x512.size a ≤ S4096x4096.size a
  hwx7_0 : ∀ i : grid7.Coords, EltTy.bits .f32 = 32 ∨ (Rect.block (s := S4096x4096) S256x512.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S4096x512.size a
  hwx7_1 : ∀ i : grid7.Coords, EltTy.bits .f32 = 32 ∨ (Rect.block (s := S4096x512) S512x512.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S256x512.size a ≤ S4096x512.size a
  hwx7_2 : ∀ i : grid7.Coords, EltTy.bits .f32 = 32 ∨ (Rect.block (s := S4096x512) S256x512.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S256x512.size a ≤ S4096x4096.size a
  hwx8_0 : ∀ i : grid8.Coords, EltTy.bits .f32 = 32 ∨ (Rect.block (s := S4096x4096) S256x512.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S512x512.size a ≤ S4096x512.size a
  hwx8_1 : ∀ i : grid8.Coords, EltTy.bits .f32 = 32 ∨ (Rect.block (s := S4096x512) S512x512.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S256x512.size a ≤ S4096x512.size a
  hwx8_2 : ∀ i : grid8.Coords, EltTy.bits .f32 = 32 ∨ (Rect.block (s := S4096x512) S256x512.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S256x512.size a ≤ S4096x512.size a
  hwx9_0 : ∀ i : grid9.Coords, EltTy.bits .f32 = 32 ∨ (Rect.block (s := S4096x512) S256x512.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S512x512.size a ≤ S512x4096.size a
  hwx9_1 : ∀ i : grid9.Coords, EltTy.bits .f32 = 32 ∨ (Rect.block (s := S512x4096) S512x512.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S256x512.size a ≤ S4096x4096.size a
  hwx9_2 : ∀ i : grid9.Coords, EltTy.bits .f32 = 32 ∨ (Rect.block (s := S4096x4096) S256x512.size (cc9_transform_2 i) (hinb9_2 i)).WholeWords (EltTy.packing .f32)

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x384_S384x512_S256x512_1_0_0_1_n_n : DotDims S256x384 S384x512 S256x512 where
  lhsContracting := [1]
  rhsContracting := [0]
  lhsNonContracting := [0]
  rhsNonContracting := [1]
  lhsBatch := []
  rhsBatch := []
  wf := dot_S256x384_S384x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v1) S256x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S256x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S256x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg1) S256x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S512x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v4) S256x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_arg1) S256x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S512x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S256x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v4) S256x384.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S384x512.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v6) S256x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_arg1) S256x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v6) S512x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v7) S256x512.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_arg1) S256x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v7) S512x512.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v8) S256x512.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

abbrev win9_0 : Pipeline.Window sig grid9 :=
  Pipeline.Window.ofSpec (Memref.whole main_v7) S256x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v9) S512x512.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v10) S256x512.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== Proof.Step.lean ====
import Idealize.ShloMosaic.Lib.Pipeline.FrameSuffix

noncomputable section

namespace Cert.Step

open Idealize.ShloMosaic Idealize.ShloMosaic.TcCoe
open Idealize.SL Idealize.SL.RA Idealize.SL.Sem
open Idealize.ShloMosaic.Pipeline (Dat Cfg)

variable {nD : Nat} {τ : Topo} {sig : RefSig} {Val : EltTy → Type} {Λ₀ : Labels}
  {Ix : Type} [DecidableEq Ix] {Name : Type} [DecidableEq Name] {U : Type} [URA U] {Lvl : Type}
  {cfg : Cfg sig Λ₀}
  (dat : ((c : Dev nD) → (b : Ref sig .tc) → Buf Val ((c : Thread nD τ).loc b)) → (c : Dev nD) → Dat τ Val Ix Name U Lvl cfg c)
  (hinj : Function.Injective (Pipeline.arrRef cfg.spec))
  (hA : ∀ V c w, (dat V c).A w = V c (Pipeline.arrRef cfg.spec w))
  (Win : Dev nD → Valuation τ sig Val)

/-- The valuation after a region: its arrays at their folds over the grid, every other reference as before. -/
def Wout (c : Dev nD) : Valuation τ sig Val :=
  Pipeline.withArrays cfg.spec c (Win c) fun w => (dat (fun c b => Win c b) c).arrAt w cfg.N

include hinj in
theorem hF (c : Dev nD) (w : Fin cfg.W) :
    (dat (fun c b => Win c b) c).arrAt w cfg.N = Wout dat Win c (Proc.devRef .tc (Pipeline.arrRef cfg.spec w)) :=
  (Pipeline.withArrays_arr cfg.spec hinj c (Win c) (fun w => (dat (fun c b => Win c b) c).arrAt w cfg.N) w).symm

theorem of_ne (c : Dev nD) (b : Ref sig .tc) (hb : ∀ w, Pipeline.arrRef cfg.spec w ≠ b) :
    Wout dat Win c (Proc.devRef .tc b) = Win c (Proc.devRef .tc b) :=
  Pipeline.withArrays_of_ne cfg.spec c (Win c) (fun w => (dat (fun c b => Win c b) c).arrAt w cfg.N) b hb

theorem hrest (c : Dev nD) (b : Ref sig .tc) (hb : b ∉ Finset.univ.image (Pipeline.arrRef cfg.spec)) :
    Wout dat Win c (Proc.devRef .tc b) = Win c (Proc.devRef .tc b) :=
  of_ne dat Win c b fun w e => hb (Finset.mem_image.mpr ⟨w, Finset.mem_univ _, e⟩)

include hinj hA in
theorem keep (c : Dev nD) (b : Ref sig .tc) (hb : ∀ w, (cfg.win w).isOut = true → Pipeline.arrRef cfg.spec w ≠ b) :
    Wout dat Win c (Proc.devRef .tc b) = Win c (Proc.devRef .tc b) := by
  by_cases h : ∃ w, Pipeline.arrRef cfg.spec w = b
  · obtain ⟨w, rfl⟩ := h
    cases hw : (cfg.win w).isOut
    · exact (hF dat hinj Win c w).symm.trans (((dat _ c).arrAt_in w hw _).trans (hA _ c w))
    · exact absurd rfl (hb w hw)
  · exact of_ne dat Win c b fun w e => h ⟨w, e⟩

end Cert.Step

end
-- ==== Proof.K.R0.lean ====
import proofs.«121997_g2000006886080560_pallasbulk_379_4_alg».proof.Proof.Gen.Kernel.Launch
import proofs.«121997_g2000006886080560_pallasbulk_379_4_alg».proof.Proof.Gen.Kernel.Skeleton
import proofs.«121997_g2000006886080560_pallasbulk_379_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S512x128 := Rect.unit (s := S512x128) ![0, 0] S512x128.size inb_S512x128_S512x128_0_0
abbrev r0_w : Rect S128x256 := Rect.unit (s := S128x256) ![0, 0] S128x256.size inb_S128x256_S128x256_0_0
abbrev r0_o : Rect S512x256 := Rect.unit (s := S512x256) ![0, 0] S512x256.size inb_S512x256_S512x256_0_0

def out0_2 (x0 : Vec F S512x128 .f32) (x1 : Vec F S128x256 .f32) : Vec F S512x256 .bf16 :=
  View.canon [⟨r0_o, k0_pay1 (View.ld x0 r0_x) (View.ld x1 r0_w)⟩]

theorem cover0_2 (p0 : Vec F S512x256 .bf16) (y : S512x256.Idx) :
    ∃ pc ∈ ([⟨r0_o, p0⟩] : List (View.Piece (Elt F) S512x256 .bf16)), y ∈ pc.1.set :=
  View.cover_of_tiled [⟨r0_o, p0⟩] S512x256.size (by rfl) y

set_option maxHeartbeats 1000000 in

theorem sound_kernel0 (c : Dev nD) (E : Set ℕ) (i : grid0.Coords) (arg1 : Memref sig .tc .vmem S512x128 .f32) (harg1 : arg1.IsWhole) (arg2 : Memref sig .tc .vmem S128x256 .f32) (harg2 : arg2.IsWhole) (arg3 : Memref sig .tc .vmem S512x256 .bf16) (harg3 : arg3.IsWhole)
    (x0 : Vec F S512x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Rg

end
-- ==== Proof.K.R1.lean ====
import proofs.«121997_g2000006886080560_pallasbulk_379_4_alg».proof.Proof.Gen.Kernel.Launch
import proofs.«121997_g2000006886080560_pallasbulk_379_4_alg».proof.Proof.Gen.Kernel.Skeleton
import proofs.«121997_g2000006886080560_pallasbulk_379_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S512x4096 := Rect.unit (s := S512x4096) ![0, 0] S512x4096.size inb_S512x4096_S512x4096_0_0
abbrev r1_w : Rect S4096x256 := Rect.unit (s := S4096x256) ![0, 0] S4096x256.size inb_S4096x256_S4096x256_0_0
abbrev r1_o2 : Rect S512x256 := Rect.unit (s := S512x256) ![0, 0] S512x256.size inb_S512x256_S512x256_0_0
abbrev r1_o3 : Rect S512x4096 := Rect.unit (s := S512x4096) ![0, 0] S512x4096.size inb_S512x4096_S512x4096_0_0

def out1_2 (x0 : Vec F S512x4096 .f32) (x1 : Vec F S4096x256 .bf16) : Vec F S512x256 .f32 :=
  View.canon [⟨r1_o2, k1_pay2 (View.ld x0 r1_x) (View.ld x1 r1_w)⟩]

def out1_3 (x0 : Vec F S512x4096 .f32) : Vec F S512x4096 .bf16 :=
  View.canon [⟨r1_o3, k1_pay1 (View.ld x0 r1_x)⟩]

theorem cover1_2 (p0 : Vec F S512x256 .f32) (y : S512x256.Idx) :
    ∃ pc ∈ ([⟨r1_o2, p0⟩] : List (View.Piece (Elt F) S512x256 .f32)), y ∈ pc.1.set :=
  View.cover_of_tiled [⟨r1_o2, p0⟩] S512x256.size (by rfl) y

theorem cover1_3 (p0 : Vec F S512x4096 .bf16) (y : S512x4096.Idx) :
    ∃ pc ∈ ([⟨r1_o3, p0⟩] : List (View.Piece (Elt F) S512x4096 .bf16)), y ∈ pc.1.set :=
  View.cover_of_tiled [⟨r1_o3, p0⟩] S512x4096.size (by rfl) y

set_option maxHeartbeats 1000000 in

theorem sound_kernel1 (c : Dev nD) (E : Set ℕ) (i : grid1.Coords) (arg1 : Memref sig .tc .vmem S512x4096 .f32) (harg1 : arg1.IsWhole) (arg2 : Memref sig .tc .vmem S4096x256 .bf16) (harg2 : arg2.IsWhole) (arg3 : Memref sig .tc .vmem S512x256 .f32) (harg3 : arg3.IsWhole) (arg4 : Memref sig .tc .vmem S512x4096 .bf16) (harg4 : arg4.IsWhole)
    (x0 : Vec F S512x4096 .f32) (x1 : Vec F S4096x256 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0)) -∗ K ⟨⟩))
      ⊢ wp frame (wpE (defs₀ (F := F)) Variants.none c none) E (cc1__pass1_kernel i arg1 harg1 arg2 harg2 arg3 harg3 arg4 harg4) K := by
  simp only [cc1__pass1_kernel_eq_skeleton]; unfold cc1__pass1_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Rg

end
-- ==== Proof.K.R2.lean ====
import proofs.«121997_g2000006886080560_pallasbulk_379_4_alg».proof.Proof.Gen.Kernel.Launch
import proofs.«121997_g2000006886080560_pallasbulk_379_4_alg».proof.Proof.Gen.Kernel.Skeleton
import proofs.«121997_g2000006886080560_pallasbulk_379_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S512x256 := Rect.unit (s := S512x256) ![0, 0] S512x256.size inb_S512x256_S512x256_0_0
abbrev r2_w : Rect S256x384 := Rect.unit (s := S256x384) ![0, 0] S256x384.size inb_S256x384_S256x384_0_0

abbrev r2_oa : Rect S512x640 := Rect.unit (s := S512x640) ![0, 0] S512x256.size inb_S512x640_S512x256_0_0

abbrev r2_ob : Rect S512x640 := Rect.unit (s := S512x640) ![0, 256] S512x384.size inb_S512x640_S512x384_0_256

def out2_2 (x0 : Vec F S512x256 .f32) (x1 : Vec F S256x384 .f32) : Vec F S512x640 .bf16 :=
  View.canon [⟨r2_ob, k2_pay2 (View.ld x0 r2_x) (View.ld x1 r2_w)⟩, ⟨r2_oa, k2_pay1 (View.ld x0 r2_x)⟩]

theorem cover2_2 (pb : Vec F S512x384 .bf16) (pa : Vec F S512x256 .bf16) (y : S512x640.Idx) :
    ∃ pc ∈ ([⟨r2_ob, pb⟩, ⟨r2_oa, pa⟩] : List (View.Piece (Elt F) S512x640 .bf16)), y ∈ pc.1.set :=
  View.cover_of_tiledBy [⟨r2_ob, pb⟩, ⟨r2_oa, pa⟩] ![512, 128] (by sl_kernel_rfl) y

set_option maxHeartbeats 1000000 in

theorem sound_kernel2 (c : Dev nD) (E : Set ℕ) (i : grid2.Coords) (arg1 : Memref sig .tc .vmem S512x256 .f32) (harg1 : arg1.IsWhole) (arg2 : Memref sig .tc .vmem S256x384 .f32) (harg2 : arg2.IsWhole) (arg3 : Memref sig .tc .vmem S512x640 .bf16) (harg3 : arg3.IsWhole)
    (x0 : Vec F S512x256 .f32) (x1 : Vec F S256x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__concat_support_kernel i arg1 harg1 arg2 harg2 arg3 harg3) K := by
  simp only [cc2__concat_support_kernel_eq_skeleton]; unfold cc2__concat_support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _ _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Rg

end
-- ==== Proof.K.R3.lean ====
import proofs.«121997_g2000006886080560_pallasbulk_379_4_alg».proof.Proof.Gen.Kernel.Launch
import proofs.«121997_g2000006886080560_pallasbulk_379_4_alg».proof.Proof.Gen.Kernel.Skeleton
import proofs.«121997_g2000006886080560_pallasbulk_379_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S512x4096 := Rect.unit (s := S512x4096) ![0, 0] S512x4096.size inb_S512x4096_S512x4096_0_0
abbrev r3_w : Rect S4096x640 := Rect.unit (s := S4096x640) ![0, 0] S4096x640.size inb_S4096x640_S4096x640_0_0
abbrev r3_o2 : Rect S512x256 := Rect.unit (s := S512x256) ![0, 0] S512x256.size inb_S512x256_S512x256_0_0
abbrev r3_o3 : Rect S512x384 := Rect.unit (s := S512x384) ![0, 0] S512x384.size inb_S512x384_S512x384_0_0

def out3_2 (x0 : Vec F S512x4096 .bf16) (x1 : Vec F S4096x640 .bf16) : Vec F S512x256 .f32 :=
  View.canon [⟨r3_o2, k3_pay2 (View.ld x0 r3_x) (View.ld x1 r3_w)⟩]

def out3_3 (x0 : Vec F S512x4096 .bf16) (x1 : Vec F S4096x640 .bf16) : Vec F S512x384 .f32 :=
  View.canon [⟨r3_o3, k3_pay3 (View.ld x0 r3_x) (View.ld x1 r3_w)⟩]

theorem cover3_2 (p0 : Vec F S512x256 .f32) (y : S512x256.Idx) :
    ∃ pc ∈ ([⟨r3_o2, p0⟩] : List (View.Piece (Elt F) S512x256 .f32)), y ∈ pc.1.set :=
  View.cover_of_tiled [⟨r3_o2, p0⟩] S512x256.size (by rfl) y

theorem cover3_3 (p0 : Vec F S512x384 .f32) (y : S512x384.Idx) :
    ∃ pc ∈ ([⟨r3_o3, p0⟩] : List (View.Piece (Elt F) S512x384 .f32)), y ∈ pc.1.set :=
  View.cover_of_tiled [⟨r3_o3, p0⟩] S512x384.size (by rfl) y

set_option maxHeartbeats 1000000 in

theorem sound_kernel3 (c : Dev nD) (E : Set ℕ) (i : grid3.Coords) (arg1 : Memref sig .tc .vmem S512x4096 .bf16) (harg1 : arg1.IsWhole) (arg2 : Memref sig .tc .vmem S4096x640 .bf16) (harg2 : arg2.IsWhole) (arg3 : Memref sig .tc .vmem S512x256 .f32) (harg3 : arg3.IsWhole) (arg4 : Memref sig .tc .vmem S512x384 .f32) (harg4 : arg4.IsWhole)
    (x0 : Vec F S512x4096 .bf16) (x1 : Vec F S4096x640 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare (out3_3 x0 x1)) -∗ K ⟨⟩))
      ⊢ wp frame (wpE (defs₀ (F := F)) Variants.none c none) E (cc3__adj_pair_kernel i arg1 harg1 arg2 harg2 arg3 harg3 arg4 harg4) K := by
  simp only [cc3__adj_pair_kernel_eq_skeleton]; unfold cc3__adj_pair_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_2 _)
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.Kernel.Rg

end
-- ==== Proof.K.R4.lean ====
import proofs.«121997_g2000006886080560_pallasbulk_379_4_alg».proof.Proof.Gen.Kernel.Launch
import proofs.«121997_g2000006886080560_pallasbulk_379_4_alg».proof.Proof.Gen.Kernel.Skeleton
import proofs.«121997_g2000006886080560_pallasbulk_379_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S512x384 := Rect.unit (s := S512x384) ![0, 0] S512x384.size inb_S512x384_S512x384_0_0
abbrev r4_w : Rect S384x512 := Rect.unit (s := S384x512) ![0, 0] S384x512.size inb_S384x512_S384x512_0_0

abbrev r4_oa : Rect S512x896 := Rect.unit (s := S512x896) ![0, 0] S512x384.size inb_S512x896_S512x384_0_0

abbrev r4_ob : Rect S512x896 := Rect.unit (s := S512x896) ![0, 384] S512x512.size inb_S512x896_S512x512_0_384

def out4_2 (x0 : Vec F S512x384 .f32) (x1 : Vec F S384x512 .f32) : Vec F S512x896 .bf16 :=
  View.canon [⟨r4_ob, k4_pay2 (View.ld x0 r4_x) (View.ld x1 r4_w)⟩, ⟨r4_oa, k4_pay1 (View.ld x0 r4_x)⟩]

theorem cover4_2 (pb : Vec F S512x512 .bf16) (pa : Vec F S512x384 .bf16) (y : S512x896.Idx) :
    ∃ pc ∈ ([⟨r4_ob, pb⟩, ⟨r4_oa, pa⟩] : List (View.Piece (Elt F) S512x896 .bf16)), y ∈ pc.1.set :=
  View.cover_of_tiledBy [⟨r4_ob, pb⟩, ⟨r4_oa, pa⟩] ![512, 128] (by sl_kernel_rfl) y

set_option maxHeartbeats 1000000 in

theorem sound_kernel4 (c : Dev nD) (E : Set ℕ) (i : grid4.Coords) (arg1 : Memref sig .tc .vmem S512x384 .f32) (harg1 : arg1.IsWhole) (arg2 : Memref sig .tc .vmem S384x512 .f32) (harg2 : arg2.IsWhole) (arg3 : Memref sig .tc .vmem S512x896 .bf16) (harg3 : arg3.IsWhole)
    (x0 : Vec F S512x384 .f32) (x1 : Vec F S384x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__concat_support_kernel i arg1 harg1 arg2 harg2 arg3 harg3) K := by
  simp only [cc4__concat_support_kernel_eq_skeleton]; unfold cc4__concat_support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _ _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Rg

end
-- ==== Proof.K.R5.lean ====
import proofs.«121997_g2000006886080560_pallasbulk_379_4_alg».proof.Proof.Gen.Kernel.Launch
import proofs.«121997_g2000006886080560_pallasbulk_379_4_alg».proof.Proof.Gen.Kernel.Skeleton
import proofs.«121997_g2000006886080560_pallasbulk_379_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_x : Rect S512x4096 := Rect.unit (s := S512x4096) ![0, 0] S512x4096.size inb_S512x4096_S512x4096_0_0
abbrev r5_w : Rect S4096x896 := Rect.unit (s := S4096x896) ![0, 0] S4096x896.size inb_S4096x896_S4096x896_0_0
abbrev r5_o2 : Rect S512x384 := Rect.unit (s := S512x384) ![0, 0] S512x384.size inb_S512x384_S512x384_0_0
abbrev r5_o3 : Rect S512x512 := Rect.unit (s := S512x512) ![0, 0] S512x512.size inb_S512x512_S512x512_0_0

def out5_2 (x0 : Vec F S512x4096 .bf16) (x1 : Vec F S4096x896 .bf16) : Vec F S512x384 .f32 :=
  View.canon [⟨r5_o2, k5_pay2 (View.ld x0 r5_x) (View.ld x1 r5_w)⟩]

def out5_3 (x0 : Vec F S512x4096 .bf16) (x1 : Vec F S4096x896 .bf16) : Vec F S512x512 .f32 :=
  View.canon [⟨r5_o3, k5_pay3 (View.ld x0 r5_x) (View.ld x1 r5_w)⟩]

theorem cover5_2 (p0 : Vec F S512x384 .f32) (y : S512x384.Idx) :
    ∃ pc ∈ ([⟨r5_o2, p0⟩] : List (View.Piece (Elt F) S512x384 .f32)), y ∈ pc.1.set :=
  View.cover_of_tiled [⟨r5_o2, p0⟩] S512x384.size (by rfl) y

theorem cover5_3 (p0 : Vec F S512x512 .f32) (y : S512x512.Idx) :
    ∃ pc ∈ ([⟨r5_o3, p0⟩] : List (View.Piece (Elt F) S512x512 .f32)), y ∈ pc.1.set :=
  View.cover_of_tiled [⟨r5_o3, p0⟩] S512x512.size (by rfl) y

set_option maxHeartbeats 1000000 in

theorem sound_kernel5 (c : Dev nD) (E : Set ℕ) (i : grid5.Coords) (arg1 : Memref sig .tc .vmem S512x4096 .bf16) (harg1 : arg1.IsWhole) (arg2 : Memref sig .tc .vmem S4096x896 .bf16) (harg2 : arg2.IsWhole) (arg3 : Memref sig .tc .vmem S512x384 .f32) (harg3 : arg3.IsWhole) (arg4 : Memref sig .tc .vmem S512x512 .f32) (harg4 : arg4.IsWhole)
    (x0 : Vec F S512x4096 .bf16) (x1 : Vec F S4096x896 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out5_2 x0 x1) ∗ owns (c : Thread nD τ) arg4 fullShare (out5_3 x0 x1)) -∗ K ⟨⟩))
      ⊢ wp frame (wpE (defs₀ (F := F)) Variants.none c none) E (cc5__adj_pair_kernel i arg1 harg1 arg2 harg2 arg3 harg3 arg4 harg4) K := by
  simp only [cc5__adj_pair_kernel_eq_skeleton]; unfold cc5__adj_pair_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover5_2 _)
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
    | ⟨3, _⟩ => out5_3 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem after5_3 (c : Dev nD) (t : Fin cfg5.N) : (dat5 V c).after 3 t = out5_3 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.Kernel.Rg

end
-- ==== Proof.K.R6.lean ====
import proofs.«121997_g2000006886080560_pallasbulk_379_4_alg».proof.Proof.Gen.Kernel.Launch
import proofs.«121997_g2000006886080560_pallasbulk_379_4_alg».proof.Proof.Gen.Kernel.Skeleton
import proofs.«121997_g2000006886080560_pallasbulk_379_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S512x4096 := Rect.unit (s := S512x4096) ![0, 0] S512x4096.size inb_S512x4096_S512x4096_0_0
abbrev r6_w : Rect S4096x512 := Rect.unit (s := S4096x512) ![0, 0] S4096x512.size inb_S4096x512_S4096x512_0_0
abbrev r6_o : Rect S512x512 := Rect.unit (s := S512x512) ![0, 0] S512x512.size inb_S512x512_S512x512_0_0

def out6_2 (x0 : Vec F S512x4096 .bf16) (x1 : Vec F S4096x512 .bf16) : Vec F S512x512 .f32 :=
  View.canon [⟨r6_o, k6_pay1 (View.ld x0 r6_x) (View.ld x1 r6_w)⟩]

theorem cover6_2 (p0 : Vec F S512x512 .f32) (y : S512x512.Idx) :
    ∃ pc ∈ ([⟨r6_o, p0⟩] : List (View.Piece (Elt F) S512x512 .f32)), y ∈ pc.1.set :=
  View.cover_of_tiled [⟨r6_o, p0⟩] S512x512.size (by rfl) y

set_option maxHeartbeats 1000000 in

theorem sound_kernel6 (c : Dev nD) (E : Set ℕ) (i : grid6.Coords) (arg1 : Memref sig .tc .vmem S512x4096 .bf16) (harg1 : arg1.IsWhole) (arg2 : Memref sig .tc .vmem S4096x512 .bf16) (harg2 : arg2.IsWhole) (arg3 : Memref sig .tc .vmem S512x512 .f32) (harg3 : arg3.IsWhole)
    (x0 : Vec F S512x4096 .bf16) (x1 : Vec F S4096x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__adj_single_kernel i arg1 harg1 arg2 harg2 arg3 harg3) K := by
  simp only [cc6__adj_single_kernel_eq_skeleton]; unfold cc6__adj_single_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Rg

end
-- ==== Proof.K.R7.lean ====
import proofs.«121997_g2000006886080560_pallasbulk_379_4_alg».proof.Proof.Gen.Kernel.Launch
import proofs.«121997_g2000006886080560_pallasbulk_379_4_alg».proof.Proof.Gen.Kernel.Skeleton
import proofs.«121997_g2000006886080560_pallasbulk_379_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_x : Rect S512x512 := Rect.unit (s := S512x512) ![0, 0] S512x512.size inb_S512x512_S512x512_0_0
abbrev r7_w : Rect S1024x512 := Rect.unit (s := S1024x512) ![0, 0] S1024x512.size inb_S1024x512_S1024x512_0_0
abbrev r7_o : Rect S512x1024 := Rect.unit (s := S512x1024) ![0, 0] S512x1024.size inb_S512x1024_S512x1024_0_0

def out7_2 (x0 : Vec F S512x512 .bf16) (x1 : Vec F S1024x512 .bf16) : Vec F S512x1024 .f32 :=
  View.canon [⟨r7_o, k7_pay1 (View.ld x0 r7_x) (View.ld x1 r7_w)⟩]

theorem cover7_2 (p0 : Vec F S512x1024 .f32) (y : S512x1024.Idx) :
    ∃ pc ∈ ([⟨r7_o, p0⟩] : List (View.Piece (Elt F) S512x1024 .f32)), y ∈ pc.1.set :=
  View.cover_of_tiled [⟨r7_o, p0⟩] S512x1024.size (by rfl) y

set_option maxHeartbeats 1000000 in

theorem sound_kernel7 (c : Dev nD) (E : Set ℕ) (i : grid7.Coords) (arg1 : Memref sig .tc .vmem S512x512 .bf16) (harg1 : arg1.IsWhole) (arg2 : Memref sig .tc .vmem S1024x512 .bf16) (harg2 : arg2.IsWhole) (arg3 : Memref sig .tc .vmem S512x1024 .f32) (harg3 : arg3.IsWhole)
    (x0 : Vec F S512x512 .bf16) (x1 : Vec F S1024x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__gram_sigmoid_kernel i arg1 harg1 arg2 harg2 arg3 harg3) K := by
  simp only [cc7__gram_sigmoid_kernel_eq_skeleton]; unfold cc7__gram_sigmoid_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q w := match w with
    | ⟨0, _⟩ => fullShare.left
    | ⟨1, _⟩ => fullShare.right
    | ⟨2, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.Kernel.Rg

end
-- ==== Proof.K.R7Shared.lean ====
import proofs.«121997_g2000006886080560_pallasbulk_379_4_alg».proof.Proof.K.R7

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem arrImage7 : Finset.univ.image (Pipeline.arrRef spec7) = {main_v6, main_v8} := by decide

theorem v6_ne_v8 : main_v6 ≠ main_v8 := by decide

theorem bufs_split7 (c : Dev nD) (X : (b : Ref sig .tc) → Buf (Elt F) ((c : Thread nD τ).loc b)) :
    (unscopedBufs c X : sProp 𝕄)
      = iprop(((((c : Thread nD τ).loc main_v6) ↦{fullShare} X main_v6) ∗ (((c : Thread nD τ).loc main_v8) ↦{fullShare} X main_v8))
          ∗ Pipeline.unscopedRest spec7 c X) := by
  rw [Pipeline.unscopedBufs_split₀ (P := Unit) (fun _ => cfg7) () winFacts₀7.arr_unscoped c X]
  unfold Pipeline.arrBufs
  rw [arrImage7, bigSep_insert (by simpa using v6_ne_v8), bigSep_singleton]
  rfl

theorem arrays7_eq (c : Dev nD) (G : (w : Fin cfg7.W) → Buf (Elt F) ((cfg7.win w).arr.view.loc (c : Thread nD τ))) :
    ((dat7 V c).arrays G : sProp 𝕄)
      = iprop((((c : Thread nD τ).loc main_v6) ↦{fullShare.left} G 0) ∗ (((c : Thread nD τ).loc main_v6) ↦{fullShare.right} G 1)
          ∗ (((c : Thread nD τ).loc main_v8) ↦{fullShare} G 2)) := by
  unfold Dat.arrays
  rw [bigSep_W7, (arr_whole7 0).set_eq_univ, (arr_whole7 2).set_eq_univ]
  rfl

theorem arrays_of_bufs7 (c : Dev nD) :
    (unscopedBufs c (V c) : sProp 𝕄) ⊢ iprop((dat7 V c).arrays ((dat7 V c).arrAt · 0) ∗ Pipeline.unscopedRest spec7 c (V c)) := by
  rw [bufs_split7, arrays7_eq]
  iintro ⟨⟨H6, H8⟩, HR⟩
  ihave H6' := (pointsTo_share (PosShare.mem_left_op_right fullShare)).1 $$ H6
  icases H6' with ⟨Hl, Hr⟩
  isplitr [HR]
  · isplitl [Hl]; · iexact Hl
    isplitl [Hr]; · iexact Hr
    iexact H8
  · iexact HR

theorem rest_congr7 (c : Dev nD) (V' : (b : Ref sig .tc) → Buf (Elt F) ((c : Thread nD τ).loc b)) (hrest : ∀ b, b ≠ main_v8 → V' b = V c b) :
    (Pipeline.unscopedRest spec7 c V' : sProp 𝕄) = Pipeline.unscopedRest spec7 c (V c) := by
  unfold Pipeline.unscopedRest
  refine bigSep_congr fun b hb => ?_
  have hb' : b ∉ Finset.univ.image (Pipeline.arrRef spec7) := (Finset.mem_sdiff.mp hb).2
  rw [arrImage7] at hb'
  rw [hrest b (fun h => hb' (by rw [h]; simp))]

theorem bufs_of_arrays7 (c : Dev nD) (V' : (b : Ref sig .tc) → Buf (Elt F) ((c : Thread nD τ).loc b))
    (hout : V' main_v8 = (dat7 V c).arrAt 2 cfg7.N) (hrest : ∀ b, b ≠ main_v8 → V' b = V c b) :
    iprop((dat7 V c).arrays ((dat7 V c).arrAt · cfg7.N) ∗ Pipeline.unscopedRest spec7 c (V c)) ⊢ (unscopedBufs c V' : sProp 𝕄) := by
  rw [bufs_split7, arrays7_eq, rest_congr7 V c V' hrest, hout, hrest main_v6 v6_ne_v8,
    Dat.arrAt_in (dat7 V c) 0 rfl cfg7.N, Dat.arrAt_in (dat7 V c) 1 rfl cfg7.N]
  iintro ⟨⟨Hl, Hr, H8⟩, HR⟩
  isplitr [HR]
  · isplitr [H8]
    · iapply (pointsTo_share (PosShare.mem_left_op_right fullShare)).2
      isplitl [Hl]; · iexact Hl
      iexact Hr
    · iexact H8
  · iexact HR

end Cert.Kernel.Rg

end
-- ==== Proof.K.Run.lean ====
import proofs.«121997_g2000006886080560_pallasbulk_379_4_alg».proof.Proof.Step
import proofs.«121997_g2000006886080560_pallasbulk_379_4_alg».proof.Proof.K.R0
import proofs.«121997_g2000006886080560_pallasbulk_379_4_alg».proof.Proof.K.R1
import proofs.«121997_g2000006886080560_pallasbulk_379_4_alg».proof.Proof.K.R2
import proofs.«121997_g2000006886080560_pallasbulk_379_4_alg».proof.Proof.K.R3
import proofs.«121997_g2000006886080560_pallasbulk_379_4_alg».proof.Proof.K.R4
import proofs.«121997_g2000006886080560_pallasbulk_379_4_alg».proof.Proof.K.R5
import proofs.«121997_g2000006886080560_pallasbulk_379_4_alg».proof.Proof.K.R6
import proofs.«121997_g2000006886080560_pallasbulk_379_4_alg».proof.Proof.K.R7Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := Step.Wout dat0 (W0 m)
abbrev W2 : Dev nD → Valuation τ sig (Elt F) := Step.Wout dat1 (W1 m)
abbrev W3 : Dev nD → Valuation τ sig (Elt F) := Step.Wout dat2 (W2 m)
abbrev W4 : Dev nD → Valuation τ sig (Elt F) := Step.Wout dat3 (W3 m)
abbrev W5 : Dev nD → Valuation τ sig (Elt F) := Step.Wout dat4 (W4 m)
abbrev W6 : Dev nD → Valuation τ sig (Elt F) := Step.Wout dat5 (W5 m)

abbrev W7 : Dev nD → Valuation τ sig (Elt F) := fun c => StableHlo.after hostOps6 (W6 m c)
abbrev W8 : Dev nD → Valuation τ sig (Elt F) := Step.Wout dat6 (W7 m)

abbrev rd (W : Dev nD → Valuation τ sig (Elt F)) : (c : Dev nD) → (b : Ref sig .tc) → Buf (Elt F) ((c : Thread nD τ).loc b) := fun c b => W c b

def W9 (c : Dev nD) : Valuation τ sig (Elt F) :=
  Function.update (W8 m c) main_v8 ((dat7 (rd (W8 m)) c).arrAt 2 cfg7.N)
theorem W9_out (c : Dev nD) : rd (W9 m) c main_v8 = (dat7 (rd (W8 m)) c).arrAt 2 cfg7.N := by
  show Function.update (W8 m c) main_v8 _ main_v8 = _
  exact Function.update_self ..
theorem W9_rest (c : Dev nD) (b : Ref sig .tc) (hb : b ≠ main_v8) : rd (W9 m) c b = rd (W8 m) c b := by
  show Function.update (W8 m c) main_v8 _ (Proc.devRef .tc b) = _
  exact Function.update_of_ne (StableHlo.devRef_ne_of_ne hb) ..

abbrev adm : (p : Fin 8) → (pcfgs (F := F) p).Adm := fun p => (cfgs p).toPCfg_adm

def pdats : (p : Fin 8) → (c : Dev nD) → Dat τ (Elt F) Unit ℕ (UR sig nD τ) ℕ (Pipeline.pin (pcfgs (F := F)) adm p) c
  | ⟨0, _⟩ => fun c => dat0 (rd (W0 m)) c
  | ⟨1, _⟩ => fun c => dat1 (rd (W1 m)) c
  | ⟨2, _⟩ => fun c => dat2 (rd (W2 m)) c
  | ⟨3, _⟩ => fun c => dat3 (rd (W3 m)) c
  | ⟨4, _⟩ => fun c => dat4 (rd (W4 m)) c
  | ⟨5, _⟩ => fun c => dat5 (rd (W5 m)) c
  | ⟨6, _⟩ => fun c => dat6 (rd (W7 m)) c
  | ⟨7, _⟩ => fun c => dat7 (rd (W8 m)) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev T (W : Dev nD → Valuation τ sig (Elt F)) (c : Dev nD) : sProp 𝕄 :=
  iprop(StableHlo.held (c : Thread nD τ) (Pipeline.ucRefs τ sig) (W c) ∗ R c)

theorem hostOps6_fresh : (hostOps6 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def mkReg (p : Fin 8) (hl : Pipeline.LaunchFacts (nD := nD) (τ := τ) cfgs p)
    (Win Wout : Dev nD → Valuation τ sig (Elt F))
    (hbody : ∀ c, BodyObligation (pdats m p c) (defs₀ (F := F)) Variants.none () Set.univ)
    (hA : ∀ c w, (pdats m p c).A w = Win c (Pipeline.arrRef (cfgs p).spec w))
    (hq : ∀ c w, (pdats m p c).q w = fullShare) (howed : ∀ c t, (pdats m p c).owed t = 0)
    (hrec : ∀ c t, (pdats m p c).recorded t = Set.univ)
    (hΦin : ∀ c, Pipeline.ΦA (cfgs p).spec c ⊢ (pdats m p c).Φ 0)
    (hΦout : ∀ c, (pdats m p c).Φ (Fin.last _) ⊢ Pipeline.ΦA (cfgs p).spec c)
    (hF : ∀ c w, (pdats m p c).arrAt w (cfgs p).N = Wout c (Pipeline.arrRef (cfgs p).spec w))
    (hrest : ∀ c (b : Ref sig .tc), b ∉ Finset.univ.image (Pipeline.arrRef (cfgs p).spec) → Wout c b = Win c b) :
    Pipeline.RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre := T Win
  post := T Wout
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) hl.win hl.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    refine BIBase.Entails.trans (hΦout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L lv 0 :=
  mkReg m 0 launch0 (W0 m) (W1 m) (body_obligation0 (rd (W0 m))) (A_eq0 (rd (W0 m)))
    (fun _ _ => rfl) (fun _ _ => rfl) (fun _ _ => rfl) (fun _ => .rfl) (fun _ => .rfl) (Step.hF dat0 launch0.win.arr_inj (W0 m)) (Step.hrest dat0 (W0 m))
def reg1 : Pipeline.RegionSeg (pcfgs (F := F)) adm (pdats m) () defs₀ 𝒱₀ L lv 1 :=
  mkReg m 1 launch1 (W1 m) (W2 m) (body_obligation1 (rd (W1 m))) (A_eq1 (rd (W1 m)))
    (fun _ _ => rfl) (fun _ _ => rfl) (fun _ _ => rfl) (fun _ => .rfl) (fun _ => .rfl) (Step.hF dat1 launch1.win.arr_inj (W1 m)) (Step.hrest dat1 (W1 m))
def reg2 : Pipeline.RegionSeg (pcfgs (F := F)) adm (pdats m) () defs₀ 𝒱₀ L lv 2 :=
  mkReg m 2 launch2 (W2 m) (W3 m) (body_obligation2 (rd (W2 m))) (A_eq2 (rd (W2 m)))
    (fun _ _ => rfl) (fun _ _ => rfl) (fun _ _ => rfl) (fun _ => .rfl) (fun _ => .rfl) (Step.hF dat2 launch2.win.arr_inj (W2 m)) (Step.hrest dat2 (W2 m))
def reg3 : Pipeline.RegionSeg (pcfgs (F := F)) adm (pdats m) () defs₀ 𝒱₀ L lv 3 :=
  mkReg m 3 launch3 (W3 m) (W4 m) (body_obligation3 (rd (W3 m))) (A_eq3 (rd (W3 m)))
    (fun _ _ => rfl) (fun _ _ => rfl) (fun _ _ => rfl) (fun _ => .rfl) (fun _ => .rfl) (Step.hF dat3 launch3.win.arr_inj (W3 m)) (Step.hrest dat3 (W3 m))
def reg4 : Pipeline.RegionSeg (pcfgs (F := F)) adm (pdats m) () defs₀ 𝒱₀ L lv 4 :=
  mkReg m 4 launch4 (W4 m) (W5 m) (body_obligation4 (rd (W4 m))) (A_eq4 (rd (W4 m)))
    (fun _ _ => rfl) (fun _ _ => rfl) (fun _ _ => rfl) (fun _ => .rfl) (fun _ => .rfl) (Step.hF dat4 launch4.win.arr_inj (W4 m)) (Step.hrest dat4 (W4 m))
def reg5 : Pipeline.RegionSeg (pcfgs (F := F)) adm (pdats m) () defs₀ 𝒱₀ L lv 5 :=
  mkReg m 5 launch5 (W5 m) (W6 m) (body_obligation5 (rd (W5 m))) (A_eq5 (rd (W5 m)))
    (fun _ _ => rfl) (fun _ _ => rfl) (fun _ _ => rfl) (fun _ => .rfl) (fun _ => .rfl) (Step.hF dat5 launch5.win.arr_inj (W5 m)) (Step.hrest dat5 (W5 m))
def reg6 : Pipeline.RegionSeg (pcfgs (F := F)) adm (pdats m) () defs₀ 𝒱₀ L lv 6 :=
  mkReg m 6 launch6 (W7 m) (W8 m) (body_obligation6 (rd (W7 m))) (A_eq6 (rd (W7 m)))
    (fun _ _ => rfl) (fun _ _ => rfl) (fun _ _ => rfl) (fun _ => .rfl) (fun _ => .rfl) (Step.hF dat6 launch6.win.arr_inj (W7 m)) (Step.hrest dat6 (W7 m))

abbrev Tₙ (c : Dev nD) : sProp 𝕄 := iprop(StableHlo.held (c : Thread nD τ) (Pipeline.ucRefs τ sig) (W9 m c) ∗ ∃ r, prngReg c r)

set_option backward.isDefEq.respectTransparency.types false in

def reg7 : Pipeline.RegionSeg (pcfgs (F := F)) adm (pdats m) () defs₀ 𝒱₀ L lv 7 where
  win := winFacts₀7
  block_pos := block_pos7
  stage_whole := stage_whole7
  K := PEmpty
  osem k := k.elim
  ho := Pipeline.OwnSemFacts.none _
  hbody c := (body_obligation7 (rd (W8 m)) c).loose
  hwaits := Pipeline.hwaits_of_owed_zero _ _ _ _ L lv 7 fun _ _ => rfl
  pre := T (W8 m)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (rd (W8 m) c)
  hentry c := by
    rw [Pipeline.ownSems0_none]
    have hsplit := arrays_of_bufs7 (rd (W8 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := bufs_of_arrays7 (rd (W8 m)) c (rd (W9 m) c) (W9_out m c) (fun b hb => W9_rest m c b hb)
    rw [Pipeline.unscopedBufs_held] at hjoin
    iintro ⟨Ha, HO, HY, Hrest⟩
    imodintro
    isplitl [Ha Hrest HY]
    · isplitl [Ha Hrest]
      · iapply hjoin
        isplitl [Ha]
        · iexact Ha
        · iexact Hrest
      iexact HY
    unfold Pipeline.Dat.owesAt Pipeline.owesWithin
    icases HO with ⟨%W, -, HO⟩; iexists W; iexact HO

abbrev hseg6 : Pipeline.HostSeg (Name := ℕ) (U := UR sig nD τ) (pcfgs (F := F)) defs₀ 𝒱₀ L lv :=
  Pipeline.HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (W6 m) R

abbrev segs : List (Pipeline.Seg (pcfgs (F := F)) adm (pdats m) () defs₀ 𝒱₀ L lv) :=
  [ .region (reg0 m), .region (reg1 m), .region (reg2 m), .region (reg3 m), .region (reg4 m), .region (reg5 m),
    .host (hseg6 m), .region (reg6 m), .region (reg7 m) ]

theorem main_run (c : Dev nD) : main (F := F) c = Pipeline.Seg.run (segs m) := (main_chain c).trans (by chain_rfl)

variable (ρ : Dev nD → PrngReg)

set_option backward.isDefEq.respectTransparency.types false in

theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = rd (W9 m) c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c b hb => h c _ (mem_uc b hb))

end Cert.Kernel.Rg

end
-- ==== Proof.K.Frame.lean ====
import proofs.«121997_g2000006886080560_pallasbulk_379_4_alg».proof.Proof.K.Run

noncomputable section

namespace Cert.Kernel.Rg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev hostOps6_W : List (Ref sig .tc) := [main_v6]
theorem hostOps6_writes : (hostOps6 : List (HloOp τ sig (Elt F))).Forall fun op => op.writes ⊆ (hostOps6_W.map (Proc.devRef (τ := τ) .tc)).toFinset := by
  simp only [List.Forall]; exact (by simp only [StableHlo.unary_writes, Finset.singleton_subset_iff, List.mem_toFinset]; exact List.mem_map_of_mem (by decide))

theorem W7_keep (c : Dev nD) (b : Ref sig .tc) (h : b ∉ hostOps6_W) : rd (W7 m) c b = rd (W6 m) c b :=
  StableHlo.after_of_writes_sub hostOps6 _ hostOps6_writes h

theorem kept_of (c : Dev nD) (b : Ref sig .tc)
    (h0 : ∀ w, (cfg0.win w).isOut = true → Pipeline.arrRef spec0 w ≠ b)
    (h1 : ∀ w, (cfg1.win w).isOut = true → Pipeline.arrRef spec1 w ≠ b)
    (h2 : ∀ w, (cfg2.win w).isOut = true → Pipeline.arrRef spec2 w ≠ b)
    (h3 : ∀ w, (cfg3.win w).isOut = true → Pipeline.arrRef spec3 w ≠ b)
    (h4 : ∀ w, (cfg4.win w).isOut = true → Pipeline.arrRef spec4 w ≠ b)
    (h5 : ∀ w, (cfg5.win w).isOut = true → Pipeline.arrRef spec5 w ≠ b)
    (hh : b ∉ hostOps6_W)
    (h6 : ∀ w, (cfg6.win w).isOut = true → Pipeline.arrRef spec6 w ≠ b)
    (h7 : b ≠ main_v8) : rd (W9 m) c b = m ((c : Thread nD τ).loc b) :=
  (W9_rest m c b h7).trans <| (Step.keep dat6 launch6.win.arr_inj A_eq6 (W7 m) c b h6).trans <| (W7_keep m c b hh).trans <| (Step.keep dat5 launch5.win.arr_inj A_eq5 (W5 m) c b h5).trans <|
    (Step.keep dat4 launch4.win.arr_inj A_eq4 (W4 m) c b h4).trans <| (Step.keep dat3 launch3.win.arr_inj A_eq3 (W3 m) c b h3).trans <| (Step.keep dat2 launch2.win.arr_inj A_eq2 (W2 m) c b h2).trans <| (Step.keep dat1 launch1.win.arr_inj A_eq1 (W1 m) c b h1).trans <|
    (Step.keep dat0 launch0.win.arr_inj A_eq0 (W0 m) c b h0).trans rfl

theorem arg_kept (c : Dev nD) (b : Ref sig .tc) (hb : b ∈ [main_arg0, main_arg1, main_arg2, main_arg3, main_arg4]) :
    rd (W9 m) c b = m ((c : Thread nD τ).loc b) := by
  simp only [List.mem_cons, List.not_mem_nil, or_false] at hb
  rcases hb with rfl | rfl | rfl | rfl | rfl <;> exact kept_of m c _ (by decide) (by decide) (by decide) (by decide) (by decide) (by decide) (by decide) (by decide) (by decide)

variable (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c main_arg0 (by decide)).trans (arg_kept m c _ (by decide)), (h c main_arg1 (by decide)).trans (arg_kept m c _ (by decide)),
     (h c main_arg2 (by decide)).trans (arg_kept m c _ (by decide)), (h c main_arg3 (by decide)).trans (arg_kept m c _ (by decide)),
     (h c main_arg4 (by decide)).trans (arg_kept m c _ (by decide))⟩) (run m ρ)

end Cert.Kernel.Rg

end
-- ==== Proof.KI.R0.lean ====
import proofs.«121997_g2000006886080560_pallasbulk_379_4_alg».proof.Proof.Gen.KernelIdeal.Launch
import proofs.«121997_g2000006886080560_pallasbulk_379_4_alg».proof.Proof.Gen.KernelIdeal.Skeleton
import proofs.«121997_g2000006886080560_pallasbulk_379_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S512x128 := Rect.unit (s := S512x128) ![0, 0] S512x128.size inb_S512x128_S512x128_0_0
abbrev r0_w : Rect S128x256 := Rect.unit (s := S128x256) ![0, 0] S128x256.size inb_S128x256_S128x256_0_0
abbrev r0_o : Rect S512x256 := Rect.unit (s := S512x256) ![0, 0] S512x256.size inb_S512x256_S512x256_0_0

def out0_2 (x0 : Vec F S512x128 .f32) (x1 : Vec F S128x256 .f32) : Vec F S512x256 .bf16 :=
  View.canon [⟨r0_o, k0_pay1 (View.ld x0 r0_x) (View.ld x1 r0_w)⟩]

theorem cover0_2 (p0 : Vec F S512x256 .bf16) (y : S512x256.Idx) :
    ∃ pc ∈ ([⟨r0_o, p0⟩] : List (View.Piece (Elt F) S512x256 .bf16)), y ∈ pc.1.set :=
  View.cover_of_tiled [⟨r0_o, p0⟩] S512x256.size (by rfl) y

set_option maxHeartbeats 1000000 in

theorem sound_kernel0 (c : Dev nD) (E : Set ℕ) (i : grid0.Coords) (arg1 : Memref sig .tc .vmem S512x128 .f32) (harg1 : arg1.IsWhole) (arg2 : Memref sig .tc .vmem S128x256 .f32) (harg2 : arg2.IsWhole) (arg3 : Memref sig .tc .vmem S512x256 .bf16) (harg3 : arg3.IsWhole)
    (x0 : Vec F S512x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KI.R1.lean ====
import proofs.«121997_g2000006886080560_pallasbulk_379_4_alg».proof.Proof.Gen.KernelIdeal.Launch
import proofs.«121997_g2000006886080560_pallasbulk_379_4_alg».proof.Proof.Gen.KernelIdeal.Skeleton
import proofs.«121997_g2000006886080560_pallasbulk_379_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S512x4096 := Rect.unit (s := S512x4096) ![0, 0] S512x4096.size inb_S512x4096_S512x4096_0_0
abbrev r1_w : Rect S4096x256 := Rect.unit (s := S4096x256) ![0, 0] S4096x256.size inb_S4096x256_S4096x256_0_0
abbrev r1_o2 : Rect S512x256 := Rect.unit (s := S512x256) ![0, 0] S512x256.size inb_S512x256_S512x256_0_0
abbrev r1_o3 : Rect S512x4096 := Rect.unit (s := S512x4096) ![0, 0] S512x4096.size inb_S512x4096_S512x4096_0_0

def out1_2 (x0 : Vec F S512x4096 .f32) (x1 : Vec F S4096x256 .bf16) : Vec F S512x256 .f32 :=
  View.canon [⟨r1_o2, k1_pay2 (View.ld x0 r1_x) (View.ld x1 r1_w)⟩]

def out1_3 (x0 : Vec F S512x4096 .f32) : Vec F S512x4096 .bf16 :=
  View.canon [⟨r1_o3, k1_pay1 (View.ld x0 r1_x)⟩]

theorem cover1_2 (p0 : Vec F S512x256 .f32) (y : S512x256.Idx) :
    ∃ pc ∈ ([⟨r1_o2, p0⟩] : List (View.Piece (Elt F) S512x256 .f32)), y ∈ pc.1.set :=
  View.cover_of_tiled [⟨r1_o2, p0⟩] S512x256.size (by rfl) y

theorem cover1_3 (p0 : Vec F S512x4096 .bf16) (y : S512x4096.Idx) :
    ∃ pc ∈ ([⟨r1_o3, p0⟩] : List (View.Piece (Elt F) S512x4096 .bf16)), y ∈ pc.1.set :=
  View.cover_of_tiled [⟨r1_o3, p0⟩] S512x4096.size (by rfl) y

set_option maxHeartbeats 1000000 in

theorem sound_kernel1 (c : Dev nD) (E : Set ℕ) (i : grid1.Coords) (arg1 : Memref sig .tc .vmem S512x4096 .f32) (harg1 : arg1.IsWhole) (arg2 : Memref sig .tc .vmem S4096x256 .bf16) (harg2 : arg2.IsWhole) (arg3 : Memref sig .tc .vmem S512x256 .f32) (harg3 : arg3.IsWhole) (arg4 : Memref sig .tc .vmem S512x4096 .bf16) (harg4 : arg4.IsWhole)
    (x0 : Vec F S512x4096 .f32) (x1 : Vec F S4096x256 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0)) -∗ K ⟨⟩))
      ⊢ wp frame (wpE (defs₀ (F := F)) Variants.none c none) E (cc1__pass1_kernel i arg1 harg1 arg2 harg2 arg3 harg3 arg4 harg4) K := by
  simp only [cc1__pass1_kernel_eq_skeleton]; unfold cc1__pass1_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Rg

end
-- ==== Proof.KI.R2.lean ====
import proofs.«121997_g2000006886080560_pallasbulk_379_4_alg».proof.Proof.Gen.KernelIdeal.Launch
import proofs.«121997_g2000006886080560_pallasbulk_379_4_alg».proof.Proof.Gen.KernelIdeal.Skeleton
import proofs.«121997_g2000006886080560_pallasbulk_379_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S512x256 := Rect.unit (s := S512x256) ![0, 0] S512x256.size inb_S512x256_S512x256_0_0
abbrev r2_w : Rect S256x384 := Rect.unit (s := S256x384) ![0, 0] S256x384.size inb_S256x384_S256x384_0_0

abbrev r2_oa : Rect S512x640 := Rect.unit (s := S512x640) ![0, 0] S512x256.size inb_S512x640_S512x256_0_0

abbrev r2_ob : Rect S512x640 := Rect.unit (s := S512x640) ![0, 256] S512x384.size inb_S512x640_S512x384_0_256

def out2_2 (x0 : Vec F S512x256 .f32) (x1 : Vec F S256x384 .f32) : Vec F S512x640 .bf16 :=
  View.canon [⟨r2_ob, k2_pay2 (View.ld x0 r2_x) (View.ld x1 r2_w)⟩, ⟨r2_oa, k2_pay1 (View.ld x0 r2_x)⟩]

theorem cover2_2 (pb : Vec F S512x384 .bf16) (pa : Vec F S512x256 .bf16) (y : S512x640.Idx) :
    ∃ pc ∈ ([⟨r2_ob, pb⟩, ⟨r2_oa, pa⟩] : List (View.Piece (Elt F) S512x640 .bf16)), y ∈ pc.1.set :=
  View.cover_of_tiledBy [⟨r2_ob, pb⟩, ⟨r2_oa, pa⟩] ![512, 128] (by sl_kernel_rfl) y

set_option maxHeartbeats 1000000 in

theorem sound_kernel2 (c : Dev nD) (E : Set ℕ) (i : grid2.Coords) (arg1 : Memref sig .tc .vmem S512x256 .f32) (harg1 : arg1.IsWhole) (arg2 : Memref sig .tc .vmem S256x384 .f32) (harg2 : arg2.IsWhole) (arg3 : Memref sig .tc .vmem S512x640 .bf16) (harg3 : arg3.IsWhole)
    (x0 : Vec F S512x256 .f32) (x1 : Vec F S256x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__concat_support_kernel i arg1 harg1 arg2 harg2 arg3 harg3) K := by
  simp only [cc2__concat_support_kernel_eq_skeleton]; unfold cc2__concat_support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _ _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Rg

end
-- ==== Proof.KI.R3.lean ====
import proofs.«121997_g2000006886080560_pallasbulk_379_4_alg».proof.Proof.Gen.KernelIdeal.Launch
import proofs.«121997_g2000006886080560_pallasbulk_379_4_alg».proof.Proof.Gen.KernelIdeal.Skeleton
import proofs.«121997_g2000006886080560_pallasbulk_379_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S512x4096 := Rect.unit (s := S512x4096) ![0, 0] S512x4096.size inb_S512x4096_S512x4096_0_0
abbrev r3_w : Rect S4096x640 := Rect.unit (s := S4096x640) ![0, 0] S4096x640.size inb_S4096x640_S4096x640_0_0
abbrev r3_o2 : Rect S512x256 := Rect.unit (s := S512x256) ![0, 0] S512x256.size inb_S512x256_S512x256_0_0
abbrev r3_o3 : Rect S512x384 := Rect.unit (s := S512x384) ![0, 0] S512x384.size inb_S512x384_S512x384_0_0

def out3_2 (x0 : Vec F S512x4096 .bf16) (x1 : Vec F S4096x640 .bf16) : Vec F S512x256 .f32 :=
  View.canon [⟨r3_o2, k3_pay2 (View.ld x0 r3_x) (View.ld x1 r3_w)⟩]

def out3_3 (x0 : Vec F S512x4096 .bf16) (x1 : Vec F S4096x640 .bf16) : Vec F S512x384 .f32 :=
  View.canon [⟨r3_o3, k3_pay3 (View.ld x0 r3_x) (View.ld x1 r3_w)⟩]

theorem cover3_2 (p0 : Vec F S512x256 .f32) (y : S512x256.Idx) :
    ∃ pc ∈ ([⟨r3_o2, p0⟩] : List (View.Piece (Elt F) S512x256 .f32)), y ∈ pc.1.set :=
  View.cover_of_tiled [⟨r3_o2, p0⟩] S512x256.size (by rfl) y

theorem cover3_3 (p0 : Vec F S512x384 .f32) (y : S512x384.Idx) :
    ∃ pc ∈ ([⟨r3_o3, p0⟩] : List (View.Piece (Elt F) S512x384 .f32)), y ∈ pc.1.set :=
  View.cover_of_tiled [⟨r3_o3, p0⟩] S512x384.size (by rfl) y

set_option maxHeartbeats 1000000 in

theorem sound_kernel3 (c : Dev nD) (E : Set ℕ) (i : grid3.Coords) (arg1 : Memref sig .tc .vmem S512x4096 .bf16) (harg1 : arg1.IsWhole) (arg2 : Memref sig .tc .vmem S4096x640 .bf16) (harg2 : arg2.IsWhole) (arg3 : Memref sig .tc .vmem S512x256 .f32) (harg3 : arg3.IsWhole) (arg4 : Memref sig .tc .vmem S512x384 .f32) (harg4 : arg4.IsWhole)
    (x0 : Vec F S512x4096 .bf16) (x1 : Vec F S4096x640 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out3_2 x0 x1) ∗ owns (c : Thread nD τ) arg4 fullShare (out3_3 x0 x1)) -∗ K ⟨⟩))
      ⊢ wp frame (wpE (defs₀ (F := F)) Variants.none c none) E (cc3__adj_pair_kernel i arg1 harg1 arg2 harg2 arg3 harg3 arg4 harg4) K := by
  simp only [cc3__adj_pair_kernel_eq_skeleton]; unfold cc3__adj_pair_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover3_2 _)
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
    | ⟨3, _⟩ => out3_3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem after3_3 (c : Dev nD) (t : Fin cfg3.N) : (dat3 V c).after 3 t = out3_3 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

end Cert.KernelIdeal.Rg

end
-- ==== Proof.KI.R4.lean ====
import proofs.«121997_g2000006886080560_pallasbulk_379_4_alg».proof.Proof.Gen.KernelIdeal.Launch
import proofs.«121997_g2000006886080560_pallasbulk_379_4_alg».proof.Proof.Gen.KernelIdeal.Skeleton
import proofs.«121997_g2000006886080560_pallasbulk_379_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S512x384 := Rect.unit (s := S512x384) ![0, 0] S512x384.size inb_S512x384_S512x384_0_0
abbrev r4_w : Rect S384x512 := Rect.unit (s := S384x512) ![0, 0] S384x512.size inb_S384x512_S384x512_0_0

abbrev r4_oa : Rect S512x896 := Rect.unit (s := S512x896) ![0, 0] S512x384.size inb_S512x896_S512x384_0_0

abbrev r4_ob : Rect S512x896 := Rect.unit (s := S512x896) ![0, 384] S512x512.size inb_S512x896_S512x512_0_384

def out4_2 (x0 : Vec F S512x384 .f32) (x1 : Vec F S384x512 .f32) : Vec F S512x896 .bf16 :=
  View.canon [⟨r4_ob, k4_pay2 (View.ld x0 r4_x) (View.ld x1 r4_w)⟩, ⟨r4_oa, k4_pay1 (View.ld x0 r4_x)⟩]

theorem cover4_2 (pb : Vec F S512x512 .bf16) (pa : Vec F S512x384 .bf16) (y : S512x896.Idx) :
    ∃ pc ∈ ([⟨r4_ob, pb⟩, ⟨r4_oa, pa⟩] : List (View.Piece (Elt F) S512x896 .bf16)), y ∈ pc.1.set :=
  View.cover_of_tiledBy [⟨r4_ob, pb⟩, ⟨r4_oa, pa⟩] ![512, 128] (by sl_kernel_rfl) y

set_option maxHeartbeats 1000000 in

theorem sound_kernel4 (c : Dev nD) (E : Set ℕ) (i : grid4.Coords) (arg1 : Memref sig .tc .vmem S512x384 .f32) (harg1 : arg1.IsWhole) (arg2 : Memref sig .tc .vmem S384x512 .f32) (harg2 : arg2.IsWhole) (arg3 : Memref sig .tc .vmem S512x896 .bf16) (harg3 : arg3.IsWhole)
    (x0 : Vec F S512x384 .f32) (x1 : Vec F S384x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__concat_support_kernel i arg1 harg1 arg2 harg2 arg3 harg3) K := by
  simp only [cc4__concat_support_kernel_eq_skeleton]; unfold cc4__concat_support_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _ _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Rg

end
-- ==== Proof.KI.R5.lean ====
import proofs.«121997_g2000006886080560_pallasbulk_379_4_alg».proof.Proof.Gen.KernelIdeal.Launch
import proofs.«121997_g2000006886080560_pallasbulk_379_4_alg».proof.Proof.Gen.KernelIdeal.Skeleton
import proofs.«121997_g2000006886080560_pallasbulk_379_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_x : Rect S512x4096 := Rect.unit (s := S512x4096) ![0, 0] S512x4096.size inb_S512x4096_S512x4096_0_0
abbrev r5_w : Rect S4096x896 := Rect.unit (s := S4096x896) ![0, 0] S4096x896.size inb_S4096x896_S4096x896_0_0
abbrev r5_o2 : Rect S512x384 := Rect.unit (s := S512x384) ![0, 0] S512x384.size inb_S512x384_S512x384_0_0
abbrev r5_o3 : Rect S512x512 := Rect.unit (s := S512x512) ![0, 0] S512x512.size inb_S512x512_S512x512_0_0

def out5_2 (x0 : Vec F S512x4096 .bf16) (x1 : Vec F S4096x896 .bf16) : Vec F S512x384 .f32 :=
  View.canon [⟨r5_o2, k5_pay2 (View.ld x0 r5_x) (View.ld x1 r5_w)⟩]

def out5_3 (x0 : Vec F S512x4096 .bf16) (x1 : Vec F S4096x896 .bf16) : Vec F S512x512 .f32 :=
  View.canon [⟨r5_o3, k5_pay3 (View.ld x0 r5_x) (View.ld x1 r5_w)⟩]

theorem cover5_2 (p0 : Vec F S512x384 .f32) (y : S512x384.Idx) :
    ∃ pc ∈ ([⟨r5_o2, p0⟩] : List (View.Piece (Elt F) S512x384 .f32)), y ∈ pc.1.set :=
  View.cover_of_tiled [⟨r5_o2, p0⟩] S512x384.size (by rfl) y

theorem cover5_3 (p0 : Vec F S512x512 .f32) (y : S512x512.Idx) :
    ∃ pc ∈ ([⟨r5_o3, p0⟩] : List (View.Piece (Elt F) S512x512 .f32)), y ∈ pc.1.set :=
  View.cover_of_tiled [⟨r5_o3, p0⟩] S512x512.size (by rfl) y

set_option maxHeartbeats 1000000 in

theorem sound_kernel5 (c : Dev nD) (E : Set ℕ) (i : grid5.Coords) (arg1 : Memref sig .tc .vmem S512x4096 .bf16) (harg1 : arg1.IsWhole) (arg2 : Memref sig .tc .vmem S4096x896 .bf16) (harg2 : arg2.IsWhole) (arg3 : Memref sig .tc .vmem S512x384 .f32) (harg3 : arg3.IsWhole) (arg4 : Memref sig .tc .vmem S512x512 .f32) (harg4 : arg4.IsWhole)
    (x0 : Vec F S512x4096 .bf16) (x1 : Vec F S4096x896 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out5_2 x0 x1) ∗ owns (c : Thread nD τ) arg4 fullShare (out5_3 x0 x1)) -∗ K ⟨⟩))
      ⊢ wp frame (wpE (defs₀ (F := F)) Variants.none c none) E (cc5__adj_pair_kernel i arg1 harg1 arg2 harg2 arg3 harg3 arg4 harg4) K := by
  simp only [cc5__adj_pair_kernel_eq_skeleton]; unfold cc5__adj_pair_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover5_2 _)
  iexists _; isplitr
  swap; · iexact H3
  ipureintro
  exact View.read_writes_eq_canon _ _ _ (cover5_3 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
    | ⟨3, _⟩ => out5_3 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem after5_3 (c : Dev nD) (t : Fin cfg5.N) : (dat5 V c).after 3 t = out5_3 (iblk5 V c 0 t) (iblk5 V c 1 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation5 (c : Dev nD) : BodyObligation (dat5 (F := F) V c) (defs₀ (F := F)) Variants.none () Set.univ := fun t => by
  rw [bigSep_W5, bigSep_W5]
  exact sound_body5 V c t

end Cert.KernelIdeal.Rg

end
-- ==== Proof.KI.R6.lean ====
import proofs.«121997_g2000006886080560_pallasbulk_379_4_alg».proof.Proof.Gen.KernelIdeal.Launch
import proofs.«121997_g2000006886080560_pallasbulk_379_4_alg».proof.Proof.Gen.KernelIdeal.Skeleton
import proofs.«121997_g2000006886080560_pallasbulk_379_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S512x4096 := Rect.unit (s := S512x4096) ![0, 0] S512x4096.size inb_S512x4096_S512x4096_0_0
abbrev r6_w : Rect S4096x512 := Rect.unit (s := S4096x512) ![0, 0] S4096x512.size inb_S4096x512_S4096x512_0_0
abbrev r6_o : Rect S512x512 := Rect.unit (s := S512x512) ![0, 0] S512x512.size inb_S512x512_S512x512_0_0

def out6_2 (x0 : Vec F S512x4096 .bf16) (x1 : Vec F S4096x512 .bf16) : Vec F S512x512 .f32 :=
  View.canon [⟨r6_o, k6_pay1 (View.ld x0 r6_x) (View.ld x1 r6_w)⟩]

theorem cover6_2 (p0 : Vec F S512x512 .f32) (y : S512x512.Idx) :
    ∃ pc ∈ ([⟨r6_o, p0⟩] : List (View.Piece (Elt F) S512x512 .f32)), y ∈ pc.1.set :=
  View.cover_of_tiled [⟨r6_o, p0⟩] S512x512.size (by rfl) y

set_option maxHeartbeats 1000000 in

theorem sound_kernel6 (c : Dev nD) (E : Set ℕ) (i : grid6.Coords) (arg1 : Memref sig .tc .vmem S512x4096 .bf16) (harg1 : arg1.IsWhole) (arg2 : Memref sig .tc .vmem S4096x512 .bf16) (harg2 : arg2.IsWhole) (arg3 : Memref sig .tc .vmem S512x512 .f32) (harg3 : arg3.IsWhole)
    (x0 : Vec F S512x4096 .bf16) (x1 : Vec F S4096x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__adj_single_kernel i arg1 harg1 arg2 harg2 arg3 harg3) K := by
  simp only [cc6__adj_single_kernel_eq_skeleton]; unfold cc6__adj_single_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Rg

end
-- ==== Proof.KI.R7.lean ====
import proofs.«121997_g2000006886080560_pallasbulk_379_4_alg».proof.Proof.Gen.KernelIdeal.Launch
import proofs.«121997_g2000006886080560_pallasbulk_379_4_alg».proof.Proof.Gen.KernelIdeal.Skeleton
import proofs.«121997_g2000006886080560_pallasbulk_379_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_x : Rect S512x512 := Rect.unit (s := S512x512) ![0, 0] S512x512.size inb_S512x512_S512x512_0_0
abbrev r7_w : Rect S1024x512 := Rect.unit (s := S1024x512) ![0, 0] S1024x512.size inb_S1024x512_S1024x512_0_0
abbrev r7_o : Rect S512x1024 := Rect.unit (s := S512x1024) ![0, 0] S512x1024.size inb_S512x1024_S512x1024_0_0

def out7_2 (x0 : Vec F S512x512 .bf16) (x1 : Vec F S1024x512 .bf16) : Vec F S512x1024 .f32 :=
  View.canon [⟨r7_o, k7_pay1 (View.ld x0 r7_x) (View.ld x1 r7_w)⟩]

theorem cover7_2 (p0 : Vec F S512x1024 .f32) (y : S512x1024.Idx) :
    ∃ pc ∈ ([⟨r7_o, p0⟩] : List (View.Piece (Elt F) S512x1024 .f32)), y ∈ pc.1.set :=
  View.cover_of_tiled [⟨r7_o, p0⟩] S512x1024.size (by rfl) y

set_option maxHeartbeats 1000000 in

theorem sound_kernel7 (c : Dev nD) (E : Set ℕ) (i : grid7.Coords) (arg1 : Memref sig .tc .vmem S512x512 .bf16) (harg1 : arg1.IsWhole) (arg2 : Memref sig .tc .vmem S1024x512 .bf16) (harg2 : arg2.IsWhole) (arg3 : Memref sig .tc .vmem S512x1024 .f32) (harg3 : arg3.IsWhole)
    (x0 : Vec F S512x512 .bf16) (x1 : Vec F S1024x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__gram_sigmoid_kernel i arg1 harg1 arg2 harg2 arg3 harg3) K := by
  simp only [cc7__gram_sigmoid_kernel_eq_skeleton]; unfold cc7__gram_sigmoid_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q w := match w with
    | ⟨0, _⟩ => fullShare.left
    | ⟨1, _⟩ => fullShare.right
    | ⟨2, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.KernelIdeal.Rg

end
-- ==== Proof.KI.R7Shared.lean ====
import proofs.«121997_g2000006886080560_pallasbulk_379_4_alg».proof.Proof.KI.R7

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem arrImage7 : Finset.univ.image (Pipeline.arrRef spec7) = {main_v6, main_v8} := by decide

theorem v6_ne_v8 : main_v6 ≠ main_v8 := by decide

theorem bufs_split7 (c : Dev nD) (X : (b : Ref sig .tc) → Buf (Elt F) ((c : Thread nD τ).loc b)) :
    (unscopedBufs c X : sProp 𝕄)
      = iprop(((((c : Thread nD τ).loc main_v6) ↦{fullShare} X main_v6) ∗ (((c : Thread nD τ).loc main_v8) ↦{fullShare} X main_v8))
          ∗ Pipeline.unscopedRest spec7 c X) := by
  rw [Pipeline.unscopedBufs_split₀ (P := Unit) (fun _ => cfg7) () winFacts₀7.arr_unscoped c X]
  unfold Pipeline.arrBufs
  rw [arrImage7, bigSep_insert (by simpa using v6_ne_v8), bigSep_singleton]
  rfl

theorem arrays7_eq (c : Dev nD) (G : (w : Fin cfg7.W) → Buf (Elt F) ((cfg7.win w).arr.view.loc (c : Thread nD τ))) :
    ((dat7 V c).arrays G : sProp 𝕄)
      = iprop((((c : Thread nD τ).loc main_v6) ↦{fullShare.left} G 0) ∗ (((c : Thread nD τ).loc main_v6) ↦{fullShare.right} G 1)
          ∗ (((c : Thread nD τ).loc main_v8) ↦{fullShare} G 2)) := by
  unfold Dat.arrays
  rw [bigSep_W7, (arr_whole7 0).set_eq_univ, (arr_whole7 2).set_eq_univ]
  rfl

theorem arrays_of_bufs7 (c : Dev nD) :
    (unscopedBufs c (V c) : sProp 𝕄) ⊢ iprop((dat7 V c).arrays ((dat7 V c).arrAt · 0) ∗ Pipeline.unscopedRest spec7 c (V c)) := by
  rw [bufs_split7, arrays7_eq]
  iintro ⟨⟨H6, H8⟩, HR⟩
  ihave H6' := (pointsTo_share (PosShare.mem_left_op_right fullShare)).1 $$ H6
  icases H6' with ⟨Hl, Hr⟩
  isplitr [HR]
  · isplitl [Hl]; · iexact Hl
    isplitl [Hr]; · iexact Hr
    iexact H8
  · iexact HR

theorem rest_congr7 (c : Dev nD) (V' : (b : Ref sig .tc) → Buf (Elt F) ((c : Thread nD τ).loc b)) (hrest : ∀ b, b ≠ main_v8 → V' b = V c b) :
    (Pipeline.unscopedRest spec7 c V' : sProp 𝕄) = Pipeline.unscopedRest spec7 c (V c) := by
  unfold Pipeline.unscopedRest
  refine bigSep_congr fun b hb => ?_
  have hb' : b ∉ Finset.univ.image (Pipeline.arrRef spec7) := (Finset.mem_sdiff.mp hb).2
  rw [arrImage7] at hb'
  rw [hrest b (fun h => hb' (by rw [h]; simp))]

theorem bufs_of_arrays7 (c : Dev nD) (V' : (b : Ref sig .tc) → Buf (Elt F) ((c : Thread nD τ).loc b))
    (hout : V' main_v8 = (dat7 V c).arrAt 2 cfg7.N) (hrest : ∀ b, b ≠ main_v8 → V' b = V c b) :
    iprop((dat7 V c).arrays ((dat7 V c).arrAt · cfg7.N) ∗ Pipeline.unscopedRest spec7 c (V c)) ⊢ (unscopedBufs c V' : sProp 𝕄) := by
  rw [bufs_split7, arrays7_eq, rest_congr7 V c V' hrest, hout, hrest main_v6 v6_ne_v8,
    Dat.arrAt_in (dat7 V c) 0 rfl cfg7.N, Dat.arrAt_in (dat7 V c) 1 rfl cfg7.N]
  iintro ⟨⟨Hl, Hr, H8⟩, HR⟩
  isplitr [HR]
  · isplitr [H8]
    · iapply (pointsTo_share (PosShare.mem_left_op_right fullShare)).2
      isplitl [Hl]; · iexact Hl
      iexact Hr
    · iexact H8
  · iexact HR

end Cert.KernelIdeal.Rg

end
-- ==== Proof.KI.Run.lean ====
import proofs.«121997_g2000006886080560_pallasbulk_379_4_alg».proof.Proof.Step
import proofs.«121997_g2000006886080560_pallasbulk_379_4_alg».proof.Proof.KI.R0
import proofs.«121997_g2000006886080560_pallasbulk_379_4_alg».proof.Proof.KI.R1
import proofs.«121997_g2000006886080560_pallasbulk_379_4_alg».proof.Proof.KI.R2
import proofs.«121997_g2000006886080560_pallasbulk_379_4_alg».proof.Proof.KI.R3
import proofs.«121997_g2000006886080560_pallasbulk_379_4_alg».proof.Proof.KI.R4
import proofs.«121997_g2000006886080560_pallasbulk_379_4_alg».proof.Proof.KI.R5
import proofs.«121997_g2000006886080560_pallasbulk_379_4_alg».proof.Proof.KI.R6
import proofs.«121997_g2000006886080560_pallasbulk_379_4_alg».proof.Proof.KI.R7Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := Step.Wout dat0 (W0 m)
abbrev W2 : Dev nD → Valuation τ sig (Elt F) := Step.Wout dat1 (W1 m)
abbrev W3 : Dev nD → Valuation τ sig (Elt F) := Step.Wout dat2 (W2 m)
abbrev W4 : Dev nD → Valuation τ sig (Elt F) := Step.Wout dat3 (W3 m)
abbrev W5 : Dev nD → Valuation τ sig (Elt F) := Step.Wout dat4 (W4 m)
abbrev W6 : Dev nD → Valuation τ sig (Elt F) := Step.Wout dat5 (W5 m)

abbrev W7 : Dev nD → Valuation τ sig (Elt F) := fun c => StableHlo.after hostOps6 (W6 m c)
abbrev W8 : Dev nD → Valuation τ sig (Elt F) := Step.Wout dat6 (W7 m)

abbrev rd (W : Dev nD → Valuation τ sig (Elt F)) : (c : Dev nD) → (b : Ref sig .tc) → Buf (Elt F) ((c : Thread nD τ).loc b) := fun c b => W c b

def W9 (c : Dev nD) : Valuation τ sig (Elt F) :=
  Function.update (W8 m c) main_v8 ((dat7 (rd (W8 m)) c).arrAt 2 cfg7.N)
theorem W9_out (c : Dev nD) : rd (W9 m) c main_v8 = (dat7 (rd (W8 m)) c).arrAt 2 cfg7.N := by
  show Function.update (W8 m c) main_v8 _ main_v8 = _
  exact Function.update_self ..
theorem W9_rest (c : Dev nD) (b : Ref sig .tc) (hb : b ≠ main_v8) : rd (W9 m) c b = rd (W8 m) c b := by
  show Function.update (W8 m c) main_v8 _ (Proc.devRef .tc b) = _
  exact Function.update_of_ne (StableHlo.devRef_ne_of_ne hb) ..

abbrev adm : (p : Fin 8) → (pcfgs (F := F) p).Adm := fun p => (cfgs p).toPCfg_adm

def pdats : (p : Fin 8) → (c : Dev nD) → Dat τ (Elt F) Unit ℕ (UR sig nD τ) ℕ (Pipeline.pin (pcfgs (F := F)) adm p) c
  | ⟨0, _⟩ => fun c => dat0 (rd (W0 m)) c
  | ⟨1, _⟩ => fun c => dat1 (rd (W1 m)) c
  | ⟨2, _⟩ => fun c => dat2 (rd (W2 m)) c
  | ⟨3, _⟩ => fun c => dat3 (rd (W3 m)) c
  | ⟨4, _⟩ => fun c => dat4 (rd (W4 m)) c
  | ⟨5, _⟩ => fun c => dat5 (rd (W5 m)) c
  | ⟨6, _⟩ => fun c => dat6 (rd (W7 m)) c
  | ⟨7, _⟩ => fun c => dat7 (rd (W8 m)) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev T (W : Dev nD → Valuation τ sig (Elt F)) (c : Dev nD) : sProp 𝕄 :=
  iprop(StableHlo.held (c : Thread nD τ) (Pipeline.ucRefs τ sig) (W c) ∗ R c)

theorem hostOps6_fresh : (hostOps6 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def mkReg (p : Fin 8) (hl : Pipeline.LaunchFacts (nD := nD) (τ := τ) cfgs p)
    (Win Wout : Dev nD → Valuation τ sig (Elt F))
    (hbody : ∀ c, BodyObligation (pdats m p c) (defs₀ (F := F)) Variants.none () Set.univ)
    (hA : ∀ c w, (pdats m p c).A w = Win c (Pipeline.arrRef (cfgs p).spec w))
    (hq : ∀ c w, (pdats m p c).q w = fullShare) (howed : ∀ c t, (pdats m p c).owed t = 0)
    (hrec : ∀ c t, (pdats m p c).recorded t = Set.univ)
    (hΦin : ∀ c, Pipeline.ΦA (cfgs p).spec c ⊢ (pdats m p c).Φ 0)
    (hΦout : ∀ c, (pdats m p c).Φ (Fin.last _) ⊢ Pipeline.ΦA (cfgs p).spec c)
    (hF : ∀ c w, (pdats m p c).arrAt w (cfgs p).N = Wout c (Pipeline.arrRef (cfgs p).spec w))
    (hrest : ∀ c (b : Ref sig .tc), b ∉ Finset.univ.image (Pipeline.arrRef (cfgs p).spec) → Wout c b = Win c b) :
    Pipeline.RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre := T Win
  post := T Wout
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) hl.win hl.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    refine BIBase.Entails.trans (hΦout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L lv 0 :=
  mkReg m 0 launch0 (W0 m) (W1 m) (body_obligation0 (rd (W0 m))) (A_eq0 (rd (W0 m)))
    (fun _ _ => rfl) (fun _ _ => rfl) (fun _ _ => rfl) (fun _ => .rfl) (fun _ => .rfl) (Step.hF dat0 launch0.win.arr_inj (W0 m)) (Step.hrest dat0 (W0 m))
def reg1 : Pipeline.RegionSeg (pcfgs (F := F)) adm (pdats m) () defs₀ 𝒱₀ L lv 1 :=
  mkReg m 1 launch1 (W1 m) (W2 m) (body_obligation1 (rd (W1 m))) (A_eq1 (rd (W1 m)))
    (fun _ _ => rfl) (fun _ _ => rfl) (fun _ _ => rfl) (fun _ => .rfl) (fun _ => .rfl) (Step.hF dat1 launch1.win.arr_inj (W1 m)) (Step.hrest dat1 (W1 m))
def reg2 : Pipeline.RegionSeg (pcfgs (F := F)) adm (pdats m) () defs₀ 𝒱₀ L lv 2 :=
  mkReg m 2 launch2 (W2 m) (W3 m) (body_obligation2 (rd (W2 m))) (A_eq2 (rd (W2 m)))
    (fun _ _ => rfl) (fun _ _ => rfl) (fun _ _ => rfl) (fun _ => .rfl) (fun _ => .rfl) (Step.hF dat2 launch2.win.arr_inj (W2 m)) (Step.hrest dat2 (W2 m))
def reg3 : Pipeline.RegionSeg (pcfgs (F := F)) adm (pdats m) () defs₀ 𝒱₀ L lv 3 :=
  mkReg m 3 launch3 (W3 m) (W4 m) (body_obligation3 (rd (W3 m))) (A_eq3 (rd (W3 m)))
    (fun _ _ => rfl) (fun _ _ => rfl) (fun _ _ => rfl) (fun _ => .rfl) (fun _ => .rfl) (Step.hF dat3 launch3.win.arr_inj (W3 m)) (Step.hrest dat3 (W3 m))
def reg4 : Pipeline.RegionSeg (pcfgs (F := F)) adm (pdats m) () defs₀ 𝒱₀ L lv 4 :=
  mkReg m 4 launch4 (W4 m) (W5 m) (body_obligation4 (rd (W4 m))) (A_eq4 (rd (W4 m)))
    (fun _ _ => rfl) (fun _ _ => rfl) (fun _ _ => rfl) (fun _ => .rfl) (fun _ => .rfl) (Step.hF dat4 launch4.win.arr_inj (W4 m)) (Step.hrest dat4 (W4 m))
def reg5 : Pipeline.RegionSeg (pcfgs (F := F)) adm (pdats m) () defs₀ 𝒱₀ L lv 5 :=
  mkReg m 5 launch5 (W5 m) (W6 m) (body_obligation5 (rd (W5 m))) (A_eq5 (rd (W5 m)))
    (fun _ _ => rfl) (fun _ _ => rfl) (fun _ _ => rfl) (fun _ => .rfl) (fun _ => .rfl) (Step.hF dat5 launch5.win.arr_inj (W5 m)) (Step.hrest dat5 (W5 m))
def reg6 : Pipeline.RegionSeg (pcfgs (F := F)) adm (pdats m) () defs₀ 𝒱₀ L lv 6 :=
  mkReg m 6 launch6 (W7 m) (W8 m) (body_obligation6 (rd (W7 m))) (A_eq6 (rd (W7 m)))
    (fun _ _ => rfl) (fun _ _ => rfl) (fun _ _ => rfl) (fun _ => .rfl) (fun _ => .rfl) (Step.hF dat6 launch6.win.arr_inj (W7 m)) (Step.hrest dat6 (W7 m))

abbrev Tₙ (c : Dev nD) : sProp 𝕄 := iprop(StableHlo.held (c : Thread nD τ) (Pipeline.ucRefs τ sig) (W9 m c) ∗ ∃ r, prngReg c r)

set_option backward.isDefEq.respectTransparency.types false in

def reg7 : Pipeline.RegionSeg (pcfgs (F := F)) adm (pdats m) () defs₀ 𝒱₀ L lv 7 where
  win := winFacts₀7
  block_pos := block_pos7
  stage_whole := stage_whole7
  K := PEmpty
  osem k := k.elim
  ho := Pipeline.OwnSemFacts.none _
  hbody c := (body_obligation7 (rd (W8 m)) c).loose
  hwaits := Pipeline.hwaits_of_owed_zero _ _ _ _ L lv 7 fun _ _ => rfl
  pre := T (W8 m)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec7 c (rd (W8 m) c)
  hentry c := by
    rw [Pipeline.ownSems0_none]
    have hsplit := arrays_of_bufs7 (rd (W8 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := bufs_of_arrays7 (rd (W8 m)) c (rd (W9 m) c) (W9_out m c) (fun b hb => W9_rest m c b hb)
    rw [Pipeline.unscopedBufs_held] at hjoin
    iintro ⟨Ha, HO, HY, Hrest⟩
    imodintro
    isplitl [Ha Hrest HY]
    · isplitl [Ha Hrest]
      · iapply hjoin
        isplitl [Ha]
        · iexact Ha
        · iexact Hrest
      iexact HY
    unfold Pipeline.Dat.owesAt Pipeline.owesWithin
    icases HO with ⟨%W, -, HO⟩; iexists W; iexact HO

abbrev hseg6 : Pipeline.HostSeg (Name := ℕ) (U := UR sig nD τ) (pcfgs (F := F)) defs₀ 𝒱₀ L lv :=
  Pipeline.HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (W6 m) R

abbrev segs : List (Pipeline.Seg (pcfgs (F := F)) adm (pdats m) () defs₀ 𝒱₀ L lv) :=
  [ .region (reg0 m), .region (reg1 m), .region (reg2 m), .region (reg3 m), .region (reg4 m), .region (reg5 m),
    .host (hseg6 m), .region (reg6 m), .region (reg7 m) ]

theorem main_run (c : Dev nD) : main (F := F) c = Pipeline.Seg.run (segs m) := (main_chain c).trans (by chain_rfl)

variable (ρ : Dev nD → PrngReg)

set_option backward.isDefEq.respectTransparency.types false in

theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = rd (W9 m) c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c b hb => h c _ (mem_uc b hb))

end Cert.KernelIdeal.Rg

end
-- ==== Proof.KI.Frame.lean ====
import proofs.«121997_g2000006886080560_pallasbulk_379_4_alg».proof.Proof.KI.Run

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev hostOps6_W : List (Ref sig .tc) := [main_v6]
theorem hostOps6_writes : (hostOps6 : List (HloOp τ sig (Elt F))).Forall fun op => op.writes ⊆ (hostOps6_W.map (Proc.devRef (τ := τ) .tc)).toFinset := by
  simp only [List.Forall]; exact (by simp only [StableHlo.unary_writes, Finset.singleton_subset_iff, List.mem_toFinset]; exact List.mem_map_of_mem (by decide))

theorem W7_keep (c : Dev nD) (b : Ref sig .tc) (h : b ∉ hostOps6_W) : rd (W7 m) c b = rd (W6 m) c b :=
  StableHlo.after_of_writes_sub hostOps6 _ hostOps6_writes h

theorem kept_of (c : Dev nD) (b : Ref sig .tc)
    (h0 : ∀ w, (cfg0.win w).isOut = true → Pipeline.arrRef spec0 w ≠ b)
    (h1 : ∀ w, (cfg1.win w).isOut = true → Pipeline.arrRef spec1 w ≠ b)
    (h2 : ∀ w, (cfg2.win w).isOut = true → Pipeline.arrRef spec2 w ≠ b)
    (h3 : ∀ w, (cfg3.win w).isOut = true → Pipeline.arrRef spec3 w ≠ b)
    (h4 : ∀ w, (cfg4.win w).isOut = true → Pipeline.arrRef spec4 w ≠ b)
    (h5 : ∀ w, (cfg5.win w).isOut = true → Pipeline.arrRef spec5 w ≠ b)
    (hh : b ∉ hostOps6_W)
    (h6 : ∀ w, (cfg6.win w).isOut = true → Pipeline.arrRef spec6 w ≠ b)
    (h7 : b ≠ main_v8) : rd (W9 m) c b = m ((c : Thread nD τ).loc b) :=
  (W9_rest m c b h7).trans <| (Step.keep dat6 launch6.win.arr_inj A_eq6 (W7 m) c b h6).trans <| (W7_keep m c b hh).trans <| (Step.keep dat5 launch5.win.arr_inj A_eq5 (W5 m) c b h5).trans <|
    (Step.keep dat4 launch4.win.arr_inj A_eq4 (W4 m) c b h4).trans <| (Step.keep dat3 launch3.win.arr_inj A_eq3 (W3 m) c b h3).trans <| (Step.keep dat2 launch2.win.arr_inj A_eq2 (W2 m) c b h2).trans <| (Step.keep dat1 launch1.win.arr_inj A_eq1 (W1 m) c b h1).trans <|
    (Step.keep dat0 launch0.win.arr_inj A_eq0 (W0 m) c b h0).trans rfl

theorem arg_kept (c : Dev nD) (b : Ref sig .tc) (hb : b ∈ [main_arg0, main_arg1, main_arg2, main_arg3, main_arg4]) :
    rd (W9 m) c b = m ((c : Thread nD τ).loc b) := by
  simp only [List.mem_cons, List.not_mem_nil, or_false] at hb
  rcases hb with rfl | rfl | rfl | rfl | rfl <;> exact kept_of m c _ (by decide) (by decide) (by decide) (by decide) (by decide) (by decide) (by decide) (by decide) (by decide)

variable (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c main_arg0 (by decide)).trans (arg_kept m c _ (by decide)), (h c main_arg1 (by decide)).trans (arg_kept m c _ (by decide)),
     (h c main_arg2 (by decide)).trans (arg_kept m c _ (by decide)), (h c main_arg3 (by decide)).trans (arg_kept m c _ (by decide)),
     (h c main_arg4 (by decide)).trans (arg_kept m c _ (by decide))⟩) (run m ρ)

end Cert.KernelIdeal.Rg

end
-- ==== Proof.RI.R0.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S256x128 := Rect.unit (s := S256x128) ![0, 0] S256x128.size inb_S256x128_S256x128_0_0
abbrev r0_w : Rect S128x256 := Rect.unit (s := S128x256) ![0, 0] S128x256.size inb_S128x256_S128x256_0_0
abbrev r0_o : Rect S256x256 := Rect.unit (s := S256x256) ![0, 0] S256x256.size inb_S256x256_S256x256_0_0

def out0_2 (x0 : Vec F S256x128 .f32) (x1 : Vec F S128x256 .f32) : Vec F S256x256 .f32 :=
  View.canon [⟨r0_o, k0_pay1 (View.ld x0 r0_x) (View.ld x1 r0_w)⟩]

theorem cover0_2 (p0 : Vec F S256x256 .f32) (y : S256x256.Idx) :
    ∃ pc ∈ ([⟨r0_o, p0⟩] : List (View.Piece (Elt F) S256x256 .f32)), y ∈ pc.1.set :=
  View.cover_of_tiled [⟨r0_o, p0⟩] S256x256.size (by rfl) y

set_option maxHeartbeats 1000000 in

theorem sound_kernel0 (c : Dev nD) (E : Set ℕ) (i : grid0.Coords) (arg1 : Memref sig .tc .vmem S256x128 .f32) (harg1 : arg1.IsWhole) (arg2 : Memref sig .tc .vmem S128x256 .f32) (harg2 : arg2.IsWhole) (arg3 : Memref sig .tc .vmem S256x256 .f32) (harg3 : arg3.IsWhole)
    (x0 : Vec F S256x128 .f32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_noacc_kernel i arg1 harg1 arg2 harg2 arg3 harg3) K := by
  simp only [cc0__matmul_noacc_kernel_eq_skeleton]; unfold cc0__matmul_noacc_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.ReferenceIdeal.Rg

end
-- ==== Proof.RI.R1a.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_first (i : grid1.Coords) : Prop :=
  (Scalar.cmpi .ne (Scalar.extui (Scalar.cmpi .eq (BitVec.ofNat 32 (i 2).val) 0#32)) 0#32) = 1#1

abbrev cond1_last (i : grid1.Coords) : Prop := k1_cond2 i = 1#1

theorem hcond1_first : ∀ t : Fin cfg1.N, cond1_first (grid1.coords t) ↔ t.val % 8 = 0 :=
  (by decide +kernel : ∀ t : Fin grid1.N, cond1_first (grid1.coords t) ↔ t.val % 8 = 0)

theorem hcond1_last : ∀ t : Fin cfg1.N, cond1_last (grid1.coords t) ↔ t.val % 8 = 7 :=
  (by decide +kernel : ∀ t : Fin grid1.N, cond1_last (grid1.coords t) ↔ t.val % 8 = 7)

theorem zero_off1 : (![0, 0] : Fin 2 → Nat) = fun _ => 0 := funext fun a => by fin_cases a <;> rfl

theorem ld_a1 (X : Vec F S256x512 .f32) :
    View.ld X (Rect.unit (s := S256x512) ![0, 0] S256x512.size inb_S256x512_S256x512_0_0) = X :=
  View.ld_unit_zero zero_off1 _ X

theorem ld_b1 (X : Vec F S512x256 .f32) :
    View.ld X (Rect.unit (s := S512x256) ![0, 0] S512x256.size inb_S512x256_S512x256_0_0) = X :=
  View.ld_unit_zero zero_off1 _ X

theorem ld_acc1 (X : Vec F S256x256 .f32) :
    View.ld X (Rect.unit (s := S256x256) ![0, 0] S256x256.size inb_S256x256_S256x256_0_0) = X :=
  View.ld_unit_zero zero_off1 _ X

theorem readCov_acc1 (v : View sig .tc .vmem S256x256 .f32) (w : Vec F S256x256 .f32) :
    v.readCov [(⟨Rect.unit (s := S256x256) ![0, 0] S256x256.size inb_S256x256_S256x256_0_0, w⟩ : View.Piece (Elt F) S256x256 .f32)]
      (Rect.unit (s := S256x256) ![0, 0] S256x256.size inb_S256x256_S256x256_0_0).toLoadRect = w :=
  View.readCov_unit_zero v zero_off1 _ w

theorem read_store_acc1 (v : View sig .tc .vmem S256x256 .f32) (f : v.ty.Contents (Elt F)) (w : Vec F S256x256 .f32)
    (L : List (View.Piece (Elt F) S256x256 .f32)) :
    v.read (Elt F) (v.writes (Elt F) f
      ((⟨Rect.unit (s := S256x256) ![0, 0] S256x256.size inb_S256x256_S256x256_0_0, w⟩ : View.Piece (Elt F) S256x256 .f32) :: L)) = w := by
  rw [View.read_writes_eq_canon _ _ _ (fun y => ⟨_, List.mem_cons_self,
      View.mem_set_unit_zero zero_off1 inb_S256x256_S256x256_0_0 y⟩), View.canon_cons_unit_zero zero_off1]

set_option maxHeartbeats 1000000 in

theorem sound_kernel1_first (c : Dev nD) (E : Set ℕ) (i : grid1.Coords) (hf : cond1_first i) (hl : ¬ cond1_last i)
    (arg3 : Memref sig .tc .vmem S256x512 .f32) (harg3 : arg3.IsWhole) (arg4 : Memref sig .tc .vmem S512x256 .f32) (harg4 : arg4.IsWhole)
    (arg5 : Memref sig .tc .vmem S256x256 .f32) (harg5 : arg5.IsWhole) (arg6 : Memref sig .tc .vmem S256x256 .f32) (harg6 : arg6.IsWhole)
    (x0 : Vec F S256x512 .f32) (x1 : Vec F S512x256 .f32) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1
              ∗ owns (c : Thread nD τ) arg6 fullShare (k1_pay2 k1_pay1 x0 x1)) -∗ K ⟨⟩))
      ⊢ wp frame (wpE (defs₀ (F := F)) Variants.none c none) E (cc1__matmul_acc_kernel i arg3 harg3 arg4 harg4 arg5 harg5 arg6 harg6) K := by
  simp only [cc1__matmul_acc_kernel_eq_skeleton]; unfold cc1__matmul_acc_kernel_skel
  unfold owns
  iintro ⟨⟨%f0, %hf0, H0⟩, ⟨%f1, %hf1, H1⟩, ⟨%d2, %f2, -, H2⟩, Hk⟩
  subst hf0 hf1
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_store_acc1]
  sl_unfold_words
  rw [readCov_acc1, View.readAt_eq_ld, View.readAt_eq_ld, ld_a1, ld_b1]

set_option maxHeartbeats 1000000 in

theorem sound_kernel1_mid (c : Dev nD) (E : Set ℕ) (i : grid1.Coords) (hf : ¬ cond1_first i) (hl : ¬ cond1_last i)
    (arg3 : Memref sig .tc .vmem S256x512 .f32) (harg3 : arg3.IsWhole) (arg4 : Memref sig .tc .vmem S512x256 .f32) (harg4 : arg4.IsWhole)
    (arg5 : Memref sig .tc .vmem S256x256 .f32) (harg5 : arg5.IsWhole) (arg6 : Memref sig .tc .vmem S256x256 .f32) (harg6 : arg6.IsWhole)
    (x0 : Vec F S256x512 .f32) (x1 : Vec F S512x256 .f32) (s : Vec F S256x256 .f32) (K : PUnit → sProp 𝕄) :
    iprop(owns (c : Thread nD τ) arg3 fullShare x0 ∗ owns (c : Thread nD τ) arg4 fullShare x1 ∗ owns (c : Thread nD τ) arg6 fullShare s
        ∗ (iprop(owns (c : Thread nD τ) arg3 fullShare x0 ∗ owns (c : Thread nD τ) arg4 fullShare x1
              ∗ owns (c : Thread nD τ) arg6 fullShare (k1_pay2 s x0 x1)) -∗ K ⟨⟩))
      ⊢ wp frame (wpE (defs₀ (F := F)) Variants.none c none) E (cc1__matmul_acc_kernel i arg3 harg3 arg4 harg4 arg5 harg5 arg6 harg6) K := by
  simp only [cc1__matmul_acc_kernel_eq_skeleton]; unfold cc1__matmul_acc_kernel_skel
  unfold owns
  iintro ⟨⟨%f0, %hf0, H0⟩, ⟨%f1, %hf1, H1⟩, ⟨%f2, %hf2, H2⟩, Hk⟩
  subst hf0 hf1 hf2
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_store_acc1]
  sl_unfold_words
  rw [View.readAt_eq_ld, View.readAt_eq_ld, View.readAt_eq_ld, ld_acc1, ld_a1, ld_b1]

set_option maxHeartbeats 1000000 in

theorem sound_kernel1_last (c : Dev nD) (E : Set ℕ) (i : grid1.Coords) (hf : ¬ cond1_first i) (hl : cond1_last i)
    (arg3 : Memref sig .tc .vmem S256x512 .f32) (harg3 : arg3.IsWhole) (arg4 : Memref sig .tc .vmem S512x256 .f32) (harg4 : arg4.IsWhole)
    (arg5 : Memref sig .tc .vmem S256x256 .f32) (harg5 : arg5.IsWhole) (arg6 : Memref sig .tc .vmem S256x256 .f32) (harg6 : arg6.IsWhole)
    (x0 : Vec F S256x512 .f32) (x1 : Vec F S512x256 .f32) (s : Vec F S256x256 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
              ∗ owns (c : Thread nD τ) arg5 fullShare (k1_pay2 s x0 x1) ∗ owns (c : Thread nD τ) arg6 fullShare (k1_pay2 s x0 x1)) -∗ K ⟨⟩))
      ⊢ wp frame (wpE (defs₀ (F := F)) Variants.none c none) E (cc1__matmul_acc_kernel i arg3 harg3 arg4 harg4 arg5 harg5 arg6 harg6) K := by
  simp only [cc1__matmul_acc_kernel_eq_skeleton]; unfold cc1__matmul_acc_kernel_skel
  unfold owns
  iintro ⟨⟨%f0, %hf0, H0⟩, ⟨%f1, %hf1, H1⟩, ⟨%d3, %f3, -, H3⟩, ⟨%f2, %hf2, H2⟩, Hk⟩
  subst hf0 hf1 hf2
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [read_store_acc1]
    sl_unfold_words
    rw [readCov_acc1, View.readAt_eq_ld, View.readAt_eq_ld, View.readAt_eq_ld, ld_acc1, ld_a1, ld_b1]
  iexists _; isplitr
  swap; · iexact H2
  ipureintro
  sl_unfold_words
  rw [read_store_acc1]
  rw [View.readAt_eq_ld, View.readAt_eq_ld, View.readAt_eq_ld, ld_acc1, ld_a1, ld_b1]

end Cert.ReferenceIdeal.Rg

end
-- ==== Proof.RI.R1.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import proofs.«121997_g2000006886080560_pallasbulk_379_4_alg».proof.Proof.RI.R1a
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def accAt1 (c : Dev nD) : (n : ℕ) → n < cfg1.N → Vec F S256x256 .f32
  | 0, hn => k1_pay2 k1_pay1 (iblk1 V c 0 ⟨0, hn⟩) (iblk1 V c 1 ⟨0, hn⟩)
  | n + 1, hn =>
    if (n + 1) % 8 = 0 then k1_pay2 k1_pay1 (iblk1 V c 0 ⟨n + 1, hn⟩) (iblk1 V c 1 ⟨n + 1, hn⟩)
    else k1_pay2 (accAt1 c n (Nat.lt_of_succ_lt hn)) (iblk1 V c 0 ⟨n + 1, hn⟩) (iblk1 V c 1 ⟨n + 1, hn⟩)

theorem accAt1_first (c : Dev nD) (t : Fin cfg1.N) (h : t.val % 8 = 0) :
    accAt1 V c t.val t.isLt = k1_pay2 k1_pay1 (iblk1 V c 0 t) (iblk1 V c 1 t) := by
  obtain ⟨n, hn⟩ := t
  cases n with
  | zero => rfl
  | succ n => exact if_pos h

theorem accAt1_step (c : Dev nD) (t : Fin cfg1.N) (h : t.val % 8 ≠ 0) :
    accAt1 V c t.val t.isLt
      = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

abbrev scM1 : Memref sig .tc .vmem S256x256 .f32 := Memref.whole cc1_scratch0

theorem PhiA1_eq (c : Dev nD) :
    (Pipeline.ΦA spec1 c : sProp 𝕄)
      = iprop((iprop(∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; try rfl

def PhiS1 (c : Dev nD) : (n : ℕ) → n ≤ cfg1.N → sProp 𝕄
  | 0, _ => Pipeline.ΦA spec1 c
  | n + 1, hn => iprop((owns (c : Thread nD τ) scM1 fullShare (accAt1 V c n hn)
      ∗ Pipeline.scopedRestBut (Ix := Unit) (Name := ℕ) (U := UR sig nD τ) (Lvl := ℕ) (Val := Elt F) spec1 c [cc1_scratch0])
      ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1 fullShare (accAt1 V c n hn)
      ∗ Pipeline.scopedRestBut (Ix := Unit) (Name := ℕ) (U := UR sig nD τ) (Lvl := ℕ) (Val := Elt F) spec1 c [cc1_scratch0])
      ∗ (∃ r, prngReg c r)) := rfl

theorem PhiS1_pos (c : Dev nD) (n : ℕ) (h : n ≤ cfg1.N) (hz : n ≠ 0) :
    PhiS1 V c n h = iprop((owns (c : Thread nD τ) scM1 fullShare (accAt1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

theorem PhiS1_any (c : Dev nD) (n : ℕ) (h : n ≤ cfg1.N) :
    PhiS1 V c n h ⊢ iprop((iprop(∃ d, owns (c : Thread nD τ) scM1 fullShare d)
      ∗ Pipeline.scopedRestBut (Ix := Unit) (Name := ℕ) (U := UR sig nD τ) (Lvl := ℕ) (Val := Elt F) spec1 c [cc1_scratch0])
      ∗ (∃ r, prngReg c r)) := by
  cases n with
  | zero => rw [PhiS1_zero V c 0 h rfl, PhiA1_eq]; try exact Idealize.SL.BI.Entails.refl _
  | succ n =>
    rw [PhiS1_succ]
    iintro ⟨⟨HS, HR⟩, Hg⟩
    isplitr [Hg]
    · isplitl [HS]
      · iexists _; iexact HS
      iexact HR
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem Phi1_castSucc (c : Dev nD) (t : Fin cfg1.N) :
    (dat1 V c).Φ t.castSucc = PhiS1 V c t.val (Nat.le_of_lt t.isLt) := by
  dsimp only [dat1]; simp only [Fin.coe_castSucc]

theorem idleAt1_2 : ∀ t : Fin cfg1.N, t.val % 8 ≠ 7 → cfg1.idle 2 (grid1.coords t) = true :=
  (by decide +kernel : ∀ t : Fin grid1.N, t.val % 8 ≠ 7 → idle1 2 (grid1.coords t) = true)

theorem noFlush1_2 (t : Fin cfg1.N) (h : t.val % 8 ≠ 7) : (cfg1.win 2).flush t = false :=
  Bool.eq_false_iff.mpr fun hf => h ((flush1_2 t).mp hf)

theorem liveAt1_2 : ∀ t : Fin cfg1.N, t.val % 8 = 7 → cfg1.idle 2 (grid1.coords t) = false :=
  (by decide +kernel : ∀ t : Fin grid1.N, t.val % 8 = 7 → idle1 2 (grid1.coords t) = false)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

set_option maxHeartbeats 1000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = PhiS1 V c (t.val + 1) t.isLt from rfl, PhiS1_succ,
    Phi1_castSucc, after1_0, after1_1]
  by_cases h0 : t.val % 8 = 0
  ·
    have h7 : t.val % 8 ≠ 7 := by omega
    rw [Dat.leavesExact_idle (dat1 V c) 2 t (idleAt1_2 t h7) (noFlush1_2 t h7), accAt1_first V c t h0]
    iintro ⟨HΦ, Ho, ⟨%d0, H0⟩, ⟨%d1, H1⟩, H2⟩
    icases (PhiS1_any V c _ _) $$ HΦ with ⟨⟨HS, HR⟩, Hg⟩
    iapply (sound_kernel1_first c Set.univ (grid1.coords t) ((hcond1_first t).mpr h0) (fun h => h7 ((hcond1_last t).mp h))
      _ _ _ _ _ _ _ _ (iblk1 V c 0 t) (iblk1 V c 1 t) _)
    isplitl [H0]; · iexact H0
    isplitl [H1]; · iexact H1
    isplitl [HS]; · iexact HS
    iintro ⟨H0, H1, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2
  · have hz : t.val ≠ 0 := fun h => h0 (by rw [h])
    rw [PhiS1_pos V c _ _ hz, accAt1_step V c t h0]
    by_cases h7 : t.val % 8 = 7
    ·
      rw [show (dat1 V c).leavesExact 2 t = owns (c : Thread nD τ) (st1_2 t) fullShare ((dat1 V c).after 2 t) from by
        unfold Dat.leavesExact; rw [liveAt1_2 t h7], after1_2, accAt1_step V c t h0]
      iintro ⟨⟨⟨HS, HR⟩, Hg⟩, Ho, ⟨%d0, H0⟩, ⟨%d1, H1⟩, ⟨%d2, H2⟩⟩
      iapply (sound_kernel1_last c Set.univ (grid1.coords t) (fun h => h0 ((hcond1_first t).mp h)) ((hcond1_last t).mpr h7)
        _ _ _ _ _ _ _ _ (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    ·
      rw [Dat.leavesExact_idle (dat1 V c) 2 t (idleAt1_2 t h7) (noFlush1_2 t h7)]
      iintro ⟨⟨⟨HS, HR⟩, Hg⟩, Ho, ⟨%d0, H0⟩, ⟨%d1, H1⟩, H2⟩
      iapply (sound_kernel1_mid c Set.univ (grid1.coords t) (fun h => h0 ((hcond1_first t).mp h)) (fun h => h7 ((hcond1_last t).mp h))
        _ _ _ _ _ _ _ _ (iblk1 V c 0 t) (iblk1 V c 1 t) _ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_any V c _ _

end Cert.ReferenceIdeal.Rg

end
-- ==== Proof.RI.R2.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import proofs.«121997_g2000006886080560_pallasbulk_379_4_alg».proof.Proof.RI.R1a
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def accAt2 (c : Dev nD) : (n : ℕ) → n < cfg2.N → Vec F S256x256 .f32
  | 0, hn => k2_pay2 k2_pay1 (iblk2 V c 0 ⟨0, hn⟩) (iblk2 V c 1 ⟨0, hn⟩)
  | n + 1, hn =>
    if (n + 1) % 8 = 0 then k2_pay2 k2_pay1 (iblk2 V c 0 ⟨n + 1, hn⟩) (iblk2 V c 1 ⟨n + 1, hn⟩)
    else k2_pay2 (accAt2 c n (Nat.lt_of_succ_lt hn)) (iblk2 V c 0 ⟨n + 1, hn⟩) (iblk2 V c 1 ⟨n + 1, hn⟩)

theorem accAt2_first (c : Dev nD) (t : Fin cfg2.N) (h : t.val % 8 = 0) :
    accAt2 V c t.val t.isLt = k2_pay2 k2_pay1 (iblk2 V c 0 t) (iblk2 V c 1 t) := by
  obtain ⟨n, hn⟩ := t
  cases n with
  | zero => rfl
  | succ n => exact if_pos h

theorem accAt2_step (c : Dev nD) (t : Fin cfg2.N) (h : t.val % 8 ≠ 0) :
    accAt2 V c t.val t.isLt
      = k2_pay2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact if_neg h

abbrev scM2 : Memref sig .tc .vmem S256x256 .f32 := Memref.whole cc2_scratch0

theorem PhiA2_eq (c : Dev nD) :
    (Pipeline.ΦA spec2 c : sProp 𝕄)
      = iprop((iprop(∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; try rfl

def PhiS2 (c : Dev nD) : (n : ℕ) → n ≤ cfg2.N → sProp 𝕄
  | 0, _ => Pipeline.ΦA spec2 c
  | n + 1, hn => iprop((owns (c : Thread nD τ) scM2 fullShare (accAt2 V c n hn)
      ∗ Pipeline.scopedRestBut (Ix := Unit) (Name := ℕ) (U := UR sig nD τ) (Lvl := ℕ) (Val := Elt F) spec2 c [cc2_scratch0])
      ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2 fullShare (accAt2 V c n hn)
      ∗ Pipeline.scopedRestBut (Ix := Unit) (Name := ℕ) (U := UR sig nD τ) (Lvl := ℕ) (Val := Elt F) spec2 c [cc2_scratch0])
      ∗ (∃ r, prngReg c r)) := rfl

theorem PhiS2_pos (c : Dev nD) (n : ℕ) (h : n ≤ cfg2.N) (hz : n ≠ 0) :
    PhiS2 V c n h = iprop((owns (c : Thread nD τ) scM2 fullShare (accAt2 V c (n - 1) (by omega))
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

theorem PhiS2_any (c : Dev nD) (n : ℕ) (h : n ≤ cfg2.N) :
    PhiS2 V c n h ⊢ iprop((iprop(∃ d, owns (c : Thread nD τ) scM2 fullShare d)
      ∗ Pipeline.scopedRestBut (Ix := Unit) (Name := ℕ) (U := UR sig nD τ) (Lvl := ℕ) (Val := Elt F) spec2 c [cc2_scratch0])
      ∗ (∃ r, prngReg c r)) := by
  cases n with
  | zero => rw [PhiS2_zero V c 0 h rfl, PhiA2_eq]; try exact Idealize.SL.BI.Entails.refl _
  | succ n =>
    rw [PhiS2_succ]
    iintro ⟨⟨HS, HR⟩, Hg⟩
    isplitr [Hg]
    · isplitl [HS]
      · iexists _; iexact HS
      iexact HR
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem Phi2_castSucc (c : Dev nD) (t : Fin cfg2.N) :
    (dat2 V c).Φ t.castSucc = PhiS2 V c t.val (Nat.le_of_lt t.isLt) := by
  dsimp only [dat2]; simp only [Fin.coe_castSucc]

theorem idleAt2_2 : ∀ t : Fin cfg2.N, t.val % 8 ≠ 7 → cfg2.idle 2 (grid2.coords t) = true :=
  (by decide +kernel : ∀ t : Fin grid2.N, t.val % 8 ≠ 7 → idle2 2 (grid2.coords t) = true)

theorem noFlush2_2 (t : Fin cfg2.N) (h : t.val % 8 ≠ 7) : (cfg2.win 2).flush t = false :=
  Bool.eq_false_iff.mpr fun hf => h ((flush2_2 t).mp hf)

theorem liveAt2_2 : ∀ t : Fin cfg2.N, t.val % 8 = 7 → cfg2.idle 2 (grid2.coords t) = false :=
  (by decide +kernel : ∀ t : Fin grid2.N, t.val % 8 = 7 → idle2 2 (grid2.coords t) = false)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ (dat2 V c).leavesExact 2 t)

set_option maxHeartbeats 1000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show @cc2__matmul_acc_kernel F _ _ = @cc1__matmul_acc_kernel F _ _ from rfl]
  simp only [before2_0, before2_1]
  rw [show (dat2 V c).owesAt () t.succ = (dat2 V c).owesAt () t.castSucc from rfl,
    show (dat2 V c).Φ t.succ = PhiS2 V c (t.val + 1) t.isLt from rfl, PhiS2_succ,
    Phi2_castSucc, after2_0, after2_1]
  by_cases h0 : t.val % 8 = 0
  ·
    have h7 : t.val % 8 ≠ 7 := by omega
    rw [Dat.leavesExact_idle (dat2 V c) 2 t (idleAt2_2 t h7) (noFlush2_2 t h7), accAt2_first V c t h0]
    iintro ⟨HΦ, Ho, ⟨%d0, H0⟩, ⟨%d1, H1⟩, H2⟩
    icases (PhiS2_any V c _ _) $$ HΦ with ⟨⟨HS, HR⟩, Hg⟩
    iapply (sound_kernel1_first c Set.univ (grid2.coords t) ((hcond1_first t).mpr h0) (fun h => h7 ((hcond1_last t).mp h))
      _ _ _ _ _ _ _ _ (iblk2 V c 0 t) (iblk2 V c 1 t) _)
    isplitl [H0]; · iexact H0
    isplitl [H1]; · iexact H1
    isplitl [HS]; · iexact HS
    iintro ⟨H0, H1, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2
  · have hz : t.val ≠ 0 := fun h => h0 (by rw [h])
    rw [PhiS2_pos V c _ _ hz, accAt2_step V c t h0]
    by_cases h7 : t.val % 8 = 7
    ·
      rw [show (dat2 V c).leavesExact 2 t = owns (c : Thread nD τ) (st2_2 t) fullShare ((dat2 V c).after 2 t) from by
        unfold Dat.leavesExact; rw [liveAt2_2 t h7], after2_2, accAt2_step V c t h0]
      iintro ⟨⟨⟨HS, HR⟩, Hg⟩, Ho, ⟨%d0, H0⟩, ⟨%d1, H1⟩, ⟨%d2, H2⟩⟩
      iapply (sound_kernel1_last c Set.univ (grid2.coords t) (fun h => h0 ((hcond1_first t).mp h)) ((hcond1_last t).mpr h7)
        _ _ _ _ _ _ _ _ (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    ·
      rw [Dat.leavesExact_idle (dat2 V c) 2 t (idleAt2_2 t h7) (noFlush2_2 t h7)]
      iintro ⟨⟨⟨HS, HR⟩, Hg⟩, Ho, ⟨%d0, H0⟩, ⟨%d1, H1⟩, H2⟩
      iapply (sound_kernel1_mid c Set.univ (grid2.coords t) (fun h => h0 ((hcond1_first t).mp h)) (fun h => h7 ((hcond1_last t).mp h))
        _ _ _ _ _ _ _ _ (iblk2 V c 0 t) (iblk2 V c 1 t) _ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_any V c _ _

end Cert.ReferenceIdeal.Rg

end
-- ==== Proof.RI.R3.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S256x256 := Rect.unit (s := S256x256) ![0, 0] S256x256.size inb_S256x256_S256x256_0_0
abbrev r3_w : Rect S256x128 := Rect.unit (s := S256x128) ![0, 0] S256x128.size inb_S256x128_S256x128_0_0
abbrev r3_o : Rect S256x128 := Rect.unit (s := S256x128) ![0, 0] S256x128.size inb_S256x128_S256x128_0_0

def out3_2 (x0 : Vec F S256x256 .f32) (x1 : Vec F S256x128 .f32) : Vec F S256x128 .f32 :=
  View.canon [⟨r3_o, k3_pay1 (View.ld x0 r3_x) (View.ld x1 r3_w)⟩]

theorem cover3_2 (p0 : Vec F S256x128 .f32) (y : S256x128.Idx) :
    ∃ pc ∈ ([⟨r3_o, p0⟩] : List (View.Piece (Elt F) S256x128 .f32)), y ∈ pc.1.set :=
  View.cover_of_tiled [⟨r3_o, p0⟩] S256x128.size (by rfl) y

set_option maxHeartbeats 1000000 in

theorem sound_kernel3 (c : Dev nD) (E : Set ℕ) (i : grid3.Coords) (arg1 : Memref sig .tc .vmem S256x256 .f32) (harg1 : arg1.IsWhole) (arg2 : Memref sig .tc .vmem S256x128 .f32) (harg2 : arg2.IsWhole) (arg3 : Memref sig .tc .vmem S256x128 .f32) (harg3 : arg3.IsWhole)
    (x0 : Vec F S256x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_noacc_kernel i arg1 harg1 arg2 harg2 arg3 harg3) K := by
  simp only [cc3__matmul_noacc_kernel_eq_skeleton]; unfold cc3__matmul_noacc_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.ReferenceIdeal.Rg

end
-- ==== Proof.RI.R4a.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond4_first (i : grid4.Coords) : Prop :=
  (Scalar.cmpi .ne (Scalar.extui (Scalar.cmpi .eq (BitVec.ofNat 32 (i 2).val) 0#32)) 0#32) = 1#1

abbrev cond4_last (i : grid4.Coords) : Prop := k4_cond2 i = 1#1

theorem hcond4_first : ∀ t : Fin cfg4.N, cond4_first (grid4.coords t) ↔ t.val % 8 = 0 :=
  (by decide +kernel : ∀ t : Fin grid4.N, cond4_first (grid4.coords t) ↔ t.val % 8 = 0)

theorem hcond4_last : ∀ t : Fin cfg4.N, cond4_last (grid4.coords t) ↔ t.val % 8 = 7 :=
  (by decide +kernel : ∀ t : Fin grid4.N, cond4_last (grid4.coords t) ↔ t.val % 8 = 7)

theorem zero_off4 : (![0, 0] : Fin 2 → Nat) = fun _ => 0 := funext fun a => by fin_cases a <;> rfl

theorem ld_a4 (X : Vec F S256x512 .f32) :
    View.ld X (Rect.unit (s := S256x512) ![0, 0] S256x512.size inb_S256x512_S256x512_0_0) = X :=
  View.ld_unit_zero zero_off4 _ X

theorem ld_b4 (X : Vec F S512x128 .f32) :
    View.ld X (Rect.unit (s := S512x128) ![0, 0] S512x128.size inb_S512x128_S512x128_0_0) = X :=
  View.ld_unit_zero zero_off4 _ X

theorem ld_acc4 (X : Vec F S256x128 .f32) :
    View.ld X (Rect.unit (s := S256x128) ![0, 0] S256x128.size inb_S256x128_S256x128_0_0) = X :=
  View.ld_unit_zero zero_off4 _ X

theorem readCov_acc4 (v : View sig .tc .vmem S256x128 .f32) (w : Vec F S256x128 .f32) :
    v.readCov [(⟨Rect.unit (s := S256x128) ![0, 0] S256x128.size inb_S256x128_S256x128_0_0, w⟩ : View.Piece (Elt F) S256x128 .f32)]
      (Rect.unit (s := S256x128) ![0, 0] S256x128.size inb_S256x128_S256x128_0_0).toLoadRect = w :=
  View.readCov_unit_zero v zero_off4 _ w

theorem read_store_acc4 (v : View sig .tc .vmem S256x128 .f32) (f : v.ty.Contents (Elt F)) (w : Vec F S256x128 .f32)
    (L : List (View.Piece (Elt F) S256x128 .f32)) :
    v.read (Elt F) (v.writes (Elt F) f
      ((⟨Rect.unit (s := S256x128) ![0, 0] S256x128.size inb_S256x128_S256x128_0_0, w⟩ : View.Piece (Elt F) S256x128 .f32) :: L)) = w := by
  rw [View.read_writes_eq_canon _ _ _ (fun y => ⟨_, List.mem_cons_self,
      View.mem_set_unit_zero zero_off4 inb_S256x128_S256x128_0_0 y⟩), View.canon_cons_unit_zero zero_off4]

set_option maxHeartbeats 1000000 in

theorem sound_kernel4_first (c : Dev nD) (E : Set ℕ) (i : grid4.Coords) (hf : cond4_first i) (hl : ¬ cond4_last i)
    (arg3 : Memref sig .tc .vmem S256x512 .f32) (harg3 : arg3.IsWhole) (arg4 : Memref sig .tc .vmem S512x128 .f32) (harg4 : arg4.IsWhole)
    (arg5 : Memref sig .tc .vmem S256x128 .f32) (harg5 : arg5.IsWhole) (arg6 : Memref sig .tc .vmem S256x128 .f32) (harg6 : arg6.IsWhole)
    (x0 : Vec F S256x512 .f32) (x1 : Vec F S512x128 .f32) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1
              ∗ owns (c : Thread nD τ) arg6 fullShare (k4_pay2 k4_pay1 x0 x1)) -∗ K ⟨⟩))
      ⊢ wp frame (wpE (defs₀ (F := F)) Variants.none c none) E (cc4__matmul_acc_kernel i arg3 harg3 arg4 harg4 arg5 harg5 arg6 harg6) K := by
  simp only [cc4__matmul_acc_kernel_eq_skeleton]; unfold cc4__matmul_acc_kernel_skel
  unfold owns
  iintro ⟨⟨%f0, %hf0, H0⟩, ⟨%f1, %hf1, H1⟩, ⟨%d2, %f2, -, H2⟩, Hk⟩
  subst hf0 hf1
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_store_acc4]
  sl_unfold_words
  rw [readCov_acc4, View.readAt_eq_ld, View.readAt_eq_ld, ld_a4, ld_b4]

set_option maxHeartbeats 1000000 in

theorem sound_kernel4_mid (c : Dev nD) (E : Set ℕ) (i : grid4.Coords) (hf : ¬ cond4_first i) (hl : ¬ cond4_last i)
    (arg3 : Memref sig .tc .vmem S256x512 .f32) (harg3 : arg3.IsWhole) (arg4 : Memref sig .tc .vmem S512x128 .f32) (harg4 : arg4.IsWhole)
    (arg5 : Memref sig .tc .vmem S256x128 .f32) (harg5 : arg5.IsWhole) (arg6 : Memref sig .tc .vmem S256x128 .f32) (harg6 : arg6.IsWhole)
    (x0 : Vec F S256x512 .f32) (x1 : Vec F S512x128 .f32) (s : Vec F S256x128 .f32) (K : PUnit → sProp 𝕄) :
    iprop(owns (c : Thread nD τ) arg3 fullShare x0 ∗ owns (c : Thread nD τ) arg4 fullShare x1 ∗ owns (c : Thread nD τ) arg6 fullShare s
        ∗ (iprop(owns (c : Thread nD τ) arg3 fullShare x0 ∗ owns (c : Thread nD τ) arg4 fullShare x1
              ∗ owns (c : Thread nD τ) arg6 fullShare (k4_pay2 s x0 x1)) -∗ K ⟨⟩))
      ⊢ wp frame (wpE (defs₀ (F := F)) Variants.none c none) E (cc4__matmul_acc_kernel i arg3 harg3 arg4 harg4 arg5 harg5 arg6 harg6) K := by
  simp only [cc4__matmul_acc_kernel_eq_skeleton]; unfold cc4__matmul_acc_kernel_skel
  unfold owns
  iintro ⟨⟨%f0, %hf0, H0⟩, ⟨%f1, %hf1, H1⟩, ⟨%f2, %hf2, H2⟩, Hk⟩
  subst hf0 hf1 hf2
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_store_acc4]
  sl_unfold_words
  rw [View.readAt_eq_ld, View.readAt_eq_ld, View.readAt_eq_ld, ld_acc4, ld_a4, ld_b4]

set_option maxHeartbeats 1000000 in

theorem sound_kernel4_last (c : Dev nD) (E : Set ℕ) (i : grid4.Coords) (hf : ¬ cond4_first i) (hl : cond4_last i)
    (arg3 : Memref sig .tc .vmem S256x512 .f32) (harg3 : arg3.IsWhole) (arg4 : Memref sig .tc .vmem S512x128 .f32) (harg4 : arg4.IsWhole)
    (arg5 : Memref sig .tc .vmem S256x128 .f32) (harg5 : arg5.IsWhole) (arg6 : Memref sig .tc .vmem S256x128 .f32) (harg6 : arg6.IsWhole)
    (x0 : Vec F S256x512 .f32) (x1 : Vec F S512x128 .f32) (s : Vec F S256x128 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
              ∗ owns (c : Thread nD τ) arg5 fullShare (k4_pay2 s x0 x1) ∗ owns (c : Thread nD τ) arg6 fullShare (k4_pay2 s x0 x1)) -∗ K ⟨⟩))
      ⊢ wp frame (wpE (defs₀ (F := F)) Variants.none c none) E (cc4__matmul_acc_kernel i arg3 harg3 arg4 harg4 arg5 harg5 arg6 harg6) K := by
  simp only [cc4__matmul_acc_kernel_eq_skeleton]; unfold cc4__matmul_acc_kernel_skel
  unfold owns
  iintro ⟨⟨%f0, %hf0, H0⟩, ⟨%f1, %hf1, H1⟩, ⟨%d3, %f3, -, H3⟩, ⟨%f2, %hf2, H2⟩, Hk⟩
  subst hf0 hf1 hf2
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [read_store_acc4]
    sl_unfold_words
    rw [readCov_acc4, View.readAt_eq_ld, View.readAt_eq_ld, View.readAt_eq_ld, ld_acc4, ld_a4, ld_b4]
  iexists _; isplitr
  swap; · iexact H2
  ipureintro
  sl_unfold_words
  rw [read_store_acc4]
  rw [View.readAt_eq_ld, View.readAt_eq_ld, View.readAt_eq_ld, ld_acc4, ld_a4, ld_b4]

end Cert.ReferenceIdeal.Rg

end
-- ==== Proof.RI.R4.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import proofs.«121997_g2000006886080560_pallasbulk_379_4_alg».proof.Proof.RI.R4a
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def accAt4 (c : Dev nD) : (n : ℕ) → n < cfg4.N → Vec F S256x128 .f32
  | 0, hn => k4_pay2 k4_pay1 (iblk4 V c 0 ⟨0, hn⟩) (iblk4 V c 1 ⟨0, hn⟩)
  | n + 1, hn =>
    if (n + 1) % 8 = 0 then k4_pay2 k4_pay1 (iblk4 V c 0 ⟨n + 1, hn⟩) (iblk4 V c 1 ⟨n + 1, hn⟩)
    else k4_pay2 (accAt4 c n (Nat.lt_of_succ_lt hn)) (iblk4 V c 0 ⟨n + 1, hn⟩) (iblk4 V c 1 ⟨n + 1, hn⟩)

theorem accAt4_first (c : Dev nD) (t : Fin cfg4.N) (h : t.val % 8 = 0) :
    accAt4 V c t.val t.isLt = k4_pay2 k4_pay1 (iblk4 V c 0 t) (iblk4 V c 1 t) := by
  obtain ⟨n, hn⟩ := t
  cases n with
  | zero => rfl
  | succ n => exact if_pos h

theorem accAt4_step (c : Dev nD) (t : Fin cfg4.N) (h : t.val % 8 ≠ 0) :
    accAt4 V c t.val t.isLt
      = k4_pay2 (accAt4 V c (t.val - 1) (Nat.lt_of_le_of_lt (Nat.sub_le _ _) t.isLt)) (iblk4 V c 0 t) (iblk4 V c 1 t) := by
  obtain ⟨n, hn⟩ := t
  cases n with
  | zero => exact absurd (Nat.zero_mod _) h
  | succ n => exact if_neg h

abbrev scM4 : Memref sig .tc .vmem S256x128 .f32 := Memref.whole cc4_scratch0

theorem PhiA4_eq (c : Dev nD) :
    (Pipeline.ΦA spec4 c : sProp 𝕄)
      = iprop((iprop(∃ d, owns (c : Thread nD τ) scM4 fullShare d)
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

def PhiS4 (c : Dev nD) : (n : ℕ) → n ≤ cfg4.N → sProp 𝕄
  | 0, _ => Pipeline.ΦA spec4 c
  | n + 1, hn => iprop((owns (c : Thread nD τ) scM4 fullShare (accAt4 V c n hn)
      ∗ Pipeline.scopedRestBut (Ix := Unit) (Name := ℕ) (U := UR sig nD τ) (Lvl := ℕ) (Val := Elt F) spec4 c [cc4_scratch0])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop((owns (c : Thread nD τ) scM4 fullShare (accAt4 V c n hn)
      ∗ Pipeline.scopedRestBut (Ix := Unit) (Name := ℕ) (U := UR sig nD τ) (Lvl := ℕ) (Val := Elt F) spec4 c [cc4_scratch0])
      ∗ (∃ r, prngReg c r)) := rfl

theorem PhiS4_pos (c : Dev nD) (n : ℕ) (h : n ≤ cfg4.N) (hz : n ≠ 0) :
    PhiS4 V c n h = iprop((owns (c : Thread nD τ) scM4 fullShare (accAt4 V c (n - 1) (by omega))
      ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

theorem PhiS4_any (c : Dev nD) (n : ℕ) (h : n ≤ cfg4.N) :
    PhiS4 V c n h ⊢ iprop((iprop(∃ d, owns (c : Thread nD τ) scM4 fullShare d)
      ∗ Pipeline.scopedRestBut (Ix := Unit) (Name := ℕ) (U := UR sig nD τ) (Lvl := ℕ) (Val := Elt F) spec4 c [cc4_scratch0])
      ∗ (∃ r, prngReg c r)) := by
  cases n with
  | zero => rw [PhiS4_zero V c 0 h rfl, PhiA4_eq]; try exact Idealize.SL.BI.Entails.refl _
  | succ n =>
    rw [PhiS4_succ]
    iintro ⟨⟨HS, HR⟩, Hg⟩
    isplitr [Hg]
    · isplitl [HS]
      · iexists _; iexact HS
      iexact HR
    iexact Hg

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt4 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accAt4 V c t.val t.isLt := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

theorem Phi4_castSucc (c : Dev nD) (t : Fin cfg4.N) :
    (dat4 V c).Φ t.castSucc = PhiS4 V c t.val (Nat.le_of_lt t.isLt) := by
  dsimp only [dat4]; simp only [Fin.coe_castSucc]

theorem idleAt4_2 : ∀ t : Fin cfg4.N, t.val % 8 ≠ 7 → cfg4.idle 2 (grid4.coords t) = true :=
  (by decide +kernel : ∀ t : Fin grid4.N, t.val % 8 ≠ 7 → idle4 2 (grid4.coords t) = true)

theorem noFlush4_2 (t : Fin cfg4.N) (h : t.val % 8 ≠ 7) : (cfg4.win 2).flush t = false :=
  Bool.eq_false_iff.mpr fun hf => h ((flush4_2 t).mp hf)

theorem liveAt4_2 : ∀ t : Fin cfg4.N, t.val % 8 = 7 → cfg4.idle 2 (grid4.coords t) = false :=
  (by decide +kernel : ∀ t : Fin grid4.N, t.val % 8 = 7 → idle4 2 (grid4.coords t) = false)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ (dat4 V c).leavesExact 2 t)

set_option maxHeartbeats 1000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl,
    show (dat4 V c).Φ t.succ = PhiS4 V c (t.val + 1) t.isLt from rfl, PhiS4_succ,
    Phi4_castSucc, after4_0, after4_1]
  by_cases h0 : t.val % 8 = 0
  ·
    have h7 : t.val % 8 ≠ 7 := by omega
    rw [Dat.leavesExact_idle (dat4 V c) 2 t (idleAt4_2 t h7) (noFlush4_2 t h7), accAt4_first V c t h0]
    iintro ⟨HΦ, Ho, ⟨%d0, H0⟩, ⟨%d1, H1⟩, H2⟩
    icases (PhiS4_any V c _ _) $$ HΦ with ⟨⟨HS, HR⟩, Hg⟩
    iapply (sound_kernel4_first c Set.univ (grid4.coords t) ((hcond4_first t).mpr h0) (fun h => h7 ((hcond4_last t).mp h))
      _ _ _ _ _ _ _ _ (iblk4 V c 0 t) (iblk4 V c 1 t) _)
    isplitl [H0]; · iexact H0
    isplitl [H1]; · iexact H1
    isplitl [HS]; · iexact HS
    iintro ⟨H0, H1, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2
  · have hz : t.val ≠ 0 := fun h => h0 (by rw [h])
    rw [PhiS4_pos V c _ _ hz, accAt4_step V c t h0]
    by_cases h7 : t.val % 8 = 7
    ·
      rw [show (dat4 V c).leavesExact 2 t = owns (c : Thread nD τ) (st4_2 t) fullShare ((dat4 V c).after 2 t) from by
        unfold Dat.leavesExact; rw [liveAt4_2 t h7], after4_2, accAt4_step V c t h0]
      iintro ⟨⟨⟨HS, HR⟩, Hg⟩, Ho, ⟨%d0, H0⟩, ⟨%d1, H1⟩, ⟨%d2, H2⟩⟩
      iapply (sound_kernel4_last c Set.univ (grid4.coords t) (fun h => h0 ((hcond4_first t).mp h)) ((hcond4_last t).mpr h7)
        _ _ _ _ _ _ _ _ (iblk4 V c 0 t) (iblk4 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    ·
      rw [Dat.leavesExact_idle (dat4 V c) 2 t (idleAt4_2 t h7) (noFlush4_2 t h7)]
      iintro ⟨⟨⟨HS, HR⟩, Hg⟩, Ho, ⟨%d0, H0⟩, ⟨%d1, H1⟩, H2⟩
      iapply (sound_kernel4_mid c Set.univ (grid4.coords t) (fun h => h0 ((hcond4_first t).mp h)) (fun h => h7 ((hcond4_last t).mp h))
        _ _ _ _ _ _ _ _ (iblk4 V c 0 t) (iblk4 V c 1 t) _ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl, PhiA4_eq]
  exact PhiS4_any V c _ _

end Cert.ReferenceIdeal.Rg

end
-- ==== Proof.RI.R5.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import proofs.«121997_g2000006886080560_pallasbulk_379_4_alg».proof.Proof.RI.R4a
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def accAt5 (c : Dev nD) : (n : ℕ) → n < cfg5.N → Vec F S256x128 .f32
  | 0, hn => k5_pay2 k5_pay1 (iblk5 V c 0 ⟨0, hn⟩) (iblk5 V c 1 ⟨0, hn⟩)
  | n + 1, hn =>
    if (n + 1) % 8 = 0 then k5_pay2 k5_pay1 (iblk5 V c 0 ⟨n + 1, hn⟩) (iblk5 V c 1 ⟨n + 1, hn⟩)
    else k5_pay2 (accAt5 c n (Nat.lt_of_succ_lt hn)) (iblk5 V c 0 ⟨n + 1, hn⟩) (iblk5 V c 1 ⟨n + 1, hn⟩)

theorem accAt5_first (c : Dev nD) (t : Fin cfg5.N) (h : t.val % 8 = 0) :
    accAt5 V c t.val t.isLt = k5_pay2 k5_pay1 (iblk5 V c 0 t) (iblk5 V c 1 t) := by
  obtain ⟨n, hn⟩ := t
  cases n with
  | zero => rfl
  | succ n => exact if_pos h

theorem accAt5_step (c : Dev nD) (t : Fin cfg5.N) (h : t.val % 8 ≠ 0) :
    accAt5 V c t.val t.isLt
      = k5_pay2 (accAt5 V c (t.val - 1) (Nat.lt_of_le_of_lt (Nat.sub_le _ _) t.isLt)) (iblk5 V c 0 t) (iblk5 V c 1 t) := by
  obtain ⟨n, hn⟩ := t
  cases n with
  | zero => exact absurd (Nat.zero_mod _) h
  | succ n => exact if_neg h

abbrev scM5 : Memref sig .tc .vmem S256x128 .f32 := Memref.whole cc5_scratch0

theorem PhiA5_eq (c : Dev nD) :
    (Pipeline.ΦA spec5 c : sProp 𝕄)
      = iprop((iprop(∃ d, owns (c : Thread nD τ) scM5 fullShare d)
          ∗ Pipeline.scopedRestBut (Ix := Unit) (Name := ℕ) (U := UR sig nD τ) (Lvl := ℕ) (Val := Elt F) spec5 c [cc5_scratch0])
          ∗ (∃ r, prngReg c r)) := by
  unfold Pipeline.ΦA; rw [scopedRest5_split]; simp only [scM5, owns_whole]; try rfl

def PhiS5 (c : Dev nD) : (n : ℕ) → n ≤ cfg5.N → sProp 𝕄
  | 0, _ => Pipeline.ΦA spec5 c
  | n + 1, hn => iprop((owns (c : Thread nD τ) scM5 fullShare (accAt5 V c n hn)
      ∗ Pipeline.scopedRestBut (Ix := Unit) (Name := ℕ) (U := UR sig nD τ) (Lvl := ℕ) (Val := Elt F) spec5 c [cc5_scratch0])
      ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop((owns (c : Thread nD τ) scM5 fullShare (accAt5 V c n hn)
      ∗ Pipeline.scopedRestBut (Ix := Unit) (Name := ℕ) (U := UR sig nD τ) (Lvl := ℕ) (Val := Elt F) spec5 c [cc5_scratch0])
      ∗ (∃ r, prngReg c r)) := rfl

theorem PhiS5_pos (c : Dev nD) (n : ℕ) (h : n ≤ cfg5.N) (hz : n ≠ 0) :
    PhiS5 V c n h = iprop((owns (c : Thread nD τ) scM5 fullShare (accAt5 V c (n - 1) (by omega))
      ∗ Pipeline.scopedRestBut (Ix := Unit) (Name := ℕ) (U := UR sig nD τ) (Lvl := ℕ) (Val := Elt F) spec5 c [cc5_scratch0])
      ∗ (∃ r, prngReg c r)) := by
  cases n with
  | zero => exact absurd rfl hz
  | succ n => rfl

theorem PhiS5_any (c : Dev nD) (n : ℕ) (h : n ≤ cfg5.N) :
    PhiS5 V c n h ⊢ iprop((iprop(∃ d, owns (c : Thread nD τ) scM5 fullShare d)
      ∗ Pipeline.scopedRestBut (Ix := Unit) (Name := ℕ) (U := UR sig nD τ) (Lvl := ℕ) (Val := Elt F) spec5 c [cc5_scratch0])
      ∗ (∃ r, prngReg c r)) := by
  cases n with
  | zero => rw [PhiS5_zero V c 0 h rfl, PhiA5_eq]; try exact Idealize.SL.BI.Entails.refl _
  | succ n =>
    rw [PhiS5_succ]
    iintro ⟨⟨HS, HR⟩, Hg⟩
    isplitr [Hg]
    · isplitl [HS]
      · iexists _; iexact HS
      iexact HR
    iexact Hg

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => accAt5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = accAt5 V c t.val t.isLt := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

theorem Phi5_castSucc (c : Dev nD) (t : Fin cfg5.N) :
    (dat5 V c).Φ t.castSucc = PhiS5 V c t.val (Nat.le_of_lt t.isLt) := by
  dsimp only [dat5]; simp only [Fin.coe_castSucc]

theorem idleAt5_2 : ∀ t : Fin cfg5.N, t.val % 8 ≠ 7 → cfg5.idle 2 (grid5.coords t) = true :=
  (by decide +kernel : ∀ t : Fin grid5.N, t.val % 8 ≠ 7 → idle5 2 (grid5.coords t) = true)

theorem noFlush5_2 (t : Fin cfg5.N) (h : t.val % 8 ≠ 7) : (cfg5.win 2).flush t = false :=
  Bool.eq_false_iff.mpr fun hf => h ((flush5_2 t).mp hf)

theorem liveAt5_2 : ∀ t : Fin cfg5.N, t.val % 8 = 7 → cfg5.idle 2 (grid5.coords t) = false :=
  (by decide +kernel : ∀ t : Fin grid5.N, t.val % 8 = 7 → idle5 2 (grid5.coords t) = false)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ (dat5 V c).leavesExact 2 t)

set_option maxHeartbeats 1000000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [show @cc5__matmul_acc_kernel F _ _ = @cc4__matmul_acc_kernel F _ _ from rfl]
  simp only [before5_0, before5_1]
  rw [show (dat5 V c).owesAt () t.succ = (dat5 V c).owesAt () t.castSucc from rfl,
    show (dat5 V c).Φ t.succ = PhiS5 V c (t.val + 1) t.isLt from rfl, PhiS5_succ,
    Phi5_castSucc, after5_0, after5_1]
  by_cases h0 : t.val % 8 = 0
  ·
    have h7 : t.val % 8 ≠ 7 := by omega
    rw [Dat.leavesExact_idle (dat5 V c) 2 t (idleAt5_2 t h7) (noFlush5_2 t h7), accAt5_first V c t h0]
    iintro ⟨HΦ, Ho, ⟨%d0, H0⟩, ⟨%d1, H1⟩, H2⟩
    icases (PhiS5_any V c _ _) $$ HΦ with ⟨⟨HS, HR⟩, Hg⟩
    iapply (sound_kernel4_first c Set.univ (grid5.coords t) ((hcond4_first t).mpr h0) (fun h => h7 ((hcond4_last t).mp h))
      _ _ _ _ _ _ _ _ (iblk5 V c 0 t) (iblk5 V c 1 t) _)
    isplitl [H0]; · iexact H0
    isplitl [H1]; · iexact H1
    isplitl [HS]; · iexact HS
    iintro ⟨H0, H1, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2
  · have hz : t.val ≠ 0 := fun h => h0 (by rw [h])
    rw [PhiS5_pos V c _ _ hz, accAt5_step V c t h0]
    by_cases h7 : t.val % 8 = 7
    ·
      rw [show (dat5 V c).leavesExact 2 t = owns (c : Thread nD τ) (st5_2 t) fullShare ((dat5 V c).after 2 t) from by
        unfold Dat.leavesExact; rw [liveAt5_2 t h7], after5_2, accAt5_step V c t h0]
      iintro ⟨⟨⟨HS, HR⟩, Hg⟩, Ho, ⟨%d0, H0⟩, ⟨%d1, H1⟩, ⟨%d2, H2⟩⟩
      iapply (sound_kernel4_last c Set.univ (grid5.coords t) (fun h => h0 ((hcond4_first t).mp h)) ((hcond4_last t).mpr h7)
        _ _ _ _ _ _ _ _ (iblk5 V c 0 t) (iblk5 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    ·
      rw [Dat.leavesExact_idle (dat5 V c) 2 t (idleAt5_2 t h7) (noFlush5_2 t h7)]
      iintro ⟨⟨⟨HS, HR⟩, Hg⟩, Ho, ⟨%d0, H0⟩, ⟨%d1, H1⟩, H2⟩
      iapply (sound_kernel4_mid c Set.univ (grid5.coords t) (fun h => h0 ((hcond4_first t).mp h)) (fun h => h7 ((hcond4_last t).mp h))
        _ _ _ _ _ _ _ _ (iblk5 V c 0 t) (iblk5 V c 1 t) _ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl, PhiA5_eq]
  exact PhiS5_any V c _ _

end Cert.ReferenceIdeal.Rg

end
-- ==== Proof.RI.R6.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S256x384 := Rect.unit (s := S256x384) ![0, 0] S256x384.size inb_S256x384_S256x384_0_0
abbrev r6_w : Rect S384x512 := Rect.unit (s := S384x512) ![0, 0] S384x512.size inb_S384x512_S384x512_0_0
abbrev r6_o : Rect S256x512 := Rect.unit (s := S256x512) ![0, 0] S256x512.size inb_S256x512_S256x512_0_0

def out6_2 (x0 : Vec F S256x384 .f32) (x1 : Vec F S384x512 .f32) : Vec F S256x512 .f32 :=
  View.canon [⟨r6_o, k6_pay1 (View.ld x0 r6_x) (View.ld x1 r6_w)⟩]

theorem cover6_2 (p0 : Vec F S256x512 .f32) (y : S256x512.Idx) :
    ∃ pc ∈ ([⟨r6_o, p0⟩] : List (View.Piece (Elt F) S256x512 .f32)), y ∈ pc.1.set :=
  View.cover_of_tiled [⟨r6_o, p0⟩] S256x512.size (by rfl) y

set_option maxHeartbeats 1000000 in

theorem sound_kernel6 (c : Dev nD) (E : Set ℕ) (i : grid6.Coords) (arg1 : Memref sig .tc .vmem S256x384 .f32) (harg1 : arg1.IsWhole) (arg2 : Memref sig .tc .vmem S384x512 .f32) (harg2 : arg2.IsWhole) (arg3 : Memref sig .tc .vmem S256x512 .f32) (harg3 : arg3.IsWhole)
    (x0 : Vec F S256x384 .f32) (x1 : Vec F S384x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_noacc_kernel i arg1 harg1 arg2 harg2 arg3 harg3) K := by
  simp only [cc6__matmul_noacc_kernel_eq_skeleton]; unfold cc6__matmul_noacc_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.ReferenceIdeal.Rg

end
-- ==== Proof.RI.R7a.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond7_first (i : grid7.Coords) : Prop :=
  (Scalar.cmpi .ne (Scalar.extui (Scalar.cmpi .eq (BitVec.ofNat 32 (i 2).val) 0#32)) 0#32) = 1#1

abbrev cond7_last (i : grid7.Coords) : Prop := k7_cond2 i = 1#1

theorem hcond7_first : ∀ t : Fin cfg7.N, cond7_first (grid7.coords t) ↔ t.val % 8 = 0 :=
  (by decide +kernel : ∀ t : Fin grid7.N, cond7_first (grid7.coords t) ↔ t.val % 8 = 0)

theorem hcond7_last : ∀ t : Fin cfg7.N, cond7_last (grid7.coords t) ↔ t.val % 8 = 7 :=
  (by decide +kernel : ∀ t : Fin grid7.N, cond7_last (grid7.coords t) ↔ t.val % 8 = 7)

theorem zero_off7 : (![0, 0] : Fin 2 → Nat) = fun _ => 0 := funext fun a => by fin_cases a <;> rfl

theorem ld_a7 (X : Vec F S256x512 .f32) :
    View.ld X (Rect.unit (s := S256x512) ![0, 0] S256x512.size inb_S256x512_S256x512_0_0) = X :=
  View.ld_unit_zero zero_off7 _ X

theorem ld_b7 (X : Vec F S512x512 .f32) :
    View.ld X (Rect.unit (s := S512x512) ![0, 0] S512x512.size inb_S512x512_S512x512_0_0) = X :=
  View.ld_unit_zero zero_off7 _ X

theorem ld_acc7 (X : Vec F S256x512 .f32) :
    View.ld X (Rect.unit (s := S256x512) ![0, 0] S256x512.size inb_S256x512_S256x512_0_0) = X :=
  View.ld_unit_zero zero_off7 _ X

theorem readCov_acc7 (v : View sig .tc .vmem S256x512 .f32) (w : Vec F S256x512 .f32) :
    v.readCov [(⟨Rect.unit (s := S256x512) ![0, 0] S256x512.size inb_S256x512_S256x512_0_0, w⟩ : View.Piece (Elt F) S256x512 .f32)]
      (Rect.unit (s := S256x512) ![0, 0] S256x512.size inb_S256x512_S256x512_0_0).toLoadRect = w :=
  View.readCov_unit_zero v zero_off7 _ w

theorem read_store_acc7 (v : View sig .tc .vmem S256x512 .f32) (f : v.ty.Contents (Elt F)) (w : Vec F S256x512 .f32)
    (L : List (View.Piece (Elt F) S256x512 .f32)) :
    v.read (Elt F) (v.writes (Elt F) f
      ((⟨Rect.unit (s := S256x512) ![0, 0] S256x512.size inb_S256x512_S256x512_0_0, w⟩ : View.Piece (Elt F) S256x512 .f32) :: L)) = w := by
  rw [View.read_writes_eq_canon _ _ _ (fun y => ⟨_, List.mem_cons_self,
      View.mem_set_unit_zero zero_off7 inb_S256x512_S256x512_0_0 y⟩), View.canon_cons_unit_zero zero_off7]

set_option maxHeartbeats 1000000 in

theorem sound_kernel7_first (c : Dev nD) (E : Set ℕ) (i : grid7.Coords) (hf : cond7_first i) (hl : ¬ cond7_last i)
    (arg3 : Memref sig .tc .vmem S256x512 .f32) (harg3 : arg3.IsWhole) (arg4 : Memref sig .tc .vmem S512x512 .f32) (harg4 : arg4.IsWhole)
    (arg5 : Memref sig .tc .vmem S256x512 .f32) (harg5 : arg5.IsWhole) (arg6 : Memref sig .tc .vmem S256x512 .f32) (harg6 : arg6.IsWhole)
    (x0 : Vec F S256x512 .f32) (x1 : Vec F S512x512 .f32) (K : PUnit → sProp 𝕄) :
    iprop(owns (c : Thread nD τ) arg3 fullShare x0 ∗ owns (c : Thread nD τ) arg4 fullShare x1 ∗ (∃ d, owns (c : Thread nD τ) arg6 fullShare d)
        ∗ (iprop(owns (c : Thread nD τ) arg3 fullShare x0 ∗ owns (c : Thread nD τ) arg4 fullShare x1
              ∗ owns (c : Thread nD τ) arg6 fullShare (k7_pay2 k7_pay1 x0 x1)) -∗ K ⟨⟩))
      ⊢ wp frame (wpE (defs₀ (F := F)) Variants.none c none) E (cc7__matmul_acc_kernel i arg3 harg3 arg4 harg4 arg5 harg5 arg6 harg6) K := by
  simp only [cc7__matmul_acc_kernel_eq_skeleton]; unfold cc7__matmul_acc_kernel_skel
  unfold owns
  iintro ⟨⟨%f0, %hf0, H0⟩, ⟨%f1, %hf1, H1⟩, ⟨%d2, %f2, -, H2⟩, Hk⟩
  subst hf0 hf1
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_store_acc7]
  sl_unfold_words
  rw [readCov_acc7, View.readAt_eq_ld, View.readAt_eq_ld, ld_a7, ld_b7]

set_option maxHeartbeats 1000000 in

theorem sound_kernel7_mid (c : Dev nD) (E : Set ℕ) (i : grid7.Coords) (hf : ¬ cond7_first i) (hl : ¬ cond7_last i)
    (arg3 : Memref sig .tc .vmem S256x512 .f32) (harg3 : arg3.IsWhole) (arg4 : Memref sig .tc .vmem S512x512 .f32) (harg4 : arg4.IsWhole)
    (arg5 : Memref sig .tc .vmem S256x512 .f32) (harg5 : arg5.IsWhole) (arg6 : Memref sig .tc .vmem S256x512 .f32) (harg6 : arg6.IsWhole)
    (x0 : Vec F S256x512 .f32) (x1 : Vec F S512x512 .f32) (s : Vec F S256x512 .f32) (K : PUnit → sProp 𝕄) :
    iprop(owns (c : Thread nD τ) arg3 fullShare x0 ∗ owns (c : Thread nD τ) arg4 fullShare x1 ∗ owns (c : Thread nD τ) arg6 fullShare s
        ∗ (iprop(owns (c : Thread nD τ) arg3 fullShare x0 ∗ owns (c : Thread nD τ) arg4 fullShare x1
              ∗ owns (c : Thread nD τ) arg6 fullShare (k7_pay2 s x0 x1)) -∗ K ⟨⟩))
      ⊢ wp frame (wpE (defs₀ (F := F)) Variants.none c none) E (cc7__matmul_acc_kernel i arg3 harg3 arg4 harg4 arg5 harg5 arg6 harg6) K := by
  simp only [cc7__matmul_acc_kernel_eq_skeleton]; unfold cc7__matmul_acc_kernel_skel
  unfold owns
  iintro ⟨⟨%f0, %hf0, H0⟩, ⟨%f1, %hf1, H1⟩, ⟨%f2, %hf2, H2⟩, Hk⟩
  subst hf0 hf1 hf2
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_store_acc7]
  sl_unfold_words
  rw [View.readAt_eq_ld, View.readAt_eq_ld, View.readAt_eq_ld, ld_acc7, ld_a7, ld_b7]

set_option maxHeartbeats 1000000 in

theorem sound_kernel7_last (c : Dev nD) (E : Set ℕ) (i : grid7.Coords) (hf : ¬ cond7_first i) (hl : cond7_last i)
    (arg3 : Memref sig .tc .vmem S256x512 .f32) (harg3 : arg3.IsWhole) (arg4 : Memref sig .tc .vmem S512x512 .f32) (harg4 : arg4.IsWhole)
    (arg5 : Memref sig .tc .vmem S256x512 .f32) (harg5 : arg5.IsWhole) (arg6 : Memref sig .tc .vmem S256x512 .f32) (harg6 : arg6.IsWhole)
    (x0 : Vec F S256x512 .f32) (x1 : Vec F S512x512 .f32) (s : Vec F S256x512 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare s
        ∗ (iprop(owns (c : Thread nD τ) arg3 fullShare x0 ∗ owns (c : Thread nD τ) arg4 fullShare x1
              ∗ owns (c : Thread nD τ) arg5 fullShare (k7_pay2 s x0 x1) ∗ owns (c : Thread nD τ) arg6 fullShare (k7_pay2 s x0 x1)) -∗ K ⟨⟩))
      ⊢ wp frame (wpE (defs₀ (F := F)) Variants.none c none) E (cc7__matmul_acc_kernel i arg3 harg3 arg4 harg4 arg5 harg5 arg6 harg6) K := by
  simp only [cc7__matmul_acc_kernel_eq_skeleton]; unfold cc7__matmul_acc_kernel_skel
  unfold owns
  iintro ⟨⟨%f0, %hf0, H0⟩, ⟨%f1, %hf1, H1⟩, ⟨%d3, %f3, -, H3⟩, ⟨%f2, %hf2, H2⟩, Hk⟩
  subst hf0 hf1 hf2
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [read_store_acc7]
    sl_unfold_words
    rw [readCov_acc7, View.readAt_eq_ld, View.readAt_eq_ld, View.readAt_eq_ld, ld_acc7, ld_a7, ld_b7]
  iexists _; isplitr
  swap; · iexact H2
  ipureintro
  sl_unfold_words
  rw [read_store_acc7]
  rw [View.readAt_eq_ld, View.readAt_eq_ld, View.readAt_eq_ld, ld_acc7, ld_a7, ld_b7]

end Cert.ReferenceIdeal.Rg

end
-- ==== Proof.RI.R7.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import proofs.«121997_g2000006886080560_pallasbulk_379_4_alg».proof.Proof.RI.R7a
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def accAt7 (c : Dev nD) : (n : ℕ) → n < cfg7.N → Vec F S256x512 .f32
  | 0, hn => k7_pay2 k7_pay1 (iblk7 V c 0 ⟨0, hn⟩) (iblk7 V c 1 ⟨0, hn⟩)
  | n + 1, hn =>
    if (n + 1) % 8 = 0 then k7_pay2 k7_pay1 (iblk7 V c 0 ⟨n + 1, hn⟩) (iblk7 V c 1 ⟨n + 1, hn⟩)
    else k7_pay2 (accAt7 c n (Nat.lt_of_succ_lt hn)) (iblk7 V c 0 ⟨n + 1, hn⟩) (iblk7 V c 1 ⟨n + 1, hn⟩)

theorem accAt7_first (c : Dev nD) (t : Fin cfg7.N) (h : t.val % 8 = 0) :
    accAt7 V c t.val t.isLt = k7_pay2 k7_pay1 (iblk7 V c 0 t) (iblk7 V c 1 t) := by
  obtain ⟨n, hn⟩ := t
  cases n with
  | zero => rfl
  | succ n => exact if_pos h

theorem accAt7_step (c : Dev nD) (t : Fin cfg7.N) (h : t.val % 8 ≠ 0) :
    accAt7 V c t.val t.isLt
      = k7_pay2 (accAt7 V c (t.val - 1) (Nat.lt_of_le_of_lt (Nat.sub_le _ _) t.isLt)) (iblk7 V c 0 t) (iblk7 V c 1 t) := by
  obtain ⟨n, hn⟩ := t
  cases n with
  | zero => exact absurd (Nat.zero_mod _) h
  | succ n => exact if_neg h

abbrev scM7 : Memref sig .tc .vmem S256x512 .f32 := Memref.whole cc7_scratch0

theorem PhiA7_eq (c : Dev nD) :
    (Pipeline.ΦA spec7 c : sProp 𝕄)
      = iprop((iprop(∃ d, owns (c : Thread nD τ) scM7 fullShare d)
          ∗ Pipeline.scopedRestBut (Ix := Unit) (Name := ℕ) (U := UR sig nD τ) (Lvl := ℕ) (Val := Elt F) spec7 c [cc7_scratch0])
          ∗ (∃ r, prngReg c r)) := by
  unfold Pipeline.ΦA; rw [scopedRest7_split]; simp only [scM7, owns_whole]; try rfl

def PhiS7 (c : Dev nD) : (n : ℕ) → n ≤ cfg7.N → sProp 𝕄
  | 0, _ => Pipeline.ΦA spec7 c
  | n + 1, hn => iprop((owns (c : Thread nD τ) scM7 fullShare (accAt7 V c n hn)
      ∗ Pipeline.scopedRestBut (Ix := Unit) (Name := ℕ) (U := UR sig nD τ) (Lvl := ℕ) (Val := Elt F) spec7 c [cc7_scratch0])
      ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop((owns (c : Thread nD τ) scM7 fullShare (accAt7 V c n hn)
      ∗ Pipeline.scopedRestBut (Ix := Unit) (Name := ℕ) (U := UR sig nD τ) (Lvl := ℕ) (Val := Elt F) spec7 c [cc7_scratch0])
      ∗ (∃ r, prngReg c r)) := rfl

theorem PhiS7_pos (c : Dev nD) (n : ℕ) (h : n ≤ cfg7.N) (hz : n ≠ 0) :
    PhiS7 V c n h = iprop((owns (c : Thread nD τ) scM7 fullShare (accAt7 V c (n - 1) (by omega))
      ∗ Pipeline.scopedRestBut (Ix := Unit) (Name := ℕ) (U := UR sig nD τ) (Lvl := ℕ) (Val := Elt F) spec7 c [cc7_scratch0])
      ∗ (∃ r, prngReg c r)) := by
  cases n with
  | zero => exact absurd rfl hz
  | succ n => rfl

theorem PhiS7_any (c : Dev nD) (n : ℕ) (h : n ≤ cfg7.N) :
    PhiS7 V c n h ⊢ iprop((iprop(∃ d, owns (c : Thread nD τ) scM7 fullShare d)
      ∗ Pipeline.scopedRestBut (Ix := Unit) (Name := ℕ) (U := UR sig nD τ) (Lvl := ℕ) (Val := Elt F) spec7 c [cc7_scratch0])
      ∗ (∃ r, prngReg c r)) := by
  cases n with
  | zero => rw [PhiS7_zero V c 0 h rfl, PhiA7_eq]; try exact Idealize.SL.BI.Entails.refl _
  | succ n =>
    rw [PhiS7_succ]
    iintro ⟨⟨HS, HR⟩, Hg⟩
    isplitr [Hg]
    · isplitl [HS]
      · iexists _; iexact HS
      iexact HR
    iexact Hg

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => accAt7 V c t.val t.isLt
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = accAt7 V c t.val t.isLt := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)

theorem Phi7_castSucc (c : Dev nD) (t : Fin cfg7.N) :
    (dat7 V c).Φ t.castSucc = PhiS7 V c t.val (Nat.le_of_lt t.isLt) := by
  dsimp only [dat7]; simp only [Fin.coe_castSucc]

theorem idleAt7_2 : ∀ t : Fin cfg7.N, t.val % 8 ≠ 7 → cfg7.idle 2 (grid7.coords t) = true :=
  (by decide +kernel : ∀ t : Fin grid7.N, t.val % 8 ≠ 7 → idle7 2 (grid7.coords t) = true)

theorem noFlush7_2 (t : Fin cfg7.N) (h : t.val % 8 ≠ 7) : (cfg7.win 2).flush t = false :=
  Bool.eq_false_iff.mpr fun hf => h ((flush7_2 t).mp hf)

theorem liveAt7_2 : ∀ t : Fin cfg7.N, t.val % 8 = 7 → cfg7.idle 2 (grid7.coords t) = false :=
  (by decide +kernel : ∀ t : Fin grid7.N, t.val % 8 = 7 → idle7 2 (grid7.coords t) = false)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ (dat7 V c).leavesExact 2 t)

set_option maxHeartbeats 1000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl,
    show (dat7 V c).Φ t.succ = PhiS7 V c (t.val + 1) t.isLt from rfl, PhiS7_succ,
    Phi7_castSucc, after7_0, after7_1]
  by_cases h0 : t.val % 8 = 0
  ·
    have h7 : t.val % 8 ≠ 7 := by omega
    rw [Dat.leavesExact_idle (dat7 V c) 2 t (idleAt7_2 t h7) (noFlush7_2 t h7), accAt7_first V c t h0]
    iintro ⟨HΦ, Ho, ⟨%d0, H0⟩, ⟨%d1, H1⟩, H2⟩
    icases (PhiS7_any V c _ _) $$ HΦ with ⟨⟨HS, HR⟩, Hg⟩
    iapply (sound_kernel7_first c Set.univ (grid7.coords t) ((hcond7_first t).mpr h0) (fun h => h7 ((hcond7_last t).mp h))
      _ _ _ _ _ _ _ _ (iblk7 V c 0 t) (iblk7 V c 1 t) _)
    isplitl [H0]; · iexact H0
    isplitl [H1]; · iexact H1
    isplitl [HS]; · iexact HS
    iintro ⟨H0, H1, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2
  · have hz : t.val ≠ 0 := fun h => h0 (by rw [h])
    rw [PhiS7_pos V c _ _ hz, accAt7_step V c t h0]
    by_cases h7 : t.val % 8 = 7
    ·
      rw [show (dat7 V c).leavesExact 2 t = owns (c : Thread nD τ) (st7_2 t) fullShare ((dat7 V c).after 2 t) from by
        unfold Dat.leavesExact; rw [liveAt7_2 t h7], after7_2, accAt7_step V c t h0]
      iintro ⟨⟨⟨HS, HR⟩, Hg⟩, Ho, ⟨%d0, H0⟩, ⟨%d1, H1⟩, ⟨%d2, H2⟩⟩
      iapply (sound_kernel7_last c Set.univ (grid7.coords t) (fun h => h0 ((hcond7_first t).mp h)) ((hcond7_last t).mpr h7)
        _ _ _ _ _ _ _ _ (iblk7 V c 0 t) (iblk7 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    ·
      rw [Dat.leavesExact_idle (dat7 V c) 2 t (idleAt7_2 t h7) (noFlush7_2 t h7)]
      iintro ⟨⟨⟨HS, HR⟩, Hg⟩, Ho, ⟨%d0, H0⟩, ⟨%d1, H1⟩, H2⟩
      iapply (sound_kernel7_mid c Set.univ (grid7.coords t) (fun h => h0 ((hcond7_first t).mp h)) (fun h => h7 ((hcond7_last t).mp h))
        _ _ _ _ _ _ _ _ (iblk7 V c 0 t) (iblk7 V c 1 t) _ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl, PhiA7_eq]
  exact PhiS7_any V c _ _

end Cert.ReferenceIdeal.Rg

end
-- ==== Proof.RI.R8.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import proofs.«121997_g2000006886080560_pallasbulk_379_4_alg».proof.Proof.RI.R7a
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def accAt8 (c : Dev nD) : (n : ℕ) → n < cfg8.N → Vec F S256x512 .f32
  | 0, hn => k8_pay2 k8_pay1 (iblk8 V c 0 ⟨0, hn⟩) (iblk8 V c 1 ⟨0, hn⟩)
  | n + 1, hn =>
    if (n + 1) % 8 = 0 then k8_pay2 k8_pay1 (iblk8 V c 0 ⟨n + 1, hn⟩) (iblk8 V c 1 ⟨n + 1, hn⟩)
    else k8_pay2 (accAt8 c n (Nat.lt_of_succ_lt hn)) (iblk8 V c 0 ⟨n + 1, hn⟩) (iblk8 V c 1 ⟨n + 1, hn⟩)

theorem accAt8_first (c : Dev nD) (t : Fin cfg8.N) (h : t.val % 8 = 0) :
    accAt8 V c t.val t.isLt = k8_pay2 k8_pay1 (iblk8 V c 0 t) (iblk8 V c 1 t) := by
  obtain ⟨n, hn⟩ := t
  cases n with
  | zero => rfl
  | succ n => exact if_pos h

theorem accAt8_step (c : Dev nD) (t : Fin cfg8.N) (h : t.val % 8 ≠ 0) :
    accAt8 V c t.val t.isLt
      = k8_pay2 (accAt8 V c (t.val - 1) (Nat.lt_of_le_of_lt (Nat.sub_le _ _) t.isLt)) (iblk8 V c 0 t) (iblk8 V c 1 t) := by
  obtain ⟨n, hn⟩ := t
  cases n with
  | zero => exact absurd (Nat.zero_mod _) h
  | succ n => exact if_neg h

abbrev scM8 : Memref sig .tc .vmem S256x512 .f32 := Memref.whole cc8_scratch0

theorem PhiA8_eq (c : Dev nD) :
    (Pipeline.ΦA spec8 c : sProp 𝕄)
      = iprop((iprop(∃ d, owns (c : Thread nD τ) scM8 fullShare d)
          ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [scM8, owns_whole]; try rfl

def PhiS8 (c : Dev nD) : (n : ℕ) → n ≤ cfg8.N → sProp 𝕄
  | 0, _ => Pipeline.ΦA spec8 c
  | n + 1, hn => iprop((owns (c : Thread nD τ) scM8 fullShare (accAt8 V c n hn)
      ∗ Pipeline.scopedRestBut (Ix := Unit) (Name := ℕ) (U := UR sig nD τ) (Lvl := ℕ) (Val := Elt F) spec8 c [cc8_scratch0])
      ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop((owns (c : Thread nD τ) scM8 fullShare (accAt8 V c n hn)
      ∗ Pipeline.scopedRestBut (Ix := Unit) (Name := ℕ) (U := UR sig nD τ) (Lvl := ℕ) (Val := Elt F) spec8 c [cc8_scratch0])
      ∗ (∃ r, prngReg c r)) := rfl

theorem PhiS8_pos (c : Dev nD) (n : ℕ) (h : n ≤ cfg8.N) (hz : n ≠ 0) :
    PhiS8 V c n h = iprop((owns (c : Thread nD τ) scM8 fullShare (accAt8 V c (n - 1) (by omega))
      ∗ Pipeline.scopedRestBut (Ix := Unit) (Name := ℕ) (U := UR sig nD τ) (Lvl := ℕ) (Val := Elt F) spec8 c [cc8_scratch0])
      ∗ (∃ r, prngReg c r)) := by
  cases n with
  | zero => exact absurd rfl hz
  | succ n => rfl

theorem PhiS8_any (c : Dev nD) (n : ℕ) (h : n ≤ cfg8.N) :
    PhiS8 V c n h ⊢ iprop((iprop(∃ d, owns (c : Thread nD τ) scM8 fullShare d)
      ∗ Pipeline.scopedRestBut (Ix := Unit) (Name := ℕ) (U := UR sig nD τ) (Lvl := ℕ) (Val := Elt F) spec8 c [cc8_scratch0])
      ∗ (∃ r, prngReg c r)) := by
  cases n with
  | zero => rw [PhiS8_zero V c 0 h rfl, PhiA8_eq]; try exact Idealize.SL.BI.Entails.refl _
  | succ n =>
    rw [PhiS8_succ]
    iintro ⟨⟨HS, HR⟩, Hg⟩
    isplitr [Hg]
    · isplitl [HS]
      · iexists _; iexact HS
      iexact HR
    iexact Hg

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => accAt8 V c t.val t.isLt
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = accAt8 V c t.val t.isLt := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)

theorem Phi8_castSucc (c : Dev nD) (t : Fin cfg8.N) :
    (dat8 V c).Φ t.castSucc = PhiS8 V c t.val (Nat.le_of_lt t.isLt) := by
  dsimp only [dat8]; simp only [Fin.coe_castSucc]

theorem idleAt8_2 : ∀ t : Fin cfg8.N, t.val % 8 ≠ 7 → cfg8.idle 2 (grid8.coords t) = true :=
  (by decide +kernel : ∀ t : Fin grid8.N, t.val % 8 ≠ 7 → idle8 2 (grid8.coords t) = true)

theorem noFlush8_2 (t : Fin cfg8.N) (h : t.val % 8 ≠ 7) : (cfg8.win 2).flush t = false :=
  Bool.eq_false_iff.mpr fun hf => h ((flush8_2 t).mp hf)

theorem liveAt8_2 : ∀ t : Fin cfg8.N, t.val % 8 = 7 → cfg8.idle 2 (grid8.coords t) = false :=
  (by decide +kernel : ∀ t : Fin grid8.N, t.val % 8 = 7 → idle8 2 (grid8.coords t) = false)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ (dat8 V c).leavesExact 2 t)

set_option maxHeartbeats 1000000 in

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [show @cc8__matmul_acc_kernel F _ _ = @cc7__matmul_acc_kernel F _ _ from rfl]
  simp only [before8_0, before8_1]
  rw [show (dat8 V c).owesAt () t.succ = (dat8 V c).owesAt () t.castSucc from rfl,
    show (dat8 V c).Φ t.succ = PhiS8 V c (t.val + 1) t.isLt from rfl, PhiS8_succ,
    Phi8_castSucc, after8_0, after8_1]
  by_cases h0 : t.val % 8 = 0
  ·
    have h7 : t.val % 8 ≠ 7 := by omega
    rw [Dat.leavesExact_idle (dat8 V c) 2 t (idleAt8_2 t h7) (noFlush8_2 t h7), accAt8_first V c t h0]
    iintro ⟨HΦ, Ho, ⟨%d0, H0⟩, ⟨%d1, H1⟩, H2⟩
    icases (PhiS8_any V c _ _) $$ HΦ with ⟨⟨HS, HR⟩, Hg⟩
    iapply (sound_kernel7_first c Set.univ (grid8.coords t) ((hcond7_first t).mpr h0) (fun h => h7 ((hcond7_last t).mp h))
      _ _ _ _ _ _ _ _ (iblk8 V c 0 t) (iblk8 V c 1 t) _)
    isplitl [H0]; · iexact H0
    isplitl [H1]; · iexact H1
    isplitl [HS]; · iexact HS
    iintro ⟨H0, H1, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2
  · have hz : t.val ≠ 0 := fun h => h0 (by rw [h])
    rw [PhiS8_pos V c _ _ hz, accAt8_step V c t h0]
    by_cases h7 : t.val % 8 = 7
    ·
      rw [show (dat8 V c).leavesExact 2 t = owns (c : Thread nD τ) (st8_2 t) fullShare ((dat8 V c).after 2 t) from by
        unfold Dat.leavesExact; rw [liveAt8_2 t h7], after8_2, accAt8_step V c t h0]
      iintro ⟨⟨⟨HS, HR⟩, Hg⟩, Ho, ⟨%d0, H0⟩, ⟨%d1, H1⟩, ⟨%d2, H2⟩⟩
      iapply (sound_kernel7_last c Set.univ (grid8.coords t) (fun h => h0 ((hcond7_first t).mp h)) ((hcond7_last t).mpr h7)
        _ _ _ _ _ _ _ _ (iblk8 V c 0 t) (iblk8 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    ·
      rw [Dat.leavesExact_idle (dat8 V c) 2 t (idleAt8_2 t h7) (noFlush8_2 t h7)]
      iintro ⟨⟨⟨HS, HR⟩, Hg⟩, Ho, ⟨%d0, H0⟩, ⟨%d1, H1⟩, H2⟩
      iapply (sound_kernel7_mid c Set.univ (grid8.coords t) (fun h => h0 ((hcond7_first t).mp h)) (fun h => h7 ((hcond7_last t).mp h))
        _ _ _ _ _ _ _ _ (iblk8 V c 0 t) (iblk8 V c 1 t) _ _)
      isplitl [H0]; · iexact H0
      isplitl [H1]; · iexact H1
      isplitl [HS]; · iexact HS
      iintro ⟨H0, H1, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

theorem hout8 (c : Dev nD) : (dat8 V c).Φ (Fin.last cfg8.N) ⊢ Pipeline.ΦA spec8 c := by
  rw [show (dat8 V c).Φ (Fin.last cfg8.N) = PhiS8 V c (Fin.last cfg8.N).val (Nat.le_of_lt_succ (Fin.last cfg8.N).isLt) from rfl, PhiA8_eq]
  exact PhiS8_any V c _ _

end Cert.ReferenceIdeal.Rg

end
-- ==== Proof.RI.R9.lean ====
import proofs.«121997_g2000006886080560_pallasbulk_379_4_alg».proof.Proof.Gen.ReferenceIdeal.Launch
import proofs.«121997_g2000006886080560_pallasbulk_379_4_alg».proof.Proof.Gen.ReferenceIdeal.Skeleton
import proofs.«121997_g2000006886080560_pallasbulk_379_4_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_x : Rect S256x512 := Rect.unit (s := S256x512) ![0, 0] S256x512.size inb_S256x512_S256x512_0_0
abbrev r9_w : Rect S512x512 := Rect.unit (s := S512x512) ![0, 0] S512x512.size inb_S512x512_S512x512_0_0
abbrev r9_o : Rect S256x512 := Rect.unit (s := S256x512) ![0, 0] S256x512.size inb_S256x512_S256x512_0_0

def out9_2 (x0 : Vec F S256x512 .f32) (x1 : Vec F S512x512 .f32) : Vec F S256x512 .f32 :=
  View.canon [⟨r9_o, k9_pay1 (View.ld x0 r9_x) (View.ld x1 r9_w)⟩]

theorem cover9_2 (p0 : Vec F S256x512 .f32) (y : S256x512.Idx) :
    ∃ pc ∈ ([⟨r9_o, p0⟩] : List (View.Piece (Elt F) S256x512 .f32)), y ∈ pc.1.set :=
  View.cover_of_tiled [⟨r9_o, p0⟩] S256x512.size (by rfl) y

set_option maxHeartbeats 1000000 in

theorem sound_kernel9 (c : Dev nD) (E : Set ℕ) (i : grid9.Coords) (arg1 : Memref sig .tc .vmem S256x512 .f32) (harg1 : arg1.IsWhole) (arg2 : Memref sig .tc .vmem S512x512 .f32) (harg2 : arg2.IsWhole) (arg3 : Memref sig .tc .vmem S256x512 .f32) (harg3 : arg3.IsWhole)
    (x0 : Vec F S256x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matmul_noacc_kernel i arg1 harg1 arg2 harg2 arg3 harg3) K := by
  simp only [cc9__matmul_noacc_kernel_eq_skeleton]; unfold cc9__matmul_noacc_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun t => by rw [after9_0]; unfold Dat.blockOf iblk9; rw [A_eq9]; try rfl) t d).trans
    (by unfold Dat.fetched Dat.blockOf iblk9; rw [A_eq9]; try rfl)
theorem before9_1 (c : Dev nD) (t : Fin cfg9.N) (d) : (dat9 V c).before 1 t d = iblk9 V c 1 t :=
  ((dat9 V c).before_in_eq_fetched 1 rfl (fun _ => rfl) (fun _ _ _ => rfl) (fun t => by rw [after9_1]; unfold Dat.blockOf iblk9; rw [A_eq9]; try rfl) t d).trans
    (by unfold Dat.fetched Dat.blockOf iblk9; rw [A_eq9]; try rfl)

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.ReferenceIdeal.Rg

end
-- ==== Proof.RI.Run.lean ====
import proofs.«121997_g2000006886080560_pallasbulk_379_4_alg».proof.Proof.Step
import proofs.«121997_g2000006886080560_pallasbulk_379_4_alg».proof.Proof.RI.R0
import proofs.«121997_g2000006886080560_pallasbulk_379_4_alg».proof.Proof.RI.R1
import proofs.«121997_g2000006886080560_pallasbulk_379_4_alg».proof.Proof.RI.R2
import proofs.«121997_g2000006886080560_pallasbulk_379_4_alg».proof.Proof.RI.R3
import proofs.«121997_g2000006886080560_pallasbulk_379_4_alg».proof.Proof.RI.R4
import proofs.«121997_g2000006886080560_pallasbulk_379_4_alg».proof.Proof.RI.R5
import proofs.«121997_g2000006886080560_pallasbulk_379_4_alg».proof.Proof.RI.R6
import proofs.«121997_g2000006886080560_pallasbulk_379_4_alg».proof.Proof.RI.R7
import proofs.«121997_g2000006886080560_pallasbulk_379_4_alg».proof.Proof.RI.R8
import proofs.«121997_g2000006886080560_pallasbulk_379_4_alg».proof.Proof.RI.R9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := Step.Wout dat0 (W0 m)
abbrev W2 : Dev nD → Valuation τ sig (Elt F) := Step.Wout dat1 (W1 m)
abbrev W3 : Dev nD → Valuation τ sig (Elt F) := Step.Wout dat2 (W2 m)
abbrev W4 : Dev nD → Valuation τ sig (Elt F) := Step.Wout dat3 (W3 m)
abbrev W5 : Dev nD → Valuation τ sig (Elt F) := Step.Wout dat4 (W4 m)
abbrev W6 : Dev nD → Valuation τ sig (Elt F) := Step.Wout dat5 (W5 m)
abbrev W7 : Dev nD → Valuation τ sig (Elt F) := Step.Wout dat6 (W6 m)
abbrev W8 : Dev nD → Valuation τ sig (Elt F) := Step.Wout dat7 (W7 m)
abbrev W9 : Dev nD → Valuation τ sig (Elt F) := Step.Wout dat8 (W8 m)

abbrev W10 : Dev nD → Valuation τ sig (Elt F) := fun c => StableHlo.after hostOps9 (W9 m c)
abbrev W11 : Dev nD → Valuation τ sig (Elt F) := Step.Wout dat9 (W10 m)

abbrev rd (W : Dev nD → Valuation τ sig (Elt F)) : (c : Dev nD) → (b : Ref sig .tc) → Buf (Elt F) ((c : Thread nD τ).loc b) := fun c b => W c b

abbrev adm : (p : Fin 10) → (pcfgs (F := F) p).Adm := fun p => (cfgs p).toPCfg_adm

def pdats : (p : Fin 10) → (c : Dev nD) → Dat τ (Elt F) Unit ℕ (UR sig nD τ) ℕ (Pipeline.pin (pcfgs (F := F)) adm p) c
  | ⟨0, _⟩ => fun c => dat0 (rd (W0 m)) c
  | ⟨1, _⟩ => fun c => dat1 (rd (W1 m)) c
  | ⟨2, _⟩ => fun c => dat2 (rd (W2 m)) c
  | ⟨3, _⟩ => fun c => dat3 (rd (W3 m)) c
  | ⟨4, _⟩ => fun c => dat4 (rd (W4 m)) c
  | ⟨5, _⟩ => fun c => dat5 (rd (W5 m)) c
  | ⟨6, _⟩ => fun c => dat6 (rd (W6 m)) c
  | ⟨7, _⟩ => fun c => dat7 (rd (W7 m)) c
  | ⟨8, _⟩ => fun c => dat8 (rd (W8 m)) c
  | ⟨9, _⟩ => fun c => dat9 (rd (W10 m)) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev T (W : Dev nD → Valuation τ sig (Elt F)) (c : Dev nD) : sProp 𝕄 :=
  iprop(StableHlo.held (c : Thread nD τ) (Pipeline.ucRefs τ sig) (W c) ∗ R c)

theorem hostOps9_fresh : (hostOps9 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

def mkReg (p : Fin 10) (hl : Pipeline.LaunchFacts (nD := nD) (τ := τ) cfgs p)
    (Win Wout : Dev nD → Valuation τ sig (Elt F))
    (hbody : ∀ c, BodyObligation (pdats m p c) (defs₀ (F := F)) Variants.none () Set.univ)
    (hA : ∀ c w, (pdats m p c).A w = Win c (Pipeline.arrRef (cfgs p).spec w))
    (hq : ∀ c w, (pdats m p c).q w = fullShare) (howed : ∀ c t, (pdats m p c).owed t = 0)
    (hrec : ∀ c t, (pdats m p c).recorded t = Set.univ)
    (hΦin : ∀ c, Pipeline.ΦA (cfgs p).spec c ⊢ (pdats m p c).Φ 0)
    (hΦout : ∀ c, (pdats m p c).Φ (Fin.last _) ⊢ Pipeline.ΦA (cfgs p).spec c)
    (hF : ∀ c w, (pdats m p c).arrAt w (cfgs p).N = Wout c (Pipeline.arrRef (cfgs p).spec w))
    (hrest : ∀ c (b : Ref sig .tc), b ∉ Finset.univ.image (Pipeline.arrRef (cfgs p).spec) → Wout c b = Win c b) :
    Pipeline.RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre := T Win
  post := T Wout
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm (pdats m) hl.win hl.arr_whole c
      ((pdats m p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    refine BIBase.Entails.trans ?_ (hΦin c)
    unfold Pipeline.ΦA
    iintro ⟨Hp, -, Hr⟩
    isplitl [Hr]; · iexact Hr
    iexact Hp
  hout c := by
    refine BIBase.Entails.trans (hΦout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (fun b => Win c b) (fun b => Wout c b) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L lv 0 :=
  mkReg m 0 launch0 (W0 m) (W1 m) (body_obligation0 (rd (W0 m))) (A_eq0 (rd (W0 m)))
    (fun _ _ => rfl) (fun _ _ => rfl) (fun _ _ => rfl) (fun _ => .rfl) (fun _ => .rfl) (Step.hF dat0 launch0.win.arr_inj (W0 m)) (Step.hrest dat0 (W0 m))
def reg1 : Pipeline.RegionSeg (pcfgs (F := F)) adm (pdats m) () defs₀ 𝒱₀ L lv 1 :=
  mkReg m 1 launch1 (W1 m) (W2 m) (body_obligation1 (rd (W1 m))) (A_eq1 (rd (W1 m)))
    (fun _ _ => rfl) (fun _ _ => rfl) (fun _ _ => rfl) (hin1 (rd (W1 m))) (hout1 (rd (W1 m))) (Step.hF dat1 launch1.win.arr_inj (W1 m)) (Step.hrest dat1 (W1 m))
def reg2 : Pipeline.RegionSeg (pcfgs (F := F)) adm (pdats m) () defs₀ 𝒱₀ L lv 2 :=
  mkReg m 2 launch2 (W2 m) (W3 m) (body_obligation2 (rd (W2 m))) (A_eq2 (rd (W2 m)))
    (fun _ _ => rfl) (fun _ _ => rfl) (fun _ _ => rfl) (hin2 (rd (W2 m))) (hout2 (rd (W2 m))) (Step.hF dat2 launch2.win.arr_inj (W2 m)) (Step.hrest dat2 (W2 m))
def reg3 : Pipeline.RegionSeg (pcfgs (F := F)) adm (pdats m) () defs₀ 𝒱₀ L lv 3 :=
  mkReg m 3 launch3 (W3 m) (W4 m) (body_obligation3 (rd (W3 m))) (A_eq3 (rd (W3 m)))
    (fun _ _ => rfl) (fun _ _ => rfl) (fun _ _ => rfl) (fun _ => .rfl) (fun _ => .rfl) (Step.hF dat3 launch3.win.arr_inj (W3 m)) (Step.hrest dat3 (W3 m))
def reg4 : Pipeline.RegionSeg (pcfgs (F := F)) adm (pdats m) () defs₀ 𝒱₀ L lv 4 :=
  mkReg m 4 launch4 (W4 m) (W5 m) (body_obligation4 (rd (W4 m))) (A_eq4 (rd (W4 m)))
    (fun _ _ => rfl) (fun _ _ => rfl) (fun _ _ => rfl) (hin4 (rd (W4 m))) (hout4 (rd (W4 m))) (Step.hF dat4 launch4.win.arr_inj (W4 m)) (Step.hrest dat4 (W4 m))
def reg5 : Pipeline.RegionSeg (pcfgs (F := F)) adm (pdats m) () defs₀ 𝒱₀ L lv 5 :=
  mkReg m 5 launch5 (W5 m) (W6 m) (body_obligation5 (rd (W5 m))) (A_eq5 (rd (W5 m)))
    (fun _ _ => rfl) (fun _ _ => rfl) (fun _ _ => rfl) (hin5 (rd (W5 m))) (hout5 (rd (W5 m))) (Step.hF dat5 launch5.win.arr_inj (W5 m)) (Step.hrest dat5 (W5 m))
def reg6 : Pipeline.RegionSeg (pcfgs (F := F)) adm (pdats m) () defs₀ 𝒱₀ L lv 6 :=
  mkReg m 6 launch6 (W6 m) (W7 m) (body_obligation6 (rd (W6 m))) (A_eq6 (rd (W6 m)))
    (fun _ _ => rfl) (fun _ _ => rfl) (fun _ _ => rfl) (fun _ => .rfl) (fun _ => .rfl) (Step.hF dat6 launch6.win.arr_inj (W6 m)) (Step.hrest dat6 (W6 m))
def reg7 : Pipeline.RegionSeg (pcfgs (F := F)) adm (pdats m) () defs₀ 𝒱₀ L lv 7 :=
  mkReg m 7 launch7 (W7 m) (W8 m) (body_obligation7 (rd (W7 m))) (A_eq7 (rd (W7 m)))
    (fun _ _ => rfl) (fun _ _ => rfl) (fun _ _ => rfl) (hin7 (rd (W7 m))) (hout7 (rd (W7 m))) (Step.hF dat7 launch7.win.arr_inj (W7 m)) (Step.hrest dat7 (W7 m))
def reg8 : Pipeline.RegionSeg (pcfgs (F := F)) adm (pdats m) () defs₀ 𝒱₀ L lv 8 :=
  mkReg m 8 launch8 (W8 m) (W9 m) (body_obligation8 (rd (W8 m))) (A_eq8 (rd (W8 m)))
    (fun _ _ => rfl) (fun _ _ => rfl) (fun _ _ => rfl) (hin8 (rd (W8 m))) (hout8 (rd (W8 m))) (Step.hF dat8 launch8.win.arr_inj (W8 m)) (Step.hrest dat8 (W8 m))
def reg9 : Pipeline.RegionSeg (pcfgs (F := F)) adm (pdats m) () defs₀ 𝒱₀ L lv 9 :=
  mkReg m 9 launch9 (W10 m) (W11 m) (body_obligation9 (rd (W10 m))) (A_eq9 (rd (W10 m)))
    (fun _ _ => rfl) (fun _ _ => rfl) (fun _ _ => rfl) (fun _ => .rfl) (fun _ => .rfl) (Step.hF dat9 launch9.win.arr_inj (W10 m)) (Step.hrest dat9 (W10 m))

abbrev Tₙ (c : Dev nD) : sProp 𝕄 := iprop(StableHlo.held (c : Thread nD τ) (Pipeline.ucRefs τ sig) (W11 m c) ∗ ∃ r, prngReg c r)

abbrev hseg9 : Pipeline.HostSeg (Name := ℕ) (U := UR sig nD τ) (pcfgs (F := F)) defs₀ 𝒱₀ L lv :=
  Pipeline.HostSeg.ofOps _ _ _ _ _ (Pipeline.ucRefs τ sig) hostOps9
    (fun op h => Pipeline.sub_ucRefs op ((List.forall_iff_forall_mem.mp hostOps9_sub) op h))
    (fun op h => (List.forall_iff_forall_mem.mp hostOps9_fresh) op h) (W9 m) R

abbrev segs : List (Pipeline.Seg (pcfgs (F := F)) adm (pdats m) () defs₀ 𝒱₀ L lv) :=
  [ .region (reg0 m), .region (reg1 m), .region (reg2 m), .region (reg3 m), .region (reg4 m), .region (reg5 m),
    .region (reg6 m), .region (reg7 m), .region (reg8 m), .host (hseg9 m), .region (reg9 m) ]

theorem main_run (c : Dev nD) : main (F := F) c = Pipeline.Seg.run (segs m) := (main_chain c).trans (by chain_rfl)

variable (ρ : Dev nD → PrngReg)

set_option backward.isDefEq.respectTransparency.types false in

theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = rd (W11 m) c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl,
      fun c => (show T (W11 m) c ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c b hb => h c _ (mem_uc b hb))

end Cert.ReferenceIdeal.Rg

end
-- ==== Proof.RI.Frame.lean ====
import proofs.«121997_g2000006886080560_pallasbulk_379_4_alg».proof.Proof.RI.Run

noncomputable section

namespace Cert.ReferenceIdeal.Rg

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev hostOps9_W : List (Ref sig .tc) := [main_v9]
theorem hostOps9_writes : (hostOps9 : List (HloOp τ sig (Elt F))).Forall fun op => op.writes ⊆ (hostOps9_W.map (Proc.devRef (τ := τ) .tc)).toFinset := by
  simp only [List.Forall]; exact (by simp only [StableHlo.unary_writes, Finset.singleton_subset_iff, List.mem_toFinset]; exact List.mem_map_of_mem (by decide))

theorem W10_keep (c : Dev nD) (b : Ref sig .tc) (h : b ∉ hostOps9_W) : rd (W10 m) c b = rd (W9 m) c b :=
  StableHlo.after_of_writes_sub hostOps9 _ hostOps9_writes h

theorem kept_of (c : Dev nD) (b : Ref sig .tc)
    (h0 : ∀ w, (cfg0.win w).isOut = true → Pipeline.arrRef spec0 w ≠ b)
    (h1 : ∀ w, (cfg1.win w).isOut = true → Pipeline.arrRef spec1 w ≠ b)
    (h2 : ∀ w, (cfg2.win w).isOut = true → Pipeline.arrRef spec2 w ≠ b)
    (h3 : ∀ w, (cfg3.win w).isOut = true → Pipeline.arrRef spec3 w ≠ b)
    (h4 : ∀ w, (cfg4.win w).isOut = true → Pipeline.arrRef spec4 w ≠ b)
    (h5 : ∀ w, (cfg5.win w).isOut = true → Pipeline.arrRef spec5 w ≠ b)
    (h6 : ∀ w, (cfg6.win w).isOut = true → Pipeline.arrRef spec6 w ≠ b)
    (h7 : ∀ w, (cfg7.win w).isOut = true → Pipeline.arrRef spec7 w ≠ b)
    (h8 : ∀ w, (cfg8.win w).isOut = true → Pipeline.arrRef spec8 w ≠ b)
    (hh : b ∉ hostOps9_W)
    (h9 : ∀ w, (cfg9.win w).isOut = true → Pipeline.arrRef spec9 w ≠ b) : rd (W11 m) c b = m ((c : Thread nD τ).loc b) :=
  (Step.keep dat9 launch9.win.arr_inj A_eq9 (W10 m) c b h9).trans <| (W10_keep m c b hh).trans <| (Step.keep dat8 launch8.win.arr_inj A_eq8 (W8 m) c b h8).trans <| (Step.keep dat7 launch7.win.arr_inj A_eq7 (W7 m) c b h7).trans <|
    (Step.keep dat6 launch6.win.arr_inj A_eq6 (W6 m) c b h6).trans <| (Step.keep dat5 launch5.win.arr_inj A_eq5 (W5 m) c b h5).trans <| (Step.keep dat4 launch4.win.arr_inj A_eq4 (W4 m) c b h4).trans <| (Step.keep dat3 launch3.win.arr_inj A_eq3 (W3 m) c b h3).trans <|
    (Step.keep dat2 launch2.win.arr_inj A_eq2 (W2 m) c b h2).trans <| (Step.keep dat1 launch1.win.arr_inj A_eq1 (W1 m) c b h1).trans <| (Step.keep dat0 launch0.win.arr_inj A_eq0 (W0 m) c b h0).trans rfl

theorem arg_kept (c : Dev nD) (b : Ref sig .tc) (hb : b ∈ [main_arg0, main_arg1, main_arg2, main_arg3, main_arg4]) :
    rd (W11 m) c b = m ((c : Thread nD τ).loc b) := by
  simp only [List.mem_cons, List.not_mem_nil, or_false] at hb
  rcases hb with rfl | rfl | rfl | rfl | rfl <;> exact kept_of m c _ (by decide) (by decide) (by decide) (by decide) (by decide) (by decide) (by decide) (by decide) (by decide) (by decide) (by decide)

variable (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c main_arg0 (by decide)).trans (arg_kept m c _ (by decide)), (h c main_arg1 (by decide)).trans (arg_kept m c _ (by decide)),
     (h c main_arg2 (by decide)).trans (arg_kept m c _ (by decide)), (h c main_arg3 (by decide)).trans (arg_kept m c _ (by decide)),
     (h c main_arg4 (by decide)).trans (arg_kept m c _ (by decide))⟩) (run m ρ)

end Cert.ReferenceIdeal.Rg

end
-- ==== Proof.Spec.lean ====
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

abbrev Mat (M N : Nat) : Type := (⟨2, ![M, N]⟩ : Shape).Idx → EReal

def mm {M K N : Nat} (a : Mat M K) (b : Mat K N) : Mat M N :=
  fun j => ∑ k : Fin K, a (ix2 (j 0) k) * b (ix2 k (j 1))

def mmT {M K N : Nat} (a : Mat M K) (b : Mat N K) : Mat M N :=
  fun j => ∑ k : Fin K, a (ix2 (j 0) k) * b (ix2 (j 1) k)

theorem hz : (![0, 0] : Fin 2 → Nat) = fun _ => 0 := funext fun a => by
  match a with
  | ⟨0, _⟩ => rfl
  | ⟨1, _⟩ => rfl

theorem mm_ix2 {M K N : Nat} (a : Mat M K) (b : Mat K N) (p : Fin M) (q : Fin N) :
    mm a b (ix2 p q) = ∑ k : Fin K, a (ix2 p k) * b (ix2 k q) := rfl

theorem mmT_ix2 {M K N : Nat} (a : Mat M K) (b : Mat N K) (p : Fin M) (q : Fin N) :
    mmT a b (ix2 p q) = ∑ k : Fin K, a (ix2 p k) * b (ix2 q k) := rfl

theorem blk_lt {nb bs : Nat} (kb : Fin nb) (kk : Fin bs) : kb.val * bs + kk.val < nb * bs :=
  calc kb.val * bs + kk.val < kb.val * bs + bs := Nat.add_lt_add_left kk.isLt _
    _ = (kb.val + 1) * bs := (Nat.succ_mul _ _).symm
    _ ≤ nb * bs := Nat.mul_le_mul_right _ kb.isLt

theorem sum_blocks {α : Type*} [AddCommMonoid α] {nb bs : Nat} (f : Fin (nb * bs) → α) :
    ∑ kb : Fin nb, ∑ kk : Fin bs, f ⟨kb.val * bs + kk.val, blk_lt kb kk⟩ = ∑ k, f k := by
  rw [← Equiv.sum_comp (finProdFinEquiv (m := nb) (n := bs)) f, Fintype.sum_prod_type]
  refine Finset.sum_congr rfl fun kb _ => Finset.sum_congr rfl fun kk _ => congrArg f (Fin.ext ?_)
  show kb.val * bs + kk.val = kk.val + bs * kb.val
  rw [Nat.mul_comm, Nat.add_comm]

def accN (S : ℕ → EReal) : ℕ → EReal
  | 0 => 0 + S 0
  | n + 1 => accN S n + S (n + 1)

theorem accN_first (S : ℕ → EReal) (m : ℕ) (h : m = 0) : 0 + S m = accN S m := by subst h; rfl

theorem accN_step (S : ℕ → EReal) (a m : ℕ) (h : a = m + 1) : accN S m + S a = accN S a := by subst h; rfl

theorem accN_eq (S : ℕ → EReal) (n : ℕ) : accN S n = ∑ i ∈ Finset.range (n + 1), S i := by
  induction n with
  | zero => simp [accN]
  | succ n ih => rw [accN, ih, Finset.sum_range_succ _ (n + 1)]

theorem accN_seven (S : ℕ → EReal) : accN S 7 = ∑ kb : Fin 8, S kb.val := by
  rw [accN_eq, Finset.sum_range]

theorem blk8_lt (kb : Fin 8) (kk : Fin 512) : kb.val * 512 + kk.val < 4096 := by
  have := kb.isLt; have := kk.isLt; omega

theorem sum_4096_blocks (g : Fin 4096 → EReal) :
    ∑ k, g k = ∑ kb : Fin 8, ∑ kk : Fin 512, g ⟨kb.val * 512 + kk.val, blk8_lt kb kk⟩ :=
  (sum_blocks (nb := 8) (bs := 512) g).symm

theorem sum_4096_eq_accN (g : Fin 4096 → EReal) (S : ℕ → EReal)
    (hS : ∀ kb : Fin 8, S kb.val = ∑ kk : Fin 512, g ⟨kb.val * 512 + kk.val, blk8_lt kb kk⟩) :
    ∑ k, g k = accN S 7 := by
  rw [accN_seven, sum_4096_blocks]
  exact Finset.sum_congr rfl fun kb _ => (hS kb).symm

def blockSum (g : Fin 4096 → EReal) (kb : ℕ) : EReal :=
  if h : kb < 8 then ∑ kk : Fin 512, g ⟨kb * 512 + kk.val, blk8_lt ⟨kb, h⟩ kk⟩ else 0

theorem blockSum_fin (g : Fin 4096 → EReal) (kb : Fin 8) :
    blockSum g kb.val = ∑ kk : Fin 512, g ⟨kb.val * 512 + kk.val, blk8_lt kb kk⟩ := by
  unfold blockSum; rw [dif_pos kb.isLt]

theorem sum_4096_eq_accN_blockSum (g : Fin 4096 → EReal) : ∑ k, g k = accN (blockSum g) 7 :=
  sum_4096_eq_accN g (blockSum g) (blockSum_fin g)

end Cert.Spec

end
-- ==== Proof.Model.lean ====
import proofs.«121997_g2000006886080560_pallasbulk_379_4_alg».proof.Proof.Spec

noncomputable section

namespace Cert.Spec

open Idealize.ShloMosaic Idealize.ShloMosaic.ValueIdx

def tmm {M K N : Nat} (a : Mat M K) (b : Mat K N) : Mat M N := fun j => Ideal.tanh (mm a b j)

variable (x : Mat 4096 128) (A : Mat 4096 4096) (w4 : Mat 128 256) (w5 : Mat 256 384) (w6 : Mat 384 512)

def z1 : Mat 4096 256 := mm A (tmm x w4)
def az1 : Mat 4096 256 := mm A (z1 x A w4)

def z2 : Mat 4096 384 := mm A (tmm (z1 x A w4) w5)
def az2 : Mat 4096 384 := mm A (z2 x A w4 w5)

def z3 : Mat 4096 512 := mm A (tmm (z2 x A w4 w5) w6)
def az3 : Mat 4096 512 := mm A (z3 x A w4 w5 w6)

def gram : Mat 4096 4096 := fun j => Ideal.logistic (mmT (z3 x A w4 w5 w6) (z3 x A w4 w5 w6) j)

end Cert.Spec

end
-- ==== Proof.KI.Val0.lean ====
import proofs.«121997_g2000006886080560_pallasbulk_379_4_alg».proof.Proof.KI.R0
import proofs.«121997_g2000006886080560_pallasbulk_379_4_alg».proof.Proof.Spec
import Idealize.ShloMosaic.Lib.Pipeline.Value
import Idealize.ShloMosaic.PureOps.Ideal.Laws
import Idealize.ShloMosaic.Lib.ValueIdx
import Idealize.ShloMosaic.Lib.StackMember

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

theorem matmul0_apply (a : FVec Ideal S512x128 .bf16) (b : FVec Ideal S128x256 .bf16) (p : Fin 512) (q : Fin 256) :
    matmul dot_S512x128_S128x256_S512x256_1_0_0_1_n_n none a b (constant (F := Ideal) S512x256 .f32 0x00000000#32) (ix2 p q)
      = ∑ k : Fin 128, a (ix2 p k) * b (ix2 k q) :=
  (congrFun (matmul_zero_eq_dotGeneral _ none a b) _).trans (StackMember.dotGeneral_plain_apply none a b p q)

abbrev post0 (x : EReal) : EReal := Ideal.tanh x

theorem pay0_apply (x0 : Vec Ideal S512x128 .f32) (x1 : Vec Ideal S128x256 .f32) (p : Fin 512) (q : Fin 256) :
    k0_pay1 x0 x1 (ix2 p q) = post0 (∑ k : Fin 128, x0 (ix2 p k) * x1 (ix2 k q)) := by
  unfold k0_pay1
  show post0 (matmul dot_S512x128_S128x256_S512x256_1_0_0_1_n_n none (truncf .bf16 x0 bitsLt_bf16_f32)
      (truncf .bf16 x1 bitsLt_bf16_f32) (constant (F := Ideal) S512x256 .f32 0x00000000#32) (ix2 p q)) = _
  exact congrArg post0 (matmul0_apply (truncf .bf16 x0 bitsLt_bf16_f32) (truncf .bf16 x1 bitsLt_bf16_f32) p q)

variable (V : (c : Dev nD) → (b : Ref sig .tc) → Buf (Elt Ideal) ((c : Thread nD τ).loc b))

theorem npts0 : cfg0.N = 8 := by decide

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

def valfn0 (a : Spec.Mat 4096 128) (b : Spec.Mat 128 256) : Spec.Mat 4096 256 := fun j => post0 (Spec.mm a b j)

theorem blk0_0_apply (c : Dev nD) (t : Fin cfg0.N) (y : S512x128.Idx) (i : S4096x128.Idx)
    (h0 : (i 0).val = t.val * 512 + (y 0).val) (h1 : (i 1).val = (y 1).val) :
    (iblk0 (F := Ideal) V c 0 t : Vec Ideal S512x128 .f32) y = (V c main_arg0 : S4096x128.Idx → EReal) i := by
  obtain ⟨e0, e1, -⟩ := idx_facts0 t
  unfold iblk0
  rw [View.read_apply]
  show V c main_arg0 (((cfg0.win 0).blk t).view.emb y) = V c main_arg0 i
  refine congrArg _ (funext fun a => Fin.ext ?_)
  match a with
  | ⟨0, _⟩ => show win0_0.index t (0 : Fin 2) * 512 + 1 * (y 0).val = (i 0).val; omega
  | ⟨1, _⟩ => show win0_0.index t (1 : Fin 2) * 128 + 1 * (y 1).val = (i 1).val; omega

theorem blk0_1_apply (c : Dev nD) (t : Fin cfg0.N) (y : S128x256.Idx) (i : S128x256.Idx)
    (h0 : (i 0).val = (y 0).val) (h1 : (i 1).val = (y 1).val) :
    (iblk0 (F := Ideal) V c 1 t : Vec Ideal S128x256 .f32) y = (V c main_arg2 : S128x256.Idx → EReal) i := by
  obtain ⟨-, -, e2, e3, -⟩ := idx_facts0 t
  unfold iblk0
  rw [View.read_apply]
  show V c main_arg2 (((cfg0.win 1).blk t).view.emb y) = V c main_arg2 i
  refine congrArg _ (funext fun a => Fin.ext ?_)
  match a with
  | ⟨0, _⟩ => show win0_1.index t (0 : Fin 2) * 128 + 1 * (y 0).val = (i 0).val; omega
  | ⟨1, _⟩ => show win0_1.index t (1 : Fin 2) * 256 + 1 * (y 1).val = (i 1).val; omega

theorem flushed0_eq (c : Dev nD) (t : Fin cfg0.N) :
    (dat0 (F := Ideal) V c).flushed 2 t
      = ((cfg0.win 2).blk t).view.read (Elt Ideal) (valfn0 (V c main_arg0) (V c main_arg2)) := by
  show (cfg0.win 2).cut (grid0.coords t) ((dat0 V c).after 2 t) = _
  rw [after0_2]
  unfold out0_2
  rw [View.canon_unit_zero Spec.hz]
  simp only [View.ld_unit_zero (S := S512x128) Spec.hz, View.ld_unit_zero (S := S128x256) Spec.hz]
  obtain ⟨-, -, -, -, e4, e5⟩ := idx_facts0 t
  funext j
  have hp : (j 0).val < 512 := (j 0).isLt
  have hq : (j 1).val < 256 := (j 1).isLt
  have hj : (win0 2).xinj (grid0.coords t) j = ix2 (⟨(j 0).val, hp⟩ : Fin 512) (⟨(j 1).val, hq⟩ : Fin 256) :=
    funext fun a => Fin.ext (by match a with | ⟨0, _⟩ => rfl | ⟨1, _⟩ => rfl)
  show k0_pay1 (iblk0 V c 0 t) (iblk0 V c 1 t) ((win0 2).xinj (grid0.coords t) j)
    = post0 (Spec.mm (V c main_arg0) (V c main_arg2) (((cfg0.win 2).blk t).view.emb j))
  refine (congrArg (k0_pay1 (iblk0 V c 0 t) (iblk0 V c 1 t)) hj).trans ?_
  refine (pay0_apply (iblk0 V c 0 t) (iblk0 V c 1 t) _ _).trans (congrArg post0 ?_)
  unfold Spec.mm
  refine Finset.sum_congr rfl fun k _ => ?_
  have r0 : ((((cfg0.win 2).blk t).view.emb j) 0).val = win0_2.index t (0 : Fin 2) * 512 + 1 * (j 0).val := rfl
  have r1 : ((((cfg0.win 2).blk t).view.emb j) 1).val = win0_2.index t (1 : Fin 2) * 256 + 1 * (j 1).val := rfl
  have a0 := blk0_0_apply V c t (ix2 (⟨(j 0).val, hp⟩ : Fin 512) k) (ix2 ((((cfg0.win 2).blk t).view.emb j) 0) k)
    (by show ((((cfg0.win 2).blk t).view.emb j) 0).val = t.val * 512 + (j 0).val; omega) rfl
  have a1 := blk0_1_apply V c t (ix2 k (⟨(j 1).val, hq⟩ : Fin 256)) (ix2 k ((((cfg0.win 2).blk t).view.emb j) 1)) rfl
    (by show ((((cfg0.win 2).blk t).view.emb j) 1).val = (j 1).val; omega)
  exact congrArg₂ (· * ·) a0 a1

theorem mem_blk0 (t : Fin cfg0.N) (i : S4096x256.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v0).slice (win0_2.rect t)).set ↔ _
  rw [View.set_slice_whole, Rect.mem_set_unit]
  exact Iff.rfl

theorem cover0 (i : S4096x256.Idx) :
    ∃ t : Fin cfg0.N, (cfg0.win 2).flush t = true ∧ i ∈ ((cfg0.win 2).blk t).view.set := by
  have h0 : (i 0).val < 4096 := (i 0).isLt
  have h1 : (i 1).val < 256 := (i 1).isLt
  have hN := npts0
  refine ⟨⟨(i 0).val / 512, by omega⟩, flush0_2 _, ?_⟩
  rw [mem_blk0]
  obtain ⟨-, -, -, -, e4, e5⟩ := idx_facts0 ⟨(i 0).val / 512, by omega⟩
  intro a
  match a with
  | ⟨0, _⟩ =>
    show win0_2.index ⟨(i 0).val / 512, _⟩ (0 : Fin 2) * 512 ≤ (i 0).val
      ∧ (i 0).val < win0_2.index ⟨(i 0).val / 512, _⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, _⟩ (1 : Fin 2) * 256 ≤ (i 1).val
      ∧ (i 1).val < win0_2.index ⟨(i 0).val / 512, _⟩ (1 : Fin 2) * 256 + 256
    rw [e5]; omega

theorem val0 (c : Dev nD) :
    ((dat0 (F := Ideal) V c).arrAt 2 cfg0.N : S4096x256.Idx → EReal)
      = fun j => post0 (Spec.mm (V c main_arg0) (V c main_arg2) j) :=
  (dat0 V c).arrAt_eq_of_cover 2 (valfn0 (V c main_arg0) (V c main_arg2)) (fun t _ => flushed0_eq V c t) (cover0)

end Cert.KernelIdeal.Val

end
-- ==== Proof.KI.Val1.lean ====
import proofs.«121997_g2000006886080560_pallasbulk_379_4_alg».proof.Proof.KI.R1
import proofs.«121997_g2000006886080560_pallasbulk_379_4_alg».proof.Proof.Spec
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat)

theorem matmul1_apply (a : FVec Ideal S512x4096 .bf16) (b : FVec Ideal S4096x256 .bf16) (p : Fin 512) (q : Fin 256) :
    matmul dot_S512x4096_S4096x256_S512x256_1_0_0_1_n_n none a b (constant (F := Ideal) S512x256 .f32 0x00000000#32) (ix2 p q)
      = ∑ k : Fin 4096, a (ix2 p k) * b (ix2 k q) :=
  (congrFun (matmul_zero_eq_dotGeneral _ none a b) _).trans (StackMember.dotGeneral_plain_apply none a b p q)

theorem pay1_3_apply (x0 : Vec Ideal S512x4096 .f32) (j : S512x4096.Idx) :
    (k1_pay1 x0 : FVec Ideal S512x4096 .bf16) j = x0 j := rfl

theorem pay1_2_apply (x0 : Vec Ideal S512x4096 .f32) (x1 : Vec Ideal S4096x256 .bf16) (p : Fin 512) (q : Fin 256) :
    (k1_pay2 x0 x1 : FVec Ideal S512x256 .f32) (ix2 p q) = ∑ k : Fin 4096, x0 (ix2 p k) * x1 (ix2 k q) := by
  unfold k1_pay2
  show matmul dot_S512x4096_S4096x256_S512x256_1_0_0_1_n_n none (k1_pay1 x0) (shapeCast S4096x256 x1 shapeCasts_S4096x256_S4096x256)
      (constant (F := Ideal) S512x256 .f32 0x00000000#32) (ix2 p q) = _
  rw [shapeCast_self]
  exact matmul1_apply (k1_pay1 x0) x1 p q

variable (V : (c : Dev nD) → (b : Ref sig .tc) → Buf (Elt Ideal) ((c : Thread nD τ).loc b))

theorem npts1 : cfg1.N = 8 := by decide

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

abbrev adj1 (c : Dev nD) : Spec.Mat 4096 4096 := V c main_arg1

abbrev sup1 (c : Dev nD) : Spec.Mat 4096 256 := V c main_v0

theorem blk1_0_apply (c : Dev nD) (t : Fin cfg1.N) (y : S512x4096.Idx) (i : S4096x4096.Idx)
    (h0 : (i 0).val = t.val * 512 + (y 0).val) (h1 : (i 1).val = (y 1).val) :
    (iblk1 (F := Ideal) V c 0 t : Vec Ideal S512x4096 .f32) y = adj1 V c i := by
  obtain ⟨e0, e1, -⟩ := idx_facts1 t
  unfold iblk1
  rw [View.read_apply]
  show V c main_arg1 (((cfg1.win 0).blk t).view.emb y) = V c main_arg1 i
  refine congrArg _ (funext fun a => Fin.ext ?_)
  match a with
  | ⟨0, _⟩ => show win1_0.index t (0 : Fin 2) * 512 + 1 * (y 0).val = (i 0).val; omega
  | ⟨1, _⟩ => show win1_0.index t (1 : Fin 2) * 4096 + 1 * (y 1).val = (i 1).val; omega

theorem blk1_1_apply (c : Dev nD) (t : Fin cfg1.N) (y : S4096x256.Idx) (i : S4096x256.Idx)
    (h0 : (i 0).val = (y 0).val) (h1 : (i 1).val = (y 1).val) :
    (iblk1 (F := Ideal) V c 1 t : Vec Ideal S4096x256 .bf16) y = sup1 V c i := by
  obtain ⟨-, -, e2, e3, -⟩ := idx_facts1 t
  unfold iblk1
  rw [View.read_apply]
  show V c main_v0 (((cfg1.win 1).blk t).view.emb y) = V c main_v0 i
  refine congrArg _ (funext fun a => Fin.ext ?_)
  match a with
  | ⟨0, _⟩ => show win1_1.index t (0 : Fin 2) * 4096 + 1 * (y 0).val = (i 0).val; omega
  | ⟨1, _⟩ => show win1_1.index t (1 : Fin 2) * 256 + 1 * (y 1).val = (i 1).val; omega

theorem flushed1_2_eq (c : Dev nD) (t : Fin cfg1.N) :
    (dat1 (F := Ideal) V c).flushed 2 t
      = ((cfg1.win 2).blk t).view.read (Elt Ideal) (Spec.mm (adj1 V c) (sup1 V c)) := by
  show (cfg1.win 2).cut (grid1.coords t) ((dat1 V c).after 2 t) = _
  rw [after1_2]
  unfold out1_2
  rw [View.canon_unit_zero Spec.hz]
  simp only [View.ld_unit_zero (S := S512x4096) Spec.hz, View.ld_unit_zero (S := S4096x256) Spec.hz]
  obtain ⟨-, -, -, -, e4, e5, -⟩ := idx_facts1 t
  funext j
  have hp : (j 0).val < 512 := (j 0).isLt
  have hq : (j 1).val < 256 := (j 1).isLt
  have hj : (win1 2).xinj (grid1.coords t) j = ix2 (⟨(j 0).val, hp⟩ : Fin 512) (⟨(j 1).val, hq⟩ : Fin 256) :=
    funext fun a => Fin.ext (by match a with | ⟨0, _⟩ => rfl | ⟨1, _⟩ => rfl)
  show k1_pay2 (iblk1 V c 0 t) (iblk1 V c 1 t) ((win1 2).xinj (grid1.coords t) j)
    = Spec.mm (adj1 V c) (sup1 V c) (((cfg1.win 2).blk t).view.emb j)
  refine (congrArg (k1_pay2 (iblk1 V c 0 t) (iblk1 V c 1 t)) hj).trans ?_
  refine (pay1_2_apply (iblk1 V c 0 t) (iblk1 V c 1 t) _ _).trans ?_
  unfold Spec.mm
  refine Finset.sum_congr rfl fun k _ => ?_
  have r0 : ((((cfg1.win 2).blk t).view.emb j) 0).val = win1_2.index t (0 : Fin 2) * 512 + 1 * (j 0).val := rfl
  have r1 : ((((cfg1.win 2).blk t).view.emb j) 1).val = win1_2.index t (1 : Fin 2) * 256 + 1 * (j 1).val := rfl
  have a0 := blk1_0_apply V c t (ix2 (⟨(j 0).val, hp⟩ : Fin 512) k) (ix2 ((((cfg1.win 2).blk t).view.emb j) 0) k)
    (by show ((((cfg1.win 2).blk t).view.emb j) 0).val = t.val * 512 + (j 0).val; omega) rfl
  have a1 := blk1_1_apply V c t (ix2 k (⟨(j 1).val, hq⟩ : Fin 256)) (ix2 k ((((cfg1.win 2).blk t).view.emb j) 1)) rfl
    (by show ((((cfg1.win 2).blk t).view.emb j) 1).val = (j 1).val; omega)
  exact congrArg₂ (· * ·) a0 a1

theorem flushed1_3_eq (c : Dev nD) (t : Fin cfg1.N) :
    (dat1 (F := Ideal) V c).flushed 3 t = ((cfg1.win 3).blk t).view.read (Elt Ideal) (adj1 V c) := by
  show (cfg1.win 3).cut (grid1.coords t) ((dat1 V c).after 3 t) = _
  rw [after1_3]
  unfold out1_3
  rw [View.canon_unit_zero Spec.hz]
  simp only [View.ld_unit_zero (S := S512x4096) Spec.hz]
  obtain ⟨-, -, -, -, -, -, e6, e7⟩ := idx_facts1 t
  funext j
  show (k1_pay1 (iblk1 V c 0 t) : FVec Ideal S512x4096 .bf16) ((win1 3).xinj (grid1.coords t) j)
    = adj1 V c (((cfg1.win 3).blk t).view.emb j)
  refine (pay1_3_apply (iblk1 V c 0 t) _).trans ?_
  have r0 : ((((cfg1.win 3).blk t).view.emb j) 0).val = win1_3.index t (0 : Fin 2) * 512 + 1 * (j 0).val := rfl
  have r1 : ((((cfg1.win 3).blk t).view.emb j) 1).val = win1_3.index t (1 : Fin 2) * 4096 + 1 * (j 1).val := rfl
  exact blk1_0_apply V c t _ _
    (by show ((((cfg1.win 3).blk t).view.emb j) 0).val = t.val * 512 + (j 0).val; omega)
    (by show ((((cfg1.win 3).blk t).view.emb j) 1).val = (j 1).val; omega)

theorem mem_blk1_2 (t : Fin cfg1.N) (i : S4096x256.Idx) :
    i ∈ ((cfg1.win 2).blk t).view.set ↔ ∀ a : Fin 2, win1_2.index t a * S512x256.size a ≤ (i a).val
      ∧ (i a).val < win1_2.index t a * S512x256.size a + S512x256.size a := by
  show i ∈ ((View.whole main_v1_0).slice (win1_2.rect t)).set ↔ _
  rw [View.set_slice_whole, Rect.mem_set_unit]
  exact Iff.rfl

theorem mem_blk1_3 (t : Fin cfg1.N) (i : S4096x4096.Idx) :
    i ∈ ((cfg1.win 3).blk t).view.set ↔ ∀ a : Fin 2, win1_3.index t a * S512x4096.size a ≤ (i a).val
      ∧ (i a).val < win1_3.index t a * S512x4096.size a + S512x4096.size a := by
  show i ∈ ((View.whole main_v1_1).slice (win1_3.rect t)).set ↔ _
  rw [View.set_slice_whole, Rect.mem_set_unit]
  exact Iff.rfl

theorem covered1_2 (i : S4096x256.Idx) :
    ∃ t : Fin cfg1.N, (cfg1.win 2).flush t = true ∧ i ∈ ((cfg1.win 2).blk t).view.set := by
  have h0 : (i 0).val < 4096 := (i 0).isLt
  have h1 : (i 1).val < 256 := (i 1).isLt
  have hN := npts1
  refine ⟨⟨(i 0).val / 512, by omega⟩, flush1_2 _, ?_⟩
  rw [mem_blk1_2]
  obtain ⟨-, -, -, -, e4, e5, -⟩ := idx_facts1 ⟨(i 0).val / 512, by omega⟩
  intro a
  match a with
  | ⟨0, _⟩ =>
    show win1_2.index ⟨(i 0).val / 512, _⟩ (0 : Fin 2) * 512 ≤ (i 0).val
      ∧ (i 0).val < win1_2.index ⟨(i 0).val / 512, _⟩ (0 : Fin 2) * 512 + 512
    rw [e4]; show (i 0).val / 512 * 512 ≤ (i 0).val ∧ (i 0).val < (i 0).val / 512 * 512 + 512; omega
  | ⟨1, _⟩ =>
    show win1_2.index ⟨(i 0).val / 512, _⟩ (1 : Fin 2) * 256 ≤ (i 1).val
      ∧ (i 1).val < win1_2.index ⟨(i 0).val / 512, _⟩ (1 : Fin 2) * 256 + 256
    rw [e5]; omega

theorem covered1_3 (i : S4096x4096.Idx) :
    ∃ t : Fin cfg1.N, (cfg1.win 3).flush t = true ∧ i ∈ ((cfg1.win 3).blk t).view.set := by
  have h0 : (i 0).val < 4096 := (i 0).isLt
  have h1 : (i 1).val < 4096 := (i 1).isLt
  have hN := npts1
  refine ⟨⟨(i 0).val / 512, by omega⟩, flush1_3 _, ?_⟩
  rw [mem_blk1_3]
  obtain ⟨-, -, -, -, -, -, e6, e7⟩ := idx_facts1 ⟨(i 0).val / 512, by omega⟩
  intro a
  match a with
  | ⟨0, _⟩ =>
    show win1_3.index ⟨(i 0).val / 512, _⟩ (0 : Fin 2) * 512 ≤ (i 0).val
      ∧ (i 0).val < win1_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win1_3.index ⟨(i 0).val / 512, _⟩ (1 : Fin 2) * 4096 ≤ (i 1).val
      ∧ (i 1).val < win1_3.index ⟨(i 0).val / 512, _⟩ (1 : Fin 2) * 4096 + 4096
    rw [e7]; omega

theorem val1_2 (c : Dev nD) :
    ((dat1 (F := Ideal) V c).arrAt 2 cfg1.N : S4096x256.Idx → EReal) = Spec.mm (adj1 V c) (sup1 V c) :=
  (dat1 V c).arrAt_eq_of_cover 2 (Spec.mm (adj1 V c) (sup1 V c)) (fun t _ => flushed1_2_eq V c t) (covered1_2)

theorem val1_3 (c : Dev nD) :
    ((dat1 (F := Ideal) V c).arrAt 3 cfg1.N : S4096x4096.Idx → EReal) = adj1 V c :=
  (dat1 V c).arrAt_eq_of_cover 3 (adj1 V c) (fun t _ => flushed1_3_eq V c t) (covered1_3)

end Cert.KernelIdeal.Val

end
-- ==== Proof.KI.Val2.lean ====
import proofs.«121997_g2000006886080560_pallasbulk_379_4_alg».proof.Proof.KI.R2
import proofs.«121997_g2000006886080560_pallasbulk_379_4_alg».proof.Proof.Spec
import Idealize.ShloMosaic.Lib.Pipeline.Value
import Idealize.ShloMosaic.PureOps.Ideal.Laws
import Idealize.ShloMosaic.Lib.ValueIdx
import Idealize.ShloMosaic.Lib.StackMember

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

theorem matmul2_apply (a : FVec Ideal S512x256 .bf16) (b : FVec Ideal S256x384 .bf16) (p : Fin 512) (q : Fin 384) :
    matmul dot_S512x256_S256x384_S512x384_1_0_0_1_n_n none a b (constant (F := Ideal) S512x384 .f32 0x00000000#32) (ix2 p q)
      = ∑ k : Fin 256, a (ix2 p k) * b (ix2 k q) :=
  (congrFun (matmul_zero_eq_dotGeneral _ none a b) _).trans (StackMember.dotGeneral_plain_apply none a b p q)

abbrev post2 (x : EReal) : EReal := Ideal.tanh x

theorem pay2a_apply (x0 : Vec Ideal S512x256 .f32) (p : Fin 512) (q : Fin 256) :
    (k2_pay1 x0 (ix2 p q) : EReal) = x0 (ix2 p q) := by
  unfold k2_pay1
  show shapeCast S512x256 x0 shapeCasts_S512x256_S512x256 (ix2 p q) = x0 (ix2 p q)
  rw [shapeCast_self]

theorem pay2b_apply (x0 : Vec Ideal S512x256 .f32) (x1 : Vec Ideal S256x384 .f32) (p : Fin 512) (q : Fin 384) :
    (k2_pay2 x0 x1 (ix2 p q) : EReal) = post2 (∑ k : Fin 256, x0 (ix2 p k) * x1 (ix2 k q)) := by
  unfold k2_pay2
  show post2 (matmul dot_S512x256_S256x384_S512x384_1_0_0_1_n_n none (k2_pay1 x0)
      (truncf .bf16 x1 bitsLt_bf16_f32) (constant (F := Ideal) S512x384 .f32 0x00000000#32) (ix2 p q)) = _
  refine congrArg post2 ((matmul2_apply (k2_pay1 x0) (truncf .bf16 x1 bitsLt_bf16_f32) p q).trans ?_)
  refine Finset.sum_congr rfl fun k _ => ?_
  exact congrArg (· * x1 (ix2 k q)) (pay2a_apply x0 p k)

def cat2 {m : Nat} (a : Spec.Mat m 256) (b : Spec.Mat 256 384) : Spec.Mat m 640 := fun j =>
  if h : (j 1).val < 256 then a (ix2 (j 0) (⟨(j 1).val, h⟩ : Fin 256))
  else post2 (Spec.mm a b (ix2 (j 0) (⟨(j 1).val - 256, by have := idx2_lt1 j; omega⟩ : Fin 384)))

theorem cat2_left {m : Nat} (a : Spec.Mat m 256) (b : Spec.Mat 256 384) (p : Fin m) (q : Fin 256)
    (j : (⟨2, ![m, 640]⟩ : Shape).Idx) (h0 : (j 0).val = p.val) (h1 : (j 1).val = q.val) :
    cat2 a b j = a (ix2 p q) := by
  unfold cat2
  rw [dif_pos (show (j 1).val < 256 by have := q.isLt; omega)]
  exact congrArg a (congrArg₂ (ix2 (n0 := m) (n1 := 256)) (Fin.ext h0) (Fin.ext h1))

theorem cat2_right {m : Nat} (a : Spec.Mat m 256) (b : Spec.Mat 256 384) (p : Fin m) (q : Fin 384)
    (j : (⟨2, ![m, 640]⟩ : Shape).Idx) (h0 : (j 0).val = p.val) (h1 : (j 1).val = 256 + q.val) :
    cat2 a b j = post2 (Spec.mm a b (ix2 p q)) := by
  unfold cat2
  rw [dif_neg (show ¬ (j 1).val < 256 by omega)]
  exact congrArg (fun i => post2 (Spec.mm a b i))
    (congrArg₂ (ix2 (n0 := m) (n1 := 384)) (Fin.ext h0) (Fin.ext (by show (j 1).val - 256 = q.val; omega)))

theorem out2_2_eq (x0 : Vec Ideal S512x256 .f32) (x1 : Vec Ideal S256x384 .f32) :
    (out2_2 (F := Ideal) x0 x1 : S512x640.Idx → EReal) = cat2 (m := 512) x0 x1 := by
  unfold out2_2
  simp only [View.ld_unit_zero (S := S512x256) Spec.hz, View.ld_unit_zero (S := S256x384) Spec.hz]
  funext y
  refine View.canon_apply_of_pieces (Val := Elt Ideal) (S := S512x640) (e := .bf16) (cat2 (m := 512) x0 x1) _ ?_ y (cover2_2 _ _ y)
  intro pc hpc x
  rcases List.mem_cons.mp hpc with rfl | hpc
  · obtain ⟨p, q, rfl⟩ : ∃ (p : Fin 512) (q : Fin 384), x = ix2 p q := ⟨x 0, x 1, eq_ix2 x⟩
    show (k2_pay2 x0 x1 (ix2 p q) : EReal) = cat2 (m := 512) x0 x1 (r2_ob.emb (ix2 p q))
    rw [cat2_right x0 x1 p q (r2_ob.emb (ix2 p q)) (by show 0 + 1 * p.val = p.val; omega)
      (by show 256 + 1 * q.val = 256 + q.val; omega)]
    exact pay2b_apply x0 x1 p q
  · rcases List.mem_singleton.mp hpc with rfl
    obtain ⟨p, q, rfl⟩ : ∃ (p : Fin 512) (q : Fin 256), x = ix2 p q := ⟨x 0, x 1, eq_ix2 x⟩
    show (k2_pay1 x0 (ix2 p q) : EReal) = cat2 (m := 512) x0 x1 (r2_oa.emb (ix2 p q))
    rw [cat2_left x0 x1 p q (r2_oa.emb (ix2 p q)) (by show 0 + 1 * p.val = p.val; omega)
      (by show 0 + 1 * q.val = q.val; omega)]
    exact pay2a_apply x0 p q

variable (V : (c : Dev nD) → (b : Ref sig .tc) → Buf (Elt Ideal) ((c : Thread nD τ).loc b))

theorem npts2 : cfg2.N = 8 := by decide

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

def valfn2 (a : Spec.Mat 4096 256) (b : Spec.Mat 256 384) : Spec.Mat 4096 640 := cat2 (m := 4096) a b

theorem blk2_0_apply (c : Dev nD) (t : Fin cfg2.N) (y : S512x256.Idx) (i : S4096x256.Idx)
    (h0 : (i 0).val = t.val * 512 + (y 0).val) (h1 : (i 1).val = (y 1).val) :
    (iblk2 (F := Ideal) V c 0 t : Vec Ideal S512x256 .f32) y = (V c main_v1_0 : S4096x256.Idx → EReal) i := by
  obtain ⟨e0, e1, -⟩ := idx_facts2 t
  unfold iblk2
  rw [View.read_apply]
  show V c main_v1_0 (((cfg2.win 0).blk t).view.emb y) = V c main_v1_0 i
  refine congrArg _ (funext fun a => Fin.ext ?_)
  match a with
  | ⟨0, _⟩ => show win2_0.index t (0 : Fin 2) * 512 + 1 * (y 0).val = (i 0).val; omega
  | ⟨1, _⟩ => show win2_0.index t (1 : Fin 2) * 256 + 1 * (y 1).val = (i 1).val; omega

theorem blk2_1_apply (c : Dev nD) (t : Fin cfg2.N) (y : S256x384.Idx) (i : S256x384.Idx)
    (h0 : (i 0).val = (y 0).val) (h1 : (i 1).val = (y 1).val) :
    (iblk2 (F := Ideal) V c 1 t : Vec Ideal S256x384 .f32) y = (V c main_arg3 : S256x384.Idx → EReal) i := by
  obtain ⟨-, -, e2, e3, -⟩ := idx_facts2 t
  unfold iblk2
  rw [View.read_apply]
  show V c main_arg3 (((cfg2.win 1).blk t).view.emb y) = V c main_arg3 i
  refine congrArg _ (funext fun a => Fin.ext ?_)
  match a with
  | ⟨0, _⟩ => show win2_1.index t (0 : Fin 2) * 256 + 1 * (y 0).val = (i 0).val; omega
  | ⟨1, _⟩ => show win2_1.index t (1 : Fin 2) * 384 + 1 * (y 1).val = (i 1).val; omega

theorem flushed2_eq (c : Dev nD) (t : Fin cfg2.N) :
    (dat2 (F := Ideal) V c).flushed 2 t
      = ((cfg2.win 2).blk t).view.read (Elt Ideal) (valfn2 (V c main_v1_0) (V c main_arg3)) := by
  show (cfg2.win 2).cut (grid2.coords t) ((dat2 V c).after 2 t) = _
  rw [after2_2]
  obtain ⟨-, -, -, -, e4, e5⟩ := idx_facts2 t
  funext j
  have hp : (j 0).val < 512 := (j 0).isLt
  have hq : (j 1).val < 640 := (j 1).isLt
  show (out2_2 (F := Ideal) (iblk2 V c 0 t) (iblk2 V c 1 t) : S512x640.Idx → EReal) ((win2 2).xinj (grid2.coords t) j)
    = cat2 (m := 4096) (V c main_v1_0) (V c main_arg3) (((cfg2.win 2).blk t).view.emb j)
  refine (congrFun (out2_2_eq (iblk2 V c 0 t) (iblk2 V c 1 t)) ((win2 2).xinj (grid2.coords t) j)).trans ?_
  have r0 : ((((cfg2.win 2).blk t).view.emb j) 0).val = win2_2.index t (0 : Fin 2) * 512 + 1 * (j 0).val := rfl
  have r1 : ((((cfg2.win 2).blk t).view.emb j) 1).val = win2_2.index t (1 : Fin 2) * 640 + 1 * (j 1).val := rfl
  have s0 : ((((win2 2).xinj (grid2.coords t) j) : S512x640.Idx) 0).val = (j 0).val := rfl
  have s1 : ((((win2 2).xinj (grid2.coords t) j) : S512x640.Idx) 1).val = (j 1).val := rfl
  by_cases hc : (j 1).val < 256
  ·
    refine (cat2_left (m := 512) (iblk2 V c 0 t) (iblk2 V c 1 t) ⟨(j 0).val, hp⟩ ⟨(j 1).val, hc⟩ _ s0 s1).trans ?_
    refine Eq.trans ?_ (cat2_left (m := 4096) (V c main_v1_0) (V c main_arg3) ((((cfg2.win 2).blk t).view.emb j) 0)
      ⟨(j 1).val, hc⟩ _ rfl (by show ((((cfg2.win 2).blk t).view.emb j) 1).val = (j 1).val; omega)).symm
    exact blk2_0_apply V c t (ix2 (⟨(j 0).val, hp⟩ : Fin 512) (⟨(j 1).val, hc⟩ : Fin 256))
      (ix2 ((((cfg2.win 2).blk t).view.emb j) 0) (⟨(j 1).val, hc⟩ : Fin 256))
      (by show ((((cfg2.win 2).blk t).view.emb j) 0).val = t.val * 512 + (j 0).val; omega) rfl
  ·
    have hq' : (j 1).val - 256 < 384 := by omega
    refine (cat2_right (m := 512) (iblk2 V c 0 t) (iblk2 V c 1 t) ⟨(j 0).val, hp⟩ ⟨(j 1).val - 256, hq'⟩ _ s0
      (by show ((((win2 2).xinj (grid2.coords t) j) : S512x640.Idx) 1).val = 256 + ((j 1).val - 256); omega)).trans ?_
    refine Eq.trans ?_ (cat2_right (m := 4096) (V c main_v1_0) (V c main_arg3) ((((cfg2.win 2).blk t).view.emb j) 0)
      ⟨(j 1).val - 256, hq'⟩ _ rfl
      (by show ((((cfg2.win 2).blk t).view.emb j) 1).val = 256 + ((j 1).val - 256); omega)).symm
    refine congrArg post2 ?_
    unfold Spec.mm
    refine Finset.sum_congr rfl fun k _ => ?_
    have a0 := blk2_0_apply V c t (ix2 (⟨(j 0).val, hp⟩ : Fin 512) k) (ix2 ((((cfg2.win 2).blk t).view.emb j) 0) k)
      (by show ((((cfg2.win 2).blk t).view.emb j) 0).val = t.val * 512 + (j 0).val; omega) rfl
    have a1 := blk2_1_apply V c t (ix2 k (⟨(j 1).val - 256, hq'⟩ : Fin 384)) (ix2 k (⟨(j 1).val - 256, hq'⟩ : Fin 384)) rfl rfl
    exact congrArg₂ (· * ·) a0 a1

theorem mem_blk2 (t : Fin cfg2.N) (i : S4096x640.Idx) :
    i ∈ ((cfg2.win 2).blk t).view.set ↔ ∀ a : Fin 2, win2_2.index t a * S512x640.size a ≤ (i a).val
      ∧ (i a).val < win2_2.index t a * S512x640.size a + S512x640.size a := by
  show i ∈ ((View.whole main_v2).slice (win2_2.rect t)).set ↔ _
  rw [View.set_slice_whole, Rect.mem_set_unit]
  exact Iff.rfl

theorem cover2 (i : S4096x640.Idx) :
    ∃ t : Fin cfg2.N, (cfg2.win 2).flush t = true ∧ i ∈ ((cfg2.win 2).blk t).view.set := by
  have h0 : (i 0).val < 4096 := (i 0).isLt
  have h1 : (i 1).val < 640 := (i 1).isLt
  have hN := npts2
  refine ⟨⟨(i 0).val / 512, by omega⟩, flush2_2 _, ?_⟩
  rw [mem_blk2]
  obtain ⟨-, -, -, -, e4, e5⟩ := idx_facts2 ⟨(i 0).val / 512, by omega⟩
  intro a
  match a with
  | ⟨0, _⟩ =>
    show win2_2.index ⟨(i 0).val / 512, _⟩ (0 : Fin 2) * 512 ≤ (i 0).val
      ∧ (i 0).val < win2_2.index ⟨(i 0).val / 512, _⟩ (0 : Fin 2) * 512 + 512
    rw [e4]; show (i 0).val / 512 * 512 ≤ (i 0).val ∧ (i 0).val < (i 0).val / 512 * 512 + 512; omega
  | ⟨1, _⟩ =>
    show win2_2.index ⟨(i 0).val / 512, _⟩ (1 : Fin 2) * 640 ≤ (i 1).val
      ∧ (i 1).val < win2_2.index ⟨(i 0).val / 512, _⟩ (1 : Fin 2) * 640 + 640
    rw [e5]; omega

theorem val2 (c : Dev nD) :
    ((dat2 (F := Ideal) V c).arrAt 2 cfg2.N : S4096x640.Idx → EReal)
      = valfn2 (V c main_v1_0) (V c main_arg3) :=
  (dat2 V c).arrAt_eq_of_cover 2 (valfn2 (V c main_v1_0) (V c main_arg3)) (fun t _ => flushed2_eq V c t) (cover2)

theorem val2_left (c : Dev nD) (r : Fin 4096) (q : Fin 256) :
    ((dat2 (F := Ideal) V c).arrAt 2 cfg2.N : S4096x640.Idx → EReal) (ix2 r ⟨q.val, by omega⟩)
      = (V c main_v1_0 : S4096x256.Idx → EReal) (ix2 r q) :=
  (congrFun (val2 V c) _).trans (cat2_left (m := 4096) (V c main_v1_0) (V c main_arg3) r q _ rfl rfl)

theorem val2_right (c : Dev nD) (r : Fin 4096) (q : Fin 384) :
    ((dat2 (F := Ideal) V c).arrAt 2 cfg2.N : S4096x640.Idx → EReal) (ix2 r ⟨256 + q.val, by omega⟩)
      = Ideal.tanh (Spec.mm (V c main_v1_0) (V c main_arg3) (ix2 r q)) :=
  (congrFun (val2 V c) _).trans (cat2_right (m := 4096) (V c main_v1_0) (V c main_arg3) r q _ rfl rfl)

end Cert.KernelIdeal.Val

end
-- ==== Proof.KI.Val3.lean ====
import proofs.«121997_g2000006886080560_pallasbulk_379_4_alg».proof.Proof.KI.R3
import proofs.«121997_g2000006886080560_pallasbulk_379_4_alg».proof.Proof.Spec
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat)

theorem matmul3_apply (a : FVec Ideal S512x4096 .bf16) (b : FVec Ideal S4096x640 .bf16) (p : Fin 512) (q : Fin 640) :
    matmul dot_S512x4096_S4096x640_S512x640_1_0_0_1_n_n none a b (constant (F := Ideal) S512x640 .f32 0x00000000#32) (ix2 p q)
      = ∑ k : Fin 4096, a (ix2 p k) * b (ix2 k q) :=
  (congrFun (matmul_zero_eq_dotGeneral _ none a b) _).trans (StackMember.dotGeneral_plain_apply none a b p q)

theorem pay3_1_apply (x0 : Vec Ideal S512x4096 .bf16) (x1 : Vec Ideal S4096x640 .bf16) (p : Fin 512) (q : Fin 640) :
    (k3_pay1 x0 x1 : FVec Ideal S512x640 .f32) (ix2 p q) = ∑ k : Fin 4096, x0 (ix2 p k) * x1 (ix2 k q) := by
  unfold k3_pay1
  show matmul dot_S512x4096_S4096x640_S512x640_1_0_0_1_n_n none (shapeCast S512x4096 x0 shapeCasts_S512x4096_S512x4096)
      (shapeCast S4096x640 x1 shapeCasts_S4096x640_S4096x640)
      (constant (F := Ideal) S512x640 .f32 0x00000000#32) (ix2 p q) = _
  rw [shapeCast_self, shapeCast_self]
  exact matmul3_apply x0 x1 p q

theorem pay3_2_apply (x0 : Vec Ideal S512x4096 .bf16) (x1 : Vec Ideal S4096x640 .bf16) (p : Fin 512) (q : Fin 256) :
    (k3_pay2 x0 x1 : FVec Ideal S512x256 .f32) (ix2 p q)
      = ∑ k : Fin 4096, x0 (ix2 p k) * x1 (ix2 k (⟨q.val, by omega⟩ : Fin 640)) := by
  have hs : extractStridedSlice S512x256 ![0, 0] (k3_pay1 x0 x1) slices_S512x640_o0_0_S512x256 (ix2 p q)
      = (k3_pay1 x0 x1 : FVec Ideal S512x640 .f32) (ix2 p (⟨q.val, by omega⟩ : Fin 640)) :=
    extractStridedSlice_apply (s := S512x640) (t := S512x256) ![0, 0] (k3_pay1 x0 x1) slices_S512x640_o0_0_S512x256
      (ix2 p q) (ix2 p (⟨q.val, by omega⟩ : Fin 640)) (fun a => by
        match a with
        | ⟨0, _⟩ => show p.val = 0 + p.val; omega
        | ⟨1, _⟩ => show q.val = 0 + q.val; omega)
  exact hs.trans (pay3_1_apply x0 x1 p (⟨q.val, by omega⟩ : Fin 640))

theorem pay3_3_apply (x0 : Vec Ideal S512x4096 .bf16) (x1 : Vec Ideal S4096x640 .bf16) (p : Fin 512) (q : Fin 384) :
    (k3_pay3 x0 x1 : FVec Ideal S512x384 .f32) (ix2 p q)
      = ∑ k : Fin 4096, x0 (ix2 p k) * x1 (ix2 k (⟨256 + q.val, by omega⟩ : Fin 640)) := by
  have hs : extractStridedSlice S512x384 ![0, 256] (k3_pay1 x0 x1) slices_S512x640_o0_256_S512x384 (ix2 p q)
      = (k3_pay1 x0 x1 : FVec Ideal S512x640 .f32) (ix2 p (⟨256 + q.val, by omega⟩ : Fin 640)) :=
    extractStridedSlice_apply (s := S512x640) (t := S512x384) ![0, 256] (k3_pay1 x0 x1) slices_S512x640_o0_256_S512x384
      (ix2 p q) (ix2 p (⟨256 + q.val, by omega⟩ : Fin 640)) (fun a => by
        match a with
        | ⟨0, _⟩ => show p.val = 0 + p.val; omega
        | ⟨1, _⟩ => show 256 + q.val = 256 + q.val; rfl)
  exact hs.trans (pay3_1_apply x0 x1 p (⟨256 + q.val, by omega⟩ : Fin 640))

variable (V : (c : Dev nD) → (b : Ref sig .tc) → Buf (Elt Ideal) ((c : Thread nD τ).loc b))

theorem npts3 : cfg3.N = 8 := by decide

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

abbrev adjb3 (c : Dev nD) : Spec.Mat 4096 4096 := V c main_v1_1

abbrev rhs3 (c : Dev nD) : Spec.Mat 4096 640 := V c main_v2

def colsL3 (m : Spec.Mat 4096 640) : Spec.Mat 4096 256 :=
  fun i => m (ix2 (i 0) (⟨(i 1).val, by have := idx2_lt1 i; omega⟩ : Fin 640))

def colsR3 (m : Spec.Mat 4096 640) : Spec.Mat 4096 384 :=
  fun i => m (ix2 (i 0) (⟨256 + (i 1).val, by have := idx2_lt1 i; omega⟩ : Fin 640))

theorem blk3_0_apply (c : Dev nD) (t : Fin cfg3.N) (y : S512x4096.Idx) (i : S4096x4096.Idx)
    (h0 : (i 0).val = t.val * 512 + (y 0).val) (h1 : (i 1).val = (y 1).val) :
    (iblk3 (F := Ideal) V c 0 t : Vec Ideal S512x4096 .bf16) y = adjb3 V c i := by
  obtain ⟨e0, e1, -⟩ := idx_facts3 t
  unfold iblk3
  rw [View.read_apply]
  show V c main_v1_1 (((cfg3.win 0).blk t).view.emb y) = V c main_v1_1 i
  refine congrArg _ (funext fun a => Fin.ext ?_)
  match a with
  | ⟨0, _⟩ => show win3_0.index t (0 : Fin 2) * 512 + 1 * (y 0).val = (i 0).val; omega
  | ⟨1, _⟩ => show win3_0.index t (1 : Fin 2) * 4096 + 1 * (y 1).val = (i 1).val; omega

theorem blk3_1_apply (c : Dev nD) (t : Fin cfg3.N) (y : S4096x640.Idx) (i : S4096x640.Idx)
    (h0 : (i 0).val = (y 0).val) (h1 : (i 1).val = (y 1).val) :
    (iblk3 (F := Ideal) V c 1 t : Vec Ideal S4096x640 .bf16) y = rhs3 V c i := by
  obtain ⟨-, -, e2, e3, -⟩ := idx_facts3 t
  unfold iblk3
  rw [View.read_apply]
  show V c main_v2 (((cfg3.win 1).blk t).view.emb y) = V c main_v2 i
  refine congrArg _ (funext fun a => Fin.ext ?_)
  match a with
  | ⟨0, _⟩ => show win3_1.index t (0 : Fin 2) * 4096 + 1 * (y 0).val = (i 0).val; omega
  | ⟨1, _⟩ => show win3_1.index t (1 : Fin 2) * 640 + 1 * (y 1).val = (i 1).val; omega

theorem flushed3_2_eq (c : Dev nD) (t : Fin cfg3.N) :
    (dat3 (F := Ideal) V c).flushed 2 t
      = ((cfg3.win 2).blk t).view.read (Elt Ideal) (colsL3 (Spec.mm (adjb3 V c) (rhs3 V c))) := by
  show (cfg3.win 2).cut (grid3.coords t) ((dat3 V c).after 2 t) = _
  rw [after3_2]
  unfold out3_2
  rw [View.canon_unit_zero Spec.hz]
  simp only [View.ld_unit_zero (S := S512x4096) Spec.hz, View.ld_unit_zero (S := S4096x640) Spec.hz]
  obtain ⟨-, -, -, -, e4, e5, -⟩ := idx_facts3 t
  funext j
  have hp : (j 0).val < 512 := (j 0).isLt
  have hq : (j 1).val < 256 := (j 1).isLt
  have hj : (win3 2).xinj (grid3.coords t) j = ix2 (⟨(j 0).val, hp⟩ : Fin 512) (⟨(j 1).val, hq⟩ : Fin 256) :=
    funext fun a => Fin.ext (by match a with | ⟨0, _⟩ => rfl | ⟨1, _⟩ => rfl)
  show k3_pay2 (iblk3 V c 0 t) (iblk3 V c 1 t) ((win3 2).xinj (grid3.coords t) j)
    = colsL3 (Spec.mm (adjb3 V c) (rhs3 V c)) (((cfg3.win 2).blk t).view.emb j)
  refine (congrArg (k3_pay2 (iblk3 V c 0 t) (iblk3 V c 1 t)) hj).trans ?_
  refine (pay3_2_apply (iblk3 V c 0 t) (iblk3 V c 1 t) _ _).trans ?_
  unfold colsL3 Spec.mm
  refine Finset.sum_congr rfl fun k _ => ?_
  have r0 : ((((cfg3.win 2).blk t).view.emb j) 0).val = win3_2.index t (0 : Fin 2) * 512 + 1 * (j 0).val := rfl
  have r1 : ((((cfg3.win 2).blk t).view.emb j) 1).val = win3_2.index t (1 : Fin 2) * 256 + 1 * (j 1).val := rfl
  have a0 := blk3_0_apply V c t (ix2 (⟨(j 0).val, hp⟩ : Fin 512) k) (ix2 ((((cfg3.win 2).blk t).view.emb j) 0) k)
    (by show ((((cfg3.win 2).blk t).view.emb j) 0).val = t.val * 512 + (j 0).val; omega) rfl
  have a1 := blk3_1_apply V c t (ix2 k (⟨(j 1).val, by omega⟩ : Fin 640))
    (ix2 k (⟨((((cfg3.win 2).blk t).view.emb j) 1).val, by omega⟩ : Fin 640)) rfl
    (by show ((((cfg3.win 2).blk t).view.emb j) 1).val = (j 1).val; omega)
  exact congrArg₂ (· * ·) a0 a1

theorem flushed3_3_eq (c : Dev nD) (t : Fin cfg3.N) :
    (dat3 (F := Ideal) V c).flushed 3 t
      = ((cfg3.win 3).blk t).view.read (Elt Ideal) (colsR3 (Spec.mm (adjb3 V c) (rhs3 V c))) := by
  show (cfg3.win 3).cut (grid3.coords t) ((dat3 V c).after 3 t) = _
  rw [after3_3]
  unfold out3_3
  rw [View.canon_unit_zero Spec.hz]
  simp only [View.ld_unit_zero (S := S512x4096) Spec.hz, View.ld_unit_zero (S := S4096x640) Spec.hz]
  obtain ⟨-, -, -, -, -, -, e6, e7⟩ := idx_facts3 t
  funext j
  have hp : (j 0).val < 512 := (j 0).isLt
  have hq : (j 1).val < 384 := (j 1).isLt
  have hj : (win3 3).xinj (grid3.coords t) j = ix2 (⟨(j 0).val, hp⟩ : Fin 512) (⟨(j 1).val, hq⟩ : Fin 384) :=
    funext fun a => Fin.ext (by match a with | ⟨0, _⟩ => rfl | ⟨1, _⟩ => rfl)
  show k3_pay3 (iblk3 V c 0 t) (iblk3 V c 1 t) ((win3 3).xinj (grid3.coords t) j)
    = colsR3 (Spec.mm (adjb3 V c) (rhs3 V c)) (((cfg3.win 3).blk t).view.emb j)
  refine (congrArg (k3_pay3 (iblk3 V c 0 t) (iblk3 V c 1 t)) hj).trans ?_
  refine (pay3_3_apply (iblk3 V c 0 t) (iblk3 V c 1 t) _ _).trans ?_
  unfold colsR3 Spec.mm
  refine Finset.sum_congr rfl fun k _ => ?_
  have r0 : ((((cfg3.win 3).blk t).view.emb j) 0).val = win3_3.index t (0 : Fin 2) * 512 + 1 * (j 0).val := rfl
  have r1 : ((((cfg3.win 3).blk t).view.emb j) 1).val = win3_3.index t (1 : Fin 2) * 384 + 1 * (j 1).val := rfl
  have a0 := blk3_0_apply V c t (ix2 (⟨(j 0).val, hp⟩ : Fin 512) k) (ix2 ((((cfg3.win 3).blk t).view.emb j) 0) k)
    (by show ((((cfg3.win 3).blk t).view.emb j) 0).val = t.val * 512 + (j 0).val; omega) rfl
  have a1 := blk3_1_apply V c t (ix2 k (⟨256 + (j 1).val, by omega⟩ : Fin 640))
    (ix2 k (⟨256 + ((((cfg3.win 3).blk t).view.emb j) 1).val, by omega⟩ : Fin 640)) rfl
    (by show 256 + ((((cfg3.win 3).blk t).view.emb j) 1).val = 256 + (j 1).val; omega)
  exact congrArg₂ (· * ·) a0 a1

theorem mem_blk3_2 (t : Fin cfg3.N) (i : S4096x256.Idx) :
    i ∈ ((cfg3.win 2).blk t).view.set ↔ ∀ a : Fin 2, win3_2.index t a * S512x256.size a ≤ (i a).val
      ∧ (i a).val < win3_2.index t a * S512x256.size a + S512x256.size a := by
  show i ∈ ((View.whole main_v3_0).slice (win3_2.rect t)).set ↔ _
  rw [View.set_slice_whole, Rect.mem_set_unit]
  exact Iff.rfl

theorem mem_blk3_3 (t : Fin cfg3.N) (i : S4096x384.Idx) :
    i ∈ ((cfg3.win 3).blk t).view.set ↔ ∀ a : Fin 2, win3_3.index t a * S512x384.size a ≤ (i a).val
      ∧ (i a).val < win3_3.index t a * S512x384.size a + S512x384.size a := by
  show i ∈ ((View.whole main_v3_1).slice (win3_3.rect t)).set ↔ _
  rw [View.set_slice_whole, Rect.mem_set_unit]
  exact Iff.rfl

theorem covered3_2 (i : S4096x256.Idx) :
    ∃ t : Fin cfg3.N, (cfg3.win 2).flush t = true ∧ i ∈ ((cfg3.win 2).blk t).view.set := by
  have h0 : (i 0).val < 4096 := (i 0).isLt
  have h1 : (i 1).val < 256 := (i 1).isLt
  have hN := npts3
  refine ⟨⟨(i 0).val / 512, by omega⟩, flush3_2 _, ?_⟩
  rw [mem_blk3_2]
  obtain ⟨-, -, -, -, e4, e5, -⟩ := idx_facts3 ⟨(i 0).val / 512, by omega⟩
  intro a
  match a with
  | ⟨0, _⟩ =>
    show win3_2.index ⟨(i 0).val / 512, _⟩ (0 : Fin 2) * 512 ≤ (i 0).val
      ∧ (i 0).val < win3_2.index ⟨(i 0).val / 512, _⟩ (0 : Fin 2) * 512 + 512
    rw [e4]; show (i 0).val / 512 * 512 ≤ (i 0).val ∧ (i 0).val < (i 0).val / 512 * 512 + 512; omega
  | ⟨1, _⟩ =>
    show win3_2.index ⟨(i 0).val / 512, _⟩ (1 : Fin 2) * 256 ≤ (i 1).val
      ∧ (i 1).val < win3_2.index ⟨(i 0).val / 512, _⟩ (1 : Fin 2) * 256 + 256
    rw [e5]; omega

theorem covered3_3 (i : S4096x384.Idx) :
    ∃ t : Fin cfg3.N, (cfg3.win 3).flush t = true ∧ i ∈ ((cfg3.win 3).blk t).view.set := by
  have h0 : (i 0).val < 4096 := (i 0).isLt
  have h1 : (i 1).val < 384 := (i 1).isLt
  have hN := npts3
  refine ⟨⟨(i 0).val / 512, by omega⟩, flush3_3 _, ?_⟩
  rw [mem_blk3_3]
  obtain ⟨-, -, -, -, -, -, e6, e7⟩ := idx_facts3 ⟨(i 0).val / 512, by omega⟩
  intro a
  match a with
  | ⟨0, _⟩ =>
    show win3_3.index ⟨(i 0).val / 512, _⟩ (0 : Fin 2) * 512 ≤ (i 0).val
      ∧ (i 0).val < win3_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win3_3.index ⟨(i 0).val / 512, _⟩ (1 : Fin 2) * 384 ≤ (i 1).val
      ∧ (i 1).val < win3_3.index ⟨(i 0).val / 512, _⟩ (1 : Fin 2) * 384 + 384
    rw [e7]; omega

theorem val3_2_arr (c : Dev nD) :
    ((dat3 (F := Ideal) V c).arrAt 2 cfg3.N : S4096x256.Idx → EReal) = colsL3 (Spec.mm (adjb3 V c) (rhs3 V c)) :=
  (dat3 V c).arrAt_eq_of_cover 2 (colsL3 (Spec.mm (adjb3 V c) (rhs3 V c))) (fun t _ => flushed3_2_eq V c t) (covered3_2)

theorem val3_3_arr (c : Dev nD) :
    ((dat3 (F := Ideal) V c).arrAt 3 cfg3.N : S4096x384.Idx → EReal) = colsR3 (Spec.mm (adjb3 V c) (rhs3 V c)) :=
  (dat3 V c).arrAt_eq_of_cover 3 (colsR3 (Spec.mm (adjb3 V c) (rhs3 V c))) (fun t _ => flushed3_3_eq V c t) (covered3_3)

theorem val3_2 (c : Dev nD) (r : Fin 4096) (q : Fin 256) :
    ((dat3 (F := Ideal) V c).arrAt 2 cfg3.N : S4096x256.Idx → EReal) (ix2 r q)
      = Spec.mm (adjb3 V c) (rhs3 V c) (ix2 r (⟨q.val, by omega⟩ : Fin 640)) :=
  congrFun (val3_2_arr V c) (ix2 r q)

theorem val3_3 (c : Dev nD) (r : Fin 4096) (q : Fin 384) :
    ((dat3 (F := Ideal) V c).arrAt 3 cfg3.N : S4096x384.Idx → EReal) (ix2 r q)
      = Spec.mm (adjb3 V c) (rhs3 V c) (ix2 r (⟨256 + q.val, by omega⟩ : Fin 640)) :=
  congrFun (val3_3_arr V c) (ix2 r q)

end Cert.KernelIdeal.Val

end
-- ==== Proof.KI.Val4.lean ====
import proofs.«121997_g2000006886080560_pallasbulk_379_4_alg».proof.Proof.KI.R4
import proofs.«121997_g2000006886080560_pallasbulk_379_4_alg».proof.Proof.Spec
import Idealize.ShloMosaic.Lib.Pipeline.Value
import Idealize.ShloMosaic.PureOps.Ideal.Laws
import Idealize.ShloMosaic.Lib.ValueIdx
import Idealize.ShloMosaic.Lib.StackMember

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

theorem matmul4_apply (a : FVec Ideal S512x384 .bf16) (b : FVec Ideal S384x512 .bf16) (p : Fin 512) (q : Fin 512) :
    matmul dot_S512x384_S384x512_S512x512_1_0_0_1_n_n none a b (constant (F := Ideal) S512x512 .f32 0x00000000#32) (ix2 p q)
      = ∑ k : Fin 384, a (ix2 p k) * b (ix2 k q) :=
  (congrFun (matmul_zero_eq_dotGeneral _ none a b) _).trans (StackMember.dotGeneral_plain_apply none a b p q)

abbrev post4 (x : EReal) : EReal := Ideal.tanh x

theorem pay4a_apply (x0 : Vec Ideal S512x384 .f32) (p : Fin 512) (q : Fin 384) :
    (k4_pay1 x0 (ix2 p q) : EReal) = x0 (ix2 p q) := by
  unfold k4_pay1
  show shapeCast S512x384 x0 shapeCasts_S512x384_S512x384 (ix2 p q) = x0 (ix2 p q)
  rw [shapeCast_self]

theorem pay4b_apply (x0 : Vec Ideal S512x384 .f32) (x1 : Vec Ideal S384x512 .f32) (p : Fin 512) (q : Fin 512) :
    (k4_pay2 x0 x1 (ix2 p q) : EReal) = post4 (∑ k : Fin 384, x0 (ix2 p k) * x1 (ix2 k q)) := by
  unfold k4_pay2
  show post4 (matmul dot_S512x384_S384x512_S512x512_1_0_0_1_n_n none (k4_pay1 x0)
      (truncf .bf16 x1 bitsLt_bf16_f32) (constant (F := Ideal) S512x512 .f32 0x00000000#32) (ix2 p q)) = _
  refine congrArg post4 ((matmul4_apply (k4_pay1 x0) (truncf .bf16 x1 bitsLt_bf16_f32) p q).trans ?_)
  refine Finset.sum_congr rfl fun k _ => ?_
  exact congrArg (· * x1 (ix2 k q)) (pay4a_apply x0 p k)

def cat4 {m : Nat} (a : Spec.Mat m 384) (b : Spec.Mat 384 512) : Spec.Mat m 896 := fun j =>
  if h : (j 1).val < 384 then a (ix2 (j 0) (⟨(j 1).val, h⟩ : Fin 384))
  else post4 (Spec.mm a b (ix2 (j 0) (⟨(j 1).val - 384, by have := idx2_lt1 j; omega⟩ : Fin 512)))

theorem cat4_left {m : Nat} (a : Spec.Mat m 384) (b : Spec.Mat 384 512) (p : Fin m) (q : Fin 384)
    (j : (⟨2, ![m, 896]⟩ : Shape).Idx) (h0 : (j 0).val = p.val) (h1 : (j 1).val = q.val) :
    cat4 a b j = a (ix2 p q) := by
  unfold cat4
  rw [dif_pos (show (j 1).val < 384 by have := q.isLt; omega)]
  exact congrArg a (congrArg₂ (ix2 (n0 := m) (n1 := 384)) (Fin.ext h0) (Fin.ext h1))

theorem cat4_right {m : Nat} (a : Spec.Mat m 384) (b : Spec.Mat 384 512) (p : Fin m) (q : Fin 512)
    (j : (⟨2, ![m, 896]⟩ : Shape).Idx) (h0 : (j 0).val = p.val) (h1 : (j 1).val = 384 + q.val) :
    cat4 a b j = post4 (Spec.mm a b (ix2 p q)) := by
  unfold cat4
  rw [dif_neg (show ¬ (j 1).val < 384 by omega)]
  exact congrArg (fun i => post4 (Spec.mm a b i))
    (congrArg₂ (ix2 (n0 := m) (n1 := 512)) (Fin.ext h0) (Fin.ext (by show (j 1).val - 384 = q.val; omega)))

theorem out4_2_eq (x0 : Vec Ideal S512x384 .f32) (x1 : Vec Ideal S384x512 .f32) :
    (out4_2 (F := Ideal) x0 x1 : S512x896.Idx → EReal) = cat4 (m := 512) x0 x1 := by
  unfold out4_2
  simp only [View.ld_unit_zero (S := S512x384) Spec.hz, View.ld_unit_zero (S := S384x512) Spec.hz]
  funext y
  refine View.canon_apply_of_pieces (Val := Elt Ideal) (S := S512x896) (e := .bf16) (cat4 (m := 512) x0 x1) _ ?_ y (cover4_2 _ _ y)
  intro pc hpc x
  rcases List.mem_cons.mp hpc with rfl | hpc
  · obtain ⟨p, q, rfl⟩ : ∃ (p : Fin 512) (q : Fin 512), x = ix2 p q := ⟨x 0, x 1, eq_ix2 x⟩
    show (k4_pay2 x0 x1 (ix2 p q) : EReal) = cat4 (m := 512) x0 x1 (r4_ob.emb (ix2 p q))
    rw [cat4_right x0 x1 p q (r4_ob.emb (ix2 p q)) (by show 0 + 1 * p.val = p.val; omega)
      (by show 384 + 1 * q.val = 384 + q.val; omega)]
    exact pay4b_apply x0 x1 p q
  · rcases List.mem_singleton.mp hpc with rfl
    obtain ⟨p, q, rfl⟩ : ∃ (p : Fin 512) (q : Fin 384), x = ix2 p q := ⟨x 0, x 1, eq_ix2 x⟩
    show (k4_pay1 x0 (ix2 p q) : EReal) = cat4 (m := 512) x0 x1 (r4_oa.emb (ix2 p q))
    rw [cat4_left x0 x1 p q (r4_oa.emb (ix2 p q)) (by show 0 + 1 * p.val = p.val; omega)
      (by show 0 + 1 * q.val = q.val; omega)]
    exact pay4a_apply x0 p q

variable (V : (c : Dev nD) → (b : Ref sig .tc) → Buf (Elt Ideal) ((c : Thread nD τ).loc b))

theorem npts4 : cfg4.N = 8 := by decide

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

def valfn4 (a : Spec.Mat 4096 384) (b : Spec.Mat 384 512) : Spec.Mat 4096 896 := cat4 (m := 4096) a b

theorem blk4_0_apply (c : Dev nD) (t : Fin cfg4.N) (y : S512x384.Idx) (i : S4096x384.Idx)
    (h0 : (i 0).val = t.val * 512 + (y 0).val) (h1 : (i 1).val = (y 1).val) :
    (iblk4 (F := Ideal) V c 0 t : Vec Ideal S512x384 .f32) y = (V c main_v3_1 : S4096x384.Idx → EReal) i := by
  obtain ⟨e0, e1, -⟩ := idx_facts4 t
  unfold iblk4
  rw [View.read_apply]
  show V c main_v3_1 (((cfg4.win 0).blk t).view.emb y) = V c main_v3_1 i
  refine congrArg _ (funext fun a => Fin.ext ?_)
  match a with
  | ⟨0, _⟩ => show win4_0.index t (0 : Fin 2) * 512 + 1 * (y 0).val = (i 0).val; omega
  | ⟨1, _⟩ => show win4_0.index t (1 : Fin 2) * 384 + 1 * (y 1).val = (i 1).val; omega

theorem blk4_1_apply (c : Dev nD) (t : Fin cfg4.N) (y : S384x512.Idx) (i : S384x512.Idx)
    (h0 : (i 0).val = (y 0).val) (h1 : (i 1).val = (y 1).val) :
    (iblk4 (F := Ideal) V c 1 t : Vec Ideal S384x512 .f32) y = (V c main_arg4 : S384x512.Idx → EReal) i := by
  obtain ⟨-, -, e2, e3, -⟩ := idx_facts4 t
  unfold iblk4
  rw [View.read_apply]
  show V c main_arg4 (((cfg4.win 1).blk t).view.emb y) = V c main_arg4 i
  refine congrArg _ (funext fun a => Fin.ext ?_)
  match a with
  | ⟨0, _⟩ => show win4_1.index t (0 : Fin 2) * 384 + 1 * (y 0).val = (i 0).val; omega
  | ⟨1, _⟩ => show win4_1.index t (1 : Fin 2) * 512 + 1 * (y 1).val = (i 1).val; omega

theorem flushed4_eq (c : Dev nD) (t : Fin cfg4.N) :
    (dat4 (F := Ideal) V c).flushed 2 t
      = ((cfg4.win 2).blk t).view.read (Elt Ideal) (valfn4 (V c main_v3_1) (V c main_arg4)) := by
  show (cfg4.win 2).cut (grid4.coords t) ((dat4 V c).after 2 t) = _
  rw [after4_2]
  obtain ⟨-, -, -, -, e4, e5⟩ := idx_facts4 t
  funext j
  have hp : (j 0).val < 512 := (j 0).isLt
  have hq : (j 1).val < 896 := (j 1).isLt
  show (out4_2 (F := Ideal) (iblk4 V c 0 t) (iblk4 V c 1 t) : S512x896.Idx → EReal) ((win4 2).xinj (grid4.coords t) j)
    = cat4 (m := 4096) (V c main_v3_1) (V c main_arg4) (((cfg4.win 2).blk t).view.emb j)
  refine (congrFun (out4_2_eq (iblk4 V c 0 t) (iblk4 V c 1 t)) ((win4 2).xinj (grid4.coords t) j)).trans ?_
  have r0 : ((((cfg4.win 2).blk t).view.emb j) 0).val = win4_2.index t (0 : Fin 2) * 512 + 1 * (j 0).val := rfl
  have r1 : ((((cfg4.win 2).blk t).view.emb j) 1).val = win4_2.index t (1 : Fin 2) * 896 + 1 * (j 1).val := rfl
  have s0 : ((((win4 2).xinj (grid4.coords t) j) : S512x896.Idx) 0).val = (j 0).val := rfl
  have s1 : ((((win4 2).xinj (grid4.coords t) j) : S512x896.Idx) 1).val = (j 1).val := rfl
  by_cases hc : (j 1).val < 384
  ·
    refine (cat4_left (m := 512) (iblk4 V c 0 t) (iblk4 V c 1 t) ⟨(j 0).val, hp⟩ ⟨(j 1).val, hc⟩ _ s0 s1).trans ?_
    refine Eq.trans ?_ (cat4_left (m := 4096) (V c main_v3_1) (V c main_arg4) ((((cfg4.win 2).blk t).view.emb j) 0)
      ⟨(j 1).val, hc⟩ _ rfl (by show ((((cfg4.win 2).blk t).view.emb j) 1).val = (j 1).val; omega)).symm
    exact blk4_0_apply V c t (ix2 (⟨(j 0).val, hp⟩ : Fin 512) (⟨(j 1).val, hc⟩ : Fin 384))
      (ix2 ((((cfg4.win 2).blk t).view.emb j) 0) (⟨(j 1).val, hc⟩ : Fin 384))
      (by show ((((cfg4.win 2).blk t).view.emb j) 0).val = t.val * 512 + (j 0).val; omega) rfl
  ·
    have hq' : (j 1).val - 384 < 512 := by omega
    refine (cat4_right (m := 512) (iblk4 V c 0 t) (iblk4 V c 1 t) ⟨(j 0).val, hp⟩ ⟨(j 1).val - 384, hq'⟩ _ s0
      (by show ((((win4 2).xinj (grid4.coords t) j) : S512x896.Idx) 1).val = 384 + ((j 1).val - 384); omega)).trans ?_
    refine Eq.trans ?_ (cat4_right (m := 4096) (V c main_v3_1) (V c main_arg4) ((((cfg4.win 2).blk t).view.emb j) 0)
      ⟨(j 1).val - 384, hq'⟩ _ rfl
      (by show ((((cfg4.win 2).blk t).view.emb j) 1).val = 384 + ((j 1).val - 384); omega)).symm
    refine congrArg post4 ?_
    unfold Spec.mm
    refine Finset.sum_congr rfl fun k _ => ?_
    have a0 := blk4_0_apply V c t (ix2 (⟨(j 0).val, hp⟩ : Fin 512) k) (ix2 ((((cfg4.win 2).blk t).view.emb j) 0) k)
      (by show ((((cfg4.win 2).blk t).view.emb j) 0).val = t.val * 512 + (j 0).val; omega) rfl
    have a1 := blk4_1_apply V c t (ix2 k (⟨(j 1).val - 384, hq'⟩ : Fin 512)) (ix2 k (⟨(j 1).val - 384, hq'⟩ : Fin 512)) rfl rfl
    exact congrArg₂ (· * ·) a0 a1

theorem mem_blk4 (t : Fin cfg4.N) (i : S4096x896.Idx) :
    i ∈ ((cfg4.win 2).blk t).view.set ↔ ∀ a : Fin 2, win4_2.index t a * S512x896.size a ≤ (i a).val
      ∧ (i a).val < win4_2.index t a * S512x896.size a + S512x896.size a := by
  show i ∈ ((View.whole main_v4).slice (win4_2.rect t)).set ↔ _
  rw [View.set_slice_whole, Rect.mem_set_unit]
  exact Iff.rfl

theorem cover4 (i : S4096x896.Idx) :
    ∃ t : Fin cfg4.N, (cfg4.win 2).flush t = true ∧ i ∈ ((cfg4.win 2).blk t).view.set := by
  have h0 : (i 0).val < 4096 := (i 0).isLt
  have h1 : (i 1).val < 896 := (i 1).isLt
  have hN := npts4
  refine ⟨⟨(i 0).val / 512, by omega⟩, flush4_2 _, ?_⟩
  rw [mem_blk4]
  obtain ⟨-, -, -, -, e4, e5⟩ := idx_facts4 ⟨(i 0).val / 512, by omega⟩
  intro a
  match a with
  | ⟨0, _⟩ =>
    show win4_2.index ⟨(i 0).val / 512, _⟩ (0 : Fin 2) * 512 ≤ (i 0).val
      ∧ (i 0).val < win4_2.index ⟨(i 0).val / 512, _⟩ (0 : Fin 2) * 512 + 512
    rw [e4]; show (i 0).val / 512 * 512 ≤ (i 0).val ∧ (i 0).val < (i 0).val / 512 * 512 + 512; omega
  | ⟨1, _⟩ =>
    show win4_2.index ⟨(i 0).val / 512, _⟩ (1 : Fin 2) * 896 ≤ (i 1).val
      ∧ (i 1).val < win4_2.index ⟨(i 0).val / 512, _⟩ (1 : Fin 2) * 896 + 896
    rw [e5]; omega

theorem val4 (c : Dev nD) :
    ((dat4 (F := Ideal) V c).arrAt 2 cfg4.N : S4096x896.Idx → EReal)
      = valfn4 (V c main_v3_1) (V c main_arg4) :=
  (dat4 V c).arrAt_eq_of_cover 2 (valfn4 (V c main_v3_1) (V c main_arg4)) (fun t _ => flushed4_eq V c t) (cover4)

theorem val4_left (c : Dev nD) (r : Fin 4096) (q : Fin 384) :
    ((dat4 (F := Ideal) V c).arrAt 2 cfg4.N : S4096x896.Idx → EReal) (ix2 r ⟨q.val, by omega⟩)
      = (V c main_v3_1 : S4096x384.Idx → EReal) (ix2 r q) :=
  (congrFun (val4 V c) _).trans (cat4_left (m := 4096) (V c main_v3_1) (V c main_arg4) r q _ rfl rfl)

theorem val4_right (c : Dev nD) (r : Fin 4096) (q : Fin 512) :
    ((dat4 (F := Ideal) V c).arrAt 2 cfg4.N : S4096x896.Idx → EReal) (ix2 r ⟨384 + q.val, by omega⟩)
      = Ideal.tanh (Spec.mm (V c main_v3_1) (V c main_arg4) (ix2 r q)) :=
  (congrFun (val4 V c) _).trans (cat4_right (m := 4096) (V c main_v3_1) (V c main_arg4) r q _ rfl rfl)

end Cert.KernelIdeal.Val

end
-- ==== Proof.KI.Val5.lean ====
import proofs.«121997_g2000006886080560_pallasbulk_379_4_alg».proof.Proof.KI.R5
import proofs.«121997_g2000006886080560_pallasbulk_379_4_alg».proof.Proof.Spec
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx
open Idealize.SL Idealize.SL.Sem
open Idealize.ShloMosaic.Pipeline (Dat)

theorem matmul5_apply (a : FVec Ideal S512x4096 .bf16) (b : FVec Ideal S4096x896 .bf16) (p : Fin 512) (q : Fin 896) :
    matmul dot_S512x4096_S4096x896_S512x896_1_0_0_1_n_n none a b (constant (F := Ideal) S512x896 .f32 0x00000000#32) (ix2 p q)
      = ∑ k : Fin 4096, a (ix2 p k) * b (ix2 k q) :=
  (congrFun (matmul_zero_eq_dotGeneral _ none a b) _).trans (StackMember.dotGeneral_plain_apply none a b p q)

theorem pay5_1_apply (x0 : Vec Ideal S512x4096 .bf16) (x1 : Vec Ideal S4096x896 .bf16) (p : Fin 512) (q : Fin 896) :
    (k5_pay1 x0 x1 : FVec Ideal S512x896 .f32) (ix2 p q) = ∑ k : Fin 4096, x0 (ix2 p k) * x1 (ix2 k q) := by
  unfold k5_pay1
  show matmul dot_S512x4096_S4096x896_S512x896_1_0_0_1_n_n none (shapeCast S512x4096 x0 shapeCasts_S512x4096_S512x4096)
      (shapeCast S4096x896 x1 shapeCasts_S4096x896_S4096x896)
      (constant (F := Ideal) S512x896 .f32 0x00000000#32) (ix2 p q) = _
  rw [shapeCast_self, shapeCast_self]
  exact matmul5_apply x0 x1 p q

theorem pay5_2_apply (x0 : Vec Ideal S512x4096 .bf16) (x1 : Vec Ideal S4096x896 .bf16) (p : Fin 512) (q : Fin 384) :
    (k5_pay2 x0 x1 : FVec Ideal S512x384 .f32) (ix2 p q)
      = ∑ k : Fin 4096, x0 (ix2 p k) * x1 (ix2 k (⟨q.val, by omega⟩ : Fin 896)) := by
  have hs : extractStridedSlice S512x384 ![0, 0] (k5_pay1 x0 x1) slices_S512x896_o0_0_S512x384 (ix2 p q)
      = (k5_pay1 x0 x1 : FVec Ideal S512x896 .f32) (ix2 p (⟨q.val, by omega⟩ : Fin 896)) :=
    extractStridedSlice_apply (s := S512x896) (t := S512x384) ![0, 0] (k5_pay1 x0 x1) slices_S512x896_o0_0_S512x384
      (ix2 p q) (ix2 p (⟨q.val, by omega⟩ : Fin 896)) (fun a => by
        match a with
        | ⟨0, _⟩ => show p.val = 0 + p.val; omega
        | ⟨1, _⟩ => show q.val = 0 + q.val; omega)
  exact hs.trans (pay5_1_apply x0 x1 p (⟨q.val, by omega⟩ : Fin 896))

theorem pay5_3_apply (x0 : Vec Ideal S512x4096 .bf16) (x1 : Vec Ideal S4096x896 .bf16) (p : Fin 512) (q : Fin 512) :
    (k5_pay3 x0 x1 : FVec Ideal S512x512 .f32) (ix2 p q)
      = ∑ k : Fin 4096, x0 (ix2 p k) * x1 (ix2 k (⟨384 + q.val, by omega⟩ : Fin 896)) := by
  have hs : extractStridedSlice S512x512 ![0, 384] (k5_pay1 x0 x1) slices_S512x896_o0_384_S512x512 (ix2 p q)
      = (k5_pay1 x0 x1 : FVec Ideal S512x896 .f32) (ix2 p (⟨384 + q.val, by omega⟩ : Fin 896)) :=
    extractStridedSlice_apply (s := S512x896) (t := S512x512) ![0, 384] (k5_pay1 x0 x1) slices_S512x896_o0_384_S512x512
      (ix2 p q) (ix2 p (⟨384 + q.val, by omega⟩ : Fin 896)) (fun a => by
        match a with
        | ⟨0, _⟩ => show p.val = 0 + p.val; omega
        | ⟨1, _⟩ => show 384 + q.val = 384 + q.val; rfl)
  exact hs.trans (pay5_1_apply x0 x1 p (⟨384 + q.val, by omega⟩ : Fin 896))

variable (V : (c : Dev nD) → (b : Ref sig .tc) → Buf (Elt Ideal) ((c : Thread nD τ).loc b))

theorem npts5 : cfg5.N = 8 := by decide

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

abbrev adjb5 (c : Dev nD) : Spec.Mat 4096 4096 := V c main_v1_1

abbrev rhs5 (c : Dev nD) : Spec.Mat 4096 896 := V c main_v4

def colsL5 (m : Spec.Mat 4096 896) : Spec.Mat 4096 384 :=
  fun i => m (ix2 (i 0) (⟨(i 1).val, by have := idx2_lt1 i; omega⟩ : Fin 896))

def colsR5 (m : Spec.Mat 4096 896) : Spec.Mat 4096 512 :=
  fun i => m (ix2 (i 0) (⟨384 + (i 1).val, by have := idx2_lt1 i; omega⟩ : Fin 896))

theorem blk5_0_apply (c : Dev nD) (t : Fin cfg5.N) (y : S512x4096.Idx) (i : S4096x4096.Idx)
    (h0 : (i 0).val = t.val * 512 + (y 0).val) (h1 : (i 1).val = (y 1).val) :
    (iblk5 (F := Ideal) V c 0 t : Vec Ideal S512x4096 .bf16) y = adjb5 V c i := by
  obtain ⟨e0, e1, -⟩ := idx_facts5 t
  unfold iblk5
  rw [View.read_apply]
  show V c main_v1_1 (((cfg5.win 0).blk t).view.emb y) = V c main_v1_1 i
  refine congrArg _ (funext fun a => Fin.ext ?_)
  match a with
  | ⟨0, _⟩ => show win5_0.index t (0 : Fin 2) * 512 + 1 * (y 0).val = (i 0).val; omega
  | ⟨1, _⟩ => show win5_0.index t (1 : Fin 2) * 4096 + 1 * (y 1).val = (i 1).val; omega

theorem blk5_1_apply (c : Dev nD) (t : Fin cfg5.N) (y : S4096x896.Idx) (i : S4096x896.Idx)
    (h0 : (i 0).val = (y 0).val) (h1 : (i 1).val = (y 1).val) :
    (iblk5 (F := Ideal) V c 1 t : Vec Ideal S4096x896 .bf16) y = rhs5 V c i := by
  obtain ⟨-, -, e2, e3, -⟩ := idx_facts5 t
  unfold iblk5
  rw [View.read_apply]
  show V c main_v4 (((cfg5.win 1).blk t).view.emb y) = V c main_v4 i
  refine congrArg _ (funext fun a => Fin.ext ?_)
  match a with
  | ⟨0, _⟩ => show win5_1.index t (0 : Fin 2) * 4096 + 1 * (y 0).val = (i 0).val; omega
  | ⟨1, _⟩ => show win5_1.index t (1 : Fin 2) * 896 + 1 * (y 1).val = (i 1).val; omega

theorem flushed5_2_eq (c : Dev nD) (t : Fin cfg5.N) :
    (dat5 (F := Ideal) V c).flushed 2 t
      = ((cfg5.win 2).blk t).view.read (Elt Ideal) (colsL5 (Spec.mm (adjb5 V c) (rhs5 V c))) := by
  show (cfg5.win 2).cut (grid5.coords t) ((dat5 V c).after 2 t) = _
  rw [after5_2]
  unfold out5_2
  rw [View.canon_unit_zero Spec.hz]
  simp only [View.ld_unit_zero (S := S512x4096) Spec.hz, View.ld_unit_zero (S := S4096x896) Spec.hz]
  obtain ⟨-, -, -, -, e4, e5, -⟩ := idx_facts5 t
  funext j
  have hp : (j 0).val < 512 := (j 0).isLt
  have hq : (j 1).val < 384 := (j 1).isLt
  have hj : (win5 2).xinj (grid5.coords t) j = ix2 (⟨(j 0).val, hp⟩ : Fin 512) (⟨(j 1).val, hq⟩ : Fin 384) :=
    funext fun a => Fin.ext (by match a with | ⟨0, _⟩ => rfl | ⟨1, _⟩ => rfl)
  show k5_pay2 (iblk5 V c 0 t) (iblk5 V c 1 t) ((win5 2).xinj (grid5.coords t) j)
    = colsL5 (Spec.mm (adjb5 V c) (rhs5 V c)) (((cfg5.win 2).blk t).view.emb j)
  refine (congrArg (k5_pay2 (iblk5 V c 0 t) (iblk5 V c 1 t)) hj).trans ?_
  refine (pay5_2_apply (iblk5 V c 0 t) (iblk5 V c 1 t) _ _).trans ?_
  unfold colsL5 Spec.mm
  refine Finset.sum_congr rfl fun k _ => ?_
  have r0 : ((((cfg5.win 2).blk t).view.emb j) 0).val = win5_2.index t (0 : Fin 2) * 512 + 1 * (j 0).val := rfl
  have r1 : ((((cfg5.win 2).blk t).view.emb j) 1).val = win5_2.index t (1 : Fin 2) * 384 + 1 * (j 1).val := rfl
  have a0 := blk5_0_apply V c t (ix2 (⟨(j 0).val, hp⟩ : Fin 512) k) (ix2 ((((cfg5.win 2).blk t).view.emb j) 0) k)
    (by show ((((cfg5.win 2).blk t).view.emb j) 0).val = t.val * 512 + (j 0).val; omega) rfl
  have a1 := blk5_1_apply V c t (ix2 k (⟨(j 1).val, by omega⟩ : Fin 896))
    (ix2 k (⟨((((cfg5.win 2).blk t).view.emb j) 1).val, by omega⟩ : Fin 896)) rfl
    (by show ((((cfg5.win 2).blk t).view.emb j) 1).val = (j 1).val; omega)
  exact congrArg₂ (· * ·) a0 a1

theorem flushed5_3_eq (c : Dev nD) (t : Fin cfg5.N) :
    (dat5 (F := Ideal) V c).flushed 3 t
      = ((cfg5.win 3).blk t).view.read (Elt Ideal) (colsR5 (Spec.mm (adjb5 V c) (rhs5 V c))) := by
  show (cfg5.win 3).cut (grid5.coords t) ((dat5 V c).after 3 t) = _
  rw [after5_3]
  unfold out5_3
  rw [View.canon_unit_zero Spec.hz]
  simp only [View.ld_unit_zero (S := S512x4096) Spec.hz, View.ld_unit_zero (S := S4096x896) Spec.hz]
  obtain ⟨-, -, -, -, -, -, e6, e7⟩ := idx_facts5 t
  funext j
  have hp : (j 0).val < 512 := (j 0).isLt
  have hq : (j 1).val < 512 := (j 1).isLt
  have hj : (win5 3).xinj (grid5.coords t) j = ix2 (⟨(j 0).val, hp⟩ : Fin 512) (⟨(j 1).val, hq⟩ : Fin 512) :=
    funext fun a => Fin.ext (by match a with | ⟨0, _⟩ => rfl | ⟨1, _⟩ => rfl)
  show k5_pay3 (iblk5 V c 0 t) (iblk5 V c 1 t) ((win5 3).xinj (grid5.coords t) j)
    = colsR5 (Spec.mm (adjb5 V c) (rhs5 V c)) (((cfg5.win 3).blk t).view.emb j)
  refine (congrArg (k5_pay3 (iblk5 V c 0 t) (iblk5 V c 1 t)) hj).trans ?_
  refine (pay5_3_apply (iblk5 V c 0 t) (iblk5 V c 1 t) _ _).trans ?_
  unfold colsR5 Spec.mm
  refine Finset.sum_congr rfl fun k _ => ?_
  have r0 : ((((cfg5.win 3).blk t).view.emb j) 0).val = win5_3.index t (0 : Fin 2) * 512 + 1 * (j 0).val := rfl
  have r1 : ((((cfg5.win 3).blk t).view.emb j) 1).val = win5_3.index t (1 : Fin 2) * 512 + 1 * (j 1).val := rfl
  have a0 := blk5_0_apply V c t (ix2 (⟨(j 0).val, hp⟩ : Fin 512) k) (ix2 ((((cfg5.win 3).blk t).view.emb j) 0) k)
    (by show ((((cfg5.win 3).blk t).view.emb j) 0).val = t.val * 512 + (j 0).val; omega) rfl
  have a1 := blk5_1_apply V c t (ix2 k (⟨384 + (j 1).val, by omega⟩ : Fin 896))
    (ix2 k (⟨384 + ((((cfg5.win 3).blk t).view.emb j) 1).val, by omega⟩ : Fin 896)) rfl
    (by show 384 + ((((cfg5.win 3).blk t).view.emb j) 1).val = 384 + (j 1).val; omega)
  exact congrArg₂ (· * ·) a0 a1

theorem mem_blk5_2 (t : Fin cfg5.N) (i : S4096x384.Idx) :
    i ∈ ((cfg5.win 2).blk t).view.set ↔ ∀ a : Fin 2, win5_2.index t a * S512x384.size a ≤ (i a).val
      ∧ (i a).val < win5_2.index t a * S512x384.size a + S512x384.size a := by
  show i ∈ ((View.whole main_v5_0).slice (win5_2.rect t)).set ↔ _
  rw [View.set_slice_whole, Rect.mem_set_unit]
  exact Iff.rfl

theorem mem_blk5_3 (t : Fin cfg5.N) (i : S4096x512.Idx) :
    i ∈ ((cfg5.win 3).blk t).view.set ↔ ∀ a : Fin 2, win5_3.index t a * S512x512.size a ≤ (i a).val
      ∧ (i a).val < win5_3.index t a * S512x512.size a + S512x512.size a := by
  show i ∈ ((View.whole main_v5_1).slice (win5_3.rect t)).set ↔ _
  rw [View.set_slice_whole, Rect.mem_set_unit]
  exact Iff.rfl

theorem covered5_2 (i : S4096x384.Idx) :
    ∃ t : Fin cfg5.N, (cfg5.win 2).flush t = true ∧ i ∈ ((cfg5.win 2).blk t).view.set := by
  have h0 : (i 0).val < 4096 := (i 0).isLt
  have h1 : (i 1).val < 384 := (i 1).isLt
  have hN := npts5
  refine ⟨⟨(i 0).val / 512, by omega⟩, flush5_2 _, ?_⟩
  rw [mem_blk5_2]
  obtain ⟨-, -, -, -, e4, e5, -⟩ := idx_facts5 ⟨(i 0).val / 512, by omega⟩
  intro a
  match a with
  | ⟨0, _⟩ =>
    show win5_2.index ⟨(i 0).val / 512, _⟩ (0 : Fin 2) * 512 ≤ (i 0).val
      ∧ (i 0).val < win5_2.index ⟨(i 0).val / 512, _⟩ (0 : Fin 2) * 512 + 512
    rw [e4]; show (i 0).val / 512 * 512 ≤ (i 0).val ∧ (i 0).val < (i 0).val / 512 * 512 + 512; omega
  | ⟨1, _⟩ =>
    show win5_2.index ⟨(i 0).val / 512, _⟩ (1 : Fin 2) * 384 ≤ (i 1).val
      ∧ (i 1).val < win5_2.index ⟨(i 0).val / 512, _⟩ (1 : Fin 2) * 384 + 384
    rw [e5]; omega

theorem covered5_3 (i : S4096x512.Idx) :
    ∃ t : Fin cfg5.N, (cfg5.win 3).flush t = true ∧ i ∈ ((cfg5.win 3).blk t).view.set := by
  have h0 : (i 0).val < 4096 := (i 0).isLt
  have h1 : (i 1).val < 512 := (i 1).isLt
  have hN := npts5
  refine ⟨⟨(i 0).val / 512, by omega⟩, flush5_3 _, ?_⟩
  rw [mem_blk5_3]
  obtain ⟨-, -, -, -, -, -, e6, e7⟩ := idx_facts5 ⟨(i 0).val / 512, by omega⟩
  intro a
  match a with
  | ⟨0, _⟩ =>
    show win5_3.index ⟨(i 0).val / 512, _⟩ (0 : Fin 2) * 512 ≤ (i 0).val
      ∧ (i 0).val < win5_3.index ⟨(i 0).val / 512, _⟩ (0 : Fin 2) * 512 + 512
    rw [e6]; show (i 0).val / 512 * 512 ≤ (i 0).val ∧ (i 0).val < (i 0).val / 512 * 512 + 512; omega
  | ⟨1, _⟩ =>
    show win5_3.index ⟨(i 0).val / 512, _⟩ (1 : Fin 2) * 512 ≤ (i 1).val
      ∧ (i 1).val < win5_3.index ⟨(i 0).val / 512, _⟩ (1 : Fin 2) * 512 + 512
    rw [e7]; omega

theorem val5_2_arr (c : Dev nD) :
    ((dat5 (F := Ideal) V c).arrAt 2 cfg5.N : S4096x384.Idx → EReal) = colsL5 (Spec.mm (adjb5 V c) (rhs5 V c)) :=
  (dat5 V c).arrAt_eq_of_cover 2 (colsL5 (Spec.mm (adjb5 V c) (rhs5 V c))) (fun t _ => flushed5_2_eq V c t) (covered5_2)

theorem val5_3_arr (c : Dev nD) :
    ((dat5 (F := Ideal) V c).arrAt 3 cfg5.N : S4096x512.Idx → EReal) = colsR5 (Spec.mm (adjb5 V c) (rhs5 V c)) :=
  (dat5 V c).arrAt_eq_of_cover 3 (colsR5 (Spec.mm (adjb5 V c) (rhs5 V c))) (fun t _ => flushed5_3_eq V c t) (covered5_3)

theorem val5_2 (c : Dev nD) (r : Fin 4096) (q : Fin 384) :
    ((dat5 (F := Ideal) V c).arrAt 2 cfg5.N : S4096x384.Idx → EReal) (ix2 r q)
      = Spec.mm (adjb5 V c) (rhs5 V c) (ix2 r (⟨q.val, by omega⟩ : Fin 896)) :=
  congrFun (val5_2_arr V c) (ix2 r q)

theorem val5_3 (c : Dev nD) (r : Fin 4096) (q : Fin 512) :
    ((dat5 (F := Ideal) V c).arrAt 3 cfg5.N : S4096x512.Idx → EReal) (ix2 r q)
      = Spec.mm (adjb5 V c) (rhs5 V c) (ix2 r (⟨384 + q.val, by omega⟩ : Fin 896)) :=
  congrFun (val5_3_arr V c) (ix2 r q)

end Cert.KernelIdeal.Val

end
-- ==== Proof.KI.Val6.lean ====
import proofs.«121997_g2000006886080560_pallasbulk_379_4_alg».proof.Proof.KI.R6
import proofs.«121997_g2000006886080560_pallasbulk_379_4_alg».proof.Proof.Spec
import Idealize.ShloMosaic.Lib.Pipeline.Value
import Idealize.ShloMosaic.PureOps.Ideal.Laws
import Idealize.ShloMosaic.Lib.ValueIdx
import Idealize.ShloMosaic.Lib.StackMember

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

theorem matmul6_apply (a : FVec Ideal S512x4096 .bf16) (b : FVec Ideal S4096x512 .bf16) (p : Fin 512) (q : Fin 512) :
    matmul dot_S512x4096_S4096x512_S512x512_1_0_0_1_n_n none a b (constant (F := Ideal) S512x512 .f32 0x00000000#32) (ix2 p q)
      = ∑ k : Fin 4096, a (ix2 p k) * b (ix2 k q) :=
  (congrFun (matmul_zero_eq_dotGeneral _ none a b) _).trans (StackMember.dotGeneral_plain_apply none a b p q)

abbrev post6 (x : EReal) : EReal := x

theorem pay6_apply (x0 : Vec Ideal S512x4096 .bf16) (x1 : Vec Ideal S4096x512 .bf16) (p : Fin 512) (q : Fin 512) :
    k6_pay1 x0 x1 (ix2 p q) = post6 (∑ k : Fin 4096, x0 (ix2 p k) * x1 (ix2 k q)) := by
  unfold k6_pay1
  simp only [shapeCast_self]
  exact congrArg post6 (matmul6_apply x0 x1 p q)

variable (V : (c : Dev nD) → (b : Ref sig .tc) → Buf (Elt Ideal) ((c : Thread nD τ).loc b))

theorem npts6 : cfg6.N = 8 := by decide

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

def valfn6 (a : Spec.Mat 4096 4096) (b : Spec.Mat 4096 512) : Spec.Mat 4096 512 := fun j => post6 (Spec.mm a b j)

theorem blk6_0_apply (c : Dev nD) (t : Fin cfg6.N) (y : S512x4096.Idx) (i : S4096x4096.Idx)
    (h0 : (i 0).val = t.val * 512 + (y 0).val) (h1 : (i 1).val = (y 1).val) :
    (iblk6 (F := Ideal) V c 0 t : Vec Ideal S512x4096 .bf16) y = (V c main_v1_1 : S4096x4096.Idx → EReal) i := by
  obtain ⟨e0, e1, -⟩ := idx_facts6 t
  unfold iblk6
  rw [View.read_apply]
  show V c main_v1_1 (((cfg6.win 0).blk t).view.emb y) = V c main_v1_1 i
  refine congrArg _ (funext fun a => Fin.ext ?_)
  match a with
  | ⟨0, _⟩ => show win6_0.index t (0 : Fin 2) * 512 + 1 * (y 0).val = (i 0).val; omega
  | ⟨1, _⟩ => show win6_0.index t (1 : Fin 2) * 4096 + 1 * (y 1).val = (i 1).val; omega

theorem blk6_1_apply (c : Dev nD) (t : Fin cfg6.N) (y : S4096x512.Idx) (i : S4096x512.Idx)
    (h0 : (i 0).val = (y 0).val) (h1 : (i 1).val = (y 1).val) :
    (iblk6 (F := Ideal) V c 1 t : Vec Ideal S4096x512 .bf16) y = (V c main_v6 : S4096x512.Idx → EReal) i := by
  obtain ⟨-, -, e2, e3, -⟩ := idx_facts6 t
  unfold iblk6
  rw [View.read_apply]
  show V c main_v6 (((cfg6.win 1).blk t).view.emb y) = V c main_v6 i
  refine congrArg _ (funext fun a => Fin.ext ?_)
  match a with
  | ⟨0, _⟩ => show win6_1.index t (0 : Fin 2) * 4096 + 1 * (y 0).val = (i 0).val; omega
  | ⟨1, _⟩ => show win6_1.index t (1 : Fin 2) * 512 + 1 * (y 1).val = (i 1).val; omega

theorem flushed6_eq (c : Dev nD) (t : Fin cfg6.N) :
    (dat6 (F := Ideal) V c).flushed 2 t
      = ((cfg6.win 2).blk t).view.read (Elt Ideal) (valfn6 (V c main_v1_1) (V c main_v6)) := by
  show (cfg6.win 2).cut (grid6.coords t) ((dat6 V c).after 2 t) = _
  rw [after6_2]
  unfold out6_2
  rw [View.canon_unit_zero Spec.hz]
  simp only [View.ld_unit_zero (S := S512x4096) Spec.hz, View.ld_unit_zero (S := S4096x512) Spec.hz]
  obtain ⟨-, -, -, -, e4, e5⟩ := idx_facts6 t
  funext j
  have hp : (j 0).val < 512 := (j 0).isLt
  have hq : (j 1).val < 512 := (j 1).isLt
  have hj : (win6 2).xinj (grid6.coords t) j = ix2 (⟨(j 0).val, hp⟩ : Fin 512) (⟨(j 1).val, hq⟩ : Fin 512) :=
    funext fun a => Fin.ext (by match a with | ⟨0, _⟩ => rfl | ⟨1, _⟩ => rfl)
  show k6_pay1 (iblk6 V c 0 t) (iblk6 V c 1 t) ((win6 2).xinj (grid6.coords t) j)
    = post6 (Spec.mm (V c main_v1_1) (V c main_v6) (((cfg6.win 2).blk t).view.emb j))
  refine (congrArg (k6_pay1 (iblk6 V c 0 t) (iblk6 V c 1 t)) hj).trans ?_
  refine (pay6_apply (iblk6 V c 0 t) (iblk6 V c 1 t) _ _).trans (congrArg post6 ?_)
  unfold Spec.mm
  refine Finset.sum_congr rfl fun k _ => ?_
  have r0 : ((((cfg6.win 2).blk t).view.emb j) 0).val = win6_2.index t (0 : Fin 2) * 512 + 1 * (j 0).val := rfl
  have r1 : ((((cfg6.win 2).blk t).view.emb j) 1).val = win6_2.index t (1 : Fin 2) * 512 + 1 * (j 1).val := rfl
  have a0 := blk6_0_apply V c t (ix2 (⟨(j 0).val, hp⟩ : Fin 512) k) (ix2 ((((cfg6.win 2).blk t).view.emb j) 0) k)
    (by show ((((cfg6.win 2).blk t).view.emb j) 0).val = t.val * 512 + (j 0).val; omega) rfl
  have a1 := blk6_1_apply V c t (ix2 k (⟨(j 1).val, hq⟩ : Fin 512)) (ix2 k ((((cfg6.win 2).blk t).view.emb j) 1)) rfl
    (by show ((((cfg6.win 2).blk t).view.emb j) 1).val = (j 1).val; omega)
  exact congrArg₂ (· * ·) a0 a1

theorem mem_blk6 (t : Fin cfg6.N) (i : S4096x512.Idx) :
    i ∈ ((cfg6.win 2).blk t).view.set ↔ ∀ a : Fin 2, win6_2.index t a * S512x512.size a ≤ (i a).val
      ∧ (i a).val < win6_2.index t a * S512x512.size a + S512x512.size a := by
  show i ∈ ((View.whole main_v7).slice (win6_2.rect t)).set ↔ _
  rw [View.set_slice_whole, Rect.mem_set_unit]
  exact Iff.rfl

theorem cover6 (i : S4096x512.Idx) :
    ∃ t : Fin cfg6.N, (cfg6.win 2).flush t = true ∧ i ∈ ((cfg6.win 2).blk t).view.set := by
  have h0 : (i 0).val < 4096 := (i 0).isLt
  have h1 : (i 1).val < 512 := (i 1).isLt
  have hN := npts6
  refine ⟨⟨(i 0).val / 512, by omega⟩, flush6_2 _, ?_⟩
  rw [mem_blk6]
  obtain ⟨-, -, -, -, e4, e5⟩ := idx_facts6 ⟨(i 0).val / 512, by omega⟩
  intro a
  match a with
  | ⟨0, _⟩ =>
    show win6_2.index ⟨(i 0).val / 512, _⟩ (0 : Fin 2) * 512 ≤ (i 0).val
      ∧ (i 0).val < win6_2.index ⟨(i 0).val / 512, _⟩ (0 : Fin 2) * 512 + 512
    rw [e4]; show (i 0).val / 512 * 512 ≤ (i 0).val ∧ (i 0).val < (i 0).val / 512 * 512 + 512; omega
  | ⟨1, _⟩ =>
    show win6_2.index ⟨(i 0).val / 512, _⟩ (1 : Fin 2) * 512 ≤ (i 1).val
      ∧ (i 1).val < win6_2.index ⟨(i 0).val / 512, _⟩ (1 : Fin 2) * 512 + 512
    rw [e5]; omega

theorem val6 (c : Dev nD) :
    ((dat6 (F := Ideal) V c).arrAt 2 cfg6.N : S4096x512.Idx → EReal)
      = fun j => Spec.mm (V c main_v1_1) (V c main_v6) j :=
  (dat6 V c).arrAt_eq_of_cover 2 (valfn6 (V c main_v1_1) (V c main_v6)) (fun t _ => flushed6_eq V c t) (cover6)

end Cert.KernelIdeal.Val

end
-- ==== Proof.KI.Val7.lean ====
import proofs.«121997_g2000006886080560_pallasbulk_379_4_alg».proof.Proof.KI.R7
import proofs.«121997_g2000006886080560_pallasbulk_379_4_alg».proof.Proof.Spec
import Idealize.ShloMosaic.Lib.Pipeline.Value
import Idealize.ShloMosaic.PureOps.Ideal.Laws
import Idealize.ShloMosaic.Lib.ValueIdx

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

theorem lhs_mm7_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl

theorem lhs_mm7_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q

theorem rhs_mm7_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl

theorem rhs_mm7_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

theorem matmul7_apply (a : FVec Ideal S512x512 .bf16) (b : FVec Ideal S1024x512 .bf16) (p : Fin 512) (q : Fin 1024) :
    matmul dot_S512x512_S1024x512_S512x1024_1_1_0_0_n_n none a b (constant (F := Ideal) S512x1024 .f32 0x00000000#32) (ix2 p q)
      = ∑ k : Fin 512, a (ix2 p k) * b (ix2 q k) := by
  simp only [matmul]
  rw [Ideal.matmul_constant_zero_apply,
    ← Equiv.sum_comp (contrEquiv1 dot_S512x512_S1024x512_S512x1024_1_1_0_0_n_n 512 rfl rfl).symm]
  refine Finset.sum_congr rfl fun k _ => ?_
  have hk := contrEquiv1_symm_val dot_S512x512_S1024x512_S512x1024_1_1_0_0_n_n 512 rfl rfl k
  have el : dot_S512x512_S1024x512_S512x1024_1_1_0_0_n_n.lhsIdx (ix2 p q)
      ((contrEquiv1 dot_S512x512_S1024x512_S512x1024_1_1_0_0_n_n 512 rfl rfl).symm k) = ix2 p k :=
    funext fun a => Fin.ext (by
      match a with
      | ⟨0, _⟩ => exact lhs_mm7_0 _ _
      | ⟨1, _⟩ => exact (lhs_mm7_1 _ _).trans hk)
  have er : dot_S512x512_S1024x512_S512x1024_1_1_0_0_n_n.rhsIdx (ix2 p q)
      ((contrEquiv1 dot_S512x512_S1024x512_S512x1024_1_1_0_0_n_n 512 rfl rfl).symm k) = ix2 q k :=
    funext fun a => Fin.ext (by
      match a with
      | ⟨0, _⟩ => exact rhs_mm7_0 _ _
      | ⟨1, _⟩ => exact (rhs_mm7_1 _ _).trans hk)
  rw [el, er]

abbrev post7 (x : EReal) : EReal := Ideal.logistic x

theorem pay7_apply (x0 : Vec Ideal S512x512 .bf16) (x1 : Vec Ideal S1024x512 .bf16) (p : Fin 512) (q : Fin 1024) :
    k7_pay1 x0 x1 (ix2 p q) = post7 (∑ k : Fin 512, x0 (ix2 p k) * x1 (ix2 q k)) := by
  unfold k7_pay1
  simp only [shapeCast_self]
  show post7 (matmul dot_S512x512_S1024x512_S512x1024_1_1_0_0_n_n none x0 x1
      (constant (F := Ideal) S512x1024 .f32 0x00000000#32) (ix2 p q)) = _
  exact congrArg post7 (matmul7_apply x0 x1 p q)

variable (V : (c : Dev nD) → (b : Ref sig .tc) → Buf (Elt Ideal) ((c : Thread nD τ).loc b))

theorem npts7 : cfg7.N = 32 := by decide

theorem idx_facts7 : ∀ t : Fin cfg7.N, win7_0.index t (0 : Fin 2) = t.val / 4 ∧ win7_0.index t (1 : Fin 2) = 0
    ∧ win7_1.index t (0 : Fin 2) = t.val % 4 ∧ win7_1.index t (1 : Fin 2) = 0
    ∧ win7_2.index t (0 : Fin 2) = t.val / 4 ∧ win7_2.index t (1 : Fin 2) = t.val % 4 :=
  (by decide +kernel : ∀ t : Fin grid7.N, _)

def valfn7 (a : Spec.Mat 4096 512) (b : Spec.Mat 4096 512) : Spec.Mat 4096 4096 := fun j => post7 (Spec.mmT a b j)

theorem blk7_0_apply (c : Dev nD) (t : Fin cfg7.N) (y : S512x512.Idx) (i : S4096x512.Idx)
    (h0 : (i 0).val = t.val / 4 * 512 + (y 0).val) (h1 : (i 1).val = (y 1).val) :
    (iblk7 (F := Ideal) V c 0 t : Vec Ideal S512x512 .bf16) y = (V c main_v6 : S4096x512.Idx → EReal) i := by
  obtain ⟨e0, e1, -⟩ := idx_facts7 t
  unfold iblk7
  rw [View.read_apply]
  show V c main_v6 (((cfg7.win 0).blk t).view.emb y) = V c main_v6 i
  refine congrArg _ (funext fun a => Fin.ext ?_)
  match a with
  | ⟨0, _⟩ => show win7_0.index t (0 : Fin 2) * 512 + 1 * (y 0).val = (i 0).val; omega
  | ⟨1, _⟩ => show win7_0.index t (1 : Fin 2) * 512 + 1 * (y 1).val = (i 1).val; omega

theorem blk7_1_apply (c : Dev nD) (t : Fin cfg7.N) (y : S1024x512.Idx) (i : S4096x512.Idx)
    (h0 : (i 0).val = t.val % 4 * 1024 + (y 0).val) (h1 : (i 1).val = (y 1).val) :
    (iblk7 (F := Ideal) V c 1 t : Vec Ideal S1024x512 .bf16) y = (V c main_v6 : S4096x512.Idx → EReal) i := by
  obtain ⟨-, -, e2, e3, -⟩ := idx_facts7 t
  unfold iblk7
  rw [View.read_apply]
  show V c main_v6 (((cfg7.win 1).blk t).view.emb y) = V c main_v6 i
  refine congrArg _ (funext fun a => Fin.ext ?_)
  match a with
  | ⟨0, _⟩ => show win7_1.index t (0 : Fin 2) * 1024 + 1 * (y 0).val = (i 0).val; omega
  | ⟨1, _⟩ => show win7_1.index t (1 : Fin 2) * 512 + 1 * (y 1).val = (i 1).val; omega

theorem flushed7_eq (c : Dev nD) (t : Fin cfg7.N) :
    (dat7 (F := Ideal) V c).flushed 2 t
      = ((cfg7.win 2).blk t).view.read (Elt Ideal) (valfn7 (V c main_v6) (V c main_v6)) := by
  show (cfg7.win 2).cut (grid7.coords t) ((dat7 V c).after 2 t) = _
  rw [after7_2]
  unfold out7_2
  rw [View.canon_unit_zero Spec.hz]
  simp only [View.ld_unit_zero (S := S512x512) Spec.hz, View.ld_unit_zero (S := S1024x512) Spec.hz]
  obtain ⟨-, -, -, -, e4, e5⟩ := idx_facts7 t
  funext j
  have hp : (j 0).val < 512 := (j 0).isLt
  have hq : (j 1).val < 1024 := (j 1).isLt
  have hj : (win7 2).xinj (grid7.coords t) j = ix2 (⟨(j 0).val, hp⟩ : Fin 512) (⟨(j 1).val, hq⟩ : Fin 1024) :=
    funext fun a => Fin.ext (by match a with | ⟨0, _⟩ => rfl | ⟨1, _⟩ => rfl)
  show k7_pay1 (iblk7 V c 0 t) (iblk7 V c 1 t) ((win7 2).xinj (grid7.coords t) j)
    = post7 (Spec.mmT (V c main_v6) (V c main_v6) (((cfg7.win 2).blk t).view.emb j))
  refine (congrArg (k7_pay1 (iblk7 V c 0 t) (iblk7 V c 1 t)) hj).trans ?_
  refine (pay7_apply (iblk7 V c 0 t) (iblk7 V c 1 t) _ _).trans (congrArg post7 ?_)
  unfold Spec.mmT
  refine Finset.sum_congr rfl fun k _ => ?_
  have r0 : ((((cfg7.win 2).blk t).view.emb j) 0).val = win7_2.index t (0 : Fin 2) * 512 + 1 * (j 0).val := rfl
  have r1 : ((((cfg7.win 2).blk t).view.emb j) 1).val = win7_2.index t (1 : Fin 2) * 1024 + 1 * (j 1).val := rfl
  have a0 := blk7_0_apply V c t (ix2 (⟨(j 0).val, hp⟩ : Fin 512) k) (ix2 ((((cfg7.win 2).blk t).view.emb j) 0) k)
    (by show ((((cfg7.win 2).blk t).view.emb j) 0).val = t.val / 4 * 512 + (j 0).val; omega) rfl
  have a1 := blk7_1_apply V c t (ix2 (⟨(j 1).val, hq⟩ : Fin 1024) k) (ix2 ((((cfg7.win 2).blk t).view.emb j) 1) k)
    (by show ((((cfg7.win 2).blk t).view.emb j) 1).val = t.val % 4 * 1024 + (j 1).val; omega) rfl
  exact congrArg₂ (· * ·) a0 a1

theorem mem_blk7 (t : Fin cfg7.N) (i : S4096x4096.Idx) :
    i ∈ ((cfg7.win 2).blk t).view.set ↔ ∀ a : Fin 2, win7_2.index t a * S512x1024.size a ≤ (i a).val
      ∧ (i a).val < win7_2.index t a * S512x1024.size a + S512x1024.size a := by
  show i ∈ ((View.whole main_v8).slice (win7_2.rect t)).set ↔ _
  rw [View.set_slice_whole, Rect.mem_set_unit]
  exact Iff.rfl

theorem cover7 (i : S4096x4096.Idx) :
    ∃ t : Fin cfg7.N, (cfg7.win 2).flush t = true ∧ i ∈ ((cfg7.win 2).blk t).view.set := by
  have h0 : (i 0).val < 4096 := (i 0).isLt
  have h1 : (i 1).val < 4096 := (i 1).isLt
  have hN := npts7
  refine ⟨⟨(i 0).val / 512 * 4 + (i 1).val / 1024, by omega⟩, flush7_2 _, ?_⟩
  rw [mem_blk7]
  obtain ⟨-, -, -, -, e4, e5⟩ := idx_facts7 ⟨(i 0).val / 512 * 4 + (i 1).val / 1024, by omega⟩
  intro a
  match a with
  | ⟨0, _⟩ =>
    show win7_2.index ⟨(i 0).val / 512 * 4 + (i 1).val / 1024, _⟩ (0 : Fin 2) * 512 ≤ (i 0).val
      ∧ (i 0).val < win7_2.index ⟨(i 0).val / 512 * 4 + (i 1).val / 1024, _⟩ (0 : Fin 2) * 512 + 512
    rw [e4]
    show ((i 0).val / 512 * 4 + (i 1).val / 1024) / 4 * 512 ≤ (i 0).val
      ∧ (i 0).val < ((i 0).val / 512 * 4 + (i 1).val / 1024) / 4 * 512 + 512
    omega
  | ⟨1, _⟩ =>
    show win7_2.index ⟨(i 0).val / 512 * 4 + (i 1).val / 1024, _⟩ (1 : Fin 2) * 1024 ≤ (i 1).val
      ∧ (i 1).val < win7_2.index ⟨(i 0).val / 512 * 4 + (i 1).val / 1024, _⟩ (1 : Fin 2) * 1024 + 1024
    rw [e5]
    show ((i 0).val / 512 * 4 + (i 1).val / 1024) % 4 * 1024 ≤ (i 1).val
      ∧ (i 1).val < ((i 0).val / 512 * 4 + (i 1).val / 1024) % 4 * 1024 + 1024
    omega

theorem val7 (c : Dev nD) :
    ((dat7 (F := Ideal) V c).arrAt 2 cfg7.N : S4096x4096.Idx → EReal)
      = fun j => post7 (Spec.mmT (V c main_v6) (V c main_v6) j) :=
  (dat7 V c).arrAt_eq_of_cover 2 (valfn7 (V c main_v6) (V c main_v6)) (fun t _ => flushed7_eq V c t) (cover7)

end Cert.KernelIdeal.Val

end
-- ==== Proof.KI.Compose.lean ====
import proofs.«121997_g2000006886080560_pallasbulk_379_4_alg».proof.Proof.KI.Run
import proofs.«121997_g2000006886080560_pallasbulk_379_4_alg».proof.Proof.Gen.KernelIdeal.Regions
import proofs.«121997_g2000006886080560_pallasbulk_379_4_alg».proof.Proof.Model
import proofs.«121997_g2000006886080560_pallasbulk_379_4_alg».proof.Proof.KI.Val0
import proofs.«121997_g2000006886080560_pallasbulk_379_4_alg».proof.Proof.KI.Val1
import proofs.«121997_g2000006886080560_pallasbulk_379_4_alg».proof.Proof.KI.Val2
import proofs.«121997_g2000006886080560_pallasbulk_379_4_alg».proof.Proof.KI.Val3
import proofs.«121997_g2000006886080560_pallasbulk_379_4_alg».proof.Proof.KI.Val4
import proofs.«121997_g2000006886080560_pallasbulk_379_4_alg».proof.Proof.KI.Val5
import proofs.«121997_g2000006886080560_pallasbulk_379_4_alg».proof.Proof.KI.Val6
import proofs.«121997_g2000006886080560_pallasbulk_379_4_alg».proof.Proof.KI.Val7
import Idealize.ShloMosaic.Lib.StableHlo.Run

noncomputable section

open scoped BigOperators

namespace Cert.KernelIdeal.Val

open Cert.KernelIdeal Cert.KernelIdeal.Gen Cert.KernelIdeal.Rg
open Idealize.ShloMosaic Idealize.ShloMosaic.TcCoe Idealize.ShloMosaic.ValueIdx Idealize.SL.Sem
open Idealize.ShloMosaic.Pipeline (Dat)

theorem mm_col_congr {M K N N' : Nat} (a : Spec.Mat M K) (b : Spec.Mat K N) (b' : Spec.Mat K N') (q : Fin N) (q' : Fin N')
    (h : ∀ k : Fin K, b (ix2 k q) = b' (ix2 k q')) (r : Fin M) :
    Spec.mm a b (ix2 r q) = Spec.mm a b' (ix2 r q') := by
  unfold Spec.mm
  exact Finset.sum_congr rfl fun k _ => congrArg (a (ix2 r k) * ·) (h k)

variable (m : (ℓ : Loc nD τ sig) → Buf (Elt Ideal) ℓ)

abbrev inX (c : Dev nD) : Spec.Mat 4096 128 := m ((c : Thread nD τ).loc main_arg0)
abbrev inA (c : Dev nD) : Spec.Mat 4096 4096 := m ((c : Thread nD τ).loc main_arg1)
abbrev inW4 (c : Dev nD) : Spec.Mat 128 256 := m ((c : Thread nD τ).loc main_arg2)
abbrev inW5 (c : Dev nD) : Spec.Mat 256 384 := m ((c : Thread nD τ).loc main_arg3)
abbrev inW6 (c : Dev nD) : Spec.Mat 384 512 := m ((c : Thread nD τ).loc main_arg4)

theorem carry0 (c : Dev nD) (b : Ref sig .tc) (hb : ∀ w, (cfg0.win w).isOut = true → Pipeline.arrRef spec0 w ≠ b) :
    rd (W1 m) c b = rd (W0 m) c b := Step.keep dat0 launch0.win.arr_inj A_eq0 (W0 m) c b hb
theorem carry1 (c : Dev nD) (b : Ref sig .tc) (hb : ∀ w, (cfg1.win w).isOut = true → Pipeline.arrRef spec1 w ≠ b) :
    rd (W2 m) c b = rd (W1 m) c b := Step.keep dat1 launch1.win.arr_inj A_eq1 (W1 m) c b hb
theorem carry2 (c : Dev nD) (b : Ref sig .tc) (hb : ∀ w, (cfg2.win w).isOut = true → Pipeline.arrRef spec2 w ≠ b) :
    rd (W3 m) c b = rd (W2 m) c b := Step.keep dat2 launch2.win.arr_inj A_eq2 (W2 m) c b hb
theorem carry3 (c : Dev nD) (b : Ref sig .tc) (hb : ∀ w, (cfg3.win w).isOut = true → Pipeline.arrRef spec3 w ≠ b) :
    rd (W4 m) c b = rd (W3 m) c b := Step.keep dat3 launch3.win.arr_inj A_eq3 (W3 m) c b hb
theorem carry4 (c : Dev nD) (b : Ref sig .tc) (hb : ∀ w, (cfg4.win w).isOut = true → Pipeline.arrRef spec4 w ≠ b) :
    rd (W5 m) c b = rd (W4 m) c b := Step.keep dat4 launch4.win.arr_inj A_eq4 (W4 m) c b hb
theorem carry5 (c : Dev nD) (b : Ref sig .tc) (hb : ∀ w, (cfg5.win w).isOut = true → Pipeline.arrRef spec5 w ≠ b) :
    rd (W6 m) c b = rd (W5 m) c b := Step.keep dat5 launch5.win.arr_inj A_eq5 (W5 m) c b hb

theorem carryH (c : Dev nD) (b : Ref sig .tc) (hb : b ∉ hostOps6_W) :
    rd (W7 m) c b = rd (W6 m) c b := StableHlo.after_of_writes_sub hostOps6 _ hostOps6_writes hb
theorem carry6 (c : Dev nD) (b : Ref sig .tc) (hb : ∀ w, (cfg6.win w).isOut = true → Pipeline.arrRef spec6 w ≠ b) :
    rd (W8 m) c b = rd (W7 m) c b := Step.keep dat6 launch6.win.arr_inj A_eq6 (W7 m) c b hb
theorem carry7 (c : Dev nD) (b : Ref sig .tc) (hb : b ≠ main_v8) :
    rd (W9 m) c b = rd (W8 m) c b := W9_rest m c b hb

theorem v0_at1 (c : Dev nD) : (rd (W1 m) c main_v0 : Spec.Mat 4096 256) = Spec.tmm (inX m c) (inW4 m c) :=
  ((Step.hF dat0 launch0.win.arr_inj (W0 m) c 2).symm.trans (val0 (rd (W0 m)) c)).trans rfl
theorem arg1_at1 (c : Dev nD) : (rd (W1 m) c main_arg1 : Spec.Mat 4096 4096) = inA m c := carry0 m c _ (by decide)
theorem arg3_at1 (c : Dev nD) : (rd (W1 m) c main_arg3 : Spec.Mat 256 384) = inW5 m c := carry0 m c _ (by decide)
theorem arg4_at1 (c : Dev nD) : (rd (W1 m) c main_arg4 : Spec.Mat 384 512) = inW6 m c := carry0 m c _ (by decide)

theorem v1_0_at2 (c : Dev nD) : (rd (W2 m) c main_v1_0 : Spec.Mat 4096 256) = Spec.z1 (inX m c) (inA m c) (inW4 m c) := by
  refine ((Step.hF dat1 launch1.win.arr_inj (W1 m) c 2).symm.trans (val1_2 (rd (W1 m)) c)).trans ?_
  show Spec.mm (rd (W1 m) c main_arg1) (rd (W1 m) c main_v0) = Spec.mm (inA m c) (Spec.tmm (inX m c) (inW4 m c))
  rw [arg1_at1, v0_at1]
theorem v1_1_at2 (c : Dev nD) : (rd (W2 m) c main_v1_1 : Spec.Mat 4096 4096) = inA m c :=
  ((Step.hF dat1 launch1.win.arr_inj (W1 m) c 3).symm.trans (val1_3 (rd (W1 m)) c)).trans (arg1_at1 m c)
theorem arg3_at2 (c : Dev nD) : (rd (W2 m) c main_arg3 : Spec.Mat 256 384) = inW5 m c := (carry1 m c _ (by decide)).trans (arg3_at1 m c)
theorem arg4_at2 (c : Dev nD) : (rd (W2 m) c main_arg4 : Spec.Mat 384 512) = inW6 m c := (carry1 m c _ (by decide)).trans (arg4_at1 m c)

theorem v2_left_at3 (c : Dev nD) (k : Fin 4096) (q : Fin 256) :
    (rd (W3 m) c main_v2 : Spec.Mat 4096 640) (ix2 k ⟨q.val, by omega⟩)
      = Spec.z1 (inX m c) (inA m c) (inW4 m c) (ix2 k q) :=
  (congrFun (Step.hF dat2 launch2.win.arr_inj (W2 m) c 2).symm _).trans ((val2_left (rd (W2 m)) c k q).trans (congrFun (v1_0_at2 m c) _))
theorem v2_right_at3 (c : Dev nD) (k : Fin 4096) (q : Fin 384) :
    (rd (W3 m) c main_v2 : Spec.Mat 4096 640) (ix2 k ⟨256 + q.val, by omega⟩)
      = Spec.tmm (Spec.z1 (inX m c) (inA m c) (inW4 m c)) (inW5 m c) (ix2 k q) := by
  refine (congrFun (Step.hF dat2 launch2.win.arr_inj (W2 m) c 2).symm _).trans ((val2_right (rd (W2 m)) c k q).trans ?_)
  show Ideal.tanh (Spec.mm (rd (W2 m) c main_v1_0) (rd (W2 m) c main_arg3) (ix2 k q))
    = Ideal.tanh (Spec.mm (Spec.z1 (inX m c) (inA m c) (inW4 m c)) (inW5 m c) (ix2 k q))
  rw [v1_0_at2, arg3_at2]
theorem v1_1_at3 (c : Dev nD) : (rd (W3 m) c main_v1_1 : Spec.Mat 4096 4096) = inA m c := (carry2 m c _ (by decide)).trans (v1_1_at2 m c)
theorem arg4_at3 (c : Dev nD) : (rd (W3 m) c main_arg4 : Spec.Mat 384 512) = inW6 m c := (carry2 m c _ (by decide)).trans (arg4_at2 m c)

theorem v3_0_at4 (c : Dev nD) :
    (rd (W4 m) c main_v3_0 : Spec.Mat 4096 256) = Spec.az1 (inX m c) (inA m c) (inW4 m c) := by
  funext j
  obtain ⟨r, q, rfl⟩ : ∃ (r : Fin 4096) (q : Fin 256), j = ix2 r q := ⟨j 0, j 1, eq_ix2 j⟩
  refine (congrFun (Step.hF dat3 launch3.win.arr_inj (W3 m) c 2).symm _).trans ((val3_2 (rd (W3 m)) c r q).trans ?_)
  show Spec.mm (rd (W3 m) c main_v1_1) (rd (W3 m) c main_v2) (ix2 r ⟨q.val, _⟩)
    = Spec.mm (inA m c) (Spec.z1 (inX m c) (inA m c) (inW4 m c)) (ix2 r q)
  rw [v1_1_at3]
  exact mm_col_congr _ _ _ _ _ (fun k => v2_left_at3 m c k q) r
theorem v3_1_at4 (c : Dev nD) :
    (rd (W4 m) c main_v3_1 : Spec.Mat 4096 384) = Spec.z2 (inX m c) (inA m c) (inW4 m c) (inW5 m c) := by
  funext j
  obtain ⟨r, q, rfl⟩ : ∃ (r : Fin 4096) (q : Fin 384), j = ix2 r q := ⟨j 0, j 1, eq_ix2 j⟩
  refine (congrFun (Step.hF dat3 launch3.win.arr_inj (W3 m) c 3).symm _).trans ((val3_3 (rd (W3 m)) c r q).trans ?_)
  show Spec.mm (rd (W3 m) c main_v1_1) (rd (W3 m) c main_v2) (ix2 r ⟨256 + q.val, _⟩)
    = Spec.mm (inA m c) (Spec.tmm (Spec.z1 (inX m c) (inA m c) (inW4 m c)) (inW5 m c)) (ix2 r q)
  rw [v1_1_at3]
  exact mm_col_congr _ _ _ _ _ (fun k => v2_right_at3 m c k q) r
theorem v1_1_at4 (c : Dev nD) : (rd (W4 m) c main_v1_1 : Spec.Mat 4096 4096) = inA m c := (carry3 m c _ (by decide)).trans (v1_1_at3 m c)
theorem arg4_at4 (c : Dev nD) : (rd (W4 m) c main_arg4 : Spec.Mat 384 512) = inW6 m c := (carry3 m c _ (by decide)).trans (arg4_at3 m c)

theorem v4_left_at5 (c : Dev nD) (k : Fin 4096) (q : Fin 384) :
    (rd (W5 m) c main_v4 : Spec.Mat 4096 896) (ix2 k ⟨q.val, by omega⟩)
      = Spec.z2 (inX m c) (inA m c) (inW4 m c) (inW5 m c) (ix2 k q) :=
  (congrFun (Step.hF dat4 launch4.win.arr_inj (W4 m) c 2).symm _).trans ((val4_left (rd (W4 m)) c k q).trans (congrFun (v3_1_at4 m c) _))
theorem v4_right_at5 (c : Dev nD) (k : Fin 4096) (q : Fin 512) :
    (rd (W5 m) c main_v4 : Spec.Mat 4096 896) (ix2 k ⟨384 + q.val, by omega⟩)
      = Spec.tmm (Spec.z2 (inX m c) (inA m c) (inW4 m c) (inW5 m c)) (inW6 m c) (ix2 k q) := by
  refine (congrFun (Step.hF dat4 launch4.win.arr_inj (W4 m) c 2).symm _).trans ((val4_right (rd (W4 m)) c k q).trans ?_)
  show Ideal.tanh (Spec.mm (rd (W4 m) c main_v3_1) (rd (W4 m) c main_arg4) (ix2 k q))
    = Ideal.tanh (Spec.mm (Spec.z2 (inX m c) (inA m c) (inW4 m c) (inW5 m c)) (inW6 m c) (ix2 k q))
  rw [v3_1_at4, arg4_at4]
theorem v1_1_at5 (c : Dev nD) : (rd (W5 m) c main_v1_1 : Spec.Mat 4096 4096) = inA m c := (carry4 m c _ (by decide)).trans (v1_1_at4 m c)

theorem v5_0_at6 (c : Dev nD) :
    (rd (W6 m) c main_v5_0 : Spec.Mat 4096 384) = Spec.az2 (inX m c) (inA m c) (inW4 m c) (inW5 m c) := by
  funext j
  obtain ⟨r, q, rfl⟩ : ∃ (r : Fin 4096) (q : Fin 384), j = ix2 r q := ⟨j 0, j 1, eq_ix2 j⟩
  refine (congrFun (Step.hF dat5 launch5.win.arr_inj (W5 m) c 2).symm _).trans ((val5_2 (rd (W5 m)) c r q).trans ?_)
  show Spec.mm (rd (W5 m) c main_v1_1) (rd (W5 m) c main_v4) (ix2 r ⟨q.val, _⟩)
    = Spec.mm (inA m c) (Spec.z2 (inX m c) (inA m c) (inW4 m c) (inW5 m c)) (ix2 r q)
  rw [v1_1_at5]
  exact mm_col_congr _ _ _ _ _ (fun k => v4_left_at5 m c k q) r
theorem v5_1_at6 (c : Dev nD) :
    (rd (W6 m) c main_v5_1 : Spec.Mat 4096 512) = Spec.z3 (inX m c) (inA m c) (inW4 m c) (inW5 m c) (inW6 m c) := by
  funext j
  obtain ⟨r, q, rfl⟩ : ∃ (r : Fin 4096) (q : Fin 512), j = ix2 r q := ⟨j 0, j 1, eq_ix2 j⟩
  refine (congrFun (Step.hF dat5 launch5.win.arr_inj (W5 m) c 3).symm _).trans ((val5_3 (rd (W5 m)) c r q).trans ?_)
  show Spec.mm (rd (W5 m) c main_v1_1) (rd (W5 m) c main_v4) (ix2 r ⟨384 + q.val, _⟩)
    = Spec.mm (inA m c) (Spec.tmm (Spec.z2 (inX m c) (inA m c) (inW4 m c) (inW5 m c)) (inW6 m c)) (ix2 r q)
  rw [v1_1_at5]
  exact mm_col_congr _ _ _ _ _ (fun k => v4_right_at5 m c k q) r
theorem v1_1_at6 (c : Dev nD) : (rd (W6 m) c main_v1_1 : Spec.Mat 4096 4096) = inA m c := (carry5 m c _ (by decide)).trans (v1_1_at5 m c)

theorem v6_at7 (c : Dev nD) :
    (rd (W7 m) c main_v6 : Spec.Mat 4096 512) = Spec.z3 (inX m c) (inA m c) (inW4 m c) (inW5 m c) (inW6 m c) := by
  refine Eq.trans ?_ (v5_1_at6 m c)
  show StableHlo.after hostOps6 (W6 m c) (Proc.devRef .tc main_v6) = _
  after_results
  rfl
theorem v1_1_at7 (c : Dev nD) : (rd (W7 m) c main_v1_1 : Spec.Mat 4096 4096) = inA m c := (carryH m c _ (by decide)).trans (v1_1_at6 m c)

theorem v7_at8 (c : Dev nD) :
    (rd (W8 m) c main_v7 : Spec.Mat 4096 512) = Spec.az3 (inX m c) (inA m c) (inW4 m c) (inW5 m c) (inW6 m c) := by
  refine ((Step.hF dat6 launch6.win.arr_inj (W7 m) c 2).symm.trans (val6 (rd (W7 m)) c)).trans ?_
  show Spec.mm (rd (W7 m) c main_v1_1) (rd (W7 m) c main_v6)
    = Spec.mm (inA m c) (Spec.z3 (inX m c) (inA m c) (inW4 m c) (inW5 m c) (inW6 m c))
  rw [v1_1_at7, v6_at7]
theorem v6_at8 (c : Dev nD) :
    (rd (W8 m) c main_v6 : Spec.Mat 4096 512) = Spec.z3 (inX m c) (inA m c) (inW4 m c) (inW5 m c) (inW6 m c) :=
  (carry6 m c _ (by decide)).trans (v6_at7 m c)

theorem v8_at9 (c : Dev nD) :
    (rd (W9 m) c main_v8 : Spec.Mat 4096 4096) = Spec.gram (inX m c) (inA m c) (inW4 m c) (inW5 m c) (inW6 m c) := by
  refine ((W9_out m c).trans (val7 (rd (W8 m)) c)).trans ?_
  show (fun j => Ideal.logistic (Spec.mmT (rd (W8 m) c main_v6) (rd (W8 m) c main_v6) j))
    = fun j => Ideal.logistic (Spec.mmT (Spec.z3 (inX m c) (inA m c) (inW4 m c) (inW5 m c) (inW6 m c))
        (Spec.z3 (inX m c) (inA m c) (inW4 m c) (inW5 m c) (inW6 m c)) j)
  rw [v6_at8]

theorem carry_from6 (c : Dev nD) (b : Ref sig .tc) (hH : b ∉ hostOps6_W)
    (h6 : ∀ w, (cfg6.win w).isOut = true → Pipeline.arrRef spec6 w ≠ b) (h7 : b ≠ main_v8) :
    rd (W9 m) c b = rd (W6 m) c b :=
  (carry7 m c b h7).trans ((carry6 m c b h6).trans (carryH m c b hH))
theorem carry_from4 (c : Dev nD) (b : Ref sig .tc)
    (h4 : ∀ w, (cfg4.win w).isOut = true → Pipeline.arrRef spec4 w ≠ b)
    (h5 : ∀ w, (cfg5.win w).isOut = true → Pipeline.arrRef spec5 w ≠ b) (hH : b ∉ hostOps6_W)
    (h6 : ∀ w, (cfg6.win w).isOut = true → Pipeline.arrRef spec6 w ≠ b) (h7 : b ≠ main_v8) :
    rd (W9 m) c b = rd (W4 m) c b :=
  (carry_from6 m c b hH h6 h7).trans ((carry5 m c b h5).trans (carry4 m c b h4))
theorem carry_from2 (c : Dev nD) (b : Ref sig .tc)
    (h2 : ∀ w, (cfg2.win w).isOut = true → Pipeline.arrRef spec2 w ≠ b)
    (h3 : ∀ w, (cfg3.win w).isOut = true → Pipeline.arrRef spec3 w ≠ b)
    (h4 : ∀ w, (cfg4.win w).isOut = true → Pipeline.arrRef spec4 w ≠ b)
    (h5 : ∀ w, (cfg5.win w).isOut = true → Pipeline.arrRef spec5 w ≠ b) (hH : b ∉ hostOps6_W)
    (h6 : ∀ w, (cfg6.win w).isOut = true → Pipeline.arrRef spec6 w ≠ b) (h7 : b ≠ main_v8) :
    rd (W9 m) c b = rd (W2 m) c b :=
  (carry_from4 m c b h4 h5 hH h6 h7).trans ((carry3 m c b h3).trans (carry2 m c b h2))

theorem results (c : Dev nD) :
    (rd (W9 m) c main_v5_1 : Spec.Mat 4096 512) = Spec.z3 (inX m c) (inA m c) (inW4 m c) (inW5 m c) (inW6 m c)
    ∧ (rd (W9 m) c main_v8 : Spec.Mat 4096 4096) = Spec.gram (inX m c) (inA m c) (inW4 m c) (inW5 m c) (inW6 m c)
    ∧ (rd (W9 m) c main_v3_0 : Spec.Mat 4096 256) = Spec.az1 (inX m c) (inA m c) (inW4 m c)
    ∧ (rd (W9 m) c main_v5_0 : Spec.Mat 4096 384) = Spec.az2 (inX m c) (inA m c) (inW4 m c) (inW5 m c)
    ∧ (rd (W9 m) c main_v7 : Spec.Mat 4096 512) = Spec.az3 (inX m c) (inA m c) (inW4 m c) (inW5 m c) (inW6 m c)
    ∧ (rd (W9 m) c main_v1_0 : Spec.Mat 4096 256) = Spec.z1 (inX m c) (inA m c) (inW4 m c)
    ∧ (rd (W9 m) c main_v3_1 : Spec.Mat 4096 384) = Spec.z2 (inX m c) (inA m c) (inW4 m c) (inW5 m c) :=
  ⟨(carry_from6 m c _ (by decide) (by decide) (by decide)).trans (v5_1_at6 m c),
   v8_at9 m c,
   (carry_from4 m c _ (by decide) (by decide) (by decide) (by decide) (by decide)).trans (v3_0_at4 m c),
   (carry_from6 m c _ (by decide) (by decide) (by decide)).trans (v5_0_at6 m c),
   (carry7 m c _ (by decide)).trans (v7_at8 m c),
   (carry_from2 m c _ (by decide) (by decide) (by decide) (by decide) (by decide) (by decide) (by decide)).trans (v1_0_at2 m c),
   (carry_from4 m c _ (by decide) (by decide) (by decide) (by decide) (by decide)).trans (v3_1_at4 m c)⟩

end Cert.KernelIdeal.Val

end
-- ==== Proof.RI.Val0.lean ====
import proofs.«121997_g2000006886080560_pallasbulk_379_4_alg».proof.Proof.RI.R0
import proofs.«121997_g2000006886080560_pallasbulk_379_4_alg».proof.Proof.Spec
import Idealize.ShloMosaic.Lib.Pipeline.Value
import Idealize.ShloMosaic.PureOps.Ideal.Laws
import Idealize.ShloMosaic.Lib.ValueIdx
import Idealize.ShloMosaic.Lib.StackMember

noncomputable section

open scoped BigOperators

namespace Cert.ReferenceIdeal.Val

open Cert.ReferenceIdeal Cert.ReferenceIdeal.Gen Cert.ReferenceIdeal.Rg
open Idealize.ShloMosaic Idealize.ShloMosaic.TcCoe Idealize.ShloMosaic.ValueIdx Idealize.SL.Sem
open Idealize.ShloMosaic.Pipeline (Dat)

theorem matmul0_apply (a : FVec Ideal S256x128 .f32) (b : FVec Ideal S128x256 .f32) (p : Fin 256) (q : Fin 256) :
    matmul dot_S256x128_S128x256_S256x256_1_0_0_1_n_n none a b (constant (F := Ideal) S256x256 .f32 0x00000000#32) (ix2 p q)
      = ∑ k : Fin 128, a (ix2 p k) * b (ix2 k q) :=
  (congrFun (matmul_zero_eq_dotGeneral _ none a b) _).trans (StackMember.dotGeneral_plain_apply none a b p q)

abbrev post0 (x : EReal) : EReal := Ideal.tanh x

def valfn0 (a : Spec.Mat 4096 128) (b : Spec.Mat 128 256) : Spec.Mat 4096 256 := fun j => post0 (Spec.mm a b j)

theorem pay0_apply (x0 : Vec Ideal S256x128 .f32) (x1 : Vec Ideal S128x256 .f32) (p : Fin 256) (q : Fin 256) :
    k0_pay1 x0 x1 (ix2 p q) = post0 (∑ k : Fin 128, x0 (ix2 p k) * x1 (ix2 k q)) := by
  simp only [k0_pay1, shapeCast_self]
  exact congrArg post0 (matmul0_apply x0 x1 p q)

theorem pay0_spec (x0 : Vec Ideal S256x128 .f32) (x1 : Vec Ideal S128x256 .f32) (a : Spec.Mat 4096 128) (b : Spec.Mat 128 256)
    (p : Fin 256) (q : Fin 256) (r : Fin 4096) (s : Fin 256)
    (hx : ∀ k : Fin 128, x0 (ix2 p k) = a (ix2 r k)) (hw : ∀ k : Fin 128, x1 (ix2 k q) = b (ix2 k s)) :
    k0_pay1 x0 x1 (ix2 p q) = valfn0 a b (ix2 r s) := by
  rw [pay0_apply]
  show post0 _ = post0 (Spec.mm a b (ix2 r s))
  rw [Spec.mm_ix2]
  exact congrArg post0 (Finset.sum_congr rfl fun k _ => by rw [hx k, hw k])

variable (V : (c : Dev nD) → (b : Ref sig .tc) → Buf (Elt Ideal) ((c : Thread nD τ).loc b))

theorem npts0 : cfg0.N = 16 := by decide

theorem idx_facts0 : ∀ t : Fin cfg0.N, win0_0.index t (0 : Fin 2) = t.val / 1 ∧ win0_0.index t (1 : Fin 2) = 0
    ∧ win0_1.index t (0 : Fin 2) = 0 ∧ win0_1.index t (1 : Fin 2) = t.val % 1
    ∧ win0_2.index t (0 : Fin 2) = t.val / 1 ∧ win0_2.index t (1 : Fin 2) = t.val % 1 :=
  (by decide +kernel : ∀ t : Fin grid0.N, _)

theorem blk0_0_apply (c : Dev nD) (t : Fin cfg0.N) (p : Fin 256) (k : Fin 128) (r : Fin 4096)
    (hr : r.val = t.val / 1 * 256 + p.val) :
    (iblk0 (F := Ideal) V c 0 t : Vec Ideal S256x128 .f32) (ix2 p k) = (V c main_arg0 : Spec.Mat 4096 128) (ix2 r k) := by
  obtain ⟨e0, e1, -⟩ := idx_facts0 t
  unfold iblk0
  rw [View.read_apply]
  show V c main_arg0 (((cfg0.win 0).blk t).view.emb (ix2 p k)) = V c main_arg0 (ix2 r k)
  refine congrArg _ (funext fun a => Fin.ext ?_)
  match a with
  | ⟨0, _⟩ => show win0_0.index t (0 : Fin 2) * 256 + 1 * p.val = r.val; omega
  | ⟨1, _⟩ => show win0_0.index t (1 : Fin 2) * 128 + 1 * k.val = k.val; omega

theorem blk0_1_apply (c : Dev nD) (t : Fin cfg0.N) (k : Fin 128) (q : Fin 256) (s : Fin 256)
    (hs : s.val = t.val % 1 * 256 + q.val) :
    (iblk0 (F := Ideal) V c 1 t : Vec Ideal S128x256 .f32) (ix2 k q) = (V c main_arg2 : Spec.Mat 128 256) (ix2 k s) := by
  obtain ⟨-, -, e2, e3, -⟩ := idx_facts0 t
  unfold iblk0
  rw [View.read_apply]
  show V c main_arg2 (((cfg0.win 1).blk t).view.emb (ix2 k q)) = V c main_arg2 (ix2 k s)
  refine congrArg _ (funext fun a => Fin.ext ?_)
  match a with
  | ⟨0, _⟩ => show win0_1.index t (0 : Fin 2) * 128 + 1 * k.val = k.val; omega
  | ⟨1, _⟩ => show win0_1.index t (1 : Fin 2) * 256 + 1 * q.val = s.val; omega

theorem flushed0_eq (c : Dev nD) (t : Fin cfg0.N) :
    (dat0 (F := Ideal) V c).flushed 2 t
      = ((cfg0.win 2).blk t).view.read (Elt Ideal) (valfn0 (V c main_arg0) (V c main_arg2)) := by
  show (cfg0.win 2).cut (grid0.coords t) ((dat0 V c).after 2 t) = _
  rw [after0_2]
  unfold out0_2
  rw [View.canon_unit_zero Spec.hz]
  simp only [View.ld_unit_zero (S := S256x128) Spec.hz, View.ld_unit_zero (S := S128x256) Spec.hz]
  obtain ⟨-, -, -, -, e4, e5⟩ := idx_facts0 t
  have hN := npts0
  have ht : t.val < 16 := hN ▸ t.isLt
  funext j
  have hp : (j 0).val < 256 := (j 0).isLt
  have hq : (j 1).val < 256 := (j 1).isLt
  have r0 : ((((cfg0.win 2).blk t).view.emb j) 0).val = win0_2.index t (0 : Fin 2) * 256 + 1 * (j 0).val := rfl
  have r1 : ((((cfg0.win 2).blk t).view.emb j) 1).val = win0_2.index t (1 : Fin 2) * 256 + 1 * (j 1).val := rfl
  have hj : (win0 2).xinj (grid0.coords t) j = ix2 (⟨(j 0).val, hp⟩ : Fin 256) (⟨(j 1).val, hq⟩ : Fin 256) :=
    funext fun a => Fin.ext (by match a with | ⟨0, _⟩ => rfl | ⟨1, _⟩ => rfl)
  have hi : ((cfg0.win 2).blk t).view.emb j
      = ix2 (⟨t.val / 1 * 256 + (j 0).val, by omega⟩ : Fin 4096) (⟨t.val % 1 * 256 + (j 1).val, by omega⟩ : Fin 256) :=
    funext fun a => Fin.ext (by
      match a with
      | ⟨0, _⟩ => show ((((cfg0.win 2).blk t).view.emb j) 0).val = t.val / 1 * 256 + (j 0).val; omega
      | ⟨1, _⟩ => show ((((cfg0.win 2).blk t).view.emb j) 1).val = t.val % 1 * 256 + (j 1).val; omega)
  show k0_pay1 (iblk0 V c 0 t) (iblk0 V c 1 t) ((win0 2).xinj (grid0.coords t) j)
    = valfn0 (V c main_arg0) (V c main_arg2) (((cfg0.win 2).blk t).view.emb j)
  refine (congrArg (k0_pay1 (iblk0 V c 0 t) (iblk0 V c 1 t)) hj).trans ?_
  refine Eq.trans ?_ (congrArg (valfn0 (V c main_arg0) (V c main_arg2)) hi.symm)
  exact pay0_spec (iblk0 V c 0 t) (iblk0 V c 1 t) (V c main_arg0) (V c main_arg2) _ _ _ _
    (fun k => blk0_0_apply V c t _ k _ rfl) (fun k => blk0_1_apply V c t k _ _ rfl)

theorem mem_blk0 (t : Fin cfg0.N) (i : S4096x256.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v0).slice (win0_2.rect t)).set ↔ _
  rw [View.set_slice_whole, Rect.mem_set_unit]
  exact Iff.rfl

theorem cover0 (i : S4096x256.Idx) :
    ∃ t : Fin cfg0.N, (cfg0.win 2).flush t = true ∧ i ∈ ((cfg0.win 2).blk t).view.set := by
  have h0 : (i 0).val < 4096 := (i 0).isLt
  have h1 : (i 1).val < 256 := (i 1).isLt
  have hN := npts0
  refine ⟨⟨(i 0).val / 256 * 1 + (i 1).val / 256, by omega⟩, flush0_2 _, ?_⟩
  rw [mem_blk0]
  obtain ⟨-, -, -, -, e4, e5⟩ := idx_facts0 ⟨(i 0).val / 256 * 1 + (i 1).val / 256, by omega⟩
  intro a
  match a with
  | ⟨0, _⟩ =>
    show win0_2.index ⟨(i 0).val / 256 * 1 + (i 1).val / 256, _⟩ (0 : Fin 2) * 256 ≤ (i 0).val
      ∧ (i 0).val < win0_2.index ⟨(i 0).val / 256 * 1 + (i 1).val / 256, _⟩ (0 : Fin 2) * 256 + 256
    rw [e4]; show ((i 0).val / 256 * 1 + (i 1).val / 256) / 1 * 256 ≤ (i 0).val
      ∧ (i 0).val < ((i 0).val / 256 * 1 + (i 1).val / 256) / 1 * 256 + 256
    omega
  | ⟨1, _⟩ =>
    show win0_2.index ⟨(i 0).val / 256 * 1 + (i 1).val / 256, _⟩ (1 : Fin 2) * 256 ≤ (i 1).val
      ∧ (i 1).val < win0_2.index ⟨(i 0).val / 256 * 1 + (i 1).val / 256, _⟩ (1 : Fin 2) * 256 + 256
    rw [e5]; show ((i 0).val / 256 * 1 + (i 1).val / 256) % 1 * 256 ≤ (i 1).val
      ∧ (i 1).val < ((i 0).val / 256 * 1 + (i 1).val / 256) % 1 * 256 + 256
    omega

theorem val0 (c : Dev nD) :
    ((dat0 (F := Ideal) V c).arrAt 2 cfg0.N : S4096x256.Idx → EReal)
      = fun j => post0 (Spec.mm (V c main_arg0) (V c main_arg2) j) :=
  (dat0 V c).arrAt_eq_of_cover 2 (valfn0 (V c main_arg0) (V c main_arg2)) (fun t _ => flushed0_eq V c t) cover0

end Cert.ReferenceIdeal.Val

end
-- ==== Proof.RI.Val1.lean ====
import proofs.«121997_g2000006886080560_pallasbulk_379_4_alg».proof.Proof.RI.R1
import proofs.«121997_g2000006886080560_pallasbulk_379_4_alg».proof.Proof.Spec
import Idealize.ShloMosaic.Lib.Pipeline.Value
import Idealize.ShloMosaic.PureOps.Ideal.Laws
import Idealize.ShloMosaic.Lib.ValueIdx
import Idealize.ShloMosaic.Lib.StackMember

noncomputable section

open scoped BigOperators

namespace Cert.ReferenceIdeal.Val

open Cert.ReferenceIdeal Cert.ReferenceIdeal.Gen Cert.ReferenceIdeal.Rg
open Idealize.ShloMosaic Idealize.ShloMosaic.TcCoe Idealize.ShloMosaic.ValueIdx Idealize.SL.Sem
open Idealize.ShloMosaic.Pipeline (Dat)

theorem matmul1_apply (a : FVec Ideal S256x512 .f32) (b : FVec Ideal S512x256 .f32) (p : Fin 256) (q : Fin 256) :
    matmul dot_S256x512_S512x256_S256x256_1_0_0_1_n_n none a b (constant (F := Ideal) S256x256 .f32 0x00000000#32) (ix2 p q)
      = ∑ k : Fin 512, a (ix2 p k) * b (ix2 k q) :=
  (congrFun (matmul_zero_eq_dotGeneral _ none a b) _).trans (StackMember.dotGeneral_plain_apply none a b p q)

theorem pay1a_apply (p : Fin 256) (q : Fin 256) : (k1_pay1 (F := Ideal) (ix2 p q) : EReal) = 0 := by
  simp only [k1_pay1, shapeCast_self]
  exact Ideal.ofBits_zero_f32

theorem pay1b_apply (v3 : Vec Ideal S256x256 .f32) (v4 : Vec Ideal S256x512 .f32) (v5 : Vec Ideal S512x256 .f32)
    (p : Fin 256) (q : Fin 256) :
    (k1_pay2 v3 v4 v5 (ix2 p q) : EReal) = v3 (ix2 p q) + ∑ k : Fin 512, v4 (ix2 p k) * v5 (ix2 k q) := by
  simp only [k1_pay2, shapeCast_self]
  exact congrArg (v3 (ix2 p q) + ·) (matmul1_apply v4 v5 p q)

variable (V : (c : Dev nD) → (b : Ref sig .tc) → Buf (Elt Ideal) ((c : Thread nD τ).loc b))

theorem npts1 : cfg1.N = 128 := by decide

theorem idx_facts1 : ∀ t : Fin cfg1.N, win1_0.index t (0 : Fin 2) = t.val / 8 / 1 ∧ win1_0.index t (1 : Fin 2) = t.val % 8
    ∧ win1_1.index t (0 : Fin 2) = t.val % 8 ∧ win1_1.index t (1 : Fin 2) = t.val / 8 % 1
    ∧ win1_2.index t (0 : Fin 2) = t.val / 8 / 1 ∧ win1_2.index t (1 : Fin 2) = t.val / 8 % 1 :=
  (by decide +kernel : ∀ t : Fin grid1.N, _)

abbrev adj1 (c : Dev nD) : Spec.Mat 4096 4096 := V c main_arg1

abbrev sup1 (c : Dev nD) : Spec.Mat 4096 256 := V c main_v0

def term1 (c : Dev nD) (r : Fin 4096) (s : Fin 256) : Fin 4096 → EReal :=
  fun k => adj1 V c (ix2 r k) * sup1 V c (ix2 k s)

theorem blk1_0_apply (c : Dev nD) (t : Fin cfg1.N) (p : Fin 256) (kk : Fin 512) (r : Fin 4096) (k : Fin 4096)
    (hr : r.val = t.val / 8 / 1 * 256 + p.val) (hk : k.val = t.val % 8 * 512 + kk.val) :
    (iblk1 (F := Ideal) V c 0 t : Vec Ideal S256x512 .f32) (ix2 p kk) = adj1 V c (ix2 r k) := by
  obtain ⟨e0, e1, -⟩ := idx_facts1 t
  unfold iblk1
  rw [View.read_apply]
  show V c main_arg1 (((cfg1.win 0).blk t).view.emb (ix2 p kk)) = V c main_arg1 (ix2 r k)
  refine congrArg _ (funext fun a => Fin.ext ?_)
  match a with
  | ⟨0, _⟩ => show win1_0.index t (0 : Fin 2) * 256 + 1 * p.val = r.val; omega
  | ⟨1, _⟩ => show win1_0.index t (1 : Fin 2) * 512 + 1 * kk.val = k.val; omega

theorem blk1_1_apply (c : Dev nD) (t : Fin cfg1.N) (kk : Fin 512) (q : Fin 256) (k : Fin 4096) (s : Fin 256)
    (hk : k.val = t.val % 8 * 512 + kk.val) (hs : s.val = t.val / 8 % 1 * 256 + q.val) :
    (iblk1 (F := Ideal) V c 1 t : Vec Ideal S512x256 .f32) (ix2 kk q) = sup1 V c (ix2 k s) := by
  obtain ⟨-, -, e2, e3, -⟩ := idx_facts1 t
  unfold iblk1
  rw [View.read_apply]
  show V c main_v0 (((cfg1.win 1).blk t).view.emb (ix2 kk q)) = V c main_v0 (ix2 k s)
  refine congrArg _ (funext fun a => Fin.ext ?_)
  match a with
  | ⟨0, _⟩ => show win1_1.index t (0 : Fin 2) * 512 + 1 * kk.val = k.val; omega
  | ⟨1, _⟩ => show win1_1.index t (1 : Fin 2) * 256 + 1 * q.val = s.val; omega

theorem upd1_spec (v3 : Vec Ideal S256x256 .f32) (x0 : Vec Ideal S256x512 .f32) (x1 : Vec Ideal S512x256 .f32)
    (A : Spec.Mat 4096 4096) (B : Spec.Mat 4096 256) (p : Fin 256) (q : Fin 256) (r : Fin 4096) (s : Fin 256)
    (kb : ℕ) (hkb : kb < 8) (acc : EReal) (hacc : v3 (ix2 p q) = acc)
    (hx : ∀ kk : Fin 512, x0 (ix2 p kk) = A (ix2 r ⟨kb * 512 + kk.val, Spec.blk8_lt ⟨kb, hkb⟩ kk⟩))
    (hw : ∀ kk : Fin 512, x1 (ix2 kk q) = B (ix2 ⟨kb * 512 + kk.val, Spec.blk8_lt ⟨kb, hkb⟩ kk⟩ s)) :
    (k1_pay2 v3 x0 x1 (ix2 p q) : EReal) = acc + Spec.blockSum (fun k => A (ix2 r k) * B (ix2 k s)) kb := by
  refine (pay1b_apply v3 x0 x1 p q).trans ?_
  refine congrArg₂ (· + ·) hacc ?_
  refine Eq.trans ?_ (Spec.blockSum_fin (fun k => A (ix2 r k) * B (ix2 k s)) ⟨kb, hkb⟩).symm
  exact Finset.sum_congr rfl fun kk _ => congrArg₂ (· * ·) (hx kk) (hw kk)

theorem acc1_eq (c : Dev nD) : ∀ (n : ℕ) (hn : n < cfg1.N) (p : Fin 256) (q : Fin 256) (r : Fin 4096) (s : Fin 256),
    r.val = n / 8 / 1 * 256 + p.val → s.val = n / 8 % 1 * 256 + q.val →
    (accAt1 (F := Ideal) V c n hn : Vec Ideal S256x256 .f32) (ix2 p q)
      = Spec.accN (Spec.blockSum (term1 V c r s)) (n % 8) := by
  have first : ∀ (t : Fin cfg1.N), t.val % 8 = 0 → ∀ (p : Fin 256) (q : Fin 256) (r : Fin 4096) (s : Fin 256),
      r.val = t.val / 8 / 1 * 256 + p.val → s.val = t.val / 8 % 1 * 256 + q.val →
      (accAt1 (F := Ideal) V c t.val t.isLt : Vec Ideal S256x256 .f32) (ix2 p q)
        = Spec.accN (Spec.blockSum (term1 V c r s)) (t.val % 8) := by
    intro t h0 p q r s hr hs
    have h8 : t.val % 8 < 8 := Nat.mod_lt _ (by decide)
    refine (congrFun (accAt1_first V c t h0) (ix2 p q)).trans ?_
    refine (upd1_spec (k1_pay1 (F := Ideal)) (iblk1 V c 0 t) (iblk1 V c 1 t) (adj1 V c) (sup1 V c) p q r s (t.val % 8) h8 0
      (pay1a_apply p q) (fun kk => blk1_0_apply V c t p kk r _ hr rfl) (fun kk => blk1_1_apply V c t kk q _ s rfl hs)).trans ?_
    exact Spec.accN_first (Spec.blockSum (term1 V c r s)) (t.val % 8) h0
  intro n
  induction n with
  | zero => intro hn p q r s hr hs; exact first ⟨0, hn⟩ rfl p q r s hr hs
  | succ n ih =>
    intro hn p q r s hr hs
    by_cases h0 : (n + 1) % 8 = 0
    · exact first ⟨n + 1, hn⟩ h0 p q r s hr hs
    · have h8 : (n + 1) % 8 < 8 := Nat.mod_lt _ (by decide)
      have hm : (n + 1) % 8 = n % 8 + 1 := by omega
      have e := ih (Nat.lt_of_succ_lt hn) p q r s (by omega) (by omega)
      refine (congrFun (accAt1_step V c ⟨n + 1, hn⟩ h0) (ix2 p q)).trans ?_
      refine (upd1_spec _ (iblk1 V c 0 ⟨n + 1, hn⟩) (iblk1 V c 1 ⟨n + 1, hn⟩) (adj1 V c) (sup1 V c) p q r s ((n + 1) % 8) h8
        (Spec.accN (Spec.blockSum (term1 V c r s)) (n % 8)) e
        (fun kk => blk1_0_apply V c ⟨n + 1, hn⟩ p kk r _ hr rfl) (fun kk => blk1_1_apply V c ⟨n + 1, hn⟩ kk q _ s rfl hs)).trans ?_
      exact Spec.accN_step (Spec.blockSum (term1 V c r s)) ((n + 1) % 8) (n % 8) hm

theorem flushed1_eq (c : Dev nD) (t : Fin cfg1.N) (h7 : t.val % 8 = 7) :
    (dat1 (F := Ideal) V c).flushed 2 t
      = ((cfg1.win 2).blk t).view.read (Elt Ideal) (Spec.mm (adj1 V c) (sup1 V c)) := by
  show (cfg1.win 2).cut (grid1.coords t) ((dat1 V c).after 2 t) = _
  rw [after1_2]
  obtain ⟨-, -, -, -, e4, e5⟩ := idx_facts1 t
  have hN := npts1
  have ht : t.val < 128 := hN ▸ t.isLt
  funext j
  have hp : (j 0).val < 256 := (j 0).isLt
  have hq : (j 1).val < 256 := (j 1).isLt
  have r0 : ((((cfg1.win 2).blk t).view.emb j) 0).val = win1_2.index t (0 : Fin 2) * 256 + 1 * (j 0).val := rfl
  have r1 : ((((cfg1.win 2).blk t).view.emb j) 1).val = win1_2.index t (1 : Fin 2) * 256 + 1 * (j 1).val := rfl
  have hj : (win1 2).xinj (grid1.coords t) j = ix2 (⟨(j 0).val, hp⟩ : Fin 256) (⟨(j 1).val, hq⟩ : Fin 256) :=
    funext fun a => Fin.ext (by match a with | ⟨0, _⟩ => rfl | ⟨1, _⟩ => rfl)
  have hr : t.val / 8 / 1 * 256 + (j 0).val < 4096 := by omega
  have hs : t.val / 8 % 1 * 256 + (j 1).val < 256 := by omega
  have hi : ((cfg1.win 2).blk t).view.emb j
      = ix2 (⟨t.val / 8 / 1 * 256 + (j 0).val, hr⟩ : Fin 4096) (⟨t.val / 8 % 1 * 256 + (j 1).val, hs⟩ : Fin 256) :=
    funext fun a => Fin.ext (by
      match a with
      | ⟨0, _⟩ => show ((((cfg1.win 2).blk t).view.emb j) 0).val = t.val / 8 / 1 * 256 + (j 0).val; omega
      | ⟨1, _⟩ => show ((((cfg1.win 2).blk t).view.emb j) 1).val = t.val / 8 % 1 * 256 + (j 1).val; omega)
  show (accAt1 (F := Ideal) V c t.val t.isLt : Vec Ideal S256x256 .f32) ((win1 2).xinj (grid1.coords t) j)
    = Spec.mm (adj1 V c) (sup1 V c) (((cfg1.win 2).blk t).view.emb j)
  refine (congrArg (accAt1 (F := Ideal) V c t.val t.isLt : Vec Ideal S256x256 .f32) hj).trans ?_
  refine Eq.trans ?_ (congrArg (Spec.mm (adj1 V c) (sup1 V c)) hi.symm)
  refine (acc1_eq V c t.val t.isLt ⟨(j 0).val, hp⟩ ⟨(j 1).val, hq⟩ ⟨t.val / 8 / 1 * 256 + (j 0).val, hr⟩
    ⟨t.val / 8 % 1 * 256 + (j 1).val, hs⟩ rfl rfl).trans ?_
  rw [h7]
  exact (Spec.sum_4096_eq_accN_blockSum (term1 V c ⟨t.val / 8 / 1 * 256 + (j 0).val, hr⟩ ⟨t.val / 8 % 1 * 256 + (j 1).val, hs⟩)).symm

theorem mem_blk1 (t : Fin cfg1.N) (i : S4096x256.Idx) :
    i ∈ ((cfg1.win 2).blk t).view.set ↔ ∀ a : Fin 2, win1_2.index t a * S256x256.size a ≤ (i a).val
      ∧ (i a).val < win1_2.index t a * S256x256.size a + S256x256.size a := by
  show i ∈ ((View.whole main_v1).slice (win1_2.rect t)).set ↔ _
  rw [View.set_slice_whole, Rect.mem_set_unit]
  exact Iff.rfl

theorem cover1 (i : S4096x256.Idx) :
    ∃ t : Fin cfg1.N, (cfg1.win 2).flush t = true ∧ i ∈ ((cfg1.win 2).blk t).view.set := by
  have h0 : (i 0).val < 4096 := (i 0).isLt
  have h1 : (i 1).val < 256 := (i 1).isLt
  have hN := npts1
  refine ⟨⟨((i 0).val / 256 * 1 + (i 1).val / 256) * 8 + 7, by omega⟩, (flush1_2 _).mpr (by show (((i 0).val / 256 * 1 + (i 1).val / 256) * 8 + 7) % 8 = 7; omega), ?_⟩
  rw [mem_blk1]
  obtain ⟨-, -, -, -, e4, e5⟩ := idx_facts1 ⟨((i 0).val / 256 * 1 + (i 1).val / 256) * 8 + 7, by omega⟩
  intro a
  match a with
  | ⟨0, _⟩ =>
    show win1_2.index ⟨((i 0).val / 256 * 1 + (i 1).val / 256) * 8 + 7, _⟩ (0 : Fin 2) * 256 ≤ (i 0).val
      ∧ (i 0).val < win1_2.index ⟨((i 0).val / 256 * 1 + (i 1).val / 256) * 8 + 7, _⟩ (0 : Fin 2) * 256 + 256
    rw [e4]; show (((i 0).val / 256 * 1 + (i 1).val / 256) * 8 + 7) / 8 / 1 * 256 ≤ (i 0).val
      ∧ (i 0).val < (((i 0).val / 256 * 1 + (i 1).val / 256) * 8 + 7) / 8 / 1 * 256 + 256
    omega
  | ⟨1, _⟩ =>
    show win1_2.index ⟨((i 0).val / 256 * 1 + (i 1).val / 256) * 8 + 7, _⟩ (1 : Fin 2) * 256 ≤ (i 1).val
      ∧ (i 1).val < win1_2.index ⟨((i 0).val / 256 * 1 + (i 1).val / 256) * 8 + 7, _⟩ (1 : Fin 2) * 256 + 256
    rw [e5]; show (((i 0).val / 256 * 1 + (i 1).val / 256) * 8 + 7) / 8 % 1 * 256 ≤ (i 1).val
      ∧ (i 1).val < (((i 0).val / 256 * 1 + (i 1).val / 256) * 8 + 7) / 8 % 1 * 256 + 256
    omega

theorem val1 (c : Dev nD) :
    ((dat1 (F := Ideal) V c).arrAt 2 cfg1.N : S4096x256.Idx → EReal) = Spec.mm (adj1 V c) (sup1 V c) :=
  (dat1 V c).arrAt_eq_of_cover 2 (Spec.mm (adj1 V c) (sup1 V c))
    (fun t hf => flushed1_eq V c t ((flush1_2 t).mp hf)) (cover1)

end Cert.ReferenceIdeal.Val

end
-- ==== Proof.RI.Val2.lean ====
import proofs.«121997_g2000006886080560_pallasbulk_379_4_alg».proof.Proof.RI.R2
import proofs.«121997_g2000006886080560_pallasbulk_379_4_alg».proof.Proof.RI.Val1

noncomputable section

open scoped BigOperators

namespace Cert.ReferenceIdeal.Val

open Cert.ReferenceIdeal Cert.ReferenceIdeal.Gen Cert.ReferenceIdeal.Rg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem npts2 : cfg2.N = 128 := by decide

theorem idx_facts2 : ∀ t : Fin cfg2.N, win2_0.index t (0 : Fin 2) = t.val / 8 / 1 ∧ win2_0.index t (1 : Fin 2) = t.val % 8
    ∧ win2_1.index t (0 : Fin 2) = t.val % 8 ∧ win2_1.index t (1 : Fin 2) = t.val / 8 % 1
    ∧ win2_2.index t (0 : Fin 2) = t.val / 8 / 1 ∧ win2_2.index t (1 : Fin 2) = t.val / 8 % 1 :=
  (by decide +kernel : ∀ t : Fin grid2.N, _)

abbrev adj2 (c : Dev nD) : Spec.Mat 4096 4096 := V c main_arg1

abbrev sup2 (c : Dev nD) : Spec.Mat 4096 256 := V c main_v1

def term2 (c : Dev nD) (r : Fin 4096) (s : Fin 256) : Fin 4096 → EReal :=
  fun k => adj2 V c (ix2 r k) * sup2 V c (ix2 k s)

theorem blk2_0_apply (c : Dev nD) (t : Fin cfg2.N) (p : Fin 256) (kk : Fin 512) (r : Fin 4096) (k : Fin 4096)
    (hr : r.val = t.val / 8 / 1 * 256 + p.val) (hk : k.val = t.val % 8 * 512 + kk.val) :
    (iblk2 (F := Ideal) V c 0 t : Vec Ideal S256x512 .f32) (ix2 p kk) = adj2 V c (ix2 r k) := by
  obtain ⟨e0, e1, -⟩ := idx_facts2 t
  unfold iblk2
  rw [View.read_apply]
  show V c main_arg1 (((cfg2.win 0).blk t).view.emb (ix2 p kk)) = V c main_arg1 (ix2 r k)
  refine congrArg _ (funext fun a => Fin.ext ?_)
  match a with
  | ⟨0, _⟩ => show win2_0.index t (0 : Fin 2) * 256 + 1 * p.val = r.val; omega
  | ⟨1, _⟩ => show win2_0.index t (1 : Fin 2) * 512 + 1 * kk.val = k.val; omega

theorem blk2_1_apply (c : Dev nD) (t : Fin cfg2.N) (kk : Fin 512) (q : Fin 256) (k : Fin 4096) (s : Fin 256)
    (hk : k.val = t.val % 8 * 512 + kk.val) (hs : s.val = t.val / 8 % 1 * 256 + q.val) :
    (iblk2 (F := Ideal) V c 1 t : Vec Ideal S512x256 .f32) (ix2 kk q) = sup2 V c (ix2 k s) := by
  obtain ⟨-, -, e2, e3, -⟩ := idx_facts2 t
  unfold iblk2
  rw [View.read_apply]
  show V c main_v1 (((cfg2.win 1).blk t).view.emb (ix2 kk q)) = V c main_v1 (ix2 k s)
  refine congrArg _ (funext fun a => Fin.ext ?_)
  match a with
  | ⟨0, _⟩ => show win2_1.index t (0 : Fin 2) * 512 + 1 * kk.val = k.val; omega
  | ⟨1, _⟩ => show win2_1.index t (1 : Fin 2) * 256 + 1 * q.val = s.val; omega

theorem acc2_eq (c : Dev nD) : ∀ (n : ℕ) (hn : n < cfg2.N) (p : Fin 256) (q : Fin 256) (r : Fin 4096) (s : Fin 256),
    r.val = n / 8 / 1 * 256 + p.val → s.val = n / 8 % 1 * 256 + q.val →
    (accAt2 (F := Ideal) V c n hn : Vec Ideal S256x256 .f32) (ix2 p q)
      = Spec.accN (Spec.blockSum (term2 V c r s)) (n % 8) := by
  have first : ∀ (t : Fin cfg2.N), t.val % 8 = 0 → ∀ (p : Fin 256) (q : Fin 256) (r : Fin 4096) (s : Fin 256),
      r.val = t.val / 8 / 1 * 256 + p.val → s.val = t.val / 8 % 1 * 256 + q.val →
      (accAt2 (F := Ideal) V c t.val t.isLt : Vec Ideal S256x256 .f32) (ix2 p q)
        = Spec.accN (Spec.blockSum (term2 V c r s)) (t.val % 8) := by
    intro t h0 p q r s hr hs
    have h8 : t.val % 8 < 8 := Nat.mod_lt _ (by decide)
    refine (congrFun (accAt2_first V c t h0) (ix2 p q)).trans ?_
    refine (upd1_spec (k2_pay1 (F := Ideal)) (iblk2 V c 0 t) (iblk2 V c 1 t) (adj2 V c) (sup2 V c) p q r s (t.val % 8) h8 0
      (pay1a_apply p q) (fun kk => blk2_0_apply V c t p kk r _ hr rfl) (fun kk => blk2_1_apply V c t kk q _ s rfl hs)).trans ?_
    exact Spec.accN_first (Spec.blockSum (term2 V c r s)) (t.val % 8) h0
  intro n
  induction n with
  | zero => intro hn p q r s hr hs; exact first ⟨0, hn⟩ rfl p q r s hr hs
  | succ n ih =>
    intro hn p q r s hr hs
    by_cases h0 : (n + 1) % 8 = 0
    · exact first ⟨n + 1, hn⟩ h0 p q r s hr hs
    · have h8 : (n + 1) % 8 < 8 := Nat.mod_lt _ (by decide)
      have hm : (n + 1) % 8 = n % 8 + 1 := by omega
      have e := ih (Nat.lt_of_succ_lt hn) p q r s (by omega) (by omega)
      refine (congrFun (accAt2_step V c ⟨n + 1, hn⟩ h0) (ix2 p q)).trans ?_
      refine (upd1_spec _ (iblk2 V c 0 ⟨n + 1, hn⟩) (iblk2 V c 1 ⟨n + 1, hn⟩) (adj2 V c) (sup2 V c) p q r s ((n + 1) % 8) h8
        (Spec.accN (Spec.blockSum (term2 V c r s)) (n % 8)) e
        (fun kk => blk2_0_apply V c ⟨n + 1, hn⟩ p kk r _ hr rfl) (fun kk => blk2_1_apply V c ⟨n + 1, hn⟩ kk q _ s rfl hs)).trans ?_
      exact Spec.accN_step (Spec.blockSum (term2 V c r s)) ((n + 1) % 8) (n % 8) hm

theorem flushed2_eq (c : Dev nD) (t : Fin cfg2.N) (h7 : t.val % 8 = 7) :
    (dat2 (F := Ideal) V c).flushed 2 t
      = ((cfg2.win 2).blk t).view.read (Elt Ideal) (Spec.mm (adj2 V c) (sup2 V c)) := by
  show (cfg2.win 2).cut (grid2.coords t) ((dat2 V c).after 2 t) = _
  rw [after2_2]
  obtain ⟨-, -, -, -, e4, e5⟩ := idx_facts2 t
  have hN := npts2
  have ht : t.val < 128 := hN ▸ t.isLt
  funext j
  have hp : (j 0).val < 256 := (j 0).isLt
  have hq : (j 1).val < 256 := (j 1).isLt
  have r0 : ((((cfg2.win 2).blk t).view.emb j) 0).val = win2_2.index t (0 : Fin 2) * 256 + 1 * (j 0).val := rfl
  have r1 : ((((cfg2.win 2).blk t).view.emb j) 1).val = win2_2.index t (1 : Fin 2) * 256 + 1 * (j 1).val := rfl
  have hj : (win2 2).xinj (grid2.coords t) j = ix2 (⟨(j 0).val, hp⟩ : Fin 256) (⟨(j 1).val, hq⟩ : Fin 256) :=
    funext fun a => Fin.ext (by match a with | ⟨0, _⟩ => rfl | ⟨1, _⟩ => rfl)
  have hr : t.val / 8 / 1 * 256 + (j 0).val < 4096 := by omega
  have hs : t.val / 8 % 1 * 256 + (j 1).val < 256 := by omega
  have hi : ((cfg2.win 2).blk t).view.emb j
      = ix2 (⟨t.val / 8 / 1 * 256 + (j 0).val, hr⟩ : Fin 4096) (⟨t.val / 8 % 1 * 256 + (j 1).val, hs⟩ : Fin 256) :=
    funext fun a => Fin.ext (by
      match a with
      | ⟨0, _⟩ => show ((((cfg2.win 2).blk t).view.emb j) 0).val = t.val / 8 / 1 * 256 + (j 0).val; omega
      | ⟨1, _⟩ => show ((((cfg2.win 2).blk t).view.emb j) 1).val = t.val / 8 % 1 * 256 + (j 1).val; omega)
  show (accAt2 (F := Ideal) V c t.val t.isLt : Vec Ideal S256x256 .f32) ((win2 2).xinj (grid2.coords t) j)
    = Spec.mm (adj2 V c) (sup2 V c) (((cfg2.win 2).blk t).view.emb j)
  refine (congrArg (accAt2 (F := Ideal) V c t.val t.isLt : Vec Ideal S256x256 .f32) hj).trans ?_
  refine Eq.trans ?_ (congrArg (Spec.mm (adj2 V c) (sup2 V c)) hi.symm)
  refine (acc2_eq V c t.val t.isLt ⟨(j 0).val, hp⟩ ⟨(j 1).val, hq⟩ ⟨t.val / 8 / 1 * 256 + (j 0).val, hr⟩
    ⟨t.val / 8 % 1 * 256 + (j 1).val, hs⟩ rfl rfl).trans ?_
  rw [h7]
  exact (Spec.sum_4096_eq_accN_blockSum (term2 V c ⟨t.val / 8 / 1 * 256 + (j 0).val, hr⟩ ⟨t.val / 8 % 1 * 256 + (j 1).val, hs⟩)).symm

theorem mem_blk2 (t : Fin cfg2.N) (i : S4096x256.Idx) :
    i ∈ ((cfg2.win 2).blk t).view.set ↔ ∀ a : Fin 2, win2_2.index t a * S256x256.size a ≤ (i a).val
      ∧ (i a).val < win2_2.index t a * S256x256.size a + S256x256.size a := by
  show i ∈ ((View.whole main_v2).slice (win2_2.rect t)).set ↔ _
  rw [View.set_slice_whole, Rect.mem_set_unit]
  exact Iff.rfl

theorem cover2 (i : S4096x256.Idx) :
    ∃ t : Fin cfg2.N, (cfg2.win 2).flush t = true ∧ i ∈ ((cfg2.win 2).blk t).view.set := by
  have h0 : (i 0).val < 4096 := (i 0).isLt
  have h1 : (i 1).val < 256 := (i 1).isLt
  have hN := npts2
  refine ⟨⟨((i 0).val / 256 * 1 + (i 1).val / 256) * 8 + 7, by omega⟩, (flush2_2 _).mpr (by show (((i 0).val / 256 * 1 + (i 1).val / 256) * 8 + 7) % 8 = 7; omega), ?_⟩
  rw [mem_blk2]
  obtain ⟨-, -, -, -, e4, e5⟩ := idx_facts2 ⟨((i 0).val / 256 * 1 + (i 1).val / 256) * 8 + 7, by omega⟩
  intro a
  match a with
  | ⟨0, _⟩ =>
    show win2_2.index ⟨((i 0).val / 256 * 1 + (i 1).val / 256) * 8 + 7, _⟩ (0 : Fin 2) * 256 ≤ (i 0).val
      ∧ (i 0).val < win2_2.index ⟨((i 0).val / 256 * 1 + (i 1).val / 256) * 8 + 7, _⟩ (0 : Fin 2) * 256 + 256
    rw [e4]; show (((i 0).val / 256 * 1 + (i 1).val / 256) * 8 + 7) / 8 / 1 * 256 ≤ (i 0).val
      ∧ (i 0).val < (((i 0).val / 256 * 1 + (i 1).val / 256) * 8 + 7) / 8 / 1 * 256 + 256
    omega
  | ⟨1, _⟩ =>
    show win2_2.index ⟨((i 0).val / 256 * 1 + (i 1).val / 256) * 8 + 7, _⟩ (1 : Fin 2) * 256 ≤ (i 1).val
      ∧ (i 1).val < win2_2.index ⟨((i 0).val / 256 * 1 + (i 1).val / 256) * 8 + 7, _⟩ (1 : Fin 2) * 256 + 256
    rw [e5]; show (((i 0).val / 256 * 1 + (i 1).val / 256) * 8 + 7) / 8 % 1 * 256 ≤ (i 1).val
      ∧ (i 1).val < (((i 0).val / 256 * 1 + (i 1).val / 256) * 8 + 7) / 8 % 1 * 256 + 256
    omega

theorem val2 (c : Dev nD) :
    ((dat2 (F := Ideal) V c).arrAt 2 cfg2.N : S4096x256.Idx → EReal) = Spec.mm (adj2 V c) (sup2 V c) :=
  (dat2 V c).arrAt_eq_of_cover 2 (Spec.mm (adj2 V c) (sup2 V c))
    (fun t hf => flushed2_eq V c t ((flush2_2 t).mp hf)) (cover2)

end Cert.ReferenceIdeal.Val

end
-- ==== Proof.RI.Val3.lean ====
import proofs.«121997_g2000006886080560_pallasbulk_379_4_alg».proof.Proof.RI.R3
import proofs.«121997_g2000006886080560_pallasbulk_379_4_alg».proof.Proof.Spec
import Idealize.ShloMosaic.Lib.Pipeline.Value
import Idealize.ShloMosaic.PureOps.Ideal.Laws
import Idealize.ShloMosaic.Lib.ValueIdx
import Idealize.ShloMosaic.Lib.StackMember

noncomputable section

open scoped BigOperators

namespace Cert.ReferenceIdeal.Val

open Cert.ReferenceIdeal Cert.ReferenceIdeal.Gen Cert.ReferenceIdeal.Rg
open Idealize.ShloMosaic Idealize.ShloMosaic.TcCoe Idealize.ShloMosaic.ValueIdx Idealize.SL.Sem
open Idealize.ShloMosaic.Pipeline (Dat)

theorem matmul3_apply (a : FVec Ideal S256x256 .f32) (b : FVec Ideal S256x128 .f32) (p : Fin 256) (q : Fin 128) :
    matmul dot_S256x256_S256x128_S256x128_1_0_0_1_n_n none a b (constant (F := Ideal) S256x128 .f32 0x00000000#32) (ix2 p q)
      = ∑ k : Fin 256, a (ix2 p k) * b (ix2 k q) :=
  (congrFun (matmul_zero_eq_dotGeneral _ none a b) _).trans (StackMember.dotGeneral_plain_apply none a b p q)

abbrev post3 (x : EReal) : EReal := Ideal.tanh x

def valfn3 (a : Spec.Mat 4096 256) (b : Spec.Mat 256 384) : Spec.Mat 4096 384 := fun j => post3 (Spec.mm a b j)

theorem pay3_apply (x0 : Vec Ideal S256x256 .f32) (x1 : Vec Ideal S256x128 .f32) (p : Fin 256) (q : Fin 128) :
    k3_pay1 x0 x1 (ix2 p q) = post3 (∑ k : Fin 256, x0 (ix2 p k) * x1 (ix2 k q)) := by
  simp only [k3_pay1, shapeCast_self]
  exact congrArg post3 (matmul3_apply x0 x1 p q)

theorem pay3_spec (x0 : Vec Ideal S256x256 .f32) (x1 : Vec Ideal S256x128 .f32) (a : Spec.Mat 4096 256) (b : Spec.Mat 256 384)
    (p : Fin 256) (q : Fin 128) (r : Fin 4096) (s : Fin 384)
    (hx : ∀ k : Fin 256, x0 (ix2 p k) = a (ix2 r k)) (hw : ∀ k : Fin 256, x1 (ix2 k q) = b (ix2 k s)) :
    k3_pay1 x0 x1 (ix2 p q) = valfn3 a b (ix2 r s) := by
  rw [pay3_apply]
  show post3 _ = post3 (Spec.mm a b (ix2 r s))
  rw [Spec.mm_ix2]
  exact congrArg post3 (Finset.sum_congr rfl fun k _ => by rw [hx k, hw k])

variable (V : (c : Dev nD) → (b : Ref sig .tc) → Buf (Elt Ideal) ((c : Thread nD τ).loc b))

theorem npts3 : cfg3.N = 48 := by decide

theorem idx_facts3 : ∀ t : Fin cfg3.N, win3_0.index t (0 : Fin 2) = t.val / 3 ∧ win3_0.index t (1 : Fin 2) = 0
    ∧ win3_1.index t (0 : Fin 2) = 0 ∧ win3_1.index t (1 : Fin 2) = t.val % 3
    ∧ win3_2.index t (0 : Fin 2) = t.val / 3 ∧ win3_2.index t (1 : Fin 2) = t.val % 3 :=
  (by decide +kernel : ∀ t : Fin grid3.N, _)

theorem blk3_0_apply (c : Dev nD) (t : Fin cfg3.N) (p : Fin 256) (k : Fin 256) (r : Fin 4096)
    (hr : r.val = t.val / 3 * 256 + p.val) :
    (iblk3 (F := Ideal) V c 0 t : Vec Ideal S256x256 .f32) (ix2 p k) = (V c main_v1 : Spec.Mat 4096 256) (ix2 r k) := by
  obtain ⟨e0, e1, -⟩ := idx_facts3 t
  unfold iblk3
  rw [View.read_apply]
  show V c main_v1 (((cfg3.win 0).blk t).view.emb (ix2 p k)) = V c main_v1 (ix2 r k)
  refine congrArg _ (funext fun a => Fin.ext ?_)
  match a with
  | ⟨0, _⟩ => show win3_0.index t (0 : Fin 2) * 256 + 1 * p.val = r.val; omega
  | ⟨1, _⟩ => show win3_0.index t (1 : Fin 2) * 256 + 1 * k.val = k.val; omega

theorem blk3_1_apply (c : Dev nD) (t : Fin cfg3.N) (k : Fin 256) (q : Fin 128) (s : Fin 384)
    (hs : s.val = t.val % 3 * 128 + q.val) :
    (iblk3 (F := Ideal) V c 1 t : Vec Ideal S256x128 .f32) (ix2 k q) = (V c main_arg3 : Spec.Mat 256 384) (ix2 k s) := by
  obtain ⟨-, -, e2, e3, -⟩ := idx_facts3 t
  unfold iblk3
  rw [View.read_apply]
  show V c main_arg3 (((cfg3.win 1).blk t).view.emb (ix2 k q)) = V c main_arg3 (ix2 k s)
  refine congrArg _ (funext fun a => Fin.ext ?_)
  match a with
  | ⟨0, _⟩ => show win3_1.index t (0 : Fin 2) * 256 + 1 * k.val = k.val; omega
  | ⟨1, _⟩ => show win3_1.index t (1 : Fin 2) * 128 + 1 * q.val = s.val; omega

theorem flushed3_eq (c : Dev nD) (t : Fin cfg3.N) :
    (dat3 (F := Ideal) V c).flushed 2 t
      = ((cfg3.win 2).blk t).view.read (Elt Ideal) (valfn3 (V c main_v1) (V c main_arg3)) := by
  show (cfg3.win 2).cut (grid3.coords t) ((dat3 V c).after 2 t) = _
  rw [after3_2]
  unfold out3_2
  rw [View.canon_unit_zero Spec.hz]
  simp only [View.ld_unit_zero (S := S256x256) Spec.hz, View.ld_unit_zero (S := S256x128) Spec.hz]
  obtain ⟨-, -, -, -, e4, e5⟩ := idx_facts3 t
  have hN := npts3
  have ht : t.val < 48 := hN ▸ t.isLt
  funext j
  have hp : (j 0).val < 256 := (j 0).isLt
  have hq : (j 1).val < 128 := (j 1).isLt
  have r0 : ((((cfg3.win 2).blk t).view.emb j) 0).val = win3_2.index t (0 : Fin 2) * 256 + 1 * (j 0).val := rfl
  have r1 : ((((cfg3.win 2).blk t).view.emb j) 1).val = win3_2.index t (1 : Fin 2) * 128 + 1 * (j 1).val := rfl
  have hj : (win3 2).xinj (grid3.coords t) j = ix2 (⟨(j 0).val, hp⟩ : Fin 256) (⟨(j 1).val, hq⟩ : Fin 128) :=
    funext fun a => Fin.ext (by match a with | ⟨0, _⟩ => rfl | ⟨1, _⟩ => rfl)
  have hi : ((cfg3.win 2).blk t).view.emb j
      = ix2 (⟨t.val / 3 * 256 + (j 0).val, by omega⟩ : Fin 4096) (⟨t.val % 3 * 128 + (j 1).val, by omega⟩ : Fin 384) :=
    funext fun a => Fin.ext (by
      match a with
      | ⟨0, _⟩ => show ((((cfg3.win 2).blk t).view.emb j) 0).val = t.val / 3 * 256 + (j 0).val; omega
      | ⟨1, _⟩ => show ((((cfg3.win 2).blk t).view.emb j) 1).val = t.val % 3 * 128 + (j 1).val; omega)
  show k3_pay1 (iblk3 V c 0 t) (iblk3 V c 1 t) ((win3 2).xinj (grid3.coords t) j)
    = valfn3 (V c main_v1) (V c main_arg3) (((cfg3.win 2).blk t).view.emb j)
  refine (congrArg (k3_pay1 (iblk3 V c 0 t) (iblk3 V c 1 t)) hj).trans ?_
  refine Eq.trans ?_ (congrArg (valfn3 (V c main_v1) (V c main_arg3)) hi.symm)
  exact pay3_spec (iblk3 V c 0 t) (iblk3 V c 1 t) (V c main_v1) (V c main_arg3) _ _ _ _
    (fun k => blk3_0_apply V c t _ k _ rfl) (fun k => blk3_1_apply V c t k _ _ rfl)

theorem mem_blk3 (t : Fin cfg3.N) (i : S4096x384.Idx) :
    i ∈ ((cfg3.win 2).blk t).view.set ↔ ∀ a : Fin 2, win3_2.index t a * S256x128.size a ≤ (i a).val
      ∧ (i a).val < win3_2.index t a * S256x128.size a + S256x128.size a := by
  show i ∈ ((View.whole main_v3).slice (win3_2.rect t)).set ↔ _
  rw [View.set_slice_whole, Rect.mem_set_unit]
  exact Iff.rfl

theorem cover3 (i : S4096x384.Idx) :
    ∃ t : Fin cfg3.N, (cfg3.win 2).flush t = true ∧ i ∈ ((cfg3.win 2).blk t).view.set := by
  have h0 : (i 0).val < 4096 := (i 0).isLt
  have h1 : (i 1).val < 384 := (i 1).isLt
  have hN := npts3
  refine ⟨⟨(i 0).val / 256 * 3 + (i 1).val / 128, by omega⟩, flush3_2 _, ?_⟩
  rw [mem_blk3]
  obtain ⟨-, -, -, -, e4, e5⟩ := idx_facts3 ⟨(i 0).val / 256 * 3 + (i 1).val / 128, by omega⟩
  intro a
  match a with
  | ⟨0, _⟩ =>
    show win3_2.index ⟨(i 0).val / 256 * 3 + (i 1).val / 128, _⟩ (0 : Fin 2) * 256 ≤ (i 0).val
      ∧ (i 0).val < win3_2.index ⟨(i 0).val / 256 * 3 + (i 1).val / 128, _⟩ (0 : Fin 2) * 256 + 256
    rw [e4]; show ((i 0).val / 256 * 3 + (i 1).val / 128) / 3 * 256 ≤ (i 0).val
      ∧ (i 0).val < ((i 0).val / 256 * 3 + (i 1).val / 128) / 3 * 256 + 256
    omega
  | ⟨1, _⟩ =>
    show win3_2.index ⟨(i 0).val / 256 * 3 + (i 1).val / 128, _⟩ (1 : Fin 2) * 128 ≤ (i 1).val
      ∧ (i 1).val < win3_2.index ⟨(i 0).val / 256 * 3 + (i 1).val / 128, _⟩ (1 : Fin 2) * 128 + 128
    rw [e5]; show ((i 0).val / 256 * 3 + (i 1).val / 128) % 3 * 128 ≤ (i 1).val
      ∧ (i 1).val < ((i 0).val / 256 * 3 + (i 1).val / 128) % 3 * 128 + 128
    omega

theorem val3 (c : Dev nD) :
    ((dat3 (F := Ideal) V c).arrAt 2 cfg3.N : S4096x384.Idx → EReal)
      = fun j => post3 (Spec.mm (V c main_v1) (V c main_arg3) j) :=
  (dat3 V c).arrAt_eq_of_cover 2 (valfn3 (V c main_v1) (V c main_arg3)) (fun t _ => flushed3_eq V c t) cover3

end Cert.ReferenceIdeal.Val

end
-- ==== Proof.RI.Val4.lean ====
import proofs.«121997_g2000006886080560_pallasbulk_379_4_alg».proof.Proof.RI.R4
import proofs.«121997_g2000006886080560_pallasbulk_379_4_alg».proof.Proof.Spec
import Idealize.ShloMosaic.Lib.Pipeline.Value
import Idealize.ShloMosaic.PureOps.Ideal.Laws
import Idealize.ShloMosaic.Lib.ValueIdx
import Idealize.ShloMosaic.Lib.StackMember

noncomputable section

open scoped BigOperators

namespace Cert.ReferenceIdeal.Val

open Cert.ReferenceIdeal Cert.ReferenceIdeal.Gen Cert.ReferenceIdeal.Rg
open Idealize.ShloMosaic Idealize.ShloMosaic.TcCoe Idealize.ShloMosaic.ValueIdx Idealize.SL.Sem
open Idealize.ShloMosaic.Pipeline (Dat)

theorem matmul4_apply (a : FVec Ideal S256x512 .f32) (b : FVec Ideal S512x128 .f32) (p : Fin 256) (q : Fin 128) :
    matmul dot_S256x512_S512x128_S256x128_1_0_0_1_n_n none a b (constant (F := Ideal) S256x128 .f32 0x00000000#32) (ix2 p q)
      = ∑ k : Fin 512, a (ix2 p k) * b (ix2 k q) :=
  (congrFun (matmul_zero_eq_dotGeneral _ none a b) _).trans (StackMember.dotGeneral_plain_apply none a b p q)

theorem pay4a_apply (p : Fin 256) (q : Fin 128) : (k4_pay1 (F := Ideal) (ix2 p q) : EReal) = 0 := by
  simp only [k4_pay1, shapeCast_self]
  exact Ideal.ofBits_zero_f32

theorem pay4b_apply (v3 : Vec Ideal S256x128 .f32) (v4 : Vec Ideal S256x512 .f32) (v5 : Vec Ideal S512x128 .f32)
    (p : Fin 256) (q : Fin 128) :
    (k4_pay2 v3 v4 v5 (ix2 p q) : EReal) = v3 (ix2 p q) + ∑ k : Fin 512, v4 (ix2 p k) * v5 (ix2 k q) := by
  simp only [k4_pay2, shapeCast_self]
  exact congrArg (v3 (ix2 p q) + ·) (matmul4_apply v4 v5 p q)

variable (V : (c : Dev nD) → (b : Ref sig .tc) → Buf (Elt Ideal) ((c : Thread nD τ).loc b))

theorem npts4 : cfg4.N = 384 := by decide

theorem idx_facts4 : ∀ t : Fin cfg4.N, win4_0.index t (0 : Fin 2) = t.val / 8 / 3 ∧ win4_0.index t (1 : Fin 2) = t.val % 8
    ∧ win4_1.index t (0 : Fin 2) = t.val % 8 ∧ win4_1.index t (1 : Fin 2) = t.val / 8 % 3
    ∧ win4_2.index t (0 : Fin 2) = t.val / 8 / 3 ∧ win4_2.index t (1 : Fin 2) = t.val / 8 % 3 :=
  (by decide +kernel : ∀ t : Fin grid4.N, _)

abbrev adj4 (c : Dev nD) : Spec.Mat 4096 4096 := V c main_arg1

abbrev sup4 (c : Dev nD) : Spec.Mat 4096 384 := V c main_v3

def term4 (c : Dev nD) (r : Fin 4096) (s : Fin 384) : Fin 4096 → EReal :=
  fun k => adj4 V c (ix2 r k) * sup4 V c (ix2 k s)

theorem blk4_0_apply (c : Dev nD) (t : Fin cfg4.N) (p : Fin 256) (kk : Fin 512) (r : Fin 4096) (k : Fin 4096)
    (hr : r.val = t.val / 8 / 3 * 256 + p.val) (hk : k.val = t.val % 8 * 512 + kk.val) :
    (iblk4 (F := Ideal) V c 0 t : Vec Ideal S256x512 .f32) (ix2 p kk) = adj4 V c (ix2 r k) := by
  obtain ⟨e0, e1, -⟩ := idx_facts4 t
  unfold iblk4
  rw [View.read_apply]
  show V c main_arg1 (((cfg4.win 0).blk t).view.emb (ix2 p kk)) = V c main_arg1 (ix2 r k)
  refine congrArg _ (funext fun a => Fin.ext ?_)
  match a with
  | ⟨0, _⟩ => show win4_0.index t (0 : Fin 2) * 256 + 1 * p.val = r.val; omega
  | ⟨1, _⟩ => show win4_0.index t (1 : Fin 2) * 512 + 1 * kk.val = k.val; omega

theorem blk4_1_apply (c : Dev nD) (t : Fin cfg4.N) (kk : Fin 512) (q : Fin 128) (k : Fin 4096) (s : Fin 384)
    (hk : k.val = t.val % 8 * 512 + kk.val) (hs : s.val = t.val / 8 % 3 * 128 + q.val) :
    (iblk4 (F := Ideal) V c 1 t : Vec Ideal S512x128 .f32) (ix2 kk q) = sup4 V c (ix2 k s) := by
  obtain ⟨-, -, e2, e3, -⟩ := idx_facts4 t
  unfold iblk4
  rw [View.read_apply]
  show V c main_v3 (((cfg4.win 1).blk t).view.emb (ix2 kk q)) = V c main_v3 (ix2 k s)
  refine congrArg _ (funext fun a => Fin.ext ?_)
  match a with
  | ⟨0, _⟩ => show win4_1.index t (0 : Fin 2) * 512 + 1 * kk.val = k.val; omega
  | ⟨1, _⟩ => show win4_1.index t (1 : Fin 2) * 128 + 1 * q.val = s.val; omega

theorem upd4_spec (v3 : Vec Ideal S256x128 .f32) (x0 : Vec Ideal S256x512 .f32) (x1 : Vec Ideal S512x128 .f32)
    (A : Spec.Mat 4096 4096) (B : Spec.Mat 4096 384) (p : Fin 256) (q : Fin 128) (r : Fin 4096) (s : Fin 384)
    (kb : ℕ) (hkb : kb < 8) (acc : EReal) (hacc : v3 (ix2 p q) = acc)
    (hx : ∀ kk : Fin 512, x0 (ix2 p kk) = A (ix2 r ⟨kb * 512 + kk.val, Spec.blk8_lt ⟨kb, hkb⟩ kk⟩))
    (hw : ∀ kk : Fin 512, x1 (ix2 kk q) = B (ix2 ⟨kb * 512 + kk.val, Spec.blk8_lt ⟨kb, hkb⟩ kk⟩ s)) :
    (k4_pay2 v3 x0 x1 (ix2 p q) : EReal) = acc + Spec.blockSum (fun k => A (ix2 r k) * B (ix2 k s)) kb := by
  refine (pay4b_apply v3 x0 x1 p q).trans ?_
  refine congrArg₂ (· + ·) hacc ?_
  refine Eq.trans ?_ (Spec.blockSum_fin (fun k => A (ix2 r k) * B (ix2 k s)) ⟨kb, hkb⟩).symm
  exact Finset.sum_congr rfl fun kk _ => congrArg₂ (· * ·) (hx kk) (hw kk)

theorem acc4_eq (c : Dev nD) : ∀ (n : ℕ) (hn : n < cfg4.N) (p : Fin 256) (q : Fin 128) (r : Fin 4096) (s : Fin 384),
    r.val = n / 8 / 3 * 256 + p.val → s.val = n / 8 % 3 * 128 + q.val →
    (accAt4 (F := Ideal) V c n hn : Vec Ideal S256x128 .f32) (ix2 p q)
      = Spec.accN (Spec.blockSum (term4 V c r s)) (n % 8) := by
  have first : ∀ (t : Fin cfg4.N), t.val % 8 = 0 → ∀ (p : Fin 256) (q : Fin 128) (r : Fin 4096) (s : Fin 384),
      r.val = t.val / 8 / 3 * 256 + p.val → s.val = t.val / 8 % 3 * 128 + q.val →
      (accAt4 (F := Ideal) V c t.val t.isLt : Vec Ideal S256x128 .f32) (ix2 p q)
        = Spec.accN (Spec.blockSum (term4 V c r s)) (t.val % 8) := by
    intro t h0 p q r s hr hs
    have h8 : t.val % 8 < 8 := Nat.mod_lt _ (by decide)
    refine (congrFun (accAt4_first V c t h0) (ix2 p q)).trans ?_
    refine (upd4_spec (k4_pay1 (F := Ideal)) (iblk4 V c 0 t) (iblk4 V c 1 t) (adj4 V c) (sup4 V c) p q r s (t.val % 8) h8 0
      (pay4a_apply p q) (fun kk => blk4_0_apply V c t p kk r _ hr rfl) (fun kk => blk4_1_apply V c t kk q _ s rfl hs)).trans ?_
    exact Spec.accN_first (Spec.blockSum (term4 V c r s)) (t.val % 8) h0
  intro n
  induction n with
  | zero => intro hn p q r s hr hs; exact first ⟨0, hn⟩ rfl p q r s hr hs
  | succ n ih =>
    intro hn p q r s hr hs
    by_cases h0 : (n + 1) % 8 = 0
    · exact first ⟨n + 1, hn⟩ h0 p q r s hr hs
    · have h8 : (n + 1) % 8 < 8 := Nat.mod_lt _ (by decide)
      have hm : (n + 1) % 8 = n % 8 + 1 := by omega
      have e := ih (Nat.lt_of_succ_lt hn) p q r s (by omega) (by omega)
      refine (congrFun (accAt4_step V c ⟨n + 1, hn⟩ h0) (ix2 p q)).trans ?_
      refine (upd4_spec _ (iblk4 V c 0 ⟨n + 1, hn⟩) (iblk4 V c 1 ⟨n + 1, hn⟩) (adj4 V c) (sup4 V c) p q r s ((n + 1) % 8) h8
        (Spec.accN (Spec.blockSum (term4 V c r s)) (n % 8)) e
        (fun kk => blk4_0_apply V c ⟨n + 1, hn⟩ p kk r _ hr rfl) (fun kk => blk4_1_apply V c ⟨n + 1, hn⟩ kk q _ s rfl hs)).trans ?_
      exact Spec.accN_step (Spec.blockSum (term4 V c r s)) ((n + 1) % 8) (n % 8) hm

theorem flushed4_eq (c : Dev nD) (t : Fin cfg4.N) (h7 : t.val % 8 = 7) :
    (dat4 (F := Ideal) V c).flushed 2 t
      = ((cfg4.win 2).blk t).view.read (Elt Ideal) (Spec.mm (adj4 V c) (sup4 V c)) := by
  show (cfg4.win 2).cut (grid4.coords t) ((dat4 V c).after 2 t) = _
  rw [after4_2]
  obtain ⟨-, -, -, -, e4, e5⟩ := idx_facts4 t
  have hN := npts4
  have ht : t.val < 384 := hN ▸ t.isLt
  funext j
  have hp : (j 0).val < 256 := (j 0).isLt
  have hq : (j 1).val < 128 := (j 1).isLt
  have r0 : ((((cfg4.win 2).blk t).view.emb j) 0).val = win4_2.index t (0 : Fin 2) * 256 + 1 * (j 0).val := rfl
  have r1 : ((((cfg4.win 2).blk t).view.emb j) 1).val = win4_2.index t (1 : Fin 2) * 128 + 1 * (j 1).val := rfl
  have hj : (win4 2).xinj (grid4.coords t) j = ix2 (⟨(j 0).val, hp⟩ : Fin 256) (⟨(j 1).val, hq⟩ : Fin 128) :=
    funext fun a => Fin.ext (by match a with | ⟨0, _⟩ => rfl | ⟨1, _⟩ => rfl)
  have hr : t.val / 8 / 3 * 256 + (j 0).val < 4096 := by omega
  have hs : t.val / 8 % 3 * 128 + (j 1).val < 384 := by omega
  have hi : ((cfg4.win 2).blk t).view.emb j
      = ix2 (⟨t.val / 8 / 3 * 256 + (j 0).val, hr⟩ : Fin 4096) (⟨t.val / 8 % 3 * 128 + (j 1).val, hs⟩ : Fin 384) :=
    funext fun a => Fin.ext (by
      match a with
      | ⟨0, _⟩ => show ((((cfg4.win 2).blk t).view.emb j) 0).val = t.val / 8 / 3 * 256 + (j 0).val; omega
      | ⟨1, _⟩ => show ((((cfg4.win 2).blk t).view.emb j) 1).val = t.val / 8 % 3 * 128 + (j 1).val; omega)
  show (accAt4 (F := Ideal) V c t.val t.isLt : Vec Ideal S256x128 .f32) ((win4 2).xinj (grid4.coords t) j)
    = Spec.mm (adj4 V c) (sup4 V c) (((cfg4.win 2).blk t).view.emb j)
  refine (congrArg (accAt4 (F := Ideal) V c t.val t.isLt : Vec Ideal S256x128 .f32) hj).trans ?_
  refine Eq.trans ?_ (congrArg (Spec.mm (adj4 V c) (sup4 V c)) hi.symm)
  refine (acc4_eq V c t.val t.isLt ⟨(j 0).val, hp⟩ ⟨(j 1).val, hq⟩ ⟨t.val / 8 / 3 * 256 + (j 0).val, hr⟩
    ⟨t.val / 8 % 3 * 128 + (j 1).val, hs⟩ rfl rfl).trans ?_
  rw [h7]
  exact (Spec.sum_4096_eq_accN_blockSum (term4 V c ⟨t.val / 8 / 3 * 256 + (j 0).val, hr⟩ ⟨t.val / 8 % 3 * 128 + (j 1).val, hs⟩)).symm

theorem mem_blk4 (t : Fin cfg4.N) (i : S4096x384.Idx) :
    i ∈ ((cfg4.win 2).blk t).view.set ↔ ∀ a : Fin 2, win4_2.index t a * S256x128.size a ≤ (i a).val
      ∧ (i a).val < win4_2.index t a * S256x128.size a + S256x128.size a := by
  show i ∈ ((View.whole main_v4).slice (win4_2.rect t)).set ↔ _
  rw [View.set_slice_whole, Rect.mem_set_unit]
  exact Iff.rfl

theorem cover4 (i : S4096x384.Idx) :
    ∃ t : Fin cfg4.N, (cfg4.win 2).flush t = true ∧ i ∈ ((cfg4.win 2).blk t).view.set := by
  have h0 : (i 0).val < 4096 := (i 0).isLt
  have h1 : (i 1).val < 384 := (i 1).isLt
  have hN := npts4
  refine ⟨⟨((i 0).val / 256 * 3 + (i 1).val / 128) * 8 + 7, by omega⟩, (flush4_2 _).mpr (by show (((i 0).val / 256 * 3 + (i 1).val / 128) * 8 + 7) % 8 = 7; omega), ?_⟩
  rw [mem_blk4]
  obtain ⟨-, -, -, -, e4, e5⟩ := idx_facts4 ⟨((i 0).val / 256 * 3 + (i 1).val / 128) * 8 + 7, by omega⟩
  intro a
  match a with
  | ⟨0, _⟩ =>
    show win4_2.index ⟨((i 0).val / 256 * 3 + (i 1).val / 128) * 8 + 7, _⟩ (0 : Fin 2) * 256 ≤ (i 0).val
      ∧ (i 0).val < win4_2.index ⟨((i 0).val / 256 * 3 + (i 1).val / 128) * 8 + 7, _⟩ (0 : Fin 2) * 256 + 256
    rw [e4]; show (((i 0).val / 256 * 3 + (i 1).val / 128) * 8 + 7) / 8 / 3 * 256 ≤ (i 0).val
      ∧ (i 0).val < (((i 0).val / 256 * 3 + (i 1).val / 128) * 8 + 7) / 8 / 3 * 256 + 256
    omega
  | ⟨1, _⟩ =>
    show win4_2.index ⟨((i 0).val / 256 * 3 + (i 1).val / 128) * 8 + 7, _⟩ (1 : Fin 2) * 128 ≤ (i 1).val
      ∧ (i 1).val < win4_2.index ⟨((i 0).val / 256 * 3 + (i 1).val / 128) * 8 + 7, _⟩ (1 : Fin 2) * 128 + 128
    rw [e5]; show (((i 0).val / 256 * 3 + (i 1).val / 128) * 8 + 7) / 8 % 3 * 128 ≤ (i 1).val
      ∧ (i 1).val < (((i 0).val / 256 * 3 + (i 1).val / 128) * 8 + 7) / 8 % 3 * 128 + 128
    omega

theorem val4 (c : Dev nD) :
    ((dat4 (F := Ideal) V c).arrAt 2 cfg4.N : S4096x384.Idx → EReal) = Spec.mm (adj4 V c) (sup4 V c) :=
  (dat4 V c).arrAt_eq_of_cover 2 (Spec.mm (adj4 V c) (sup4 V c))
    (fun t hf => flushed4_eq V c t ((flush4_2 t).mp hf)) (cover4)

end Cert.ReferenceIdeal.Val

end
-- ==== Proof.RI.Val5.lean ====
import proofs.«121997_g2000006886080560_pallasbulk_379_4_alg».proof.Proof.RI.R5
import proofs.«121997_g2000006886080560_pallasbulk_379_4_alg».proof.Proof.RI.Val4

noncomputable section

open scoped BigOperators

namespace Cert.ReferenceIdeal.Val

open Cert.ReferenceIdeal Cert.ReferenceIdeal.Gen Cert.ReferenceIdeal.Rg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem npts5 : cfg5.N = 384 := by decide

theorem idx_facts5 : ∀ t : Fin cfg5.N, win5_0.index t (0 : Fin 2) = t.val / 8 / 3 ∧ win5_0.index t (1 : Fin 2) = t.val % 8
    ∧ win5_1.index t (0 : Fin 2) = t.val % 8 ∧ win5_1.index t (1 : Fin 2) = t.val / 8 % 3
    ∧ win5_2.index t (0 : Fin 2) = t.val / 8 / 3 ∧ win5_2.index t (1 : Fin 2) = t.val / 8 % 3 :=
  (by decide +kernel : ∀ t : Fin grid5.N, _)

abbrev adj5 (c : Dev nD) : Spec.Mat 4096 4096 := V c main_arg1

abbrev sup5 (c : Dev nD) : Spec.Mat 4096 384 := V c main_v4

def term5 (c : Dev nD) (r : Fin 4096) (s : Fin 384) : Fin 4096 → EReal :=
  fun k => adj5 V c (ix2 r k) * sup5 V c (ix2 k s)

theorem blk5_0_apply (c : Dev nD) (t : Fin cfg5.N) (p : Fin 256) (kk : Fin 512) (r : Fin 4096) (k : Fin 4096)
    (hr : r.val = t.val / 8 / 3 * 256 + p.val) (hk : k.val = t.val % 8 * 512 + kk.val) :
    (iblk5 (F := Ideal) V c 0 t : Vec Ideal S256x512 .f32) (ix2 p kk) = adj5 V c (ix2 r k) := by
  obtain ⟨e0, e1, -⟩ := idx_facts5 t
  unfold iblk5
  rw [View.read_apply]
  show V c main_arg1 (((cfg5.win 0).blk t).view.emb (ix2 p kk)) = V c main_arg1 (ix2 r k)
  refine congrArg _ (funext fun a => Fin.ext ?_)
  match a with
  | ⟨0, _⟩ => show win5_0.index t (0 : Fin 2) * 256 + 1 * p.val = r.val; omega
  | ⟨1, _⟩ => show win5_0.index t (1 : Fin 2) * 512 + 1 * kk.val = k.val; omega

theorem blk5_1_apply (c : Dev nD) (t : Fin cfg5.N) (kk : Fin 512) (q : Fin 128) (k : Fin 4096) (s : Fin 384)
    (hk : k.val = t.val % 8 * 512 + kk.val) (hs : s.val = t.val / 8 % 3 * 128 + q.val) :
    (iblk5 (F := Ideal) V c 1 t : Vec Ideal S512x128 .f32) (ix2 kk q) = sup5 V c (ix2 k s) := by
  obtain ⟨-, -, e2, e3, -⟩ := idx_facts5 t
  unfold iblk5
  rw [View.read_apply]
  show V c main_v4 (((cfg5.win 1).blk t).view.emb (ix2 kk q)) = V c main_v4 (ix2 k s)
  refine congrArg _ (funext fun a => Fin.ext ?_)
  match a with
  | ⟨0, _⟩ => show win5_1.index t (0 : Fin 2) * 512 + 1 * kk.val = k.val; omega
  | ⟨1, _⟩ => show win5_1.index t (1 : Fin 2) * 128 + 1 * q.val = s.val; omega

theorem acc5_eq (c : Dev nD) : ∀ (n : ℕ) (hn : n < cfg5.N) (p : Fin 256) (q : Fin 128) (r : Fin 4096) (s : Fin 384),
    r.val = n / 8 / 3 * 256 + p.val → s.val = n / 8 % 3 * 128 + q.val →
    (accAt5 (F := Ideal) V c n hn : Vec Ideal S256x128 .f32) (ix2 p q)
      = Spec.accN (Spec.blockSum (term5 V c r s)) (n % 8) := by
  have first : ∀ (t : Fin cfg5.N), t.val % 8 = 0 → ∀ (p : Fin 256) (q : Fin 128) (r : Fin 4096) (s : Fin 384),
      r.val = t.val / 8 / 3 * 256 + p.val → s.val = t.val / 8 % 3 * 128 + q.val →
      (accAt5 (F := Ideal) V c t.val t.isLt : Vec Ideal S256x128 .f32) (ix2 p q)
        = Spec.accN (Spec.blockSum (term5 V c r s)) (t.val % 8) := by
    intro t h0 p q r s hr hs
    have h8 : t.val % 8 < 8 := Nat.mod_lt _ (by decide)
    refine (congrFun (accAt5_first V c t h0) (ix2 p q)).trans ?_
    refine (upd4_spec (k5_pay1 (F := Ideal)) (iblk5 V c 0 t) (iblk5 V c 1 t) (adj5 V c) (sup5 V c) p q r s (t.val % 8) h8 0
      (pay4a_apply p q) (fun kk => blk5_0_apply V c t p kk r _ hr rfl) (fun kk => blk5_1_apply V c t kk q _ s rfl hs)).trans ?_
    exact Spec.accN_first (Spec.blockSum (term5 V c r s)) (t.val % 8) h0
  intro n
  induction n with
  | zero => intro hn p q r s hr hs; exact first ⟨0, hn⟩ rfl p q r s hr hs
  | succ n ih =>
    intro hn p q r s hr hs
    by_cases h0 : (n + 1) % 8 = 0
    · exact first ⟨n + 1, hn⟩ h0 p q r s hr hs
    · have h8 : (n + 1) % 8 < 8 := Nat.mod_lt _ (by decide)
      have hm : (n + 1) % 8 = n % 8 + 1 := by omega
      have e := ih (Nat.lt_of_succ_lt hn) p q r s (by omega) (by omega)
      refine (congrFun (accAt5_step V c ⟨n + 1, hn⟩ h0) (ix2 p q)).trans ?_
      refine (upd4_spec _ (iblk5 V c 0 ⟨n + 1, hn⟩) (iblk5 V c 1 ⟨n + 1, hn⟩) (adj5 V c) (sup5 V c) p q r s ((n + 1) % 8) h8
        (Spec.accN (Spec.blockSum (term5 V c r s)) (n % 8)) e
        (fun kk => blk5_0_apply V c ⟨n + 1, hn⟩ p kk r _ hr rfl) (fun kk => blk5_1_apply V c ⟨n + 1, hn⟩ kk q _ s rfl hs)).trans ?_
      exact Spec.accN_step (Spec.blockSum (term5 V c r s)) ((n + 1) % 8) (n % 8) hm

theorem flushed5_eq (c : Dev nD) (t : Fin cfg5.N) (h7 : t.val % 8 = 7) :
    (dat5 (F := Ideal) V c).flushed 2 t
      = ((cfg5.win 2).blk t).view.read (Elt Ideal) (Spec.mm (adj5 V c) (sup5 V c)) := by
  show (cfg5.win 2).cut (grid5.coords t) ((dat5 V c).after 2 t) = _
  rw [after5_2]
  obtain ⟨-, -, -, -, e4, e5⟩ := idx_facts5 t
  have hN := npts5
  have ht : t.val < 384 := hN ▸ t.isLt
  funext j
  have hp : (j 0).val < 256 := (j 0).isLt
  have hq : (j 1).val < 128 := (j 1).isLt
  have r0 : ((((cfg5.win 2).blk t).view.emb j) 0).val = win5_2.index t (0 : Fin 2) * 256 + 1 * (j 0).val := rfl
  have r1 : ((((cfg5.win 2).blk t).view.emb j) 1).val = win5_2.index t (1 : Fin 2) * 128 + 1 * (j 1).val := rfl
  have hj : (win5 2).xinj (grid5.coords t) j = ix2 (⟨(j 0).val, hp⟩ : Fin 256) (⟨(j 1).val, hq⟩ : Fin 128) :=
    funext fun a => Fin.ext (by match a with | ⟨0, _⟩ => rfl | ⟨1, _⟩ => rfl)
  have hr : t.val / 8 / 3 * 256 + (j 0).val < 4096 := by omega
  have hs : t.val / 8 % 3 * 128 + (j 1).val < 384 := by omega
  have hi : ((cfg5.win 2).blk t).view.emb j
      = ix2 (⟨t.val / 8 / 3 * 256 + (j 0).val, hr⟩ : Fin 4096) (⟨t.val / 8 % 3 * 128 + (j 1).val, hs⟩ : Fin 384) :=
    funext fun a => Fin.ext (by
      match a with
      | ⟨0, _⟩ => show ((((cfg5.win 2).blk t).view.emb j) 0).val = t.val / 8 / 3 * 256 + (j 0).val; omega
      | ⟨1, _⟩ => show ((((cfg5.win 2).blk t).view.emb j) 1).val = t.val / 8 % 3 * 128 + (j 1).val; omega)
  show (accAt5 (F := Ideal) V c t.val t.isLt : Vec Ideal S256x128 .f32) ((win5 2).xinj (grid5.coords t) j)
    = Spec.mm (adj5 V c) (sup5 V c) (((cfg5.win 2).blk t).view.emb j)
  refine (congrArg (accAt5 (F := Ideal) V c t.val t.isLt : Vec Ideal S256x128 .f32) hj).trans ?_
  refine Eq.trans ?_ (congrArg (Spec.mm (adj5 V c) (sup5 V c)) hi.symm)
  refine (acc5_eq V c t.val t.isLt ⟨(j 0).val, hp⟩ ⟨(j 1).val, hq⟩ ⟨t.val / 8 / 3 * 256 + (j 0).val, hr⟩
    ⟨t.val / 8 % 3 * 128 + (j 1).val, hs⟩ rfl rfl).trans ?_
  rw [h7]
  exact (Spec.sum_4096_eq_accN_blockSum (term5 V c ⟨t.val / 8 / 3 * 256 + (j 0).val, hr⟩ ⟨t.val / 8 % 3 * 128 + (j 1).val, hs⟩)).symm

theorem mem_blk5 (t : Fin cfg5.N) (i : S4096x384.Idx) :
    i ∈ ((cfg5.win 2).blk t).view.set ↔ ∀ a : Fin 2, win5_2.index t a * S256x128.size a ≤ (i a).val
      ∧ (i a).val < win5_2.index t a * S256x128.size a + S256x128.size a := by
  show i ∈ ((View.whole main_v5).slice (win5_2.rect t)).set ↔ _
  rw [View.set_slice_whole, Rect.mem_set_unit]
  exact Iff.rfl

theorem cover5 (i : S4096x384.Idx) :
    ∃ t : Fin cfg5.N, (cfg5.win 2).flush t = true ∧ i ∈ ((cfg5.win 2).blk t).view.set := by
  have h0 : (i 0).val < 4096 := (i 0).isLt
  have h1 : (i 1).val < 384 := (i 1).isLt
  have hN := npts5
  refine ⟨⟨((i 0).val / 256 * 3 + (i 1).val / 128) * 8 + 7, by omega⟩, (flush5_2 _).mpr (by show (((i 0).val / 256 * 3 + (i 1).val / 128) * 8 + 7) % 8 = 7; omega), ?_⟩
  rw [mem_blk5]
  obtain ⟨-, -, -, -, e4, e5⟩ := idx_facts5 ⟨((i 0).val / 256 * 3 + (i 1).val / 128) * 8 + 7, by omega⟩
  intro a
  match a with
  | ⟨0, _⟩ =>
    show win5_2.index ⟨((i 0).val / 256 * 3 + (i 1).val / 128) * 8 + 7, _⟩ (0 : Fin 2) * 256 ≤ (i 0).val
      ∧ (i 0).val < win5_2.index ⟨((i 0).val / 256 * 3 + (i 1).val / 128) * 8 + 7, _⟩ (0 : Fin 2) * 256 + 256
    rw [e4]; show (((i 0).val / 256 * 3 + (i 1).val / 128) * 8 + 7) / 8 / 3 * 256 ≤ (i 0).val
      ∧ (i 0).val < (((i 0).val / 256 * 3 + (i 1).val / 128) * 8 + 7) / 8 / 3 * 256 + 256
    omega
  | ⟨1, _⟩ =>
    show win5_2.index ⟨((i 0).val / 256 * 3 + (i 1).val / 128) * 8 + 7, _⟩ (1 : Fin 2) * 128 ≤ (i 1).val
      ∧ (i 1).val < win5_2.index ⟨((i 0).val / 256 * 3 + (i 1).val / 128) * 8 + 7, _⟩ (1 : Fin 2) * 128 + 128
    rw [e5]; show (((i 0).val / 256 * 3 + (i 1).val / 128) * 8 + 7) / 8 % 3 * 128 ≤ (i 1).val
      ∧ (i 1).val < (((i 0).val / 256 * 3 + (i 1).val / 128) * 8 + 7) / 8 % 3 * 128 + 128
    omega

theorem val5 (c : Dev nD) :
    ((dat5 (F := Ideal) V c).arrAt 2 cfg5.N : S4096x384.Idx → EReal) = Spec.mm (adj5 V c) (sup5 V c) :=
  (dat5 V c).arrAt_eq_of_cover 2 (Spec.mm (adj5 V c) (sup5 V c))
    (fun t hf => flushed5_eq V c t ((flush5_2 t).mp hf)) (cover5)

end Cert.ReferenceIdeal.Val

end
-- ==== Proof.RI.Val6.lean ====
import proofs.«121997_g2000006886080560_pallasbulk_379_4_alg».proof.Proof.RI.R6
import proofs.«121997_g2000006886080560_pallasbulk_379_4_alg».proof.Proof.Spec
import Idealize.ShloMosaic.Lib.Pipeline.Value
import Idealize.ShloMosaic.PureOps.Ideal.Laws
import Idealize.ShloMosaic.Lib.ValueIdx
import Idealize.ShloMosaic.Lib.StackMember

noncomputable section

open scoped BigOperators

namespace Cert.ReferenceIdeal.Val

open Cert.ReferenceIdeal Cert.ReferenceIdeal.Gen Cert.ReferenceIdeal.Rg
open Idealize.ShloMosaic Idealize.ShloMosaic.TcCoe Idealize.ShloMosaic.ValueIdx Idealize.SL.Sem
open Idealize.ShloMosaic.Pipeline (Dat)

theorem matmul6_apply (a : FVec Ideal S256x384 .f32) (b : FVec Ideal S384x512 .f32) (p : Fin 256) (q : Fin 512) :
    matmul dot_S256x384_S384x512_S256x512_1_0_0_1_n_n none a b (constant (F := Ideal) S256x512 .f32 0x00000000#32) (ix2 p q)
      = ∑ k : Fin 384, a (ix2 p k) * b (ix2 k q) :=
  (congrFun (matmul_zero_eq_dotGeneral _ none a b) _).trans (StackMember.dotGeneral_plain_apply none a b p q)

abbrev post6 (x : EReal) : EReal := Ideal.tanh x

def valfn6 (a : Spec.Mat 4096 384) (b : Spec.Mat 384 512) : Spec.Mat 4096 512 := fun j => post6 (Spec.mm a b j)

theorem pay6_apply (x0 : Vec Ideal S256x384 .f32) (x1 : Vec Ideal S384x512 .f32) (p : Fin 256) (q : Fin 512) :
    k6_pay1 x0 x1 (ix2 p q) = post6 (∑ k : Fin 384, x0 (ix2 p k) * x1 (ix2 k q)) := by
  simp only [k6_pay1, shapeCast_self]
  exact congrArg post6 (matmul6_apply x0 x1 p q)

theorem pay6_spec (x0 : Vec Ideal S256x384 .f32) (x1 : Vec Ideal S384x512 .f32) (a : Spec.Mat 4096 384) (b : Spec.Mat 384 512)
    (p : Fin 256) (q : Fin 512) (r : Fin 4096) (s : Fin 512)
    (hx : ∀ k : Fin 384, x0 (ix2 p k) = a (ix2 r k)) (hw : ∀ k : Fin 384, x1 (ix2 k q) = b (ix2 k s)) :
    k6_pay1 x0 x1 (ix2 p q) = valfn6 a b (ix2 r s) := by
  rw [pay6_apply]
  show post6 _ = post6 (Spec.mm a b (ix2 r s))
  rw [Spec.mm_ix2]
  exact congrArg post6 (Finset.sum_congr rfl fun k _ => by rw [hx k, hw k])

variable (V : (c : Dev nD) → (b : Ref sig .tc) → Buf (Elt Ideal) ((c : Thread nD τ).loc b))

theorem npts6 : cfg6.N = 16 := by decide

theorem idx_facts6 : ∀ t : Fin cfg6.N, win6_0.index t (0 : Fin 2) = t.val / 1 ∧ win6_0.index t (1 : Fin 2) = 0
    ∧ win6_1.index t (0 : Fin 2) = 0 ∧ win6_1.index t (1 : Fin 2) = t.val % 1
    ∧ win6_2.index t (0 : Fin 2) = t.val / 1 ∧ win6_2.index t (1 : Fin 2) = t.val % 1 :=
  (by decide +kernel : ∀ t : Fin grid6.N, _)

theorem blk6_0_apply (c : Dev nD) (t : Fin cfg6.N) (p : Fin 256) (k : Fin 384) (r : Fin 4096)
    (hr : r.val = t.val / 1 * 256 + p.val) :
    (iblk6 (F := Ideal) V c 0 t : Vec Ideal S256x384 .f32) (ix2 p k) = (V c main_v4 : Spec.Mat 4096 384) (ix2 r k) := by
  obtain ⟨e0, e1, -⟩ := idx_facts6 t
  unfold iblk6
  rw [View.read_apply]
  show V c main_v4 (((cfg6.win 0).blk t).view.emb (ix2 p k)) = V c main_v4 (ix2 r k)
  refine congrArg _ (funext fun a => Fin.ext ?_)
  match a with
  | ⟨0, _⟩ => show win6_0.index t (0 : Fin 2) * 256 + 1 * p.val = r.val; omega
  | ⟨1, _⟩ => show win6_0.index t (1 : Fin 2) * 384 + 1 * k.val = k.val; omega

theorem blk6_1_apply (c : Dev nD) (t : Fin cfg6.N) (k : Fin 384) (q : Fin 512) (s : Fin 512)
    (hs : s.val = t.val % 1 * 512 + q.val) :
    (iblk6 (F := Ideal) V c 1 t : Vec Ideal S384x512 .f32) (ix2 k q) = (V c main_arg4 : Spec.Mat 384 512) (ix2 k s) := by
  obtain ⟨-, -, e2, e3, -⟩ := idx_facts6 t
  unfold iblk6
  rw [View.read_apply]
  show V c main_arg4 (((cfg6.win 1).blk t).view.emb (ix2 k q)) = V c main_arg4 (ix2 k s)
  refine congrArg _ (funext fun a => Fin.ext ?_)
  match a with
  | ⟨0, _⟩ => show win6_1.index t (0 : Fin 2) * 384 + 1 * k.val = k.val; omega
  | ⟨1, _⟩ => show win6_1.index t (1 : Fin 2) * 512 + 1 * q.val = s.val; omega

theorem flushed6_eq (c : Dev nD) (t : Fin cfg6.N) :
    (dat6 (F := Ideal) V c).flushed 2 t
      = ((cfg6.win 2).blk t).view.read (Elt Ideal) (valfn6 (V c main_v4) (V c main_arg4)) := by
  show (cfg6.win 2).cut (grid6.coords t) ((dat6 V c).after 2 t) = _
  rw [after6_2]
  unfold out6_2
  rw [View.canon_unit_zero Spec.hz]
  simp only [View.ld_unit_zero (S := S256x384) Spec.hz, View.ld_unit_zero (S := S384x512) Spec.hz]
  obtain ⟨-, -, -, -, e4, e5⟩ := idx_facts6 t
  have hN := npts6
  have ht : t.val < 16 := hN ▸ t.isLt
  funext j
  have hp : (j 0).val < 256 := (j 0).isLt
  have hq : (j 1).val < 512 := (j 1).isLt
  have r0 : ((((cfg6.win 2).blk t).view.emb j) 0).val = win6_2.index t (0 : Fin 2) * 256 + 1 * (j 0).val := rfl
  have r1 : ((((cfg6.win 2).blk t).view.emb j) 1).val = win6_2.index t (1 : Fin 2) * 512 + 1 * (j 1).val := rfl
  have hj : (win6 2).xinj (grid6.coords t) j = ix2 (⟨(j 0).val, hp⟩ : Fin 256) (⟨(j 1).val, hq⟩ : Fin 512) :=
    funext fun a => Fin.ext (by match a with | ⟨0, _⟩ => rfl | ⟨1, _⟩ => rfl)
  have hi : ((cfg6.win 2).blk t).view.emb j
      = ix2 (⟨t.val / 1 * 256 + (j 0).val, by omega⟩ : Fin 4096) (⟨t.val % 1 * 512 + (j 1).val, by omega⟩ : Fin 512) :=
    funext fun a => Fin.ext (by
      match a with
      | ⟨0, _⟩ => show ((((cfg6.win 2).blk t).view.emb j) 0).val = t.val / 1 * 256 + (j 0).val; omega
      | ⟨1, _⟩ => show ((((cfg6.win 2).blk t).view.emb j) 1).val = t.val % 1 * 512 + (j 1).val; omega)
  show k6_pay1 (iblk6 V c 0 t) (iblk6 V c 1 t) ((win6 2).xinj (grid6.coords t) j)
    = valfn6 (V c main_v4) (V c main_arg4) (((cfg6.win 2).blk t).view.emb j)
  refine (congrArg (k6_pay1 (iblk6 V c 0 t) (iblk6 V c 1 t)) hj).trans ?_
  refine Eq.trans ?_ (congrArg (valfn6 (V c main_v4) (V c main_arg4)) hi.symm)
  exact pay6_spec (iblk6 V c 0 t) (iblk6 V c 1 t) (V c main_v4) (V c main_arg4) _ _ _ _
    (fun k => blk6_0_apply V c t _ k _ rfl) (fun k => blk6_1_apply V c t k _ _ rfl)

theorem mem_blk6 (t : Fin cfg6.N) (i : S4096x512.Idx) :
    i ∈ ((cfg6.win 2).blk t).view.set ↔ ∀ a : Fin 2, win6_2.index t a * S256x512.size a ≤ (i a).val
      ∧ (i a).val < win6_2.index t a * S256x512.size a + S256x512.size a := by
  show i ∈ ((View.whole main_v6).slice (win6_2.rect t)).set ↔ _
  rw [View.set_slice_whole, Rect.mem_set_unit]
  exact Iff.rfl

theorem cover6 (i : S4096x512.Idx) :
    ∃ t : Fin cfg6.N, (cfg6.win 2).flush t = true ∧ i ∈ ((cfg6.win 2).blk t).view.set := by
  have h0 : (i 0).val < 4096 := (i 0).isLt
  have h1 : (i 1).val < 512 := (i 1).isLt
  have hN := npts6
  refine ⟨⟨(i 0).val / 256 * 1 + (i 1).val / 512, by omega⟩, flush6_2 _, ?_⟩
  rw [mem_blk6]
  obtain ⟨-, -, -, -, e4, e5⟩ := idx_facts6 ⟨(i 0).val / 256 * 1 + (i 1).val / 512, by omega⟩
  intro a
  match a with
  | ⟨0, _⟩ =>
    show win6_2.index ⟨(i 0).val / 256 * 1 + (i 1).val / 512, _⟩ (0 : Fin 2) * 256 ≤ (i 0).val
      ∧ (i 0).val < win6_2.index ⟨(i 0).val / 256 * 1 + (i 1).val / 512, _⟩ (0 : Fin 2) * 256 + 256
    rw [e4]; show ((i 0).val / 256 * 1 + (i 1).val / 512) / 1 * 256 ≤ (i 0).val
      ∧ (i 0).val < ((i 0).val / 256 * 1 + (i 1).val / 512) / 1 * 256 + 256
    omega
  | ⟨1, _⟩ =>
    show win6_2.index ⟨(i 0).val / 256 * 1 + (i 1).val / 512, _⟩ (1 : Fin 2) * 512 ≤ (i 1).val
      ∧ (i 1).val < win6_2.index ⟨(i 0).val / 256 * 1 + (i 1).val / 512, _⟩ (1 : Fin 2) * 512 + 512
    rw [e5]; show ((i 0).val / 256 * 1 + (i 1).val / 512) % 1 * 512 ≤ (i 1).val
      ∧ (i 1).val < ((i 0).val / 256 * 1 + (i 1).val / 512) % 1 * 512 + 512
    omega

theorem val6 (c : Dev nD) :
    ((dat6 (F := Ideal) V c).arrAt 2 cfg6.N : S4096x512.Idx → EReal)
      = fun j => post6 (Spec.mm (V c main_v4) (V c main_arg4) j) :=
  (dat6 V c).arrAt_eq_of_cover 2 (valfn6 (V c main_v4) (V c main_arg4)) (fun t _ => flushed6_eq V c t) cover6

end Cert.ReferenceIdeal.Val

end
-- ==== Proof.RI.Val7.lean ====
import proofs.«121997_g2000006886080560_pallasbulk_379_4_alg».proof.Proof.RI.R7
import proofs.«121997_g2000006886080560_pallasbulk_379_4_alg».proof.Proof.Spec
import Idealize.ShloMosaic.Lib.Pipeline.Value
import Idealize.ShloMosaic.PureOps.Ideal.Laws
import Idealize.ShloMosaic.Lib.ValueIdx
import Idealize.ShloMosaic.Lib.StackMember

noncomputable section

open scoped BigOperators

namespace Cert.ReferenceIdeal.Val

open Cert.ReferenceIdeal Cert.ReferenceIdeal.Gen Cert.ReferenceIdeal.Rg
open Idealize.ShloMosaic Idealize.ShloMosaic.TcCoe Idealize.ShloMosaic.ValueIdx Idealize.SL.Sem
open Idealize.ShloMosaic.Pipeline (Dat)

theorem matmul7_apply (a : FVec Ideal S256x512 .f32) (b : FVec Ideal S512x512 .f32) (p : Fin 256) (q : Fin 512) :
    matmul dot_S256x512_S512x512_S256x512_1_0_0_1_n_n none a b (constant (F := Ideal) S256x512 .f32 0x00000000#32) (ix2 p q)
      = ∑ k : Fin 512, a (ix2 p k) * b (ix2 k q) :=
  (congrFun (matmul_zero_eq_dotGeneral _ none a b) _).trans (StackMember.dotGeneral_plain_apply none a b p q)

theorem pay7a_apply (p : Fin 256) (q : Fin 512) : (k7_pay1 (F := Ideal) (ix2 p q) : EReal) = 0 := by
  simp only [k7_pay1, shapeCast_self]
  exact Ideal.ofBits_zero_f32

theorem pay7b_apply (v3 : Vec Ideal S256x512 .f32) (v4 : Vec Ideal S256x512 .f32) (v5 : Vec Ideal S512x512 .f32)
    (p : Fin 256) (q : Fin 512) :
    (k7_pay2 v3 v4 v5 (ix2 p q) : EReal) = v3 (ix2 p q) + ∑ k : Fin 512, v4 (ix2 p k) * v5 (ix2 k q) := by
  simp only [k7_pay2, shapeCast_self]
  exact congrArg (v3 (ix2 p q) + ·) (matmul7_apply v4 v5 p q)

variable (V : (c : Dev nD) → (b : Ref sig .tc) → Buf (Elt Ideal) ((c : Thread nD τ).loc b))

theorem npts7 : cfg7.N = 128 := by decide

theorem idx_facts7 : ∀ t : Fin cfg7.N, win7_0.index t (0 : Fin 2) = t.val / 8 / 1 ∧ win7_0.index t (1 : Fin 2) = t.val % 8
    ∧ win7_1.index t (0 : Fin 2) = t.val % 8 ∧ win7_1.index t (1 : Fin 2) = t.val / 8 % 1
    ∧ win7_2.index t (0 : Fin 2) = t.val / 8 / 1 ∧ win7_2.index t (1 : Fin 2) = t.val / 8 % 1 :=
  (by decide +kernel : ∀ t : Fin grid7.N, _)

abbrev adj7 (c : Dev nD) : Spec.Mat 4096 4096 := V c main_arg1

abbrev sup7 (c : Dev nD) : Spec.Mat 4096 512 := V c main_v6

def term7 (c : Dev nD) (r : Fin 4096) (s : Fin 512) : Fin 4096 → EReal :=
  fun k => adj7 V c (ix2 r k) * sup7 V c (ix2 k s)

theorem blk7_0_apply (c : Dev nD) (t : Fin cfg7.N) (p : Fin 256) (kk : Fin 512) (r : Fin 4096) (k : Fin 4096)
    (hr : r.val = t.val / 8 / 1 * 256 + p.val) (hk : k.val = t.val % 8 * 512 + kk.val) :
    (iblk7 (F := Ideal) V c 0 t : Vec Ideal S256x512 .f32) (ix2 p kk) = adj7 V c (ix2 r k) := by
  obtain ⟨e0, e1, -⟩ := idx_facts7 t
  unfold iblk7
  rw [View.read_apply]
  show V c main_arg1 (((cfg7.win 0).blk t).view.emb (ix2 p kk)) = V c main_arg1 (ix2 r k)
  refine congrArg _ (funext fun a => Fin.ext ?_)
  match a with
  | ⟨0, _⟩ => show win7_0.index t (0 : Fin 2) * 256 + 1 * p.val = r.val; omega
  | ⟨1, _⟩ => show win7_0.index t (1 : Fin 2) * 512 + 1 * kk.val = k.val; omega

theorem blk7_1_apply (c : Dev nD) (t : Fin cfg7.N) (kk : Fin 512) (q : Fin 512) (k : Fin 4096) (s : Fin 512)
    (hk : k.val = t.val % 8 * 512 + kk.val) (hs : s.val = t.val / 8 % 1 * 512 + q.val) :
    (iblk7 (F := Ideal) V c 1 t : Vec Ideal S512x512 .f32) (ix2 kk q) = sup7 V c (ix2 k s) := by
  obtain ⟨-, -, e2, e3, -⟩ := idx_facts7 t
  unfold iblk7
  rw [View.read_apply]
  show V c main_v6 (((cfg7.win 1).blk t).view.emb (ix2 kk q)) = V c main_v6 (ix2 k s)
  refine congrArg _ (funext fun a => Fin.ext ?_)
  match a with
  | ⟨0, _⟩ => show win7_1.index t (0 : Fin 2) * 512 + 1 * kk.val = k.val; omega
  | ⟨1, _⟩ => show win7_1.index t (1 : Fin 2) * 512 + 1 * q.val = s.val; omega

theorem upd7_spec (v3 : Vec Ideal S256x512 .f32) (x0 : Vec Ideal S256x512 .f32) (x1 : Vec Ideal S512x512 .f32)
    (A : Spec.Mat 4096 4096) (B : Spec.Mat 4096 512) (p : Fin 256) (q : Fin 512) (r : Fin 4096) (s : Fin 512)
    (kb : ℕ) (hkb : kb < 8) (acc : EReal) (hacc : v3 (ix2 p q) = acc)
    (hx : ∀ kk : Fin 512, x0 (ix2 p kk) = A (ix2 r ⟨kb * 512 + kk.val, Spec.blk8_lt ⟨kb, hkb⟩ kk⟩))
    (hw : ∀ kk : Fin 512, x1 (ix2 kk q) = B (ix2 ⟨kb * 512 + kk.val, Spec.blk8_lt ⟨kb, hkb⟩ kk⟩ s)) :
    (k7_pay2 v3 x0 x1 (ix2 p q) : EReal) = acc + Spec.blockSum (fun k => A (ix2 r k) * B (ix2 k s)) kb := by
  refine (pay7b_apply v3 x0 x1 p q).trans ?_
  refine congrArg₂ (· + ·) hacc ?_
  refine Eq.trans ?_ (Spec.blockSum_fin (fun k => A (ix2 r k) * B (ix2 k s)) ⟨kb, hkb⟩).symm
  exact Finset.sum_congr rfl fun kk _ => congrArg₂ (· * ·) (hx kk) (hw kk)

theorem acc7_eq (c : Dev nD) : ∀ (n : ℕ) (hn : n < cfg7.N) (p : Fin 256) (q : Fin 512) (r : Fin 4096) (s : Fin 512),
    r.val = n / 8 / 1 * 256 + p.val → s.val = n / 8 % 1 * 512 + q.val →
    (accAt7 (F := Ideal) V c n hn : Vec Ideal S256x512 .f32) (ix2 p q)
      = Spec.accN (Spec.blockSum (term7 V c r s)) (n % 8) := by
  have first : ∀ (t : Fin cfg7.N), t.val % 8 = 0 → ∀ (p : Fin 256) (q : Fin 512) (r : Fin 4096) (s : Fin 512),
      r.val = t.val / 8 / 1 * 256 + p.val → s.val = t.val / 8 % 1 * 512 + q.val →
      (accAt7 (F := Ideal) V c t.val t.isLt : Vec Ideal S256x512 .f32) (ix2 p q)
        = Spec.accN (Spec.blockSum (term7 V c r s)) (t.val % 8) := by
    intro t h0 p q r s hr hs
    have h8 : t.val % 8 < 8 := Nat.mod_lt _ (by decide)
    refine (congrFun (accAt7_first V c t h0) (ix2 p q)).trans ?_
    refine (upd7_spec (k7_pay1 (F := Ideal)) (iblk7 V c 0 t) (iblk7 V c 1 t) (adj7 V c) (sup7 V c) p q r s (t.val % 8) h8 0
      (pay7a_apply p q) (fun kk => blk7_0_apply V c t p kk r _ hr rfl) (fun kk => blk7_1_apply V c t kk q _ s rfl hs)).trans ?_
    exact Spec.accN_first (Spec.blockSum (term7 V c r s)) (t.val % 8) h0
  intro n
  induction n with
  | zero => intro hn p q r s hr hs; exact first ⟨0, hn⟩ rfl p q r s hr hs
  | succ n ih =>
    intro hn p q r s hr hs
    by_cases h0 : (n + 1) % 8 = 0
    · exact first ⟨n + 1, hn⟩ h0 p q r s hr hs
    · have h8 : (n + 1) % 8 < 8 := Nat.mod_lt _ (by decide)
      have hm : (n + 1) % 8 = n % 8 + 1 := by omega
      have e := ih (Nat.lt_of_succ_lt hn) p q r s (by omega) (by omega)
      refine (congrFun (accAt7_step V c ⟨n + 1, hn⟩ h0) (ix2 p q)).trans ?_
      refine (upd7_spec _ (iblk7 V c 0 ⟨n + 1, hn⟩) (iblk7 V c 1 ⟨n + 1, hn⟩) (adj7 V c) (sup7 V c) p q r s ((n + 1) % 8) h8
        (Spec.accN (Spec.blockSum (term7 V c r s)) (n % 8)) e
        (fun kk => blk7_0_apply V c ⟨n + 1, hn⟩ p kk r _ hr rfl) (fun kk => blk7_1_apply V c ⟨n + 1, hn⟩ kk q _ s rfl hs)).trans ?_
      exact Spec.accN_step (Spec.blockSum (term7 V c r s)) ((n + 1) % 8) (n % 8) hm

theorem flushed7_eq (c : Dev nD) (t : Fin cfg7.N) (h7 : t.val % 8 = 7) :
    (dat7 (F := Ideal) V c).flushed 2 t
      = ((cfg7.win 2).blk t).view.read (Elt Ideal) (Spec.mm (adj7 V c) (sup7 V c)) := by
  show (cfg7.win 2).cut (grid7.coords t) ((dat7 V c).after 2 t) = _
  rw [after7_2]
  obtain ⟨-, -, -, -, e4, e5⟩ := idx_facts7 t
  have hN := npts7
  have ht : t.val < 128 := hN ▸ t.isLt
  funext j
  have hp : (j 0).val < 256 := (j 0).isLt
  have hq : (j 1).val < 512 := (j 1).isLt
  have r0 : ((((cfg7.win 2).blk t).view.emb j) 0).val = win7_2.index t (0 : Fin 2) * 256 + 1 * (j 0).val := rfl
  have r1 : ((((cfg7.win 2).blk t).view.emb j) 1).val = win7_2.index t (1 : Fin 2) * 512 + 1 * (j 1).val := rfl
  have hj : (win7 2).xinj (grid7.coords t) j = ix2 (⟨(j 0).val, hp⟩ : Fin 256) (⟨(j 1).val, hq⟩ : Fin 512) :=
    funext fun a => Fin.ext (by match a with | ⟨0, _⟩ => rfl | ⟨1, _⟩ => rfl)
  have hr : t.val / 8 / 1 * 256 + (j 0).val < 4096 := by omega
  have hs : t.val / 8 % 1 * 512 + (j 1).val < 512 := by omega
  have hi : ((cfg7.win 2).blk t).view.emb j
      = ix2 (⟨t.val / 8 / 1 * 256 + (j 0).val, hr⟩ : Fin 4096) (⟨t.val / 8 % 1 * 512 + (j 1).val, hs⟩ : Fin 512) :=
    funext fun a => Fin.ext (by
      match a with
      | ⟨0, _⟩ => show ((((cfg7.win 2).blk t).view.emb j) 0).val = t.val / 8 / 1 * 256 + (j 0).val; omega
      | ⟨1, _⟩ => show ((((cfg7.win 2).blk t).view.emb j) 1).val = t.val / 8 % 1 * 512 + (j 1).val; omega)
  show (accAt7 (F := Ideal) V c t.val t.isLt : Vec Ideal S256x512 .f32) ((win7 2).xinj (grid7.coords t) j)
    = Spec.mm (adj7 V c) (sup7 V c) (((cfg7.win 2).blk t).view.emb j)
  refine (congrArg (accAt7 (F := Ideal) V c t.val t.isLt : Vec Ideal S256x512 .f32) hj).trans ?_
  refine Eq.trans ?_ (congrArg (Spec.mm (adj7 V c) (sup7 V c)) hi.symm)
  refine (acc7_eq V c t.val t.isLt ⟨(j 0).val, hp⟩ ⟨(j 1).val, hq⟩ ⟨t.val / 8 / 1 * 256 + (j 0).val, hr⟩
    ⟨t.val / 8 % 1 * 512 + (j 1).val, hs⟩ rfl rfl).trans ?_
  rw [h7]
  exact (Spec.sum_4096_eq_accN_blockSum (term7 V c ⟨t.val / 8 / 1 * 256 + (j 0).val, hr⟩ ⟨t.val / 8 % 1 * 512 + (j 1).val, hs⟩)).symm

theorem mem_blk7 (t : Fin cfg7.N) (i : S4096x512.Idx) :
    i ∈ ((cfg7.win 2).blk t).view.set ↔ ∀ a : Fin 2, win7_2.index t a * S256x512.size a ≤ (i a).val
      ∧ (i a).val < win7_2.index t a * S256x512.size a + S256x512.size a := by
  show i ∈ ((View.whole main_v7).slice (win7_2.rect t)).set ↔ _
  rw [View.set_slice_whole, Rect.mem_set_unit]
  exact Iff.rfl

theorem cover7 (i : S4096x512.Idx) :
    ∃ t : Fin cfg7.N, (cfg7.win 2).flush t = true ∧ i ∈ ((cfg7.win 2).blk t).view.set := by
  have h0 : (i 0).val < 4096 := (i 0).isLt
  have h1 : (i 1).val < 512 := (i 1).isLt
  have hN := npts7
  refine ⟨⟨((i 0).val / 256 * 1 + (i 1).val / 512) * 8 + 7, by omega⟩, (flush7_2 _).mpr (by show (((i 0).val / 256 * 1 + (i 1).val / 512) * 8 + 7) % 8 = 7; omega), ?_⟩
  rw [mem_blk7]
  obtain ⟨-, -, -, -, e4, e5⟩ := idx_facts7 ⟨((i 0).val / 256 * 1 + (i 1).val / 512) * 8 + 7, by omega⟩
  intro a
  match a with
  | ⟨0, _⟩ =>
    show win7_2.index ⟨((i 0).val / 256 * 1 + (i 1).val / 512) * 8 + 7, _⟩ (0 : Fin 2) * 256 ≤ (i 0).val
      ∧ (i 0).val < win7_2.index ⟨((i 0).val / 256 * 1 + (i 1).val / 512) * 8 + 7, _⟩ (0 : Fin 2) * 256 + 256
    rw [e4]; show (((i 0).val / 256 * 1 + (i 1).val / 512) * 8 + 7) / 8 / 1 * 256 ≤ (i 0).val
      ∧ (i 0).val < (((i 0).val / 256 * 1 + (i 1).val / 512) * 8 + 7) / 8 / 1 * 256 + 256
    omega
  | ⟨1, _⟩ =>
    show win7_2.index ⟨((i 0).val / 256 * 1 + (i 1).val / 512) * 8 + 7, _⟩ (1 : Fin 2) * 512 ≤ (i 1).val
      ∧ (i 1).val < win7_2.index ⟨((i 0).val / 256 * 1 + (i 1).val / 512) * 8 + 7, _⟩ (1 : Fin 2) * 512 + 512
    rw [e5]; show (((i 0).val / 256 * 1 + (i 1).val / 512) * 8 + 7) / 8 % 1 * 512 ≤ (i 1).val
      ∧ (i 1).val < (((i 0).val / 256 * 1 + (i 1).val / 512) * 8 + 7) / 8 % 1 * 512 + 512
    omega

theorem val7 (c : Dev nD) :
    ((dat7 (F := Ideal) V c).arrAt 2 cfg7.N : S4096x512.Idx → EReal) = Spec.mm (adj7 V c) (sup7 V c) :=
  (dat7 V c).arrAt_eq_of_cover 2 (Spec.mm (adj7 V c) (sup7 V c))
    (fun t hf => flushed7_eq V c t ((flush7_2 t).mp hf)) (cover7)

end Cert.ReferenceIdeal.Val

end
-- ==== Proof.RI.Val8.lean ====
import proofs.«121997_g2000006886080560_pallasbulk_379_4_alg».proof.Proof.RI.R8
import proofs.«121997_g2000006886080560_pallasbulk_379_4_alg».proof.Proof.RI.Val7

noncomputable section

open scoped BigOperators

namespace Cert.ReferenceIdeal.Val

open Cert.ReferenceIdeal Cert.ReferenceIdeal.Gen Cert.ReferenceIdeal.Rg
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem npts8 : cfg8.N = 128 := by decide

theorem idx_facts8 : ∀ t : Fin cfg8.N, win8_0.index t (0 : Fin 2) = t.val / 8 / 1 ∧ win8_0.index t (1 : Fin 2) = t.val % 8
    ∧ win8_1.index t (0 : Fin 2) = t.val % 8 ∧ win8_1.index t (1 : Fin 2) = t.val / 8 % 1
    ∧ win8_2.index t (0 : Fin 2) = t.val / 8 / 1 ∧ win8_2.index t (1 : Fin 2) = t.val / 8 % 1 :=
  (by decide +kernel : ∀ t : Fin grid8.N, _)

abbrev adj8 (c : Dev nD) : Spec.Mat 4096 4096 := V c main_arg1

abbrev sup8 (c : Dev nD) : Spec.Mat 4096 512 := V c main_v7

def term8 (c : Dev nD) (r : Fin 4096) (s : Fin 512) : Fin 4096 → EReal :=
  fun k => adj8 V c (ix2 r k) * sup8 V c (ix2 k s)

theorem blk8_0_apply (c : Dev nD) (t : Fin cfg8.N) (p : Fin 256) (kk : Fin 512) (r : Fin 4096) (k : Fin 4096)
    (hr : r.val = t.val / 8 / 1 * 256 + p.val) (hk : k.val = t.val % 8 * 512 + kk.val) :
    (iblk8 (F := Ideal) V c 0 t : Vec Ideal S256x512 .f32) (ix2 p kk) = adj8 V c (ix2 r k) := by
  obtain ⟨e0, e1, -⟩ := idx_facts8 t
  unfold iblk8
  rw [View.read_apply]
  show V c main_arg1 (((cfg8.win 0).blk t).view.emb (ix2 p kk)) = V c main_arg1 (ix2 r k)
  refine congrArg _ (funext fun a => Fin.ext ?_)
  match a with
  | ⟨0, _⟩ => show win8_0.index t (0 : Fin 2) * 256 + 1 * p.val = r.val; omega
  | ⟨1, _⟩ => show win8_0.index t (1 : Fin 2) * 512 + 1 * kk.val = k.val; omega

theorem blk8_1_apply (c : Dev nD) (t : Fin cfg8.N) (kk : Fin 512) (q : Fin 512) (k : Fin 4096) (s : Fin 512)
    (hk : k.val = t.val % 8 * 512 + kk.val) (hs : s.val = t.val / 8 % 1 * 512 + q.val) :
    (iblk8 (F := Ideal) V c 1 t : Vec Ideal S512x512 .f32) (ix2 kk q) = sup8 V c (ix2 k s) := by
  obtain ⟨-, -, e2, e3, -⟩ := idx_facts8 t
  unfold iblk8
  rw [View.read_apply]
  show V c main_v7 (((cfg8.win 1).blk t).view.emb (ix2 kk q)) = V c main_v7 (ix2 k s)
  refine congrArg _ (funext fun a => Fin.ext ?_)
  match a with
  | ⟨0, _⟩ => show win8_1.index t (0 : Fin 2) * 512 + 1 * kk.val = k.val; omega
  | ⟨1, _⟩ => show win8_1.index t (1 : Fin 2) * 512 + 1 * q.val = s.val; omega

theorem acc8_eq (c : Dev nD) : ∀ (n : ℕ) (hn : n < cfg8.N) (p : Fin 256) (q : Fin 512) (r : Fin 4096) (s : Fin 512),
    r.val = n / 8 / 1 * 256 + p.val → s.val = n / 8 % 1 * 512 + q.val →
    (accAt8 (F := Ideal) V c n hn : Vec Ideal S256x512 .f32) (ix2 p q)
      = Spec.accN (Spec.blockSum (term8 V c r s)) (n % 8) := by
  have first : ∀ (t : Fin cfg8.N), t.val % 8 = 0 → ∀ (p : Fin 256) (q : Fin 512) (r : Fin 4096) (s : Fin 512),
      r.val = t.val / 8 / 1 * 256 + p.val → s.val = t.val / 8 % 1 * 512 + q.val →
      (accAt8 (F := Ideal) V c t.val t.isLt : Vec Ideal S256x512 .f32) (ix2 p q)
        = Spec.accN (Spec.blockSum (term8 V c r s)) (t.val % 8) := by
    intro t h0 p q r s hr hs
    have h8 : t.val % 8 < 8 := Nat.mod_lt _ (by decide)
    refine (congrFun (accAt8_first V c t h0) (ix2 p q)).trans ?_
    refine (upd7_spec (k8_pay1 (F := Ideal)) (iblk8 V c 0 t) (iblk8 V c 1 t) (adj8 V c) (sup8 V c) p q r s (t.val % 8) h8 0
      (pay7a_apply p q) (fun kk => blk8_0_apply V c t p kk r _ hr rfl) (fun kk => blk8_1_apply V c t kk q _ s rfl hs)).trans ?_
    exact Spec.accN_first (Spec.blockSum (term8 V c r s)) (t.val % 8) h0
  intro n
  induction n with
  | zero => intro hn p q r s hr hs; exact first ⟨0, hn⟩ rfl p q r s hr hs
  | succ n ih =>
    intro hn p q r s hr hs
    by_cases h0 : (n + 1) % 8 = 0
    · exact first ⟨n + 1, hn⟩ h0 p q r s hr hs
    · have h8 : (n + 1) % 8 < 8 := Nat.mod_lt _ (by decide)
      have hm : (n + 1) % 8 = n % 8 + 1 := by omega
      have e := ih (Nat.lt_of_succ_lt hn) p q r s (by omega) (by omega)
      refine (congrFun (accAt8_step V c ⟨n + 1, hn⟩ h0) (ix2 p q)).trans ?_
      refine (upd7_spec _ (iblk8 V c 0 ⟨n + 1, hn⟩) (iblk8 V c 1 ⟨n + 1, hn⟩) (adj8 V c) (sup8 V c) p q r s ((n + 1) % 8) h8
        (Spec.accN (Spec.blockSum (term8 V c r s)) (n % 8)) e
        (fun kk => blk8_0_apply V c ⟨n + 1, hn⟩ p kk r _ hr rfl) (fun kk => blk8_1_apply V c ⟨n + 1, hn⟩ kk q _ s rfl hs)).trans ?_
      exact Spec.accN_step (Spec.blockSum (term8 V c r s)) ((n + 1) % 8) (n % 8) hm

theorem flushed8_eq (c : Dev nD) (t : Fin cfg8.N) (h7 : t.val % 8 = 7) :
    (dat8 (F := Ideal) V c).flushed 2 t
      = ((cfg8.win 2).blk t).view.read (Elt Ideal) (Spec.mm (adj8 V c) (sup8 V c)) := by
  show (cfg8.win 2).cut (grid8.coords t) ((dat8 V c).after 2 t) = _
  rw [after8_2]
  obtain ⟨-, -, -, -, e4, e5⟩ := idx_facts8 t
  have hN := npts8
  have ht : t.val < 128 := hN ▸ t.isLt
  funext j
  have hp : (j 0).val < 256 := (j 0).isLt
  have hq : (j 1).val < 512 := (j 1).isLt
  have r0 : ((((cfg8.win 2).blk t).view.emb j) 0).val = win8_2.index t (0 : Fin 2) * 256 + 1 * (j 0).val := rfl
  have r1 : ((((cfg8.win 2).blk t).view.emb j) 1).val = win8_2.index t (1 : Fin 2) * 512 + 1 * (j 1).val := rfl
  have hj : (win8 2).xinj (grid8.coords t) j = ix2 (⟨(j 0).val, hp⟩ : Fin 256) (⟨(j 1).val, hq⟩ : Fin 512) :=
    funext fun a => Fin.ext (by match a with | ⟨0, _⟩ => rfl | ⟨1, _⟩ => rfl)
  have hr : t.val / 8 / 1 * 256 + (j 0).val < 4096 := by omega
  have hs : t.val / 8 % 1 * 512 + (j 1).val < 512 := by omega
  have hi : ((cfg8.win 2).blk t).view.emb j
      = ix2 (⟨t.val / 8 / 1 * 256 + (j 0).val, hr⟩ : Fin 4096) (⟨t.val / 8 % 1 * 512 + (j 1).val, hs⟩ : Fin 512) :=
    funext fun a => Fin.ext (by
      match a with
      | ⟨0, _⟩ => show ((((cfg8.win 2).blk t).view.emb j) 0).val = t.val / 8 / 1 * 256 + (j 0).val; omega
      | ⟨1, _⟩ => show ((((cfg8.win 2).blk t).view.emb j) 1).val = t.val / 8 % 1 * 512 + (j 1).val; omega)
  show (accAt8 (F := Ideal) V c t.val t.isLt : Vec Ideal S256x512 .f32) ((win8 2).xinj (grid8.coords t) j)
    = Spec.mm (adj8 V c) (sup8 V c) (((cfg8.win 2).blk t).view.emb j)
  refine (congrArg (accAt8 (F := Ideal) V c t.val t.isLt : Vec Ideal S256x512 .f32) hj).trans ?_
  refine Eq.trans ?_ (congrArg (Spec.mm (adj8 V c) (sup8 V c)) hi.symm)
  refine (acc8_eq V c t.val t.isLt ⟨(j 0).val, hp⟩ ⟨(j 1).val, hq⟩ ⟨t.val / 8 / 1 * 256 + (j 0).val, hr⟩
    ⟨t.val / 8 % 1 * 512 + (j 1).val, hs⟩ rfl rfl).trans ?_
  rw [h7]
  exact (Spec.sum_4096_eq_accN_blockSum (term8 V c ⟨t.val / 8 / 1 * 256 + (j 0).val, hr⟩ ⟨t.val / 8 % 1 * 512 + (j 1).val, hs⟩)).symm

theorem mem_blk8 (t : Fin cfg8.N) (i : S4096x512.Idx) :
    i ∈ ((cfg8.win 2).blk t).view.set ↔ ∀ a : Fin 2, win8_2.index t a * S256x512.size a ≤ (i a).val
      ∧ (i a).val < win8_2.index t a * S256x512.size a + S256x512.size a := by
  show i ∈ ((View.whole main_v8).slice (win8_2.rect t)).set ↔ _
  rw [View.set_slice_whole, Rect.mem_set_unit]
  exact Iff.rfl

theorem cover8 (i : S4096x512.Idx) :
    ∃ t : Fin cfg8.N, (cfg8.win 2).flush t = true ∧ i ∈ ((cfg8.win 2).blk t).view.set := by
  have h0 : (i 0).val < 4096 := (i 0).isLt
  have h1 : (i 1).val < 512 := (i 1).isLt
  have hN := npts8
  refine ⟨⟨((i 0).val / 256 * 1 + (i 1).val / 512) * 8 + 7, by omega⟩, (flush8_2 _).mpr (by show (((i 0).val / 256 * 1 + (i 1).val / 512) * 8 + 7) % 8 = 7; omega), ?_⟩
  rw [mem_blk8]
  obtain ⟨-, -, -, -, e4, e5⟩ := idx_facts8 ⟨((i 0).val / 256 * 1 + (i 1).val / 512) * 8 + 7, by omega⟩
  intro a
  match a with
  | ⟨0, _⟩ =>
    show win8_2.index ⟨((i 0).val / 256 * 1 + (i 1).val / 512) * 8 + 7, _⟩ (0 : Fin 2) * 256 ≤ (i 0).val
      ∧ (i 0).val < win8_2.index ⟨((i 0).val / 256 * 1 + (i 1).val / 512) * 8 + 7, _⟩ (0 : Fin 2) * 256 + 256
    rw [e4]; show (((i 0).val / 256 * 1 + (i 1).val / 512) * 8 + 7) / 8 / 1 * 256 ≤ (i 0).val
      ∧ (i 0).val < (((i 0).val / 256 * 1 + (i 1).val / 512) * 8 + 7) / 8 / 1 * 256 + 256
    omega
  | ⟨1, _⟩ =>
    show win8_2.index ⟨((i 0).val / 256 * 1 + (i 1).val / 512) * 8 + 7, _⟩ (1 : Fin 2) * 512 ≤ (i 1).val
      ∧ (i 1).val < win8_2.index ⟨((i 0).val / 256 * 1 + (i 1).val / 512) * 8 + 7, _⟩ (1 : Fin 2) * 512 + 512
    rw [e5]; show (((i 0).val / 256 * 1 + (i 1).val / 512) * 8 + 7) / 8 % 1 * 512 ≤ (i 1).val
      ∧ (i 1).val < (((i 0).val / 256 * 1 + (i 1).val / 512) * 8 + 7) / 8 % 1 * 512 + 512
    omega

theorem val8 (c : Dev nD) :
    ((dat8 (F := Ideal) V c).arrAt 2 cfg8.N : S4096x512.Idx → EReal) = Spec.mm (adj8 V c) (sup8 V c) :=
  (dat8 V c).arrAt_eq_of_cover 2 (Spec.mm (adj8 V c) (sup8 V c))
    (fun t hf => flushed8_eq V c t ((flush8_2 t).mp hf)) (cover8)

end Cert.ReferenceIdeal.Val

end
-- ==== Proof.RI.Val9.lean ====
import proofs.«121997_g2000006886080560_pallasbulk_379_4_alg».proof.Proof.RI.R9
import proofs.«121997_g2000006886080560_pallasbulk_379_4_alg».proof.Proof.Spec
import Idealize.ShloMosaic.Lib.Pipeline.Value
import Idealize.ShloMosaic.PureOps.Ideal.Laws
import Idealize.ShloMosaic.Lib.ValueIdx
import Idealize.ShloMosaic.Lib.StackMember

noncomputable section

open scoped BigOperators

namespace Cert.ReferenceIdeal.Val

open Cert.ReferenceIdeal Cert.ReferenceIdeal.Gen Cert.ReferenceIdeal.Rg
open Idealize.ShloMosaic Idealize.ShloMosaic.TcCoe Idealize.ShloMosaic.ValueIdx Idealize.SL.Sem
open Idealize.ShloMosaic.Pipeline (Dat)

theorem matmul9_apply (a : FVec Ideal S256x512 .f32) (b : FVec Ideal S512x512 .f32) (p : Fin 256) (q : Fin 512) :
    matmul dot_S256x512_S512x512_S256x512_1_0_0_1_n_n none a b (constant (F := Ideal) S256x512 .f32 0x00000000#32) (ix2 p q)
      = ∑ k : Fin 512, a (ix2 p k) * b (ix2 k q) :=
  (congrFun (matmul_zero_eq_dotGeneral _ none a b) _).trans (StackMember.dotGeneral_plain_apply none a b p q)

abbrev post9 (x : EReal) : EReal := Ideal.logistic x

def valfn9 (a : Spec.Mat 4096 512) (b : Spec.Mat 512 4096) : Spec.Mat 4096 4096 := fun j => post9 (Spec.mm a b j)

theorem pay9_apply (x0 : Vec Ideal S256x512 .f32) (x1 : Vec Ideal S512x512 .f32) (p : Fin 256) (q : Fin 512) :
    k9_pay1 x0 x1 (ix2 p q) = post9 (∑ k : Fin 512, x0 (ix2 p k) * x1 (ix2 k q)) := by
  simp only [k9_pay1, shapeCast_self]
  exact congrArg post9 (matmul9_apply x0 x1 p q)

theorem pay9_spec (x0 : Vec Ideal S256x512 .f32) (x1 : Vec Ideal S512x512 .f32) (a : Spec.Mat 4096 512) (b : Spec.Mat 512 4096)
    (p : Fin 256) (q : Fin 512) (r : Fin 4096) (s : Fin 4096)
    (hx : ∀ k : Fin 512, x0 (ix2 p k) = a (ix2 r k)) (hw : ∀ k : Fin 512, x1 (ix2 k q) = b (ix2 k s)) :
    k9_pay1 x0 x1 (ix2 p q) = valfn9 a b (ix2 r s) := by
  rw [pay9_apply]
  show post9 _ = post9 (Spec.mm a b (ix2 r s))
  rw [Spec.mm_ix2]
  exact congrArg post9 (Finset.sum_congr rfl fun k _ => by rw [hx k, hw k])

variable (V : (c : Dev nD) → (b : Ref sig .tc) → Buf (Elt Ideal) ((c : Thread nD τ).loc b))

theorem npts9 : cfg9.N = 128 := by decide

theorem idx_facts9 : ∀ t : Fin cfg9.N, win9_0.index t (0 : Fin 2) = t.val / 8 ∧ win9_0.index t (1 : Fin 2) = 0
    ∧ win9_1.index t (0 : Fin 2) = 0 ∧ win9_1.index t (1 : Fin 2) = t.val % 8
    ∧ win9_2.index t (0 : Fin 2) = t.val / 8 ∧ win9_2.index t (1 : Fin 2) = t.val % 8 :=
  (by decide +kernel : ∀ t : Fin grid9.N, _)

theorem blk9_0_apply (c : Dev nD) (t : Fin cfg9.N) (p : Fin 256) (k : Fin 512) (r : Fin 4096)
    (hr : r.val = t.val / 8 * 256 + p.val) :
    (iblk9 (F := Ideal) V c 0 t : Vec Ideal S256x512 .f32) (ix2 p k) = (V c main_v7 : Spec.Mat 4096 512) (ix2 r k) := by
  obtain ⟨e0, e1, -⟩ := idx_facts9 t
  unfold iblk9
  rw [View.read_apply]
  show V c main_v7 (((cfg9.win 0).blk t).view.emb (ix2 p k)) = V c main_v7 (ix2 r k)
  refine congrArg _ (funext fun a => Fin.ext ?_)
  match a with
  | ⟨0, _⟩ => show win9_0.index t (0 : Fin 2) * 256 + 1 * p.val = r.val; omega
  | ⟨1, _⟩ => show win9_0.index t (1 : Fin 2) * 512 + 1 * k.val = k.val; omega

theorem blk9_1_apply (c : Dev nD) (t : Fin cfg9.N) (k : Fin 512) (q : Fin 512) (s : Fin 4096)
    (hs : s.val = t.val % 8 * 512 + q.val) :
    (iblk9 (F := Ideal) V c 1 t : Vec Ideal S512x512 .f32) (ix2 k q) = (V c main_v9 : Spec.Mat 512 4096) (ix2 k s) := by
  obtain ⟨-, -, e2, e3, -⟩ := idx_facts9 t
  unfold iblk9
  rw [View.read_apply]
  show V c main_v9 (((cfg9.win 1).blk t).view.emb (ix2 k q)) = V c main_v9 (ix2 k s)
  refine congrArg _ (funext fun a => Fin.ext ?_)
  match a with
  | ⟨0, _⟩ => show win9_1.index t (0 : Fin 2) * 512 + 1 * k.val = k.val; omega
  | ⟨1, _⟩ => show win9_1.index t (1 : Fin 2) * 512 + 1 * q.val = s.val; omega

theorem flushed9_eq (c : Dev nD) (t : Fin cfg9.N) :
    (dat9 (F := Ideal) V c).flushed 2 t
      = ((cfg9.win 2).blk t).view.read (Elt Ideal) (valfn9 (V c main_v7) (V c main_v9)) := by
  show (cfg9.win 2).cut (grid9.coords t) ((dat9 V c).after 2 t) = _
  rw [after9_2]
  unfold out9_2
  rw [View.canon_unit_zero Spec.hz]
  simp only [View.ld_unit_zero (S := S256x512) Spec.hz, View.ld_unit_zero (S := S512x512) Spec.hz]
  obtain ⟨-, -, -, -, e4, e5⟩ := idx_facts9 t
  have hN := npts9
  have ht : t.val < 128 := hN ▸ t.isLt
  funext j
  have hp : (j 0).val < 256 := (j 0).isLt
  have hq : (j 1).val < 512 := (j 1).isLt
  have r0 : ((((cfg9.win 2).blk t).view.emb j) 0).val = win9_2.index t (0 : Fin 2) * 256 + 1 * (j 0).val := rfl
  have r1 : ((((cfg9.win 2).blk t).view.emb j) 1).val = win9_2.index t (1 : Fin 2) * 512 + 1 * (j 1).val := rfl
  have hj : (win9 2).xinj (grid9.coords t) j = ix2 (⟨(j 0).val, hp⟩ : Fin 256) (⟨(j 1).val, hq⟩ : Fin 512) :=
    funext fun a => Fin.ext (by match a with | ⟨0, _⟩ => rfl | ⟨1, _⟩ => rfl)
  have hi : ((cfg9.win 2).blk t).view.emb j
      = ix2 (⟨t.val / 8 * 256 + (j 0).val, by omega⟩ : Fin 4096) (⟨t.val % 8 * 512 + (j 1).val, by omega⟩ : Fin 4096) :=
    funext fun a => Fin.ext (by
      match a with
      | ⟨0, _⟩ => show ((((cfg9.win 2).blk t).view.emb j) 0).val = t.val / 8 * 256 + (j 0).val; omega
      | ⟨1, _⟩ => show ((((cfg9.win 2).blk t).view.emb j) 1).val = t.val % 8 * 512 + (j 1).val; omega)
  show k9_pay1 (iblk9 V c 0 t) (iblk9 V c 1 t) ((win9 2).xinj (grid9.coords t) j)
    = valfn9 (V c main_v7) (V c main_v9) (((cfg9.win 2).blk t).view.emb j)
  refine (congrArg (k9_pay1 (iblk9 V c 0 t) (iblk9 V c 1 t)) hj).trans ?_
  refine Eq.trans ?_ (congrArg (valfn9 (V c main_v7) (V c main_v9)) hi.symm)
  exact pay9_spec (iblk9 V c 0 t) (iblk9 V c 1 t) (V c main_v7) (V c main_v9) _ _ _ _
    (fun k => blk9_0_apply V c t _ k _ rfl) (fun k => blk9_1_apply V c t k _ _ rfl)

theorem mem_blk9 (t : Fin cfg9.N) (i : S4096x4096.Idx) :
    i ∈ ((cfg9.win 2).blk t).view.set ↔ ∀ a : Fin 2, win9_2.index t a * S256x512.size a ≤ (i a).val
      ∧ (i a).val < win9_2.index t a * S256x512.size a + S256x512.size a := by
  show i ∈ ((View.whole main_v10).slice (win9_2.rect t)).set ↔ _
  rw [View.set_slice_whole, Rect.mem_set_unit]
  exact Iff.rfl

theorem cover9 (i : S4096x4096.Idx) :
    ∃ t : Fin cfg9.N, (cfg9.win 2).flush t = true ∧ i ∈ ((cfg9.win 2).blk t).view.set := by
  have h0 : (i 0).val < 4096 := (i 0).isLt
  have h1 : (i 1).val < 4096 := (i 1).isLt
  have hN := npts9
  refine ⟨⟨(i 0).val / 256 * 8 + (i 1).val / 512, by omega⟩, flush9_2 _, ?_⟩
  rw [mem_blk9]
  obtain ⟨-, -, -, -, e4, e5⟩ := idx_facts9 ⟨(i 0).val / 256 * 8 + (i 1).val / 512, by omega⟩
  intro a
  match a with
  | ⟨0, _⟩ =>
    show win9_2.index ⟨(i 0).val / 256 * 8 + (i 1).val / 512, _⟩ (0 : Fin 2) * 256 ≤ (i 0).val
      ∧ (i 0).val < win9_2.index ⟨(i 0).val / 256 * 8 + (i 1).val / 512, _⟩ (0 : Fin 2) * 256 + 256
    rw [e4]; show ((i 0).val / 256 * 8 + (i 1).val / 512) / 8 * 256 ≤ (i 0).val
      ∧ (i 0).val < ((i 0).val / 256 * 8 + (i 1).val / 512) / 8 * 256 + 256
    omega
  | ⟨1, _⟩ =>
    show win9_2.index ⟨(i 0).val / 256 * 8 + (i 1).val / 512, _⟩ (1 : Fin 2) * 512 ≤ (i 1).val
      ∧ (i 1).val < win9_2.index ⟨(i 0).val / 256 * 8 + (i 1).val / 512, _⟩ (1 : Fin 2) * 512 + 512
    rw [e5]; show ((i 0).val / 256 * 8 + (i 1).val / 512) % 8 * 512 ≤ (i 1).val
      ∧ (i 1).val < ((i 0).val / 256 * 8 + (i 1).val / 512) % 8 * 512 + 512
    omega

theorem val9 (c : Dev nD) :
    ((dat9 (F := Ideal) V c).arrAt 2 cfg9.N : S4096x4096.Idx → EReal)
      = fun j => post9 (Spec.mm (V c main_v7) (V c main_v9) j) :=
  (dat9 V c).arrAt_eq_of_cover 2 (valfn9 (V c main_v7) (V c main_v9)) (fun t _ => flushed9_eq V c t) cover9

end Cert.ReferenceIdeal.Val

end
-- ==== Proof.RI.Compose.lean ====
import proofs.«121997_g2000006886080560_pallasbulk_379_4_alg».proof.Proof.RI.Run
import proofs.«121997_g2000006886080560_pallasbulk_379_4_alg».proof.Proof.Model
import proofs.«121997_g2000006886080560_pallasbulk_379_4_alg».proof.Proof.RI.Val0
import proofs.«121997_g2000006886080560_pallasbulk_379_4_alg».proof.Proof.RI.Val1
import proofs.«121997_g2000006886080560_pallasbulk_379_4_alg».proof.Proof.RI.Val2
import proofs.«121997_g2000006886080560_pallasbulk_379_4_alg».proof.Proof.RI.Val3
import proofs.«121997_g2000006886080560_pallasbulk_379_4_alg».proof.Proof.RI.Val4
import proofs.«121997_g2000006886080560_pallasbulk_379_4_alg».proof.Proof.RI.Val5
import proofs.«121997_g2000006886080560_pallasbulk_379_4_alg».proof.Proof.RI.Val6
import proofs.«121997_g2000006886080560_pallasbulk_379_4_alg».proof.Proof.RI.Val7
import proofs.«121997_g2000006886080560_pallasbulk_379_4_alg».proof.Proof.RI.Val8
import proofs.«121997_g2000006886080560_pallasbulk_379_4_alg».proof.Proof.RI.Val9
import Idealize.ShloMosaic.Lib.Pipeline.Value
import Idealize.ShloMosaic.Lib.ValueLayout
import Idealize.ShloMosaic.PureOps.Ideal.Laws
import Idealize.ShloMosaic.Lib.ValueIdx

noncomputable section

open scoped BigOperators

namespace Cert.ReferenceIdeal.Val

open Cert.ReferenceIdeal Cert.ReferenceIdeal.Gen Cert.ReferenceIdeal.Rg
open Idealize.ShloMosaic Idealize.ShloMosaic.TcCoe Idealize.ShloMosaic.ValueIdx Idealize.SL.Sem
open Idealize.ShloMosaic.Pipeline (Dat)

theorem mm_tr {M K N : Nat} (a : Spec.Mat M K) (b : Spec.Mat N K) (bt : Spec.Mat K N)
    (h : ∀ (k : Fin K) (q : Fin N), bt (ix2 k q) = b (ix2 q k)) : Spec.mm a bt = Spec.mmT a b :=
  funext fun j => by
    unfold Spec.mm Spec.mmT
    exact Finset.sum_congr rfl fun k _ => congrArg (fun z => a (ix2 (j 0) k) * z) (h k (j 1))

variable (m : (ℓ : Loc nD τ sig) → Buf (Elt Ideal) ℓ)

theorem out0 : ∀ w : Fin cfg0.W, (cfg0.win w).isOut = true → Pipeline.arrRef spec0 w = main_v0 := by decide
theorem out1 : ∀ w : Fin cfg1.W, (cfg1.win w).isOut = true → Pipeline.arrRef spec1 w = main_v1 := by decide
theorem out2 : ∀ w : Fin cfg2.W, (cfg2.win w).isOut = true → Pipeline.arrRef spec2 w = main_v2 := by decide
theorem out3 : ∀ w : Fin cfg3.W, (cfg3.win w).isOut = true → Pipeline.arrRef spec3 w = main_v3 := by decide
theorem out4 : ∀ w : Fin cfg4.W, (cfg4.win w).isOut = true → Pipeline.arrRef spec4 w = main_v4 := by decide
theorem out5 : ∀ w : Fin cfg5.W, (cfg5.win w).isOut = true → Pipeline.arrRef spec5 w = main_v5 := by decide
theorem out6 : ∀ w : Fin cfg6.W, (cfg6.win w).isOut = true → Pipeline.arrRef spec6 w = main_v6 := by decide
theorem out7 : ∀ w : Fin cfg7.W, (cfg7.win w).isOut = true → Pipeline.arrRef spec7 w = main_v7 := by decide
theorem out8 : ∀ w : Fin cfg8.W, (cfg8.win w).isOut = true → Pipeline.arrRef spec8 w = main_v8 := by decide
theorem out9 : ∀ w : Fin cfg9.W, (cfg9.win w).isOut = true → Pipeline.arrRef spec9 w = main_v10 := by decide

theorem step0 (c : Dev nD) (b : Ref sig .tc) (hb : b ≠ main_v0) : rd (W1 m) c b = rd (W0 m) c b :=
  Step.keep dat0 launch0.win.arr_inj A_eq0 (W0 m) c b fun w hw e => hb (e.symm.trans (out0 w hw))
theorem step1 (c : Dev nD) (b : Ref sig .tc) (hb : b ≠ main_v1) : rd (W2 m) c b = rd (W1 m) c b :=
  Step.keep dat1 launch1.win.arr_inj A_eq1 (W1 m) c b fun w hw e => hb (e.symm.trans (out1 w hw))
theorem step2 (c : Dev nD) (b : Ref sig .tc) (hb : b ≠ main_v2) : rd (W3 m) c b = rd (W2 m) c b :=
  Step.keep dat2 launch2.win.arr_inj A_eq2 (W2 m) c b fun w hw e => hb (e.symm.trans (out2 w hw))
theorem step3 (c : Dev nD) (b : Ref sig .tc) (hb : b ≠ main_v3) : rd (W4 m) c b = rd (W3 m) c b :=
  Step.keep dat3 launch3.win.arr_inj A_eq3 (W3 m) c b fun w hw e => hb (e.symm.trans (out3 w hw))
theorem step4 (c : Dev nD) (b : Ref sig .tc) (hb : b ≠ main_v4) : rd (W5 m) c b = rd (W4 m) c b :=
  Step.keep dat4 launch4.win.arr_inj A_eq4 (W4 m) c b fun w hw e => hb (e.symm.trans (out4 w hw))
theorem step5 (c : Dev nD) (b : Ref sig .tc) (hb : b ≠ main_v5) : rd (W6 m) c b = rd (W5 m) c b :=
  Step.keep dat5 launch5.win.arr_inj A_eq5 (W5 m) c b fun w hw e => hb (e.symm.trans (out5 w hw))
theorem step6 (c : Dev nD) (b : Ref sig .tc) (hb : b ≠ main_v6) : rd (W7 m) c b = rd (W6 m) c b :=
  Step.keep dat6 launch6.win.arr_inj A_eq6 (W6 m) c b fun w hw e => hb (e.symm.trans (out6 w hw))
theorem step7 (c : Dev nD) (b : Ref sig .tc) (hb : b ≠ main_v7) : rd (W8 m) c b = rd (W7 m) c b :=
  Step.keep dat7 launch7.win.arr_inj A_eq7 (W7 m) c b fun w hw e => hb (e.symm.trans (out7 w hw))
theorem step8 (c : Dev nD) (b : Ref sig .tc) (hb : b ≠ main_v8) : rd (W9 m) c b = rd (W8 m) c b :=
  Step.keep dat8 launch8.win.arr_inj A_eq8 (W8 m) c b fun w hw e => hb (e.symm.trans (out8 w hw))
theorem step9 (c : Dev nD) (b : Ref sig .tc) (hb : b ≠ main_v10) : rd (W11 m) c b = rd (W10 m) c b :=
  Step.keep dat9 launch9.win.arr_inj A_eq9 (W10 m) c b fun w hw e => hb (e.symm.trans (out9 w hw))

abbrev hostW9 : List (Ref sig .tc) := [main_v9]
theorem hostW9_writes : (hostOps9 : List (HloOp τ sig (Elt Ideal))).Forall fun op => op.writes ⊆ (hostW9.map (Proc.devRef (τ := τ) .tc)).toFinset := by
  simp only [List.Forall]; exact (by simp only [StableHlo.unary_writes, Finset.singleton_subset_iff, List.mem_toFinset]; exact List.mem_map_of_mem (by decide))
theorem stepH (c : Dev nD) (b : Ref sig .tc) (hb : b ≠ main_v9) : rd (W10 m) c b = rd (W9 m) c b :=
  StableHlo.after_of_writes_sub hostOps9 _ (hostW9_writes) (fun h => hb (List.mem_singleton.mp h))

abbrev xin (c : Dev nD) : Spec.Mat 4096 128 := m ((c : Thread nD τ).loc main_arg0)
abbrev adj (c : Dev nD) : Spec.Mat 4096 4096 := m ((c : Thread nD τ).loc main_arg1)
abbrev w4in (c : Dev nD) : Spec.Mat 128 256 := m ((c : Thread nD τ).loc main_arg2)
abbrev w5in (c : Dev nD) : Spec.Mat 256 384 := m ((c : Thread nD τ).loc main_arg3)
abbrev w6in (c : Dev nD) : Spec.Mat 384 512 := m ((c : Thread nD τ).loc main_arg4)

abbrev written : List (Ref sig .tc) :=
  [main_v0, main_v1, main_v2, main_v3, main_v4, main_v5, main_v6, main_v7, main_v8, main_v9, main_v10]

theorem ne_of_not_mem {b x : Ref sig .tc} {l : List (Ref sig .tc)} (h : b ∉ l) (hx : x ∈ l) : b ≠ x :=
  fun e => h (e ▸ hx)

theorem kept1 (c : Dev nD) (b : Ref sig .tc) (h : b ∉ written) : rd (W1 m) c b = m ((c : Thread nD τ).loc b) :=
  (step0 m c b (ne_of_not_mem h (by decide))).trans rfl
theorem kept2 (c : Dev nD) (b : Ref sig .tc) (h : b ∉ written) : rd (W2 m) c b = m ((c : Thread nD τ).loc b) :=
  (step1 m c b (ne_of_not_mem h (by decide))).trans (kept1 m c b h)
theorem kept3 (c : Dev nD) (b : Ref sig .tc) (h : b ∉ written) : rd (W3 m) c b = m ((c : Thread nD τ).loc b) :=
  (step2 m c b (ne_of_not_mem h (by decide))).trans (kept2 m c b h)
theorem kept4 (c : Dev nD) (b : Ref sig .tc) (h : b ∉ written) : rd (W4 m) c b = m ((c : Thread nD τ).loc b) :=
  (step3 m c b (ne_of_not_mem h (by decide))).trans (kept3 m c b h)
theorem kept5 (c : Dev nD) (b : Ref sig .tc) (h : b ∉ written) : rd (W5 m) c b = m ((c : Thread nD τ).loc b) :=
  (step4 m c b (ne_of_not_mem h (by decide))).trans (kept4 m c b h)
theorem kept6 (c : Dev nD) (b : Ref sig .tc) (h : b ∉ written) : rd (W6 m) c b = m ((c : Thread nD τ).loc b) :=
  (step5 m c b (ne_of_not_mem h (by decide))).trans (kept5 m c b h)
theorem kept7 (c : Dev nD) (b : Ref sig .tc) (h : b ∉ written) : rd (W7 m) c b = m ((c : Thread nD τ).loc b) :=
  (step6 m c b (ne_of_not_mem h (by decide))).trans (kept6 m c b h)
theorem kept8 (c : Dev nD) (b : Ref sig .tc) (h : b ∉ written) : rd (W8 m) c b = m ((c : Thread nD τ).loc b) :=
  (step7 m c b (ne_of_not_mem h (by decide))).trans (kept7 m c b h)

theorem tail10 (c : Dev nD) (b : Ref sig .tc) (h : b ∉ ([main_v10] : List (Ref sig .tc))) :
    rd (W11 m) c b = rd (W10 m) c b :=
  step9 m c b (ne_of_not_mem h (by decide))
theorem tail9 (c : Dev nD) (b : Ref sig .tc) (h : b ∉ ([main_v9, main_v10] : List (Ref sig .tc))) :
    rd (W11 m) c b = rd (W9 m) c b :=
  (tail10 m c b fun hm => h (List.mem_cons_of_mem _ hm)).trans (stepH m c b (ne_of_not_mem h (by decide)))
theorem tail8 (c : Dev nD) (b : Ref sig .tc) (h : b ∉ ([main_v8, main_v9, main_v10] : List (Ref sig .tc))) :
    rd (W11 m) c b = rd (W8 m) c b :=
  (tail9 m c b fun hm => h (List.mem_cons_of_mem _ hm)).trans (step8 m c b (ne_of_not_mem h (by decide)))
theorem tail7 (c : Dev nD) (b : Ref sig .tc) (h : b ∉ ([main_v7, main_v8, main_v9, main_v10] : List (Ref sig .tc))) :
    rd (W11 m) c b = rd (W7 m) c b :=
  (tail8 m c b fun hm => h (List.mem_cons_of_mem _ hm)).trans (step7 m c b (ne_of_not_mem h (by decide)))
theorem tail6 (c : Dev nD) (b : Ref sig .tc) (h : b ∉ ([main_v6, main_v7, main_v8, main_v9, main_v10] : List (Ref sig .tc))) :
    rd (W11 m) c b = rd (W6 m) c b :=
  (tail7 m c b fun hm => h (List.mem_cons_of_mem _ hm)).trans (step6 m c b (ne_of_not_mem h (by decide)))
theorem tail5 (c : Dev nD) (b : Ref sig .tc) (h : b ∉ ([main_v5, main_v6, main_v7, main_v8, main_v9, main_v10] : List (Ref sig .tc))) :
    rd (W11 m) c b = rd (W5 m) c b :=
  (tail6 m c b fun hm => h (List.mem_cons_of_mem _ hm)).trans (step5 m c b (ne_of_not_mem h (by decide)))
theorem tail4 (c : Dev nD) (b : Ref sig .tc) (h : b ∉ ([main_v4, main_v5, main_v6, main_v7, main_v8, main_v9, main_v10] : List (Ref sig .tc))) :
    rd (W11 m) c b = rd (W4 m) c b :=
  (tail5 m c b fun hm => h (List.mem_cons_of_mem _ hm)).trans (step4 m c b (ne_of_not_mem h (by decide)))
theorem tail3 (c : Dev nD) (b : Ref sig .tc) (h : b ∉ ([main_v3, main_v4, main_v5, main_v6, main_v7, main_v8, main_v9, main_v10] : List (Ref sig .tc))) :
    rd (W11 m) c b = rd (W3 m) c b :=
  (tail4 m c b fun hm => h (List.mem_cons_of_mem _ hm)).trans (step3 m c b (ne_of_not_mem h (by decide)))
theorem tail2 (c : Dev nD) (b : Ref sig .tc) (h : b ∉ ([main_v2, main_v3, main_v4, main_v5, main_v6, main_v7, main_v8, main_v9, main_v10] : List (Ref sig .tc))) :
    rd (W11 m) c b = rd (W2 m) c b :=
  (tail3 m c b fun hm => h (List.mem_cons_of_mem _ hm)).trans (step2 m c b (ne_of_not_mem h (by decide)))

structure Vals : Prop where
  r0 : ∀ (V : (c : Dev nD) → (b : Ref sig .tc) → Buf (Elt Ideal) ((c : Thread nD τ).loc b)) (c : Dev nD), ((dat0 (F := Ideal) V c).arrAt 2 cfg0.N : S4096x256.Idx → EReal)
      = Spec.tmm (M := 4096) (K := 128) (N := 256) (V c main_arg0) (V c main_arg2)
  r1 : ∀ (V : (c : Dev nD) → (b : Ref sig .tc) → Buf (Elt Ideal) ((c : Thread nD τ).loc b)) (c : Dev nD), ((dat1 (F := Ideal) V c).arrAt 2 cfg1.N : S4096x256.Idx → EReal)
      = Spec.mm (M := 4096) (K := 4096) (N := 256) (V c main_arg1) (V c main_v0)
  r2 : ∀ (V : (c : Dev nD) → (b : Ref sig .tc) → Buf (Elt Ideal) ((c : Thread nD τ).loc b)) (c : Dev nD), ((dat2 (F := Ideal) V c).arrAt 2 cfg2.N : S4096x256.Idx → EReal)
      = Spec.mm (M := 4096) (K := 4096) (N := 256) (V c main_arg1) (V c main_v1)
  r3 : ∀ (V : (c : Dev nD) → (b : Ref sig .tc) → Buf (Elt Ideal) ((c : Thread nD τ).loc b)) (c : Dev nD), ((dat3 (F := Ideal) V c).arrAt 2 cfg3.N : S4096x384.Idx → EReal)
      = Spec.tmm (M := 4096) (K := 256) (N := 384) (V c main_v1) (V c main_arg3)
  r4 : ∀ (V : (c : Dev nD) → (b : Ref sig .tc) → Buf (Elt Ideal) ((c : Thread nD τ).loc b)) (c : Dev nD), ((dat4 (F := Ideal) V c).arrAt 2 cfg4.N : S4096x384.Idx → EReal)
      = Spec.mm (M := 4096) (K := 4096) (N := 384) (V c main_arg1) (V c main_v3)
  r5 : ∀ (V : (c : Dev nD) → (b : Ref sig .tc) → Buf (Elt Ideal) ((c : Thread nD τ).loc b)) (c : Dev nD), ((dat5 (F := Ideal) V c).arrAt 2 cfg5.N : S4096x384.Idx → EReal)
      = Spec.mm (M := 4096) (K := 4096) (N := 384) (V c main_arg1) (V c main_v4)
  r6 : ∀ (V : (c : Dev nD) → (b : Ref sig .tc) → Buf (Elt Ideal) ((c : Thread nD τ).loc b)) (c : Dev nD), ((dat6 (F := Ideal) V c).arrAt 2 cfg6.N : S4096x512.Idx → EReal)
      = Spec.tmm (M := 4096) (K := 384) (N := 512) (V c main_v4) (V c main_arg4)
  r7 : ∀ (V : (c : Dev nD) → (b : Ref sig .tc) → Buf (Elt Ideal) ((c : Thread nD τ).loc b)) (c : Dev nD), ((dat7 (F := Ideal) V c).arrAt 2 cfg7.N : S4096x512.Idx → EReal)
      = Spec.mm (M := 4096) (K := 4096) (N := 512) (V c main_arg1) (V c main_v6)
  r8 : ∀ (V : (c : Dev nD) → (b : Ref sig .tc) → Buf (Elt Ideal) ((c : Thread nD τ).loc b)) (c : Dev nD), ((dat8 (F := Ideal) V c).arrAt 2 cfg8.N : S4096x512.Idx → EReal)
      = Spec.mm (M := 4096) (K := 4096) (N := 512) (V c main_arg1) (V c main_v7)
  r9 : ∀ (V : (c : Dev nD) → (b : Ref sig .tc) → Buf (Elt Ideal) ((c : Thread nD τ).loc b)) (c : Dev nD), ((dat9 (F := Ideal) V c).arrAt 2 cfg9.N : S4096x4096.Idx → EReal)
      = fun j => Ideal.logistic (Spec.mm (M := 4096) (K := 512) (N := 4096) (V c main_v7) (V c main_v9) j)

theorem v0_eq (hv : Vals) (c : Dev nD) : (rd (W1 m) c main_v0 : Spec.Mat 4096 256) = Spec.tmm (xin m c) (w4in m c) :=
  (Step.hF dat0 launch0.win.arr_inj (W0 m) c 2).symm.trans (hv.r0 (rd (W0 m)) c)

theorem v1_eq (hv : Vals) (c : Dev nD) : (rd (W2 m) c main_v1 : Spec.Mat 4096 256) = Spec.z1 (xin m c) (adj m c) (w4in m c) :=
  ((Step.hF dat1 launch1.win.arr_inj (W1 m) c 2).symm.trans (hv.r1 (rd (W1 m)) c)).trans
    (congrArg₂ (Spec.mm (M := 4096) (K := 4096) (N := 256)) (kept1 m c main_arg1 (by decide)) (v0_eq m hv c))

theorem v1_at3 (hv : Vals) (c : Dev nD) : (rd (W3 m) c main_v1 : Spec.Mat 4096 256) = Spec.z1 (xin m c) (adj m c) (w4in m c) :=
  (step2 m c main_v1 (by decide)).trans (v1_eq m hv c)

theorem v2_eq (hv : Vals) (c : Dev nD) : (rd (W3 m) c main_v2 : Spec.Mat 4096 256) = Spec.az1 (xin m c) (adj m c) (w4in m c) :=
  ((Step.hF dat2 launch2.win.arr_inj (W2 m) c 2).symm.trans (hv.r2 (rd (W2 m)) c)).trans
    (congrArg₂ (Spec.mm (M := 4096) (K := 4096) (N := 256)) (kept2 m c main_arg1 (by decide)) (v1_eq m hv c))

theorem v3_eq (hv : Vals) (c : Dev nD) :
    (rd (W4 m) c main_v3 : Spec.Mat 4096 384) = Spec.tmm (Spec.z1 (xin m c) (adj m c) (w4in m c)) (w5in m c) :=
  ((Step.hF dat3 launch3.win.arr_inj (W3 m) c 2).symm.trans (hv.r3 (rd (W3 m)) c)).trans
    (congrArg₂ (Spec.tmm (M := 4096) (K := 256) (N := 384)) (v1_at3 m hv c) (kept3 m c main_arg3 (by decide)))

theorem v4_eq (hv : Vals) (c : Dev nD) :
    (rd (W5 m) c main_v4 : Spec.Mat 4096 384) = Spec.z2 (xin m c) (adj m c) (w4in m c) (w5in m c) :=
  ((Step.hF dat4 launch4.win.arr_inj (W4 m) c 2).symm.trans (hv.r4 (rd (W4 m)) c)).trans
    (congrArg₂ (Spec.mm (M := 4096) (K := 4096) (N := 384)) (kept4 m c main_arg1 (by decide)) (v3_eq m hv c))

theorem v4_at6 (hv : Vals) (c : Dev nD) :
    (rd (W6 m) c main_v4 : Spec.Mat 4096 384) = Spec.z2 (xin m c) (adj m c) (w4in m c) (w5in m c) :=
  (step5 m c main_v4 (by decide)).trans (v4_eq m hv c)

theorem v5_eq (hv : Vals) (c : Dev nD) :
    (rd (W6 m) c main_v5 : Spec.Mat 4096 384) = Spec.az2 (xin m c) (adj m c) (w4in m c) (w5in m c) :=
  ((Step.hF dat5 launch5.win.arr_inj (W5 m) c 2).symm.trans (hv.r5 (rd (W5 m)) c)).trans
    (congrArg₂ (Spec.mm (M := 4096) (K := 4096) (N := 384)) (kept5 m c main_arg1 (by decide)) (v4_eq m hv c))

theorem v6_eq (hv : Vals) (c : Dev nD) :
    (rd (W7 m) c main_v6 : Spec.Mat 4096 512)
      = Spec.tmm (Spec.z2 (xin m c) (adj m c) (w4in m c) (w5in m c)) (w6in m c) :=
  ((Step.hF dat6 launch6.win.arr_inj (W6 m) c 2).symm.trans (hv.r6 (rd (W6 m)) c)).trans
    (congrArg₂ (Spec.tmm (M := 4096) (K := 384) (N := 512)) (v4_at6 m hv c) (kept6 m c main_arg4 (by decide)))

theorem v7_eq (hv : Vals) (c : Dev nD) :
    (rd (W8 m) c main_v7 : Spec.Mat 4096 512) = Spec.z3 (xin m c) (adj m c) (w4in m c) (w5in m c) (w6in m c) :=
  ((Step.hF dat7 launch7.win.arr_inj (W7 m) c 2).symm.trans (hv.r7 (rd (W7 m)) c)).trans
    (congrArg₂ (Spec.mm (M := 4096) (K := 4096) (N := 512)) (kept7 m c main_arg1 (by decide)) (v6_eq m hv c))

theorem v8_eq (hv : Vals) (c : Dev nD) :
    (rd (W9 m) c main_v8 : Spec.Mat 4096 512) = Spec.az3 (xin m c) (adj m c) (w4in m c) (w5in m c) (w6in m c) :=
  ((Step.hF dat8 launch8.win.arr_inj (W8 m) c 2).symm.trans (hv.r8 (rd (W8 m)) c)).trans
    (congrArg₂ (Spec.mm (M := 4096) (K := 4096) (N := 512)) (kept8 m c main_arg1 (by decide)) (v7_eq m hv c))

theorem v7_at10 (hv : Vals) (c : Dev nD) :
    (rd (W10 m) c main_v7 : Spec.Mat 4096 512) = Spec.z3 (xin m c) (adj m c) (w4in m c) (w5in m c) (w6in m c) :=
  (stepH m c main_v7 (by decide)).trans ((step8 m c main_v7 (by decide)).trans (v7_eq m hv c))

theorem v9_at (hv : Vals) (c : Dev nD) (k : Fin 512) (q : Fin 4096) :
    (rd (W10 m) c main_v9 : Spec.Mat 512 4096) (ix2 k q)
      = Spec.z3 (xin m c) (adj m c) (w4in m c) (w5in m c) (w6in m c) (ix2 q k) := by
  have e : (rd (W10 m) c main_v9 : Spec.Mat 512 4096)
      = transpose S512x4096 [1, 0] (rd (W9 m) c main_v7 : Spec.Mat 4096 512) transposes_S4096x512_S512x4096_1_0 := by
    show StableHlo.after hostOps9 (W9 m c) (Proc.devRef .tc main_v9) = _
    after_results
  rw [e, transpose_ix2_apply]
  exact congrFun ((step8 m c main_v7 (by decide)).trans (v7_eq m hv c)) (ix2 q k)

theorem v10_eq (hv : Vals) (c : Dev nD) :
    (rd (W11 m) c main_v10 : Spec.Mat 4096 4096) = Spec.gram (xin m c) (adj m c) (w4in m c) (w5in m c) (w6in m c) :=
  ((Step.hF dat9 launch9.win.arr_inj (W10 m) c 2).symm.trans (hv.r9 (rd (W10 m)) c)).trans
    (congrArg (fun (f : Spec.Mat 4096 4096) => fun j => Ideal.logistic (f j))
      ((congrArg₂ (Spec.mm (M := 4096) (K := 512) (N := 4096)) (v7_at10 m hv c) rfl).trans
        (mm_tr _ _ (rd (W10 m) c main_v9 : Spec.Mat 512 4096) (v9_at m hv c))))

theorem results_of (hv : Vals) (c : Dev nD) :
    (rd (W11 m) c main_v7 : Spec.Mat 4096 512) = Spec.z3 (xin m c) (adj m c) (w4in m c) (w5in m c) (w6in m c)
    ∧ (rd (W11 m) c main_v10 : Spec.Mat 4096 4096) = Spec.gram (xin m c) (adj m c) (w4in m c) (w5in m c) (w6in m c)
    ∧ (rd (W11 m) c main_v2 : Spec.Mat 4096 256) = Spec.az1 (xin m c) (adj m c) (w4in m c)
    ∧ (rd (W11 m) c main_v5 : Spec.Mat 4096 384) = Spec.az2 (xin m c) (adj m c) (w4in m c) (w5in m c)
    ∧ (rd (W11 m) c main_v8 : Spec.Mat 4096 512) = Spec.az3 (xin m c) (adj m c) (w4in m c) (w5in m c) (w6in m c)
    ∧ (rd (W11 m) c main_v1 : Spec.Mat 4096 256) = Spec.z1 (xin m c) (adj m c) (w4in m c)
    ∧ (rd (W11 m) c main_v4 : Spec.Mat 4096 384) = Spec.z2 (xin m c) (adj m c) (w4in m c) (w5in m c) :=
  ⟨(tail8 m c main_v7 (by decide)).trans (v7_eq m hv c),
   v10_eq m hv c,
   (tail3 m c main_v2 (by decide)).trans (v2_eq m hv c),
   (tail6 m c main_v5 (by decide)).trans (v5_eq m hv c),
   (tail9 m c main_v8 (by decide)).trans (v8_eq m hv c),
   (tail2 m c main_v1 (by decide)).trans (v1_eq m hv c),
   (tail5 m c main_v4 (by decide)).trans (v4_eq m hv c)⟩

theorem vals : Vals := ⟨val0, val1, val2, val3, val4, val5, val6, val7, val8, val9⟩

theorem results (c : Dev nD) :
    (rd (W11 m) c main_v7 : Spec.Mat 4096 512) = Spec.z3 (xin m c) (adj m c) (w4in m c) (w5in m c) (w6in m c)
    ∧ (rd (W11 m) c main_v10 : Spec.Mat 4096 4096) = Spec.gram (xin m c) (adj m c) (w4in m c) (w5in m c) (w6in m c)
    ∧ (rd (W11 m) c main_v2 : Spec.Mat 4096 256) = Spec.az1 (xin m c) (adj m c) (w4in m c)
    ∧ (rd (W11 m) c main_v5 : Spec.Mat 4096 384) = Spec.az2 (xin m c) (adj m c) (w4in m c) (w5in m c)
    ∧ (rd (W11 m) c main_v8 : Spec.Mat 4096 512) = Spec.az3 (xin m c) (adj m c) (w4in m c) (w5in m c) (w6in m c)
    ∧ (rd (W11 m) c main_v1 : Spec.Mat 4096 256) = Spec.z1 (xin m c) (adj m c) (w4in m c)
    ∧ (rd (W11 m) c main_v4 : Spec.Mat 4096 384) = Spec.z2 (xin m c) (adj m c) (w4in m c) (w5in m c) :=
  results_of m vals c

end Cert.ReferenceIdeal.Val

end
-- ==== Proof.lean ====
import proofs.«121997_g2000006886080560_pallasbulk_379_4_alg».proof.Defs
import proofs.«121997_g2000006886080560_pallasbulk_379_4_alg».proof.Proof.Gen.Pre_finite_inputs
import proofs.«121997_g2000006886080560_pallasbulk_379_4_alg».proof.Proof.K.Frame
import proofs.«121997_g2000006886080560_pallasbulk_379_4_alg».proof.Proof.KI.Frame
import proofs.«121997_g2000006886080560_pallasbulk_379_4_alg».proof.Proof.RI.Frame
import proofs.«121997_g2000006886080560_pallasbulk_379_4_alg».proof.Proof.KI.Compose
import proofs.«121997_g2000006886080560_pallasbulk_379_4_alg».proof.Proof.RI.Compose

noncomputable section

namespace Cert.Proof

open Idealize.ShloMosaic Idealize.SL.Sem

theorem frame_p [Cert.Kernel.Facts] [Cert.Pre_finite_inputs.Facts] : Cert.frame_Kernel := fun m ρ _ => Cert.Kernel.Rg.frame m ρ
theorem frame_pi [Cert.KernelIdeal.Facts] [Cert.Pre_finite_inputs.Facts] : Cert.frame_KernelIdeal := fun m ρ _ => Cert.KernelIdeal.Rg.frame m ρ
theorem frame_ri [Cert.ReferenceIdeal.Facts] [Cert.Pre_finite_inputs.Facts] : Cert.frame_ReferenceIdeal := fun m ρ _ => Cert.ReferenceIdeal.Rg.frame m ρ

open Cert.KernelIdeal.Val Cert.ReferenceIdeal.Val in
/-- Both runs end with every result buffer at the same function of the five inputs. -/
theorem algebraic [Cert.KernelIdeal.Facts] [Cert.ReferenceIdeal.Facts] [Cert.Pre_finite_inputs.Facts] :
    Cert.algebraic_KernelIdeal_ReferenceIdeal := by
  intro m g m' g' _ hagree
  refine ⟨fun c => Spec.z3 (inX m c) (inA m c) (inW4 m c) (inW5 m c) (inW6 m c),
    fun c => Spec.gram (inX m c) (inA m c) (inW4 m c) (inW5 m c) (inW6 m c),
    fun c => Spec.az1 (inX m c) (inA m c) (inW4 m c),
    fun c => Spec.az2 (inX m c) (inA m c) (inW4 m c) (inW5 m c),
    fun c => Spec.az3 (inX m c) (inA m c) (inW4 m c) (inW5 m c) (inW6 m c),
    fun c => Spec.z1 (inX m c) (inA m c) (inW4 m c),
    fun c => Spec.z2 (inX m c) (inA m c) (inW4 m c) (inW5 m c),
    fun c => Spec.z3 (inX m c) (inA m c) (inW4 m c) (inW5 m c) (inW6 m c), ?_, ?_⟩
  · refine (θ_run (Cert.KernelIdeal.defs (F := Ideal)) _ _).mono (fun r h c => ?_) (Cert.KernelIdeal.Rg.run m g)
    obtain ⟨e0, e1, e2, e3, e4, e5, e6⟩ := Cert.KernelIdeal.Val.results m c
    exact ⟨(h c Cert.KernelIdeal.main_v5_1 (by decide)).trans e0, (h c Cert.KernelIdeal.main_v8 (by decide)).trans e1,
      (h c Cert.KernelIdeal.main_v3_0 (by decide)).trans e2, (h c Cert.KernelIdeal.main_v5_0 (by decide)).trans e3,
      (h c Cert.KernelIdeal.main_v7 (by decide)).trans e4, (h c Cert.KernelIdeal.main_v1_0 (by decide)).trans e5,
      (h c Cert.KernelIdeal.main_v3_1 (by decide)).trans e6, (h c Cert.KernelIdeal.main_v5_1 (by decide)).trans e0,
      (h c Cert.KernelIdeal.main_arg0 (by decide)).trans (Cert.KernelIdeal.Rg.arg_kept m c _ (by decide)),
      (h c Cert.KernelIdeal.main_arg1 (by decide)).trans (Cert.KernelIdeal.Rg.arg_kept m c _ (by decide)),
      (h c Cert.KernelIdeal.main_arg2 (by decide)).trans (Cert.KernelIdeal.Rg.arg_kept m c _ (by decide)),
      (h c Cert.KernelIdeal.main_arg3 (by decide)).trans (Cert.KernelIdeal.Rg.arg_kept m c _ (by decide)),
      (h c Cert.KernelIdeal.main_arg4 (by decide)).trans (Cert.KernelIdeal.Rg.arg_kept m c _ (by decide))⟩
  · refine (θ_run (Cert.ReferenceIdeal.defs (F := Ideal)) _ _).mono (fun r h c => ?_) (Cert.ReferenceIdeal.Rg.run m' g')
    obtain ⟨hx, hA, h4, h5, h6⟩ := hagree c
    have e := Cert.ReferenceIdeal.Val.results m' c
    rw [show xin m' c = inX m c from hx, show adj m' c = inA m c from hA, show w4in m' c = inW4 m c from h4,
      show w5in m' c = inW5 m c from h5, show w6in m' c = inW6 m c from h6] at e
    obtain ⟨e0, e1, e2, e3, e4, e5, e6⟩ := e
    exact ⟨(h c Cert.ReferenceIdeal.main_v7 (by decide)).trans e0, (h c Cert.ReferenceIdeal.main_v10 (by decide)).trans e1,
      (h c Cert.ReferenceIdeal.main_v2 (by decide)).trans e2, (h c Cert.ReferenceIdeal.main_v5 (by decide)).trans e3,
      (h c Cert.ReferenceIdeal.main_v8 (by decide)).trans e4, (h c Cert.ReferenceIdeal.main_v1 (by decide)).trans e5,
      (h c Cert.ReferenceIdeal.main_v4 (by decide)).trans e6, (h c Cert.ReferenceIdeal.main_v7 (by decide)).trans e0,
      (h c Cert.ReferenceIdeal.main_arg0 (by decide)).trans (Cert.ReferenceIdeal.Rg.arg_kept m' c _ (by decide)),
      (h c Cert.ReferenceIdeal.main_arg1 (by decide)).trans (Cert.ReferenceIdeal.Rg.arg_kept m' c _ (by decide)),
      (h c Cert.ReferenceIdeal.main_arg2 (by decide)).trans (Cert.ReferenceIdeal.Rg.arg_kept m' c _ (by decide)),
      (h c Cert.ReferenceIdeal.main_arg3 (by decide)).trans (Cert.ReferenceIdeal.Rg.arg_kept m' c _ (by decide)),
      (h c Cert.ReferenceIdeal.main_arg4 (by decide)).trans (Cert.ReferenceIdeal.Rg.arg_kept m' c _ (by decide))⟩

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
